-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  IdealRules.named_const.Statement Cert.KernelIdeal.κ "leaky_slope_sq" .f32 0x38D1B717#32 ((28823036326681 / 288230376151711744 : ℝ) : EReal)
  ∧ IdealRules.named_const.Statement Cert.KernelIdeal.κ "leaky_slope_sq" .f32 0x38D1B717#32 ((28823036326681 / 288230376151711744 : ℝ) : EReal)
  ∧ IdealRules.named_const.Statement Cert.KernelIdeal.κ "leaky_slope_sq" .f32 0x38D1B717#32 ((28823036326681 / 288230376151711744 : ℝ) : EReal)
  ∧ IdealRules.named_const.Statement Cert.KernelIdeal.κ "leaky_slope_sq" .f32 0x38D1B717#32 ((28823036326681 / 288230376151711744 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x600000 : Shape := ⟨2, ![2, 600000]⟩
abbrev S100000 : Shape := ⟨1, ![100000]⟩
abbrev S600000x7 : Shape := ⟨2, ![600000, 7]⟩
abbrev S2x7 : Shape := ⟨2, ![2, 7]⟩
abbrev S2 : Shape := ⟨1, ![2]⟩
abbrev S128x2 : Shape := ⟨2, ![128, 2]⟩
abbrev S128 : Shape := ⟨1, ![128]⟩
abbrev S128x128 : Shape := ⟨2, ![128, 128]⟩
abbrev S3x128x7 : Shape := ⟨3, ![3, 128, 7]⟩
abbrev S3x128 : Shape := ⟨2, ![3, 128]⟩
abbrev S3x128x128 : Shape := ⟨3, ![3, 128, 128]⟩
abbrev S500x128 : Shape := ⟨2, ![500, 128]⟩
abbrev S500 : Shape := ⟨1, ![500]⟩
abbrev S1x500 : Shape := ⟨2, ![1, 500]⟩
abbrev S1 : Shape := ⟨1, ![1]⟩
abbrev S_ : Shape := ⟨0, ![]⟩
abbrev S1x600000 : Shape := ⟨2, ![1, 600000]⟩
abbrev S600000 : Shape := ⟨1, ![600000]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S600000x7 : S_.BroadcastsInDim S600000x7 (![] : Fin 0 → Fin S600000x7.rank)
  reducesTo_S600000x7_S_d0_1 : S600000x7.ReducesTo [0, 1] S_
  bcast_S_S2x7 : S_.BroadcastsInDim S2x7 (![] : Fin 0 → Fin S2x7.rank)
  reducesTo_S2x7_S_d0_1 : S2x7.ReducesTo [0, 1] S_
  bcast_S_S2 : S_.BroadcastsInDim S2 (![] : Fin 0 → Fin S2.rank)
  reducesTo_S2_S_d0 : S2.ReducesTo [0] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x7 : S_.BroadcastsInDim S3x128x7 (![] : Fin 0 → Fin S3x128x7.rank)
  reducesTo_S3x128x7_S_d0_1_2 : S3x128x7.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S500x128 : S_.BroadcastsInDim S500x128 (![] : Fin 0 → Fin S500x128.rank)
  reducesTo_S500x128_S_d0_1 : S500x128.ReducesTo [0, 1] S_
  bcast_S_S500 : S_.BroadcastsInDim S500 (![] : Fin 0 → Fin S500.rank)
  reducesTo_S500_S_d0 : S500.ReducesTo [0] S_
  bcast_S_S1x500 : S_.BroadcastsInDim S1x500 (![] : Fin 0 → Fin S1x500.rank)
  reducesTo_S1x500_S_d0_1 : S1x500.ReducesTo [0, 1] S_
  bcast_S_S1 : S_.BroadcastsInDim S1 (![] : Fin 0 → Fin S1.rank)
  reducesTo_S1_S_d0 : S1.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part6 {F : FTy → Type} [FloatOps F] (main_arg1 : IVec S2x600000 32) (main_arg23 : FVec F S1 .f32) (main_v98 : IVec S_ 1) (main_v101 : IVec S1x500 1) (main_c_39 : IVec S_ 1) : IVec S_ 1 :=
  let main_v102 : IVec S_ 1 := (fun x v => Host.reduce IntOp.andi x v reducesTo_S1x500_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : IVec S1x600000 32 := (extractStridedSlice S1x600000 ![0, 0] · slices_S2x600000_S1x600000_0_0) main_arg1
  let main_v110 : IVec S600000 32 := shapeCast S600000 main_v109 shapeCasts_S1x600000_S600000
  let main_c_42 : IVec S_ 32 := constantI S_ 32 0#32
  let main_v111 : IVec S600000 32 := broadcastInDim S600000 ![] bcast_S_S600000 main_c_42
  let main_v112 : IVec S600000 1 := cmpi .sge main_v110 main_v111
  let main_v113 : IVec S1x600000 32 := (extractStridedSlice S1x600000 ![0, 0] · slices_S2x600000_S1x600000_0_0) main_arg1
  let main_v114 : IVec S600000 32 := shapeCast S600000 main_v113 shapeCasts_S1x600000_S600000
  let main_c_43 : IVec S_ 32 := constantI S_ 32 100000#32
  let main_v115 : IVec S600000 32 := broadcastInDim S600000 ![] bcast_S_S600000 main_c_43
  let main_v116 : IVec S600000 1 := cmpi .slt main_v114 main_v115
  let main_v117 : IVec S600000 1 := andi main_v112 main_v116
  let main_c_44 : IVec S_ 1 := constantI S_ 1 1#1
  let main_v118 : IVec S_ 1 := (fun x v => Host.reduce IntOp.andi x v reducesTo_S600000_S_d0 h_S_) main_v117 main_c_44
  let main_v119 : IVec S_ 1 := andi main_v108 main_v118
  main_v119

def fn_part5 {F : FTy → Type} [FloatOps F] (main_arg1 : IVec S2x600000 32) (main_arg20 : FVec F S500x128 .f32) (main_arg21 : FVec F S500 .f32) (main_arg22 : FVec F S1x500 .f32) (main_arg23 : FVec F S1 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S500x128 .f32 := Host.absf main_arg20
  let main_cst_34 : FVec F S_ .f32 := constant S_ .f32 0x7F800000#32
  let main_v90 : FVec F S500x128 .f32 := broadcastInDim S500x128 ![] bcast_S_S500x128 main_cst_34
  let main_v91 : IVec S500x128 1 := cmpf .olt main_v89 main_v90
  let main_c_35 : IVec S_ 1 := constantI S_ 1 1#1
  let main_v92 : IVec S_ 1 := (fun x v => Host.reduce IntOp.andi x v reducesTo_S500x128_S_d0_1 h_S_) main_v91 main_c_35
  let main_v93 : IVec S_ 1 := andi main_v88 main_v92
  let main_v94 : FVec F S500 .f32 := Host.absf main_arg21
  let main_cst_36 : FVec F S_ .f32 := constant S_ .f32 0x7F800000#32
  let main_v95 : FVec F S500 .f32 := broadcastInDim S500 ![] bcast_S_S500 main_cst_36
  let main_v96 : IVec S500 1 := cmpf .olt main_v94 main_v95
  let main_c_37 : IVec S_ 1 := constantI S_ 1 1#1
  let main_v97 : IVec S_ 1 := (fun x v => Host.reduce IntOp.andi x v reducesTo_S500_S_d0 h_S_) main_v96 main_c_37
  let main_v98 : IVec S_ 1 := andi main_v93 main_v97
  let main_v99 : FVec F S1x500 .f32 := Host.absf main_arg22
  let main_cst_38 : FVec F S_ .f32 := constant S_ .f32 0x7F800000#32
  let main_v100 : FVec F S1x500 .f32 := broadcastInDim S1x500 ![] bcast_S_S1x500 main_cst_38
  let main_v101 : IVec S1x500 1 := cmpf .olt main_v99 main_v100
  let main_c_39 : IVec S_ 1 := constantI S_ 1 1#1
  fn_part6 (F := F) main_arg1 main_arg23 main_v98 main_v101 main_c_39

def fn_part4 {F : FTy → Type} [FloatOps F] (main_arg1 : IVec S2x600000 32) (main_arg16 : FVec F S3x128 .f32) (main_arg17 : FVec F S3x128 .f32) (main_arg18 : FVec F S3x128x128 .f32) (main_arg19 : FVec F S3x128 .f32) (main_arg20 : FVec F S500x128 .f32) (main_arg21 : FVec F S500 .f32) (main_arg22 : FVec F S1x500 .f32) (main_arg23 : FVec F S1 .f32) (main_v63 : IVec S_ 1) (main_v67 : IVec S_ 1) : IVec S_ 1 :=
  let main_v68 : IVec S_ 1 := andi main_v63 main_v67
  let main_v69 : FVec F S3x128 .f32 := Host.absf main_arg16
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg17
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128x128 .f32 := Host.absf main_arg18
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg19
  let main_cst_32 : FVec F S_ .f32 := constant S_ .f32 0x7F800000#32
  fn_part5 (F := F) main_arg1 main_arg20 main_arg21 main_arg22 main_arg23 main_v83 main_v84 main_cst_32

def fn_part3 {F : FTy → Type} [FloatOps F] (main_arg1 : IVec S2x600000 32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128x128 .f32) (main_arg19 : FVec F S3x128 .f32) (main_arg20 : FVec F S500x128 .f32) (main_arg21 : FVec F S500 .f32) (main_arg22 : FVec F S1x500 .f32) (main_arg23 : FVec F S1 .f32) (main_v48 : IVec S_ 1) (main_v49 : FVec F S3x128x7 .f32) (main_v50 : FVec F S3x128x7 .f32) : IVec S_ 1 :=
  let main_v51 : IVec S3x128x7 1 := cmpf .olt main_v49 main_v50
  let main_c_19 : IVec S_ 1 := constantI S_ 1 1#1
  let main_v52 : IVec S_ 1 := (fun x v => Host.reduce IntOp.andi x v reducesTo_S3x128x7_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg14
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg15
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg1 main_arg16 main_arg17 main_arg18 main_arg19 main_arg20 main_arg21 main_arg22 main_arg23 main_v63 main_v67

def fn_part2 {F : FTy → Type} [FloatOps F] (main_arg1 : IVec S2x600000 32) (main_arg9 : FVec F S128 .f32) (main_arg10 : FVec F S128x128 .f32) (main_arg11 : FVec F S128 .f32) (main_arg12 : FVec F S3x128x7 .f32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128x128 .f32) (main_arg19 : FVec F S3x128 .f32) (main_arg20 : FVec F S500x128 .f32) (main_arg21 : FVec F S500 .f32) (main_arg22 : FVec F S1x500 .f32) (main_arg23 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S3x128x7 .f32 := Host.absf main_arg12
  let main_cst_18 : FVec F S_ .f32 := constant S_ .f32 0x7F800000#32
  let main_v50 : FVec F S3x128x7 .f32 := broadcastInDim S3x128x7 ![] bcast_S_S3x128x7 main_cst_18
  fn_part3 (F := F) main_arg1 main_arg13 main_arg14 main_arg15 main_arg16 main_arg17 main_arg18 main_arg19 main_arg20 main_arg21 main_arg22 main_arg23 main_v48 main_v49 main_v50

def fn_part1 {F : FTy → Type} [FloatOps F] (main_arg1 : IVec S2x600000 32) (main_arg6 : FVec F S128x2 .f32) (main_arg7 : FVec F S128 .f32) (main_arg8 : FVec F S128 .f32) (main_arg9 : FVec F S128 .f32) (main_arg10 : FVec F S128x128 .f32) (main_arg11 : FVec F S128 .f32) (main_arg12 : FVec F S3x128x7 .f32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128x128 .f32) (main_arg19 : FVec F S3x128 .f32) (main_arg20 : FVec F S500x128 .f32) (main_arg21 : FVec F S500 .f32) (main_arg22 : FVec F S1x500 .f32) (main_arg23 : FVec F S1 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x2 .f32) (main_arg1 : IVec S2x600000 32) (main_arg2 : IVec S100000 32) (main_arg3 : FVec F S600000x7 .f32) (main_arg4 : FVec F S2x7 .f32) (main_arg5 : FVec F S2 .f32) (main_arg6 : FVec F S128x2 .f32) (main_arg7 : FVec F S128 .f32) (main_arg8 : FVec F S128 .f32) (main_arg9 : FVec F S128 .f32) (main_arg10 : FVec F S128x128 .f32) (main_arg11 : FVec F S128 .f32) (main_arg12 : FVec F S3x128x7 .f32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128x128 .f32) (main_arg19 : FVec F S3x128 .f32) (main_arg20 : FVec F S500x128 .f32) (main_arg21 : FVec F S500 .f32) (main_arg22 : FVec F S1x500 .f32) (main_arg23 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S600000x7 .f32 := Host.absf main_arg3
  let main_cst_0 : FVec F S_ .f32 := constant S_ .f32 0x7F800000#32
  let main_v5 : FVec F S600000x7 .f32 := broadcastInDim S600000x7 ![] bcast_S_S600000x7 main_cst_0
  let main_v6 : IVec S600000x7 1 := cmpf .olt main_v4 main_v5
  let main_c_1 : IVec S_ 1 := constantI S_ 1 1#1
  let main_v7 : IVec S_ 1 := (fun x v => Host.reduce IntOp.andi x v reducesTo_S600000x7_S_d0_1 h_S_) main_v6 main_c_1
  let main_v8 : IVec S_ 1 := andi main_v3 main_v7
  let main_v9 : FVec F S2x7 .f32 := Host.absf main_arg4
  let main_cst_2 : FVec F S_ .f32 := constant S_ .f32 0x7F800000#32
  let main_v10 : FVec F S2x7 .f32 := broadcastInDim S2x7 ![] bcast_S_S2x7 main_cst_2
  let main_v11 : IVec S2x7 1 := cmpf .olt main_v9 main_v10
  let main_c_3 : IVec S_ 1 := constantI S_ 1 1#1
  let main_v12 : IVec S_ 1 := (fun x v => Host.reduce IntOp.andi x v reducesTo_S2x7_S_d0_1 h_S_) main_v11 main_c_3
  let main_v13 : IVec S_ 1 := andi main_v8 main_v12
  let main_v14 : FVec F S2 .f32 := Host.absf main_arg5
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x2 : Shape := ⟨2, ![100000, 2]⟩
abbrev S2x600000 : Shape := ⟨2, ![2, 600000]⟩
abbrev S100000 : Shape := ⟨1, ![100000]⟩
abbrev S600000x7 : Shape := ⟨2, ![600000, 7]⟩
abbrev S2x7 : Shape := ⟨2, ![2, 7]⟩
abbrev S2 : Shape := ⟨1, ![2]⟩
abbrev S128x2 : Shape := ⟨2, ![128, 2]⟩
abbrev S128 : Shape := ⟨1, ![128]⟩
abbrev S128x128 : Shape := ⟨2, ![128, 128]⟩
abbrev S3x128x7 : Shape := ⟨3, ![3, 128, 7]⟩
abbrev S3x128 : Shape := ⟨2, ![3, 128]⟩
abbrev S3x128x128 : Shape := ⟨3, ![3, 128, 128]⟩
abbrev S500x128 : Shape := ⟨2, ![500, 128]⟩
abbrev S500 : Shape := ⟨1, ![500]⟩
abbrev S1x500 : Shape := ⟨2, ![1, 500]⟩
abbrev S1 : Shape := ⟨1, ![1]⟩
abbrev S1x600000 : Shape := ⟨2, ![1, 600000]⟩
abbrev S600000 : Shape := ⟨1, ![600000]⟩
abbrev S7x2 : Shape := ⟨2, ![7, 2]⟩
abbrev S1x2 : Shape := ⟨2, ![1, 2]⟩
abbrev S_ : Shape := ⟨0, ![]⟩
abbrev S600000x1 : Shape := ⟨2, ![600000, 1]⟩
abbrev S1x1 : Shape := ⟨2, ![1, 1]⟩
abbrev S600000x2 : Shape := ⟨2, ![600000, 2]⟩
abbrev S5000x7 : Shape := ⟨2, ![5000, 7]⟩
abbrev S5000x2 : Shape := ⟨2, ![5000, 2]⟩
abbrev S2x128 : Shape := ⟨2, ![2, 128]⟩
abbrev S1x128 : Shape := ⟨2, ![1, 128]⟩
abbrev S100000x128 : Shape := ⟨2, ![100000, 128]⟩
abbrev S5000x128 : Shape := ⟨2, ![5000, 128]⟩
abbrev S1x128x7 : Shape := ⟨3, ![1, 128, 7]⟩
abbrev S128x7 : Shape := ⟨2, ![128, 7]⟩
abbrev S1x128x128 : Shape := ⟨3, ![1, 128, 128]⟩
abbrev S7x128 : Shape := ⟨2, ![7, 128]⟩
abbrev S600000x128 : Shape := ⟨2, ![600000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S128x500 : Shape := ⟨2, ![128, 500]⟩
abbrev S500x1 : Shape := ⟨2, ![500, 1]⟩
abbrev S64x500 : Shape := ⟨2, ![64, 500]⟩

abbrev nBuf : Space → Nat
  | .hbm => 289
  | .vmem => 118
  | .smem => 0
  | _ => 0

abbrev hbmTy0_0 (i : Nat) : BufTy := match i % 128 with
  | 0 => ⟨S100000x2, .f32⟩
  | 1 => ⟨S2x600000, .i32⟩
  | 2 => ⟨S100000, .i32⟩
  | 3 => ⟨S600000x7, .f32⟩
  | 4 => ⟨S2x7, .f32⟩
  | 5 => ⟨S2, .f32⟩
  | 6 => ⟨S128x2, .f32⟩
  | 7 => ⟨S128, .f32⟩
  | 8 => ⟨S128, .f32⟩
  | 9 => ⟨S128, .f32⟩
  | 10 => ⟨S128x128, .f32⟩
  | 11 => ⟨S128, .f32⟩
  | 12 => ⟨S3x128x7, .f32⟩
  | 13 => ⟨S3x128, .f32⟩
  | 14 => ⟨S3x128x128, .f32⟩
  | 15 => ⟨S3x128, .f32⟩
  | 16 => ⟨S3x128, .f32⟩
  | 17 => ⟨S3x128, .f32⟩
  | 18 => ⟨S3x128x128, .f32⟩
  | 19 => ⟨S3x128, .f32⟩
  | 20 => ⟨S500x128, .f32⟩
  | 21 => ⟨S500, .f32⟩
  | 22 => ⟨S1x500, .f32⟩
  | 23 => ⟨S1, .f32⟩
  | 24 => ⟨S1x600000, .i32⟩
  | 25 => ⟨S600000, .i32⟩
  | 26 => ⟨S1x600000, .i32⟩
  | 27 => ⟨S600000, .i32⟩
  | 28 => ⟨S7x2, .f32⟩
  | 29 => ⟨S1x2, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S1, .i32⟩
  | 39 => ⟨S_, .i32⟩
  | 40 => ⟨S600000x1, .i32⟩
  | 41 => ⟨S600000x1, .i1⟩
  | 42 => ⟨S1x1, .i32⟩
  | 43 => ⟨S600000x1, .i32⟩
  | 44 => ⟨S600000x1, .i1⟩
  | 45 => ⟨S600000x1, .i1⟩
  | 46 => ⟨S_, .i1⟩
  | 47 => ⟨S600000, .i1⟩
  | 48 => ⟨S600000x2, .f32⟩
  | 49 => ⟨S600000x2, .i1⟩
  | 50 => ⟨S_, .f32⟩
  | 51 => ⟨S600000x2, .f32⟩
  | 52 => ⟨S600000x2, .f32⟩
  | 53 => ⟨S600000x2, .f32⟩
  | 54 => ⟨S_, .f32⟩
  | 55 => ⟨S100000x2, .f32⟩
  | 56 => ⟨S600000x1, .i32⟩
  | 57 => ⟨S100000x2, .f32⟩
  | 58 => ⟨S2x128, .f32⟩
  | 59 => ⟨S1x128, .f32⟩
  | 60 => ⟨S100000x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S128x128, .f32⟩
  | 74 => ⟨S1x128, .f32⟩
  | 75 => ⟨S100000x128, .f32⟩
  | 76 => ⟨S1x128x7, .f32⟩
  | 77 => ⟨S128x7, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128x128, .f32⟩
  | 89 => ⟨S128x128, .f32⟩
  | 90 => ⟨S1x128, .f32⟩
  | 91 => ⟨S128, .f32⟩
  | 92 => ⟨S7x128, .f32⟩
  | 93 => ⟨S1x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S1, .i32⟩
  | 103 => ⟨S_, .i32⟩
  | 104 => ⟨S600000x1, .i32⟩
  | 105 => ⟨S600000x1, .i1⟩
  | 106 => ⟨S1x1, .i32⟩
  | 107 => ⟨S600000x1, .i32⟩
  | 108 => ⟨S600000x1, .i1⟩
  | 109 => ⟨S600000x1, .i1⟩
  | 110 => ⟨S_, .i1⟩
  | 111 => ⟨S600000, .i1⟩
  | 112 => ⟨S600000x128, .f32⟩
  | 113 => ⟨S600000x128, .i1⟩
  | 114 => ⟨S_, .f32⟩
  | 115 => ⟨S600000x128, .f32⟩
  | 116 => ⟨S600000x128, .f32⟩
  | 117 => ⟨S600000x128, .f32⟩
  | 118 => ⟨S_, .f32⟩
  | 119 => ⟨S100000x128, .f32⟩
  | 120 => ⟨S600000x1, .i32⟩
  | 121 => ⟨S100000x128, .f32⟩
  | 122 => ⟨S128x128, .f32⟩
  | 123 => ⟨S1x128, .f32⟩
  | 124 => ⟨S100000x128, .f32⟩
  | 125 => ⟨S1x128, .f32⟩
  | 126 => ⟨S1x128, .f32⟩
  | 127 => ⟨S_, .f32⟩
  | _ => ⟨S100000x2, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S128x128, .f32⟩
  | 10 => ⟨S1x128, .f32⟩
  | 11 => ⟨S100000x128, .f32⟩
  | 12 => ⟨S1x128x7, .f32⟩
  | 13 => ⟨S128x7, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128x128, .f32⟩
  | 25 => ⟨S128x128, .f32⟩
  | 26 => ⟨S1x128, .f32⟩
  | 27 => ⟨S128, .f32⟩
  | 28 => ⟨S7x128, .f32⟩
  | 29 => ⟨S1x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S1, .i32⟩
  | 39 => ⟨S_, .i32⟩
  | 40 => ⟨S600000x1, .i32⟩
  | 41 => ⟨S600000x1, .i1⟩
  | 42 => ⟨S1x1, .i32⟩
  | 43 => ⟨S600000x1, .i32⟩
  | 44 => ⟨S600000x1, .i1⟩
  | 45 => ⟨S600000x1, .i1⟩
  | 46 => ⟨S_, .i1⟩
  | 47 => ⟨S600000, .i1⟩
  | 48 => ⟨S600000x128, .f32⟩
  | 49 => ⟨S600000x128, .i1⟩
  | 50 => ⟨S_, .f32⟩
  | 51 => ⟨S600000x128, .f32⟩
  | 52 => ⟨S600000x128, .f32⟩
  | 53 => ⟨S600000x128, .f32⟩
  | 54 => ⟨S_, .f32⟩
  | 55 => ⟨S100000x128, .f32⟩
  | 56 => ⟨S600000x1, .i32⟩
  | 57 => ⟨S100000x128, .f32⟩
  | 58 => ⟨S128x128, .f32⟩
  | 59 => ⟨S1x128, .f32⟩
  | 60 => ⟨S100000x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S128x128, .f32⟩
  | 74 => ⟨S1x128, .f32⟩
  | 75 => ⟨S100000x128, .f32⟩
  | 76 => ⟨S1x128x7, .f32⟩
  | 77 => ⟨S128x7, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128x128, .f32⟩
  | 89 => ⟨S128x128, .f32⟩
  | 90 => ⟨S1x128, .f32⟩
  | 91 => ⟨S128, .f32⟩
  | 92 => ⟨S7x128, .f32⟩
  | 93 => ⟨S1x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S1, .i32⟩
  | 103 => ⟨S_, .i32⟩
  | 104 => ⟨S600000x1, .i32⟩
  | 105 => ⟨S600000x1, .i1⟩
  | 106 => ⟨S1x1, .i32⟩
  | 107 => ⟨S600000x1, .i32⟩
  | 108 => ⟨S600000x1, .i1⟩
  | 109 => ⟨S600000x1, .i1⟩
  | 110 => ⟨S_, .i1⟩
  | 111 => ⟨S600000, .i1⟩
  | 112 => ⟨S600000x128, .f32⟩
  | 113 => ⟨S600000x128, .i1⟩
  | 114 => ⟨S_, .f32⟩
  | 115 => ⟨S600000x128, .f32⟩
  | 116 => ⟨S600000x128, .f32⟩
  | 117 => ⟨S600000x128, .f32⟩
  | 118 => ⟨S_, .f32⟩
  | 119 => ⟨S100000x128, .f32⟩
  | 120 => ⟨S600000x1, .i32⟩
  | 121 => ⟨S100000x128, .f32⟩
  | 122 => ⟨S128x128, .f32⟩
  | 123 => ⟨S1x128, .f32⟩
  | 124 => ⟨S100000x128, .f32⟩
  | 125 => ⟨S1x128, .f32⟩
  | 126 => ⟨S1x128, .f32⟩
  | 127 => ⟨S_, .f32⟩
  | _ => ⟨S100000x2, .f32⟩

abbrev hbmTy0_2 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S128x128, .f32⟩
  | 10 => ⟨S1x128, .f32⟩
  | 11 => ⟨S100000x128, .f32⟩
  | 12 => ⟨S_, .f32⟩
  | 13 => ⟨S64x128, .f32⟩
  | 14 => ⟨S100000x1, .i32⟩
  | 15 => ⟨S64x128, .f32⟩
  | 16 => ⟨S_, .f32⟩
  | 17 => ⟨S100000, .f32⟩
  | 18 => ⟨S_, .f32⟩
  | 19 => ⟨S64, .f32⟩
  | 20 => ⟨S100000x1, .i32⟩
  | 21 => ⟨S64, .f32⟩
  | 22 => ⟨S_, .f32⟩
  | 23 => ⟨S64, .f32⟩
  | 24 => ⟨S64, .f32⟩
  | 25 => ⟨S64x1, .f32⟩
  | 26 => ⟨S64x128, .f32⟩
  | 27 => ⟨S64x128, .f32⟩
  | 28 => ⟨S128x500, .f32⟩
  | 29 => ⟨S1x500, .f32⟩
  | 30 => ⟨S500x1, .f32⟩
  | 31 => ⟨S1x1, .f32⟩
  | 32 => ⟨S64x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S7x2, .f32⟩
  | .local _ .vmem, ⟨3, _⟩ => ⟨S1x2, .f32⟩
  | .local _ .vmem, ⟨4, _⟩ => ⟨S5000x2, .f32⟩
  | .local _ .vmem, ⟨5, _⟩ => ⟨S5000x2, .f32⟩
  | .local _ .vmem, ⟨6, _⟩ => ⟨S5000x2, .f32⟩
  | .local _ .vmem, ⟨7, _⟩ => ⟨S5000x2, .f32⟩
  | .local _ .vmem, ⟨8, _⟩ => ⟨S5000x2, .f32⟩
  | .local _ .vmem, ⟨9, _⟩ => ⟨S5000x2, .f32⟩
  | .local _ .vmem, ⟨10, _⟩ => ⟨S5000x2, .f32⟩
  | .local _ .vmem, ⟨11, _⟩ => ⟨S5000x2, .f32⟩
  | .local _ .vmem, ⟨12, _⟩ => ⟨S2x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x7, .f32⟩
  | .local _ .vmem, ⟨29, _⟩ => ⟨S5000x7, .f32⟩
  | .local _ .vmem, ⟨30, _⟩ => ⟨S7x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x7, .f32⟩
  | .local _ .vmem, ⟨57, _⟩ => ⟨S5000x7, .f32⟩
  | .local _ .vmem, ⟨58, _⟩ => ⟨S7x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S5000x7, .f32⟩
  | .local _ .vmem, ⟨85, _⟩ => ⟨S5000x7, .f32⟩
  | .local _ .vmem, ⟨86, _⟩ => ⟨S7x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S128x128, .f32⟩
  | .local _ .vmem, ⟨97, _⟩ => ⟨S1x128, .f32⟩
  | .local _ .vmem, ⟨98, _⟩ => ⟨S5000x128, .f32⟩
  | .local _ .vmem, ⟨99, _⟩ => ⟨S5000x128, .f32⟩
  | .local _ .vmem, ⟨100, _⟩ => ⟨S1x128, .f32⟩
  | .local _ .vmem, ⟨101, _⟩ => ⟨S1x128, .f32⟩
  | .local _ .vmem, ⟨102, _⟩ => ⟨S5000x128, .f32⟩
  | .local _ .vmem, ⟨103, _⟩ => ⟨S5000x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S128x128, .f32⟩
  | .local _ .vmem, ⟨109, _⟩ => ⟨S1x128, .f32⟩
  | .local _ .vmem, ⟨110, _⟩ => ⟨S5000x128, .f32⟩
  | .local _ .vmem, ⟨111, _⟩ => ⟨S5000x128, .f32⟩
  | .local _ .vmem, ⟨112, _⟩ => ⟨S64x128, .f32⟩
  | .local _ .vmem, ⟨113, _⟩ => ⟨S128x500, .f32⟩
  | .local _ .vmem, ⟨114, _⟩ => ⟨S1x500, .f32⟩
  | .local _ .vmem, ⟨115, _⟩ => ⟨S500x1, .f32⟩
  | .local _ .vmem, ⟨116, _⟩ => ⟨S1x1, .f32⟩
  | .local _ .vmem, ⟨117, _⟩ => ⟨S64x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13_0 : Ref sig .tc := ⟨.hbm, 60, rfl⟩
abbrev main_v13_1 : Ref sig .tc := ⟨.hbm, 61, rfl⟩
abbrev main_v13_2 : Ref sig .tc := ⟨.hbm, 62, rfl⟩
abbrev main_cst_0 : Ref sig .tc := ⟨.hbm, 63, rfl⟩
abbrev main_v14 : Ref sig .tc := ⟨.hbm, 64, rfl⟩
abbrev main_v15 : Ref sig .tc := ⟨.hbm, 65, rfl⟩
abbrev main_cst_1 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_call1_c : Ref sig .tc := ⟨.hbm, 94, rfl⟩
abbrev main_call1_v0 : Ref sig .tc := ⟨.hbm, 95, rfl⟩
abbrev main_call1_v1 : Ref sig .tc := ⟨.hbm, 96, rfl⟩
abbrev main_call1_c_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_c_1 : Ref sig .tc := ⟨.hbm, 102, rfl⟩
abbrev main_call1_c_2 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_c_3 : Ref sig .tc := ⟨.hbm, 110, rfl⟩
abbrev main_call1_v12 : Ref sig .tc := ⟨.hbm, 111, rfl⟩
abbrev main_call1_v13 : Ref sig .tc := ⟨.hbm, 112, rfl⟩
abbrev main_call1_v14 : Ref sig .tc := ⟨.hbm, 113, rfl⟩
abbrev main_call1_cst : Ref sig .tc := ⟨.hbm, 114, rfl⟩
abbrev main_call1_v15 : Ref sig .tc := ⟨.hbm, 115, rfl⟩
abbrev main_v43 : Ref sig .tc := ⟨.hbm, 116, rfl⟩
abbrev main_v44 : Ref sig .tc := ⟨.hbm, 117, rfl⟩
abbrev main_cst_2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50_0 : Ref sig .tc := ⟨.hbm, 124, rfl⟩
abbrev main_v50_1 : Ref sig .tc := ⟨.hbm, 125, rfl⟩
abbrev main_v50_2 : Ref sig .tc := ⟨.hbm, 126, rfl⟩
abbrev main_cst_3 : Ref sig .tc := ⟨.hbm, 127, rfl⟩
abbrev main_v51 : Ref sig .tc := ⟨.hbm, 128, rfl⟩
abbrev main_v52 : Ref sig .tc := ⟨.hbm, 129, rfl⟩
abbrev main_cst_4 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_call2_c : Ref sig .tc := ⟨.hbm, 158, rfl⟩
abbrev main_call2_v0 : Ref sig .tc := ⟨.hbm, 159, rfl⟩
abbrev main_call2_v1 : Ref sig .tc := ⟨.hbm, 160, rfl⟩
abbrev main_call2_c_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_c_1 : Ref sig .tc := ⟨.hbm, 166, rfl⟩
abbrev main_call2_c_2 : Ref sig .tc := ⟨.hbm, 167, rfl⟩
abbrev main_call2_v6 : Ref sig .tc := ⟨.hbm, 168, rfl⟩
abbrev main_call2_v7 : Ref sig .tc := ⟨.hbm, 169, rfl⟩
abbrev main_call2_v8 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_c_3 : Ref sig .tc := ⟨.hbm, 174, rfl⟩
abbrev main_call2_v12 : Ref sig .tc := ⟨.hbm, 175, rfl⟩
abbrev main_call2_v13 : Ref sig .tc := ⟨.hbm, 176, rfl⟩
abbrev main_call2_v14 : Ref sig .tc := ⟨.hbm, 177, rfl⟩
abbrev main_call2_cst : Ref sig .tc := ⟨.hbm, 178, rfl⟩
abbrev main_call2_v15 : Ref sig .tc := ⟨.hbm, 179, rfl⟩
abbrev main_v80 : Ref sig .tc := ⟨.hbm, 180, rfl⟩
abbrev main_v81 : Ref sig .tc := ⟨.hbm, 181, rfl⟩
abbrev main_cst_5 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87_0 : Ref sig .tc := ⟨.hbm, 188, rfl⟩
abbrev main_v87_1 : Ref sig .tc := ⟨.hbm, 189, rfl⟩
abbrev main_v87_2 : Ref sig .tc := ⟨.hbm, 190, rfl⟩
abbrev main_cst_6 : Ref sig .tc := ⟨.hbm, 191, rfl⟩
abbrev main_v88 : Ref sig .tc := ⟨.hbm, 192, rfl⟩
abbrev main_v89 : Ref sig .tc := ⟨.hbm, 193, rfl⟩
abbrev main_cst_7 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_call3_c : Ref sig .tc := ⟨.hbm, 222, rfl⟩
abbrev main_call3_v0 : Ref sig .tc := ⟨.hbm, 223, rfl⟩
abbrev main_call3_v1 : Ref sig .tc := ⟨.hbm, 224, rfl⟩
abbrev main_call3_c_0 : Ref sig .tc := ⟨.hbm, 225, rfl⟩
abbrev main_call3_v2 : Ref sig .tc := ⟨.hbm, 226, rfl⟩
abbrev main_call3_v3 : Ref sig .tc := ⟨.hbm, 227, rfl⟩
abbrev main_call3_v4 : Ref sig .tc := ⟨.hbm, 228, rfl⟩
abbrev main_call3_v5 : Ref sig .tc := ⟨.hbm, 229, rfl⟩
abbrev main_call3_c_1 : Ref sig .tc := ⟨.hbm, 230, rfl⟩
abbrev main_call3_c_2 : Ref sig .tc := ⟨.hbm, 231, rfl⟩
abbrev main_call3_v6 : Ref sig .tc := ⟨.hbm, 232, rfl⟩
abbrev main_call3_v7 : Ref sig .tc := ⟨.hbm, 233, rfl⟩
abbrev main_call3_v8 : Ref sig .tc := ⟨.hbm, 234, rfl⟩
abbrev main_call3_v9 : Ref sig .tc := ⟨.hbm, 235, rfl⟩
abbrev main_call3_v10 : Ref sig .tc := ⟨.hbm, 236, rfl⟩
abbrev main_call3_v11 : Ref sig .tc := ⟨.hbm, 237, rfl⟩
abbrev main_call3_c_3 : Ref sig .tc := ⟨.hbm, 238, rfl⟩
abbrev main_call3_v12 : Ref sig .tc := ⟨.hbm, 239, rfl⟩
abbrev main_call3_v13 : Ref sig .tc := ⟨.hbm, 240, rfl⟩
abbrev main_call3_v14 : Ref sig .tc := ⟨.hbm, 241, rfl⟩
abbrev main_call3_cst : Ref sig .tc := ⟨.hbm, 242, rfl⟩
abbrev main_call3_v15 : Ref sig .tc := ⟨.hbm, 243, rfl⟩
abbrev main_v117 : Ref sig .tc := ⟨.hbm, 244, rfl⟩
abbrev main_v118 : Ref sig .tc := ⟨.hbm, 245, rfl⟩
abbrev main_cst_8 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_v124_0 : Ref sig .tc := ⟨.hbm, 252, rfl⟩
abbrev main_v124_1 : Ref sig .tc := ⟨.hbm, 253, rfl⟩
abbrev main_v124_2 : Ref sig .tc := ⟨.hbm, 254, rfl⟩
abbrev main_cst_9 : Ref sig .tc := ⟨.hbm, 255, rfl⟩
abbrev main_v125 : Ref sig .tc := ⟨.hbm, 256, rfl⟩
abbrev main_v126 : Ref sig .tc := ⟨.hbm, 257, rfl⟩
abbrev main_cst_10 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_cst_11 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_cst_12 : Ref sig .tc := ⟨.hbm, 272, rfl⟩
abbrev main_v139 : Ref sig .tc := ⟨.hbm, 273, rfl⟩
abbrev main_cst_13 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_cst_14 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg4_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc7_stg5_0 : Ref sig .tc := ⟨.vmem, 72, rfl⟩
abbrev cc7_stg6_0 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg7_0 : Ref sig .tc := ⟨.vmem, 82, rfl⟩
abbrev cc8_stg7_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg3_1 : Ref sig .tc := ⟨.vmem, 89, rfl⟩
abbrev cc9_stg4_0 : Ref sig .tc := ⟨.vmem, 90, rfl⟩
abbrev cc9_stg4_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg4_1 : Ref sig .tc := ⟨.vmem, 99, rfl⟩
abbrev cc10_stg5_0 : Ref sig .tc := ⟨.vmem, 100, rfl⟩
abbrev cc10_stg6_0 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc11_stg6_0 : Ref sig .tc := ⟨.vmem, 109, rfl⟩
abbrev cc11_stg7_0 : Ref sig .tc := ⟨.vmem, 110, rfl⟩
abbrev cc11_stg7_1 : Ref sig .tc := ⟨.vmem, 111, rfl⟩
abbrev cc12_stg0_0 : Ref sig .tc := ⟨.vmem, 112, rfl⟩
abbrev cc12_stg1_0 : Ref sig .tc := ⟨.vmem, 113, rfl⟩
abbrev cc12_stg2_0 : Ref sig .tc := ⟨.vmem, 114, rfl⟩
abbrev cc12_stg3_0 : Ref sig .tc := ⟨.vmem, 115, rfl⟩
abbrev cc12_stg4_0 : Ref sig .tc := ⟨.vmem, 116, rfl⟩
abbrev cc12_stg5_0 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem3_1 : DmaSem sig := 61
abbrev cc6_sem4_0 : DmaSem sig := 62
abbrev cc6_sem4_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem3_0 : DmaSem sig := 69
abbrev cc7_sem4_0 : DmaSem sig := 70
abbrev cc7_sem4_1 : DmaSem sig := 71
abbrev cc7_sem5_0 : DmaSem sig := 72
abbrev cc7_sem6_0 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem7_0 : DmaSem sig := 82
abbrev cc8_sem7_1 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem3_1 : DmaSem sig := 89
abbrev cc9_sem4_0 : DmaSem sig := 90
abbrev cc9_sem4_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem3_0 : DmaSem sig := 97
abbrev cc10_sem4_0 : DmaSem sig := 98
abbrev cc10_sem4_1 : DmaSem sig := 99
abbrev cc10_sem5_0 : DmaSem sig := 100
abbrev cc10_sem6_0 : DmaSem sig := 101
abbrev cc11_sem0_0 : DmaSem sig := 102
abbrev cc11_sem0_1 : DmaSem sig := 103
abbrev cc11_sem1_0 : DmaSem sig := 104
abbrev cc11_sem2_0 : DmaSem sig := 105
abbrev cc11_sem3_0 : DmaSem sig := 106
abbrev cc11_sem4_0 : DmaSem sig := 107
abbrev cc11_sem5_0 : DmaSem sig := 108
abbrev cc11_sem6_0 : DmaSem sig := 109
abbrev cc11_sem7_0 : DmaSem sig := 110
abbrev cc11_sem7_1 : DmaSem sig := 111
abbrev cc12_sem0_0 : DmaSem sig := 112
abbrev cc12_sem1_0 : DmaSem sig := 113
abbrev cc12_sem2_0 : DmaSem sig := 114
abbrev cc12_sem3_0 : DmaSem sig := 115
abbrev cc12_sem4_0 : DmaSem sig := 116
abbrev cc12_sem5_0 : DmaSem sig := 117

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![120], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![120], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x7 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S7x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![120], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x7 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S7x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S5000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S64x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S128x500 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x500 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S500x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S2x7_S7x2_1_0 : S2x7.Transposes [1, 0] S7x2
  shapeCasts_S2_S1x2 : S2.ShapeCasts S1x2
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x2_0 : S600000.BroadcastsInDim S600000x2 (![0] : Fin 1 → Fin S600000x2.rank)
  bcast_S_S600000x2 : S_.BroadcastsInDim S600000x2 (![] : Fin 0 → Fin S600000x2.rank)
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S7x2_S7x2_0_0 : ∀ a, (![0, 0] : Fin 2 → Nat) a + S7x2.size a ≤ S7x2.size a
  h_S7x2 : 0 < S7x2.numel
  shapeCasts_S7x2_S7x2 : S7x2.ShapeCasts S7x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bcast_S_S100000x2 : S_.BroadcastsInDim S100000x2 (![] : Fin 0 → Fin S100000x2.rank)
  transposes_S128x2_S2x128_1_0 : S128x2.Transposes [1, 0] S2x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2x128_S2x128_0_0 : ∀ a, (![0, 0] : Fin 2 → Nat) a + S2x128.size a ≤ S2x128.size a
  h_S2x128 : 0 < S2x128.numel
  shapeCasts_S2x128_S2x128 : S2x128.ShapeCasts S2x128
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x7_S1x128x7_0_0_0 : S3x128x7.Slices ![0, 0, 0] S1x128x7
  shapeCasts_S1x128x7_S128x7 : S1x128x7.ShapeCasts S128x7
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  transposes_S128x7_S7x128_1_0 : S128x7.Transposes [1, 0] S7x128
  bcast_S600000_S600000x128_0 : S600000.BroadcastsInDim S600000x128 (![0] : Fin 1 → Fin S600000x128.rank)
  bcast_S_S600000x128 : S_.BroadcastsInDim S600000x128 (![] : Fin 0 → Fin S600000x128.rank)
  inb_S7x128_S7x128_0_0 : ∀ a, (![0, 0] : Fin 2 → Nat) a + S7x128.size a ≤ S7x128.size a
  h_S7x128 : 0 < S7x128.numel
  shapeCasts_S7x128_S7x128 : S7x128.ShapeCasts S7x128
  bcast_S_S100000x128 : S_.BroadcastsInDim S100000x128 (![] : Fin 0 → Fin S100000x128.rank)
  slices_S3x128x7_S1x128x7_1_0_0 : S3x128x7.Slices ![1, 0, 0] S1x128x7
  slices_S3x128_S1x128_1_0 : S3x128.Slices ![1, 0] S1x128
  slices_S3x128x128_S1x128x128_1_0_0 : S3x128x128.Slices ![1, 0, 0] S1x128x128
  slices_S3x128x7_S1x128x7_2_0_0 : S3x128x7.Slices ![2, 0, 0] S1x128x7
  slices_S3x128_S1x128_2_0 : S3x128.Slices ![2, 0] S1x128
  slices_S3x128x128_S1x128x128_2_0_0 : S3x128x128.Slices ![2, 0, 0] S1x128x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S500x128_S128x500_1_0 : S500x128.Transposes [1, 0] S128x500
  shapeCasts_S500_S1x500 : S500.ShapeCasts S1x500
  transposes_S1x500_S500x1_1_0 : S1x500.Transposes [1, 0] S500x1
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x500_S128x500_0_0 : ∀ a, (![0, 0] : Fin 2 → Nat) a + S128x500.size a ≤ S128x500.size a
  h_S128x500 : 0 < S128x500.numel
  shapeCasts_S128x500_S128x500 : S128x500.ShapeCasts S128x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S64x500 : S1x500.Broadcasts S64x500
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S100000x2_S600000x1_S600000x2_1_0_n_n_0_1_12_wf : GatherDims.WF S100000x2 S600000x1 S600000x2 [1] [0] [] [0] [] 1 ![1, 2]
  dot_S5000x7_S7x2_S5000x2_1_0_0_1_n_n_wf : DotDims.WF S5000x7 S7x2 S5000x2 [1] [0] [0] [1] [] []
  scatter_S100000x2_S600000x1_S600000x2_1_0_0_1_wf : ScatterDims.WF S100000x2 S600000x1 S600000x2 [1] [0] [0] 1
  dot_S5000x2_S2x128_S5000x128_1_0_0_1_n_n_wf : DotDims.WF S5000x2 S2x128 S5000x128 [1] [0] [0] [1] [] []
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  dot_S5000x7_S7x128_S5000x128_1_0_0_1_n_n_wf : DotDims.WF S5000x7 S7x128 S5000x128 [1] [0] [0] [1] [] []
  scatter_S100000x128_S600000x1_S600000x128_1_0_0_1_wf : ScatterDims.WF S100000x128 S600000x1 S600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x500_S64x500_1_0_0_1_n_n_wf : DotDims.WF S64x128 S128x500 S64x500 [1] [0] [0] [1] [] []
  dot_S64x500_S500x1_S64x1_1_0_0_1_n_n_wf : DotDims.WF S64x500 S500x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S600000x7.size a
  hwx0_0 : ∀ i : grid0.Coords, EltTy.bits .f32 = 32 ∨ (Rect.block (s := S600000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x2.size a ≤ S7x2.size a
  hwx0_1 : ∀ i : grid0.Coords, EltTy.bits .f32 = 32 ∨ (Rect.block (s := S7x2) S7x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x2.size a ≤ S600000x2.size a
  hwx0_3 : ∀ i : grid0.Coords, EltTy.bits .f32 = 32 ∨ (Rect.block (s := S600000x2) S5000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x2.size a ≤ S600000x2.size a
  hwx0_4 : ∀ i : grid0.Coords, EltTy.bits .f32 = 32 ∨ (Rect.block (s := S600000x2) S5000x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S100000x2.size a
  hwx1_0 : ∀ i : grid1.Coords, EltTy.bits .f32 = 32 ∨ (Rect.block (s := S100000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x7.size a ≤ S600000x7.size a
  hwx3_0 : ∀ i : grid3.Coords, EltTy.bits .f32 = 32 ∨ (Rect.block (s := S600000x7) S5000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7x128.size a ≤ S7x128.size a
  hwx3_1 : ∀ i : grid3.Coords, EltTy.bits .f32 = 32 ∨ (Rect.block (s := S7x128) S7x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S600000x128.size a
  hwx3_3 : ∀ i : grid3.Coords, EltTy.bits .f32 = 32 ∨ (Rect.block (s := S600000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S600000x128.size a
  hwx3_4 : ∀ i : grid3.Coords, EltTy.bits .f32 = 32 ∨ (Rect.block (s := S600000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x7.size a ≤ S600000x7.size a
  hwx6_0 : ∀ i : grid6.Coords, EltTy.bits .f32 = 32 ∨ (Rect.block (s := S600000x7) S5000x7.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S7x128.size a ≤ S7x128.size a
  hwx6_1 : ∀ i : grid6.Coords, EltTy.bits .f32 = 32 ∨ (Rect.block (s := S7x128) S7x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S600000x128.size a
  hwx6_3 : ∀ i : grid6.Coords, EltTy.bits .f32 = 32 ∨ (Rect.block (s := S600000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S600000x128.size a
  hwx6_4 : ∀ i : grid6.Coords, EltTy.bits .f32 = 32 ∨ (Rect.block (s := S600000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S100000x128.size a
  hwx8_7 : ∀ i : grid8.Coords, EltTy.bits .f32 = 32 ∨ (Rect.block (s := S100000x128) S5000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x7.size a ≤ S600000x7.size a
  hwx9_0 : ∀ i : grid9.Coords, EltTy.bits .f32 = 32 ∨ (Rect.block (s := S600000x7) S5000x7.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S7x128.size a ≤ S7x128.size a
  hwx9_1 : ∀ i : grid9.Coords, EltTy.bits .f32 = 32 ∨ (Rect.block (s := S7x128) S7x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S600000x128.size a
  hwx9_3 : ∀ i : grid9.Coords, EltTy.bits .f32 = 32 ∨ (Rect.block (s := S600000x128) S5000x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S600000x128.size a
  hwx9_4 : ∀ i : grid9.Coords, EltTy.bits .f32 = 32 ∨ (Rect.block (s := S600000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S100000x128.size a
  hwx10_4 : ∀ i : grid10.Coords, EltTy.bits .f32 = 32 ∨ (Rect.block (s := S100000x128) S5000x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S5000x128.size a ≤ S100000x128.size a
  hwx11_7 : ∀ i : grid11.Coords, EltTy.bits .f32 = 32 ∨ (Rect.block (s := S100000x128) S5000x128.size (cc11_transform_7 i) (hinb11_7 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S64x128.size a ≤ S64x128.size a
  hwx12_0 : ∀ i : grid12.Coords, EltTy.bits .f32 = 32 ∨ (Rect.block (s := S64x128) S64x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x500.size a ≤ S128x500.size a
  hwx12_1 : ∀ i : grid12.Coords, EltTy.bits .f32 = 32 ∨ (Rect.block (s := S128x500) S128x500.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x500.size a ≤ S1x500.size a
  hwx12_2 : ∀ i : grid12.Coords, EltTy.bits .f32 = 32 ∨ (Rect.block (s := S1x500) S1x500.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S500x1.size a ≤ S500x1.size a
  hwx12_3 : ∀ i : grid12.Coords, EltTy.bits .f32 = 32 ∨ (Rect.block (s := S500x1) S500x1.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1.size a ≤ S1x1.size a
  hwx12_4 : ∀ i : grid12.Coords, EltTy.bits .f32 = 32 ∨ (Rect.block (s := S1x1) S1x1.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x1.size a ≤ S64x1.size a
  hwx12_5 : ∀ i : grid12.Coords, EltTy.bits .f32 = 32 ∨ (Rect.block (s := S64x1) S64x1.size (cc12_transform_5 i) (hinb12_5 i)).WholeWords (EltTy.packing .f32)

variable [Facts₀]

def gather_S100000x2_S600000x1_S600000x2_1_0_n_n_0_1_12 : GatherDims S100000x2 S600000x1 S600000x2 where
  offsetDims := [1]
  collapsedSliceDims := [0]
  operandBatchingDims := []
  startIndicesBatchingDims := []
  startIndexMap := [0]
  indexVectorDim := 1
  sliceSizes := ![1, 2]
  wf := gather_S100000x2_S600000x1_S600000x2_1_0_n_n_0_1_12_wf
def dot_S5000x7_S7x2_S5000x2_1_0_0_1_n_n : DotDims S5000x7 S7x2 S5000x2 where
  lhsContracting := [1]
  rhsContracting := [0]
  lhsNonContracting := [0]
  rhsNonContracting := [1]
  lhsBatch := []
  rhsBatch := []
  wf := dot_S5000x7_S7x2_S5000x2_1_0_0_1_n_n_wf
def scatter_S100000x2_S600000x1_S600000x2_1_0_0_1 : ScatterDims S100000x2 S600000x1 S600000x2 where
  updateWindowDims := [1]
  insertedWindowDims := [0]
  scatterDimsToOperandDims := [0]
  indexVectorDim := 1
  wf := scatter_S100000x2_S600000x1_S600000x2_1_0_0_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x500_S64x500_1_0_0_1_n_n : DotDims S64x128 S128x500 S64x500 where
  lhsContracting := [1]
  rhsContracting := [0]
  lhsNonContracting := [0]
  rhsNonContracting := [1]
  lhsBatch := []
  rhsBatch := []
  wf := dot_S64x128_S128x500_S64x500_1_0_0_1_n_n_wf
def dot_S64x500_S500x1_S64x1_1_0_0_1_n_n : DotDims S64x500 S500x1 S64x1 where
  lhsContracting := [1]
  rhsContracting := [0]
  lhsNonContracting := [0]
  rhsNonContracting := [1]
  lhsBatch := []
  rhsBatch := []
  wf := dot_S64x500_S500x1_S64x1_1_0_0_1_n_n_wf

abbrev win0_0 : Pipeline.Window sig grid0 :=
  Pipeline.Window.ofSpec (Memref.whole main_arg3) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S7x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S5000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg3) S5000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S7x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v24) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v50_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v50_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v60) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v61) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_arg3) S5000x7.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S7x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v81) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v61) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v85) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v86) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v87_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v87_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v87_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v89) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v93) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v94) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v95) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v96) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v97) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v98) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_arg3) S5000x7.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v115) S7x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v116) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v117) S5000x128.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v118) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v98) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v121) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v122) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v123) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v124_0) S5000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v124_1) S1x128.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v124_2) S1x128.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v124_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v130) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v131) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v132) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v133) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v134) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v135) S5000x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v147) S64x128.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v148) S128x500.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v149) S1x500.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v150) S500x1.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v151) S1x1.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v152) S64x1.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S100000x2 : Shape := ⟨2, ![100000, 2]⟩
abbrev S2x600000 : Shape := ⟨2, ![2, 600000]⟩
abbrev S100000 : Shape := ⟨1, ![100000]⟩
abbrev S600000x7 : Shape := ⟨2, ![600000, 7]⟩
abbrev S2x7 : Shape := ⟨2, ![2, 7]⟩
abbrev S2 : Shape := ⟨1, ![2]⟩
abbrev S128x2 : Shape := ⟨2, ![128, 2]⟩
abbrev S128 : Shape := ⟨1, ![128]⟩
abbrev S128x128 : Shape := ⟨2, ![128, 128]⟩
abbrev S3x128x7 : Shape := ⟨3, ![3, 128, 7]⟩
abbrev S3x128 : Shape := ⟨2, ![3, 128]⟩
abbrev S3x128x128 : Shape := ⟨3, ![3, 128, 128]⟩
abbrev S500x128 : Shape := ⟨2, ![500, 128]⟩
abbrev S500 : Shape := ⟨1, ![500]⟩
abbrev S1x500 : Shape := ⟨2, ![1, 500]⟩
abbrev S1 : Shape := ⟨1, ![1]⟩
abbrev S1x600000 : Shape := ⟨2, ![1, 600000]⟩
abbrev S600000 : Shape := ⟨1, ![600000]⟩
abbrev S7x2 : Shape := ⟨2, ![7, 2]⟩
abbrev S600000x2 : Shape := ⟨2, ![600000, 2]⟩
abbrev S1x2 : Shape := ⟨2, ![1, 2]⟩
abbrev S_ : Shape := ⟨0, ![]⟩
abbrev S600000x1 : Shape := ⟨2, ![600000, 1]⟩
abbrev S2x128 : Shape := ⟨2, ![2, 128]⟩
abbrev S100000x128 : Shape := ⟨2, ![100000, 128]⟩
abbrev S1x128 : Shape := ⟨2, ![1, 128]⟩
abbrev S1x128x7 : Shape := ⟨3, ![1, 128, 7]⟩
abbrev S128x7 : Shape := ⟨2, ![128, 7]⟩
abbrev S1x128x128 : Shape := ⟨3, ![1, 128, 128]⟩
abbrev S7x128 : Shape := ⟨2, ![7, 128]⟩
abbrev S600000x128 : Shape := ⟨2, ![600000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S128x500 : Shape := ⟨2, ![128, 500]⟩
abbrev S64x500 : Shape := ⟨2, ![64, 500]⟩
abbrev S500x1 : Shape := ⟨2, ![500, 1]⟩
abbrev S1x1 : Shape := ⟨2, ![1, 1]⟩

abbrev nBuf : Space → Nat
  | .hbm => 501
  | .vmem => 0
  | .smem => 0
  | _ => 0

abbrev hbmTy0_0 (i : Nat) : BufTy := match i % 128 with
  | 0 => ⟨S100000x2, .f32⟩
  | 1 => ⟨S2x600000, .i32⟩
  | 2 => ⟨S100000, .i32⟩
  | 3 => ⟨S600000x7, .f32⟩
  | 4 => ⟨S2x7, .f32⟩
  | 5 => ⟨S2, .f32⟩
  | 6 => ⟨S128x2, .f32⟩
  | 7 => ⟨S128, .f32⟩
  | 8 => ⟨S128, .f32⟩
  | 9 => ⟨S128, .f32⟩
  | 10 => ⟨S128x128, .f32⟩
  | 11 => ⟨S128, .f32⟩
  | 12 => ⟨S3x128x7, .f32⟩
  | 13 => ⟨S3x128, .f32⟩
  | 14 => ⟨S3x128x128, .f32⟩
  | 15 => ⟨S3x128, .f32⟩
  | 16 => ⟨S3x128, .f32⟩
  | 17 => ⟨S3x128, .f32⟩
  | 18 => ⟨S3x128x128, .f32⟩
  | 19 => ⟨S3x128, .f32⟩
  | 20 => ⟨S500x128, .f32⟩
  | 21 => ⟨S500, .f32⟩
  | 22 => ⟨S1x500, .f32⟩
  | 23 => ⟨S1, .f32⟩
  | 24 => ⟨S1x600000, .i32⟩
  | 25 => ⟨S600000, .i32⟩
  | 26 => ⟨S1x600000, .i32⟩
  | 27 => ⟨S600000, .i32⟩
  | 28 => ⟨S7x2, .f32⟩
  | 29 => ⟨S600000x2, .f32⟩
  | 30 => ⟨S1x2, .f32⟩
  | 31 => ⟨S600000x2, .f32⟩
  | 32 => ⟨S600000x2, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x2, .f32⟩
  | 42 => ⟨S600000x2, .f32⟩
  | 43 => ⟨S_, .f32⟩
  | 44 => ⟨S600000x2, .f32⟩
  | 45 => ⟨S600000x2, .f32⟩
  | 46 => ⟨S_, .f32⟩
  | 47 => ⟨S100000x2, .f32⟩
  | 48 => ⟨S600000x1, .i32⟩
  | 49 => ⟨S100000x2, .f32⟩
  | 50 => ⟨S100000x2, .f32⟩
  | 51 => ⟨S2x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .i1⟩
  | 103 => ⟨S_, .f32⟩
  | 104 => ⟨S100000x128, .f32⟩
  | 105 => ⟨S100000x128, .f32⟩
  | 106 => ⟨S100000x128, .f32⟩
  | 107 => ⟨S128x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .i1⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .i1⟩
  | 122 => ⟨S_, .f32⟩
  | 123 => ⟨S100000x128, .f32⟩
  | 124 => ⟨S100000x128, .f32⟩
  | 125 => ⟨S100000x128, .f32⟩
  | 126 => ⟨S1x128x7, .f32⟩
  | 127 => ⟨S128x7, .f32⟩
  | _ => ⟨S100000x2, .f32⟩

abbrev hbmTy0_1 (i : Nat) : BufTy := match i % 128 with
  | 0 => ⟨S1x128, .f32⟩
  | 1 => ⟨S128, .f32⟩
  | 2 => ⟨S1x128x128, .f32⟩
  | 3 => ⟨S128x128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S128, .f32⟩
  | 10 => ⟨S1x128x128, .f32⟩
  | 11 => ⟨S128x128, .f32⟩
  | 12 => ⟨S1x128, .f32⟩
  | 13 => ⟨S128, .f32⟩
  | 14 => ⟨S7x128, .f32⟩
  | 15 => ⟨S600000x128, .f32⟩
  | 16 => ⟨S1x128, .f32⟩
  | 17 => ⟨S600000x128, .f32⟩
  | 18 => ⟨S600000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S600000x128, .f32⟩
  | 29 => ⟨S_, .f32⟩
  | 30 => ⟨S600000x128, .f32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S100000x128, .f32⟩
  | 37 => ⟨S128x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .i1⟩
  | 89 => ⟨S_, .f32⟩
  | 90 => ⟨S100000x128, .f32⟩
  | 91 => ⟨S100000x128, .f32⟩
  | 92 => ⟨S100000x128, .f32⟩
  | 93 => ⟨S128x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .i1⟩
  | 108 => ⟨S_, .f32⟩
  | 109 => ⟨S100000x128, .f32⟩
  | 110 => ⟨S100000x128, .f32⟩
  | 111 => ⟨S100000x128, .f32⟩
  | 112 => ⟨S1x128x7, .f32⟩
  | 113 => ⟨S128x7, .f32⟩
  | 114 => ⟨S1x128, .f32⟩
  | 115 => ⟨S128, .f32⟩
  | 116 => ⟨S1x128x128, .f32⟩
  | 117 => ⟨S128x128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S100000x2, .f32⟩

abbrev hbmTy0_2 (i : Nat) : BufTy := match i % 128 with
  | 0 => ⟨S7x128, .f32⟩
  | 1 => ⟨S600000x128, .f32⟩
  | 2 => ⟨S1x128, .f32⟩
  | 3 => ⟨S600000x128, .f32⟩
  | 4 => ⟨S600000x128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S600000x128, .f32⟩
  | 15 => ⟨S_, .f32⟩
  | 16 => ⟨S600000x128, .f32⟩
  | 17 => ⟨S600000x128, .f32⟩
  | 18 => ⟨S_, .f32⟩
  | 19 => ⟨S100000x128, .f32⟩
  | 20 => ⟨S600000x1, .i32⟩
  | 21 => ⟨S100000x128, .f32⟩
  | 22 => ⟨S100000x128, .f32⟩
  | 23 => ⟨S128x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S100000x128, .f32⟩
  | 41 => ⟨S100000x128, .f32⟩
  | 42 => ⟨S100000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .i1⟩
  | 75 => ⟨S_, .f32⟩
  | 76 => ⟨S100000x128, .f32⟩
  | 77 => ⟨S100000x128, .f32⟩
  | 78 => ⟨S100000x128, .f32⟩
  | 79 => ⟨S128x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .i1⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .i1⟩
  | 94 => ⟨S_, .f32⟩
  | 95 => ⟨S100000x128, .f32⟩
  | 96 => ⟨S100000x128, .f32⟩
  | 97 => ⟨S100000x128, .f32⟩
  | 98 => ⟨S1x128x7, .f32⟩
  | 99 => ⟨S128x7, .f32⟩
  | 100 => ⟨S1x128, .f32⟩
  | 101 => ⟨S128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S128, .f32⟩
  | 114 => ⟨S7x128, .f32⟩
  | 115 => ⟨S600000x128, .f32⟩
  | 116 => ⟨S1x128, .f32⟩
  | 117 => ⟨S600000x128, .f32⟩
  | 118 => ⟨S600000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S100000x2, .f32⟩

abbrev hbmTy0_3 (i : Nat) : BufTy := match i % 128 with
  | 0 => ⟨S600000x128, .f32⟩
  | 1 => ⟨S_, .f32⟩
  | 2 => ⟨S600000x128, .f32⟩
  | 3 => ⟨S600000x128, .f32⟩
  | 4 => ⟨S_, .f32⟩
  | 5 => ⟨S100000x128, .f32⟩
  | 6 => ⟨S600000x1, .i32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .f32⟩
  | 64 => ⟨S100000x128, .f32⟩
  | 65 => ⟨S128x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .i1⟩
  | 73 => ⟨S_, .f32⟩
  | 74 => ⟨S100000x128, .f32⟩
  | 75 => ⟨S100000x128, .f32⟩
  | 76 => ⟨S100000x128, .f32⟩
  | 77 => ⟨S_, .f32⟩
  | 78 => ⟨S100000x128, .f32⟩
  | 79 => ⟨S100000x128, .i1⟩
  | 80 => ⟨S_, .f32⟩
  | 81 => ⟨S100000x128, .f32⟩
  | 82 => ⟨S100000x128, .f32⟩
  | 83 => ⟨S100000x128, .f32⟩
  | 84 => ⟨S_, .f32⟩
  | 85 => ⟨S64x128, .f32⟩
  | 86 => ⟨S100000x1, .i32⟩
  | 87 => ⟨S64x128, .f32⟩
  | 88 => ⟨S_, .f32⟩
  | 89 => ⟨S100000, .f32⟩
  | 90 => ⟨S_, .f32⟩
  | 91 => ⟨S64, .f32⟩
  | 92 => ⟨S100000x1, .i32⟩
  | 93 => ⟨S64, .f32⟩
  | 94 => ⟨S_, .f32⟩
  | 95 => ⟨S64, .f32⟩
  | 96 => ⟨S64, .f32⟩
  | 97 => ⟨S64x1, .f32⟩
  | 98 => ⟨S64x128, .f32⟩
  | 99 => ⟨S64x128, .f32⟩
  | 100 => ⟨S128x500, .f32⟩
  | 101 => ⟨S64x500, .f32⟩
  | 102 => ⟨S1x500, .f32⟩
  | 103 => ⟨S64x500, .f32⟩
  | 104 => ⟨S64x500, .f32⟩
  | 105 => ⟨S_, .f32⟩
  | 106 => ⟨S64x500, .f32⟩
  | 107 => ⟨S64x500, .i1⟩
  | 108 => ⟨S_, .f32⟩
  | 109 => ⟨S64x500, .f32⟩
  | 110 => ⟨S64x500, .f32⟩
  | 111 => ⟨S64x500, .f32⟩
  | 112 => ⟨S500x1, .f32⟩
  | 113 => ⟨S64x1, .f32⟩
  | 114 => ⟨S1x1, .f32⟩
  | 115 => ⟨S64x1, .f32⟩
  | 116 => ⟨S64x1, .f32⟩
  | _ => ⟨S100000x2, .f32⟩

abbrev hbmTy (i : Nat) : BufTy := match i / 128 with
  | 0 => hbmTy0_0 i
  | 1 => hbmTy0_1 i
  | 2 => hbmTy0_2 i
  | 3 => hbmTy0_3 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c : Ref sig .tc := ⟨.hbm, 33, rfl⟩
abbrev main_v9 : Ref sig .tc := ⟨.hbm, 34, rfl⟩
abbrev main_v10 : Ref sig .tc := ⟨.hbm, 35, rfl⟩
abbrev main_c_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call0_cst : Ref sig .tc := ⟨.hbm, 43, rfl⟩
abbrev main_call0_v0 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_1 : Ref sig .tc := ⟨.hbm, 56, rfl⟩
abbrev main_v27 : Ref sig .tc := ⟨.hbm, 57, rfl⟩
abbrev main_cst_2 : Ref sig .tc := ⟨.hbm, 58, rfl⟩
abbrev main_v28 : Ref sig .tc := ⟨.hbm, 59, rfl⟩
abbrev main_v29 : Ref sig .tc := ⟨.hbm, 60, rfl⟩
abbrev main_c_3 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_cst_3 : Ref sig .tc := ⟨.hbm, 78, rfl⟩
abbrev main_call1_v12 : Ref sig .tc := ⟨.hbm, 79, rfl⟩
abbrev main_call1_cst_4 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_4 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_5 : Ref sig .tc := ⟨.hbm, 100, rfl⟩
abbrev main_v46 : Ref sig .tc := ⟨.hbm, 101, rfl⟩
abbrev main_v47 : Ref sig .tc := ⟨.hbm, 102, rfl⟩
abbrev main_cst_6 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_7 : Ref sig .tc := ⟨.hbm, 112, rfl⟩
abbrev main_v56 : Ref sig .tc := ⟨.hbm, 113, rfl⟩
abbrev main_v57 : Ref sig .tc := ⟨.hbm, 114, rfl⟩
abbrev main_cst_8 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_9 : Ref sig .tc := ⟨.hbm, 119, rfl⟩
abbrev main_v61 : Ref sig .tc := ⟨.hbm, 120, rfl⟩
abbrev main_v62 : Ref sig .tc := ⟨.hbm, 121, rfl⟩
abbrev main_cst_10 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_c_11 : Ref sig .tc := ⟨.hbm, 147, rfl⟩
abbrev main_v87 : Ref sig .tc := ⟨.hbm, 148, rfl⟩
abbrev main_v88 : Ref sig .tc := ⟨.hbm, 149, rfl⟩
abbrev main_c_12 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_call5_cst : Ref sig .tc := ⟨.hbm, 157, rfl⟩
abbrev main_call5_v0 : Ref sig .tc := ⟨.hbm, 158, rfl⟩
abbrev main_v95 : Ref sig .tc := ⟨.hbm, 159, rfl⟩
abbrev main_cst_13 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_14 : Ref sig .tc := ⟨.hbm, 170, rfl⟩
abbrev main_v105 : Ref sig .tc := ⟨.hbm, 171, rfl⟩
abbrev main_cst_15 : Ref sig .tc := ⟨.hbm, 172, rfl⟩
abbrev main_v106 : Ref sig .tc := ⟨.hbm, 173, rfl⟩
abbrev main_v107 : Ref sig .tc := ⟨.hbm, 174, rfl⟩
abbrev main_c_16 : Ref sig .tc := ⟨.hbm, 175, rfl⟩
abbrev main_call6_cst : Ref sig .tc := ⟨.hbm, 176, rfl⟩
abbrev main_call6_v0 : Ref sig .tc := ⟨.hbm, 177, rfl⟩
abbrev main_call6_v1 : Ref sig .tc := ⟨.hbm, 178, rfl⟩
abbrev main_call6_cst_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_v6 : Ref sig .tc := ⟨.hbm, 184, rfl⟩
abbrev main_call6_v7 : Ref sig .tc := ⟨.hbm, 185, rfl⟩
abbrev main_call6_cst_1 : Ref sig .tc := ⟨.hbm, 186, rfl⟩
abbrev main_call6_v8 : Ref sig .tc := ⟨.hbm, 187, rfl⟩
abbrev main_call6_cst_2 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_cst_3 : Ref sig .tc := ⟨.hbm, 192, rfl⟩
abbrev main_call6_v12 : Ref sig .tc := ⟨.hbm, 193, rfl⟩
abbrev main_call6_cst_4 : Ref sig .tc := ⟨.hbm, 194, rfl⟩
abbrev main_call6_call0_v0 : Ref sig .tc := ⟨.hbm, 195, rfl⟩
abbrev main_call6_call0_v1 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_17 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_cst_18 : Ref sig .tc := ⟨.hbm, 214, rfl⟩
abbrev main_v124 : Ref sig .tc := ⟨.hbm, 215, rfl⟩
abbrev main_v125 : Ref sig .tc := ⟨.hbm, 216, rfl⟩
abbrev main_cst_19 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_cst_20 : Ref sig .tc := ⟨.hbm, 226, rfl⟩
abbrev main_v134 : Ref sig .tc := ⟨.hbm, 227, rfl⟩
abbrev main_v135 : Ref sig .tc := ⟨.hbm, 228, rfl⟩
abbrev main_cst_21 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_cst_22 : Ref sig .tc := ⟨.hbm, 233, rfl⟩
abbrev main_v139 : Ref sig .tc := ⟨.hbm, 234, rfl⟩
abbrev main_v140 : Ref sig .tc := ⟨.hbm, 235, rfl⟩
abbrev main_cst_23 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_c_24 : Ref sig .tc := ⟨.hbm, 261, rfl⟩
abbrev main_v165 : Ref sig .tc := ⟨.hbm, 262, rfl⟩
abbrev main_v166 : Ref sig .tc := ⟨.hbm, 263, rfl⟩
abbrev main_c_25 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_call10_cst : Ref sig .tc := ⟨.hbm, 271, rfl⟩
abbrev main_call10_v0 : Ref sig .tc := ⟨.hbm, 272, rfl⟩
abbrev main_v173 : Ref sig .tc := ⟨.hbm, 273, rfl⟩
abbrev main_cst_26 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_cst_27 : Ref sig .tc := ⟨.hbm, 284, rfl⟩
abbrev main_v183 : Ref sig .tc := ⟨.hbm, 285, rfl⟩
abbrev main_cst_28 : Ref sig .tc := ⟨.hbm, 286, rfl⟩
abbrev main_v184 : Ref sig .tc := ⟨.hbm, 287, rfl⟩
abbrev main_v185 : Ref sig .tc := ⟨.hbm, 288, rfl⟩
abbrev main_c_29 : Ref sig .tc := ⟨.hbm, 289, rfl⟩
abbrev main_call11_cst : Ref sig .tc := ⟨.hbm, 290, rfl⟩
abbrev main_call11_v0 : Ref sig .tc := ⟨.hbm, 291, rfl⟩
abbrev main_call11_v1 : Ref sig .tc := ⟨.hbm, 292, rfl⟩
abbrev main_call11_cst_0 : Ref sig .tc := ⟨.hbm, 293, rfl⟩
abbrev main_call11_v2 : Ref sig .tc := ⟨.hbm, 294, rfl⟩
abbrev main_call11_v3 : Ref sig .tc := ⟨.hbm, 295, rfl⟩
abbrev main_call11_v4 : Ref sig .tc := ⟨.hbm, 296, rfl⟩
abbrev main_call11_v5 : Ref sig .tc := ⟨.hbm, 297, rfl⟩
abbrev main_call11_v6 : Ref sig .tc := ⟨.hbm, 298, rfl⟩
abbrev main_call11_v7 : Ref sig .tc := ⟨.hbm, 299, rfl⟩
abbrev main_call11_cst_1 : Ref sig .tc := ⟨.hbm, 300, rfl⟩
abbrev main_call11_v8 : Ref sig .tc := ⟨.hbm, 301, rfl⟩
abbrev main_call11_cst_2 : Ref sig .tc := ⟨.hbm, 302, rfl⟩
abbrev main_call11_v9 : Ref sig .tc := ⟨.hbm, 303, rfl⟩
abbrev main_call11_v10 : Ref sig .tc := ⟨.hbm, 304, rfl⟩
abbrev main_call11_v11 : Ref sig .tc := ⟨.hbm, 305, rfl⟩
abbrev main_call11_cst_3 : Ref sig .tc := ⟨.hbm, 306, rfl⟩
abbrev main_call11_v12 : Ref sig .tc := ⟨.hbm, 307, rfl⟩
abbrev main_call11_cst_4 : Ref sig .tc := ⟨.hbm, 308, rfl⟩
abbrev main_call11_call0_v0 : Ref sig .tc := ⟨.hbm, 309, rfl⟩
abbrev main_call11_call0_v1 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_cst_30 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_cst_31 : Ref sig .tc := ⟨.hbm, 328, rfl⟩
abbrev main_v202 : Ref sig .tc := ⟨.hbm, 329, rfl⟩
abbrev main_v203 : Ref sig .tc := ⟨.hbm, 330, rfl⟩
abbrev main_cst_32 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_cst_33 : Ref sig .tc := ⟨.hbm, 340, rfl⟩
abbrev main_v212 : Ref sig .tc := ⟨.hbm, 341, rfl⟩
abbrev main_v213 : Ref sig .tc := ⟨.hbm, 342, rfl⟩
abbrev main_cst_34 : Ref sig .tc := ⟨.hbm, 343, rfl⟩
abbrev main_v214 : Ref sig .tc := ⟨.hbm, 344, rfl⟩
abbrev main_v215 : Ref sig .tc := ⟨.hbm, 345, rfl⟩
abbrev main_v216 : Ref sig .tc := ⟨.hbm, 346, rfl⟩
abbrev main_cst_35 : Ref sig .tc := ⟨.hbm, 347, rfl⟩
abbrev main_v217 : Ref sig .tc := ⟨.hbm, 348, rfl⟩
abbrev main_v218 : Ref sig .tc := ⟨.hbm, 349, rfl⟩
abbrev main_cst_36 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_v241 : Ref sig .tc := ⟨.hbm, 373, rfl⟩
abbrev main_v242 : Ref sig .tc := ⟨.hbm, 374, rfl⟩
abbrev main_c_37 : Ref sig .tc := ⟨.hbm, 375, rfl⟩
abbrev main_v243 : Ref sig .tc := ⟨.hbm, 376, rfl⟩
abbrev main_v244 : Ref sig .tc := ⟨.hbm, 377, rfl⟩
abbrev main_c_38 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_call15_cst : Ref sig .tc := ⟨.hbm, 385, rfl⟩
abbrev main_call15_v0 : Ref sig .tc := ⟨.hbm, 386, rfl⟩
abbrev main_v251 : Ref sig .tc := ⟨.hbm, 387, rfl⟩
abbrev main_cst_39 : Ref sig .tc := ⟨.hbm, 388, rfl⟩
abbrev main_v252 : Ref sig .tc := ⟨.hbm, 389, rfl⟩
abbrev main_v253 : Ref sig .tc := ⟨.hbm, 390, rfl⟩
abbrev main_v254 : Ref sig .tc := ⟨.hbm, 391, rfl⟩
abbrev main_v255 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_v260 : Ref sig .tc := ⟨.hbm, 397, rfl⟩
abbrev main_cst_40 : Ref sig .tc := ⟨.hbm, 398, rfl⟩
abbrev main_v261 : Ref sig .tc := ⟨.hbm, 399, rfl⟩
abbrev main_cst_41 : Ref sig .tc := ⟨.hbm, 400, rfl⟩
abbrev main_v262 : Ref sig .tc := ⟨.hbm, 401, rfl⟩
abbrev main_v263 : Ref sig .tc := ⟨.hbm, 402, rfl⟩
abbrev main_c_42 : Ref sig .tc := ⟨.hbm, 403, rfl⟩
abbrev main_call16_cst : Ref sig .tc := ⟨.hbm, 404, rfl⟩
abbrev main_call16_v0 : Ref sig .tc := ⟨.hbm, 405, rfl⟩
abbrev main_call16_v1 : Ref sig .tc := ⟨.hbm, 406, rfl⟩
abbrev main_call16_cst_0 : Ref sig .tc := ⟨.hbm, 407, rfl⟩
abbrev main_call16_v2 : Ref sig .tc := ⟨.hbm, 408, rfl⟩
abbrev main_call16_v3 : Ref sig .tc := ⟨.hbm, 409, rfl⟩
abbrev main_call16_v4 : Ref sig .tc := ⟨.hbm, 410, rfl⟩
abbrev main_call16_v5 : Ref sig .tc := ⟨.hbm, 411, rfl⟩
abbrev main_call16_v6 : Ref sig .tc := ⟨.hbm, 412, rfl⟩
abbrev main_call16_v7 : Ref sig .tc := ⟨.hbm, 413, rfl⟩
abbrev main_call16_cst_1 : Ref sig .tc := ⟨.hbm, 414, rfl⟩
abbrev main_call16_v8 : Ref sig .tc := ⟨.hbm, 415, rfl⟩
abbrev main_call16_cst_2 : Ref sig .tc := ⟨.hbm, 416, rfl⟩
abbrev main_call16_v9 : Ref sig .tc := ⟨.hbm, 417, rfl⟩
abbrev main_call16_v10 : Ref sig .tc := ⟨.hbm, 418, rfl⟩
abbrev main_call16_v11 : Ref sig .tc := ⟨.hbm, 419, rfl⟩
abbrev main_call16_cst_3 : Ref sig .tc := ⟨.hbm, 420, rfl⟩
abbrev main_call16_v12 : Ref sig .tc := ⟨.hbm, 421, rfl⟩
abbrev main_call16_cst_4 : Ref sig .tc := ⟨.hbm, 422, rfl⟩
abbrev main_call16_call0_v0 : Ref sig .tc := ⟨.hbm, 423, rfl⟩
abbrev main_call16_call0_v1 : Ref sig .tc := ⟨.hbm, 424, rfl⟩
abbrev main_v264 : Ref sig .tc := ⟨.hbm, 425, rfl⟩
abbrev main_v265 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_cst_43 : Ref sig .tc := ⟨.hbm, 432, rfl⟩
abbrev main_v271 : Ref sig .tc := ⟨.hbm, 433, rfl⟩
abbrev main_v272 : Ref sig .tc := ⟨.hbm, 434, rfl⟩
abbrev main_v273 : Ref sig .tc := ⟨.hbm, 435, rfl⟩
abbrev main_v274 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_v279 : Ref sig .tc := ⟨.hbm, 441, rfl⟩
abbrev main_cst_44 : Ref sig .tc := ⟨.hbm, 442, rfl⟩
abbrev main_v280 : Ref sig .tc := ⟨.hbm, 443, rfl⟩
abbrev main_v281 : Ref sig .tc := ⟨.hbm, 444, rfl⟩
abbrev main_cst_45 : Ref sig .tc := ⟨.hbm, 445, rfl⟩
abbrev main_v282 : Ref sig .tc := ⟨.hbm, 446, rfl⟩
abbrev main_v283 : Ref sig .tc := ⟨.hbm, 447, rfl⟩
abbrev main_v284 : Ref sig .tc := ⟨.hbm, 448, rfl⟩
abbrev main_v285 : Ref sig .tc := ⟨.hbm, 449, rfl⟩
abbrev main_v286 : Ref sig .tc := ⟨.hbm, 450, rfl⟩
abbrev main_v287 : Ref sig .tc := ⟨.hbm, 451, rfl⟩
abbrev main_v288 : Ref sig .tc := ⟨.hbm, 452, rfl⟩
abbrev main_v289 : Ref sig .tc := ⟨.hbm, 453, rfl⟩
abbrev main_cst_46 : Ref sig .tc := ⟨.hbm, 454, rfl⟩
abbrev main_v290 : Ref sig .tc := ⟨.hbm, 455, rfl⟩
abbrev main_v291 : Ref sig .tc := ⟨.hbm, 456, rfl⟩
abbrev main_cst_47 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_cst_48 : Ref sig .tc := ⟨.hbm, 461, rfl⟩
abbrev main_v295 : Ref sig .tc := ⟨.hbm, 462, rfl⟩
abbrev main_v296 : Ref sig .tc := ⟨.hbm, 463, rfl⟩
abbrev main_cst_49 : Ref sig .tc := ⟨.hbm, 464, rfl⟩
abbrev main_v297 : Ref sig .tc := ⟨.hbm, 465, rfl⟩
abbrev main_v298 : Ref sig .tc := ⟨.hbm, 466, rfl⟩
abbrev main_v299 : Ref sig .tc := ⟨.hbm, 467, rfl⟩
abbrev main_cst_50 : Ref sig .tc := ⟨.hbm, 468, rfl⟩
abbrev main_v300 : Ref sig .tc := ⟨.hbm, 469, rfl⟩
abbrev main_v301 : Ref sig .tc := ⟨.hbm, 470, rfl⟩
abbrev main_v302 : Ref sig .tc := ⟨.hbm, 471, rfl⟩
abbrev main_cst_51 : Ref sig .tc := ⟨.hbm, 472, rfl⟩
abbrev main_v303 : Ref sig .tc := ⟨.hbm, 473, rfl⟩
abbrev main_cst_52 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_53 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_v310 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_v316 : Ref sig .tc := ⟨.hbm, 488, rfl⟩
abbrev main_cst_54 : Ref sig .tc := ⟨.hbm, 489, rfl⟩
abbrev main_v317 : Ref sig .tc := ⟨.hbm, 490, rfl⟩
abbrev main_v318 : Ref sig .tc := ⟨.hbm, 491, rfl⟩
abbrev main_cst_55 : Ref sig .tc := ⟨.hbm, 492, rfl⟩
abbrev main_v319 : Ref sig .tc := ⟨.hbm, 493, rfl⟩
abbrev main_v320 : Ref sig .tc := ⟨.hbm, 494, rfl⟩
abbrev main_v321 : Ref sig .tc := ⟨.hbm, 495, rfl⟩
abbrev main_v322 : Ref sig .tc := ⟨.hbm, 496, rfl⟩
abbrev main_v323 : Ref sig .tc := ⟨.hbm, 497, rfl⟩
abbrev main_v324 : Ref sig .tc := ⟨.hbm, 498, rfl⟩
abbrev main_v325 : Ref sig .tc := ⟨.hbm, 499, rfl⟩
abbrev main_v326 : Ref sig .tc := ⟨.hbm, 500, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S2x7_S7x2_1_0 : S2x7.Transposes [1, 0] S7x2
  bcast_S2_S1x2_1 : S2.BroadcastsInDim S1x2 (![1] : Fin 1 → Fin S1x2.rank)
  bcast_S1x2_S600000x2_0_1 : S1x2.BroadcastsInDim S600000x2 (![0, 1] : Fin 2 → Fin S600000x2.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x2 : S_.BroadcastsInDim S600000x2 (![] : Fin 0 → Fin S600000x2.rank)
  bcast_S_S100000x2 : S_.BroadcastsInDim S100000x2 (![] : Fin 0 → Fin S100000x2.rank)
  transposes_S128x2_S2x128_1_0 : S128x2.Transposes [1, 0] S2x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  transposes_S128x128_S128x128_1_0 : S128x128.Transposes [1, 0] S128x128
  slices_S3x128x7_S1x128x7_0_0_0 : S3x128x7.Slices ![0, 0, 0] S1x128x7
  shapeCasts_S1x128x7_S128x7 : S1x128x7.ShapeCasts S128x7
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  transposes_S128x7_S7x128_1_0 : S128x7.Transposes [1, 0] S7x128
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S3x128x7_S1x128x7_1_0_0 : S3x128x7.Slices ![1, 0, 0] S1x128x7
  slices_S3x128_S1x128_1_0 : S3x128.Slices ![1, 0] S1x128
  slices_S3x128x128_S1x128x128_1_0_0 : S3x128x128.Slices ![1, 0, 0] S1x128x128
  slices_S3x128x7_S1x128x7_2_0_0 : S3x128x7.Slices ![2, 0, 0] S1x128x7
  slices_S3x128_S1x128_2_0 : S3x128.Slices ![2, 0] S1x128
  slices_S3x128x128_S1x128x128_2_0_0 : S3x128x128.Slices ![2, 0, 0] S1x128x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S500x128_S128x500_1_0 : S500x128.Transposes [1, 0] S128x500
  bcast_S500_S1x500_1 : S500.BroadcastsInDim S1x500 (![1] : Fin 1 → Fin S1x500.rank)
  bcast_S1x500_S64x500_0_1 : S1x500.BroadcastsInDim S64x500 (![0, 1] : Fin 2 → Fin S64x500.rank)
  bcast_S_S64x500 : S_.BroadcastsInDim S64x500 (![] : Fin 0 → Fin S64x500.rank)
  transposes_S1x500_S500x1_1_0 : S1x500.Transposes [1, 0] S500x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S600000x7_S7x2_S600000x2_1_0_0_1_n_n_wf : DotDims.WF S600000x7 S7x2 S600000x2 [1] [0] [0] [1] [] []
  gather_S100000x2_S600000x1_S600000x2_1_0_n_n_0_1_12_wf : GatherDims.WF S100000x2 S600000x1 S600000x2 [1] [0] [] [0] [] 1 ![1, 2]
  scatter_S100000x2_S600000x1_S600000x2_1_0_0_1_wf : ScatterDims.WF S100000x2 S600000x1 S600000x2 [1] [0] [0] 1
  dot_S100000x2_S2x128_S100000x128_1_0_0_1_n_n_wf : DotDims.WF S100000x2 S2x128 S100000x128 [1] [0] [0] [1] [] []
  dot_S100000x128_S128x128_S100000x128_1_0_0_1_n_n_wf : DotDims.WF S100000x128 S128x128 S100000x128 [1] [0] [0] [1] [] []
  dot_S600000x7_S7x128_S600000x128_1_0_0_1_n_n_wf : DotDims.WF S600000x7 S7x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x500_S64x500_1_0_0_1_n_n_wf : DotDims.WF S64x128 S128x500 S64x500 [1] [0] [0] [1] [] []
  dot_S64x500_S500x1_S64x1_1_0_0_1_n_n_wf : DotDims.WF S64x500 S500x1 S64x1 [1] [0] [0] [1] [] []

variable [Facts₀]

def dot_S600000x7_S7x2_S600000x2_1_0_0_1_n_n : DotDims S600000x7 S7x2 S600000x2 where
  lhsContracting := [1]
  rhsContracting := [0]
  lhsNonContracting := [0]
  rhsNonContracting := [1]
  lhsBatch := []
  rhsBatch := []
  wf := dot_S600000x7_S7x2_S600000x2_1_0_0_1_n_n_wf
def gather_S100000x2_S600000x1_S600000x2_1_0_n_n_0_1_12 : GatherDims S100000x2 S600000x1 S600000x2 where
  offsetDims := [1]
  collapsedSliceDims := [0]
  operandBatchingDims := []
  startIndicesBatchingDims := []
  startIndexMap := [0]
  indexVectorDim := 1
  sliceSizes := ![1, 2]
  wf := gather_S100000x2_S600000x1_S600000x2_1_0_n_n_0_1_12_wf
def scatter_S100000x2_S600000x1_S600000x2_1_0_0_1 : ScatterDims S100000x2 S600000x1 S600000x2 where
  updateWindowDims := [1]
  insertedWindowDims := [0]
  scatterDimsToOperandDims := [0]
  indexVectorDim := 1
  wf := scatter_S100000x2_S600000x1_S600000x2_1_0_0_1_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S600000x7_S7x128_S600000x128_1_0_0_1_n_n : DotDims S600000x7 S7x128 S600000x128 where
  lhsContracting := [1]
  rhsContracting := [0]
  lhsNonContracting := [0]
  rhsNonContracting := [1]
  lhsBatch := []
  rhsBatch := []
  wf := dot_S600000x7_S7x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x500_S64x500_1_0_0_1_n_n : DotDims S64x128 S128x500 S64x500 where
  lhsContracting := [1]
  rhsContracting := [0]
  lhsNonContracting := [0]
  rhsNonContracting := [1]
  lhsBatch := []
  rhsBatch := []
  wf := dot_S64x128_S128x500_S64x500_1_0_0_1_n_n_wf
def dot_S64x500_S500x1_S64x1_1_0_0_1_n_n : DotDims S64x500 S500x1 S64x1 where
  lhsContracting := [1]
  rhsContracting := [0]
  lhsNonContracting := [0]
  rhsNonContracting := [1]
  lhsBatch := []
  rhsBatch := []
  wf := dot_S64x500_S500x1_S64x1_1_0_0_1_n_n_wf

class Facts : Prop extends Facts₀ where

variable [Facts]
-- ==== Proof.RefOps.lean ====
import proofs.«425852_j85495618995090_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

abbrev opsL0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    unary main_arg4 main_v4 ((transpose S7x2 [1, 0] · transposes_S2x7_S7x2_1_0) : (⟨S2x7, .f32⟩ : BufTy).Contents (Elt F) → (⟨S7x2, .f32⟩ : BufTy).Contents (Elt F)),
    binary main_arg3 main_v4 main_v5 ((fun l r => Host.dotGeneral dot_S600000x7_S7x2_S600000x2_1_0_0_1_n_n none l r) : (⟨S600000x7, .f32⟩ : BufTy).Contents (Elt F) → (⟨S7x2, .f32⟩ : BufTy).Contents (Elt F) → (⟨S600000x2, .f32⟩ : BufTy).Contents (Elt F)),
    unary main_arg5 main_v6 (broadcastInDim S1x2 ![1] bcast_S2_S1x2_1 : (⟨S2, .f32⟩ : BufTy).Contents (Elt F) → (⟨S1x2, .f32⟩ : BufTy).Contents (Elt F)),
    unary main_v6 main_v7 (broadcastInDim S600000x2 ![0, 1] bcast_S1x2_S600000x2_0_1 : (⟨S1x2, .f32⟩ : BufTy).Contents (Elt F) → (⟨S600000x2, .f32⟩ : BufTy).Contents (Elt F)),
    binary main_v5 main_v7 main_v8 (addf : (⟨S600000x2, .f32⟩ : BufTy).Contents (Elt F) → (⟨S600000x2, .f32⟩ : BufTy).Contents (Elt F) → (⟨S600000x2, .f32⟩ : BufTy).Contents (Elt F)),
    nullary main_c (constantI S_ 32 0#32),
    unary main_c main_v9 (broadcastInDim S600000 ![] bcast_S_S600000 : (⟨S_, .i32⟩ : BufTy).Contents (Elt F) → (⟨S600000, .i32⟩ : BufTy).Contents (Elt F)),
    binary main_v1 main_v9 main_v10 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v11 (broadcastInDim S600000 ![] bcast_S_S600000 : (⟨S_, .i32⟩ : BufTy).Contents (Elt F) → (⟨S600000, .i32⟩ : BufTy).Contents (Elt F)),
    binary main_v1 main_v11 main_v12 (addi : (⟨S600000, .i32⟩ : BufTy).Contents (Elt F) → (⟨S600000, .i32⟩ : BufTy).Contents (Elt F) → (⟨S600000, .i32⟩ : BufTy).Contents (Elt F)),
    ternary main_v10 main_v12 main_v1 main_v13 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v13 main_v14 (broadcastInDim S600000x1 ![0] bcast_S600000_S600000x1_0 : (⟨S600000, .i32⟩ : BufTy).Contents (Elt F) → (⟨S600000x1, .i32⟩ : BufTy).Contents (Elt F)),
    binary main_arg0 main_v14 main_v15 ((fun x i => Host.gather gather_S100000x2_S600000x1_S600000x2_1_0_n_n_0_1_12 x i) : (⟨S100000x2, .f32⟩ : BufTy).Contents (Elt F) → (⟨S600000x1, .i32⟩ : BufTy).Contents (Elt F) → (⟨S600000x2, .f32⟩ : BufTy).Contents (Elt F)),
    binary main_v15 main_v8 main_v16 (addf : (⟨S600000x2, .f32⟩ : BufTy).Contents (Elt F) → (⟨S600000x2, .f32⟩ : BufTy).Contents (Elt F) → (⟨S600000x2, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x2, .f32⟩) main_call0_v0) (broadcastInDim S600000x2 ![] bcast_S_S600000x2),
    TRef.binary (TRef.of (T := ⟨S600000x2, .f32⟩) main_v16) (TRef.of (T := ⟨S600000x2, .f32⟩) main_call0_v0) (TRef.of (T := ⟨S600000x2, .f32⟩) main_v17) maximumf,
    nullary main_cst (constant S_ .f32 0x00000000#32),
    unary main_cst main_v18 (broadcastInDim S100000x2 ![] bcast_S_S100000x2 : (⟨S_, .f32⟩ : BufTy).Contents (Elt F) → (⟨S100000x2, .f32⟩ : BufTy).Contents (Elt F)),
    unary main_v3 main_v19 (broadcastInDim S600000x1 ![0] bcast_S600000_S600000x1_0 : (⟨S600000, .i32⟩ : BufTy).Contents (Elt F) → (⟨S600000x1, .i32⟩ : BufTy).Contents (Elt F)),
    ternary main_v18 main_v19 main_v17 main_v20 ((fun x i u => Host.scatterAdd scatter_S100000x2_S600000x1_S600000x2_1_0_0_1 x i u) : (⟨S100000x2, .f32⟩ : BufTy).Contents (Elt F) → (⟨S600000x1, .i32⟩ : BufTy).Contents (Elt F) → (⟨S600000x2, .f32⟩ : BufTy).Contents (Elt F) → (⟨S100000x2, .f32⟩ : BufTy).Contents (Elt F)),
    binary main_arg0 main_v20 main_v21 (addf : (⟨S100000x2, .f32⟩ : BufTy).Contents (Elt F) → (⟨S100000x2, .f32⟩ : BufTy).Contents (Elt F) → (⟨S100000x2, .f32⟩ : BufTy).Contents (Elt F)),
    unary main_arg6 main_v22 ((transpose S2x128 [1, 0] · transposes_S128x2_S2x128_1_0) : (⟨S128x2, .f32⟩ : BufTy).Contents (Elt F) → (⟨S2x128, .f32⟩ : BufTy).Contents (Elt F)),
    binary main_v21 main_v22 main_v23 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)),
    unary main_arg7 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v26 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary (TRef.of (T := ⟨S_, .f32⟩) main_call1_cst) (constant S_ .f32 0x00000000#32),
    TRef.binary (TRef.of (T := ⟨S100000x128, .f32⟩) main_v26) (TRef.of (T := ⟨S_, .f32⟩) main_call1_cst) (TRef.of (T := ⟨S128, .f32⟩) main_call1_v0) (fun x v => Host.reduceAdd x v reducesTo_S100000x128_S128_d0 h_S_),
    TRef.unary (TRef.of (T := ⟨S128, .f32⟩) main_call1_v0) (TRef.of (T := ⟨S1x128, .f32⟩) main_call1_v1) (broadcastInDim S1x128 ![1] bcast_S128_S1x128_1),
    TRef.nullary (TRef.of (T := ⟨S_, .f32⟩) main_call1_cst_0) (constant S_ .f32 0x47C35000#32),
    TRef.unary (TRef.of (T := ⟨S_, .f32⟩) main_call1_cst_0) (TRef.of (T := ⟨S1x128, .f32⟩) main_call1_v2) (broadcastInDim S1x128 ![] bcast_S_S1x128),
    TRef.binary (TRef.of (T := ⟨S1x128, .f32⟩) main_call1_v1) (TRef.of (T := ⟨S1x128, .f32⟩) main_call1_v2) (TRef.of (T := ⟨S1x128, .f32⟩) main_call1_v3) Host.divf,
    TRef.unary (TRef.of (T := ⟨S1x128, .f32⟩) main_call1_v3) (TRef.of (T := ⟨S100000x128, .f32⟩) main_call1_v4) (broadcastInDim S100000x128 ![0, 1] bcast_S1x128_S100000x128_0_1),
    TRef.binary (TRef.of (T := ⟨S100000x128, .f32⟩) main_v26) (TRef.of (T := ⟨S100000x128, .f32⟩) main_call1_v4) (TRef.of (T := ⟨S100000x128, .f32⟩) main_call1_v5) subf,
    TRef.binary (TRef.of (T := ⟨S100000x128, .f32⟩) main_call1_v5) (TRef.of (T := ⟨S100000x128, .f32⟩) main_call1_v5) (TRef.of (T := ⟨S100000x128, .f32⟩) main_call1_v6) mulf,
    TRef.unary (TRef.of (T := ⟨S_, .i32⟩) main_c_3) (TRef.of (T := ⟨S_, .f32⟩) main_call1_v7) (sitofp .f32),
    TRef.nullary (TRef.of (T := ⟨S_, .f32⟩) main_call1_cst_1) (constant S_ .f32 0x47C35000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S100000x128, .f32⟩) main_call1_v6) (TRef.of (T := ⟨S_, .f32⟩) main_call1_cst_2) (TRef.of (T := ⟨S128, .f32⟩) main_call1_v9) (fun x v => Host.reduceAdd x v reducesTo_S100000x128_S128_d0 h_S_),
    TRef.unary (TRef.of (T := ⟨S_, .f32⟩) main_call1_v8) (TRef.of (T := ⟨S128, .f32⟩) main_call1_v10) (broadcastInDim S128 ![] bcast_S_S128),
    TRef.binary (TRef.of (T := ⟨S128, .f32⟩) main_call1_v9) (TRef.of (T := ⟨S128, .f32⟩) main_call1_v10) (TRef.of (T := ⟨S128, .f32⟩) main_call1_v11) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v12) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S128, .f32⟩) main_call1_call0_v1) (broadcastInDim S128 ![] bcast_S_S128),
    TRef.ternary (TRef.of (T := ⟨S_, .i1⟩) main_call1_v12) (TRef.of (T := ⟨S128, .f32⟩) main_call1_v11) (TRef.of (T := ⟨S128, .f32⟩) main_call1_call0_v1) (TRef.of (T := ⟨S128, .f32⟩) main_v30) (fun p a b => select (broadcastInDim S128 ![] bcast_S_S128 p) a b),
    unary main_v29 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v26 main_v32 main_v33 (subf : (⟨S100000x128, .f32⟩ : BufTy).Contents (Elt F) → (⟨S100000x128, .f32⟩ : BufTy).Contents (Elt F) → (⟨S100000x128, .f32⟩ : BufTy).Contents (Elt F)),
    unary main_arg8 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v35 main_v33 main_v36 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v37 (broadcastInDim S128 ![] bcast_S_S128 : (⟨S_, .f32⟩ : BufTy).Contents (Elt F) → (⟨S128, .f32⟩ : BufTy).Contents (Elt F)),
    binary main_v30 main_v37 main_v38 (addf : (⟨S128, .f32⟩ : BufTy).Contents (Elt F) → (⟨S128, .f32⟩ : BufTy).Contents (Elt F) → (⟨S128, .f32⟩ : BufTy).Contents (Elt F)),
    unary main_v38 main_v39 (Host.rsqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v36 main_v41 main_v42 (mulf : (⟨S100000x128, .f32⟩ : BufTy).Contents (Elt F) → (⟨S100000x128, .f32⟩ : BufTy).Contents (Elt F) → (⟨S100000x128, .f32⟩ : BufTy).Contents (Elt F)),
    unary main_arg9 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x00000000#32),
    unary main_cst_5 main_v46 (broadcastInDim S100000x128 ![] bcast_S_S100000x128 : (⟨S_, .f32⟩ : BufTy).Contents (Elt F) → (⟨S100000x128, .f32⟩ : BufTy).Contents (Elt F)),
    binary main_v45 main_v46 main_v47 (cmpf .oge : (⟨S100000x128, .f32⟩ : BufTy).Contents (Elt F) → (⟨S100000x128, .f32⟩ : BufTy).Contents (Elt F) → (⟨S100000x128, .i1⟩ : BufTy).Contents (Elt F)),
    nullary main_cst_6 (constant S_ .f32 0x3C23D70A#32),
    unary main_cst_6 main_v48 (broadcastInDim S100000x128 ![] bcast_S_S100000x128 : (⟨S_, .f32⟩ : BufTy).Contents (Elt F) → (⟨S100000x128, .f32⟩ : BufTy).Contents (Elt F)),
    binary main_v48 main_v45 main_v49 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v47) (TRef.of (T := ⟨S100000x128, .f32⟩) main_v45) (TRef.of (T := ⟨S100000x128, .f32⟩) main_v49) (TRef.of (T := ⟨S100000x128, .f32⟩) main_v50) select,
    unary main_arg10 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x00000000#32),
    unary main_cst_7 main_v56 (broadcastInDim S100000x128 ![] bcast_S_S100000x128 : (⟨S_, .f32⟩ : BufTy).Contents (Elt F) → (⟨S100000x128, .f32⟩ : BufTy).Contents (Elt F)),
    binary main_v55 main_v56 main_v57 (cmpf .oge : (⟨S100000x128, .f32⟩ : BufTy).Contents (Elt F) → (⟨S100000x128, .f32⟩ : BufTy).Contents (Elt F) → (⟨S100000x128, .i1⟩ : BufTy).Contents (Elt F)),
    nullary main_cst_8 (constant S_ .f32 0x3C23D70A#32),
    unary main_cst_8 main_v58 (broadcastInDim S100000x128 ![] bcast_S_S100000x128 : (⟨S_, .f32⟩ : BufTy).Contents (Elt F) → (⟨S100000x128, .f32⟩ : BufTy).Contents (Elt F)),
    binary main_v58 main_v55 main_v59 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v57) (TRef.of (T := ⟨S100000x128, .f32⟩) main_v55) (TRef.of (T := ⟨S100000x128, .f32⟩) main_v59) (TRef.of (T := ⟨S100000x128, .f32⟩) main_v60) select,
    nullary main_cst_9 (constant S_ .f32 0x00000000#32),
    unary main_cst_9 main_v61 (broadcastInDim S100000x128 ![] bcast_S_S100000x128 : (⟨S_, .f32⟩ : BufTy).Contents (Elt F) → (⟨S100000x128, .f32⟩ : BufTy).Contents (Elt F)),
    binary main_v60 main_v61 main_v62 (cmpf .oge : (⟨S100000x128, .f32⟩ : BufTy).Contents (Elt F) → (⟨S100000x128, .f32⟩ : BufTy).Contents (Elt F) → (⟨S100000x128, .i1⟩ : BufTy).Contents (Elt F)),
    nullary main_cst_10 (constant S_ .f32 0x3C23D70A#32),
    unary main_cst_10 main_v63 (broadcastInDim S100000x128 ![] bcast_S_S100000x128 : (⟨S_, .f32⟩ : BufTy).Contents (Elt F) → (⟨S100000x128, .f32⟩ : BufTy).Contents (Elt F)),
    binary main_v63 main_v60 main_v64 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v62) (TRef.of (T := ⟨S100000x128, .f32⟩) main_v60) (TRef.of (T := ⟨S100000x128, .f32⟩) main_v64) (TRef.of (T := ⟨S100000x128, .f32⟩) main_v65) select ]

abbrev opsL1 : List (HloOp τ sig (Elt F)) :=
  [ unary main_arg12 main_v66 ((extractStridedSlice S1x128x7 ![0, 0, 0] · slices_S3x128x7_S1x128x7_0_0_0) : (⟨S3x128x7, .f32⟩ : BufTy).Contents (Elt F) → (⟨S1x128x7, .f32⟩ : BufTy).Contents (Elt F)),
    reshape main_v66 main_v67 rfl shapeCasts_S1x128x7_S128x7,
    unary main_arg13 main_v68 ((extractStridedSlice S1x128 ![0, 0] · slices_S3x128_S1x128_0_0) : (⟨S3x128, .f32⟩ : BufTy).Contents (Elt F) → (⟨S1x128, .f32⟩ : BufTy).Contents (Elt F)),
    reshape main_v68 main_v69 rfl shapeCasts_S1x128_S128,
    unary main_arg14 main_v70 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v70 main_v71 rfl shapeCasts_S1x128x128_S128x128,
    unary main_arg15 main_v72 ((extractStridedSlice S1x128 ![0, 0] · slices_S3x128_S1x128_0_0) : (⟨S3x128, .f32⟩ : BufTy).Contents (Elt F) → (⟨S1x128, .f32⟩ : BufTy).Contents (Elt F)),
    reshape main_v72 main_v73 rfl shapeCasts_S1x128_S128,
    unary main_arg16 main_v74 ((extractStridedSlice S1x128 ![0, 0] · slices_S3x128_S1x128_0_0) : (⟨S3x128, .f32⟩ : BufTy).Contents (Elt F) → (⟨S1x128, .f32⟩ : BufTy).Contents (Elt F)),
    reshape main_v74 main_v75 rfl shapeCasts_S1x128_S128,
    unary main_arg17 main_v76 ((extractStridedSlice S1x128 ![0, 0] · slices_S3x128_S1x128_0_0) : (⟨S3x128, .f32⟩ : BufTy).Contents (Elt F) → (⟨S1x128, .f32⟩ : BufTy).Contents (Elt F)),
    reshape main_v76 main_v77 rfl shapeCasts_S1x128_S128,
    unary main_arg18 main_v78 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v78 main_v79 rfl shapeCasts_S1x128x128_S128x128,
    unary main_arg19 main_v80 ((extractStridedSlice S1x128 ![0, 0] · slices_S3x128_S1x128_0_0) : (⟨S3x128, .f32⟩ : BufTy).Contents (Elt F) → (⟨S1x128, .f32⟩ : BufTy).Contents (Elt F)),
    reshape main_v80 main_v81 rfl shapeCasts_S1x128_S128,
    unary main_v67 main_v82 ((transpose S7x128 [1, 0] · transposes_S128x7_S7x128_1_0) : (⟨S128x7, .f32⟩ : BufTy).Contents (Elt F) → (⟨S7x128, .f32⟩ : BufTy).Contents (Elt F)),
    binary main_arg3 main_v82 main_v83 ((fun l r => Host.dotGeneral dot_S600000x7_S7x128_S600000x128_1_0_0_1_n_n none l r) : (⟨S600000x7, .f32⟩ : BufTy).Contents (Elt F) → (⟨S7x128, .f32⟩ : BufTy).Contents (Elt F) → (⟨S600000x128, .f32⟩ : BufTy).Contents (Elt F)),
    unary main_v69 main_v84 (broadcastInDim S1x128 ![1] bcast_S128_S1x128_1 : (⟨S128, .f32⟩ : BufTy).Contents (Elt F) → (⟨S1x128, .f32⟩ : BufTy).Contents (Elt F)),
    unary main_v84 main_v85 (broadcastInDim S600000x128 ![0, 1] bcast_S1x128_S600000x128_0_1 : (⟨S1x128, .f32⟩ : BufTy).Contents (Elt F) → (⟨S600000x128, .f32⟩ : BufTy).Contents (Elt F)),
    binary main_v83 main_v85 main_v86 (addf : (⟨S600000x128, .f32⟩ : BufTy).Contents (Elt F) → (⟨S600000x128, .f32⟩ : BufTy).Contents (Elt F) → (⟨S600000x128, .f32⟩ : BufTy).Contents (Elt F)),
    nullary main_c_11 (constantI S_ 32 0#32),
    unary main_c_11 main_v87 (broadcastInDim S600000 ![] bcast_S_S600000 : (⟨S_, .i32⟩ : BufTy).Contents (Elt F) → (⟨S600000, .i32⟩ : BufTy).Contents (Elt F)),
    binary main_v1 main_v87 main_v88 (cmpi .slt : (⟨S600000, .i32⟩ : BufTy).Contents (Elt F) → (⟨S600000, .i32⟩ : BufTy).Contents (Elt F) → (⟨S600000, .i1⟩ : BufTy).Contents (Elt F)),
    nullary main_c_12 (constantI S_ 32 100000#32),
    unary main_c_12 main_v89 (broadcastInDim S600000 ![] bcast_S_S600000 : (⟨S_, .i32⟩ : BufTy).Contents (Elt F) → (⟨S600000, .i32⟩ : BufTy).Contents (Elt F)),
    binary main_v1 main_v89 main_v90 (addi : (⟨S600000, .i32⟩ : BufTy).Contents (Elt F) → (⟨S600000, .i32⟩ : BufTy).Contents (Elt F) → (⟨S600000, .i32⟩ : BufTy).Contents (Elt F)),
    ternary main_v88 main_v90 main_v1 main_v91 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v91 main_v92 (broadcastInDim S600000x1 ![0] bcast_S600000_S600000x1_0 : (⟨S600000, .i32⟩ : BufTy).Contents (Elt F) → (⟨S600000x1, .i32⟩ : BufTy).Contents (Elt F)),
    binary main_v65 main_v92 main_v93 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v93 main_v86 main_v94 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S600000x128, .f32⟩) main_call5_v0) (broadcastInDim S600000x128 ![] bcast_S_S600000x128),
    TRef.binary (TRef.of (T := ⟨S600000x128, .f32⟩) main_v94) (TRef.of (T := ⟨S600000x128, .f32⟩) main_call5_v0) (TRef.of (T := ⟨S600000x128, .f32⟩) main_v95) maximumf,
    nullary main_cst_13 (constant S_ .f32 0x00000000#32),
    unary main_cst_13 main_v96 (broadcastInDim S100000x128 ![] bcast_S_S100000x128 : (⟨S_, .f32⟩ : BufTy).Contents (Elt F) → (⟨S100000x128, .f32⟩ : BufTy).Contents (Elt F)),
    unary main_v3 main_v97 (broadcastInDim S600000x1 ![0] bcast_S600000_S600000x1_0 : (⟨S600000, .i32⟩ : BufTy).Contents (Elt F) → (⟨S600000x1, .i32⟩ : BufTy).Contents (Elt F)),
    ternary main_v96 main_v97 main_v95 main_v98 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v65 main_v98 main_v99 (addf : (⟨S100000x128, .f32⟩ : BufTy).Contents (Elt F) → (⟨S100000x128, .f32⟩ : BufTy).Contents (Elt F) → (⟨S100000x128, .f32⟩ : BufTy).Contents (Elt F)),
    unary main_v71 main_v100 ((transpose S128x128 [1, 0] · transposes_S128x128_S128x128_1_0) : (⟨S128x128, .f32⟩ : BufTy).Contents (Elt F) → (⟨S128x128, .f32⟩ : BufTy).Contents (Elt F)),
    binary main_v99 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v73 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    binary main_v104 main_cst_14 main_v105 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_15 (constant S_ .f32 0x47C35000#32),
    unary main_cst_15 main_v106 (broadcastInDim S128 ![] bcast_S_S128 : (⟨S_, .f32⟩ : BufTy).Contents (Elt F) → (⟨S128, .f32⟩ : BufTy).Contents (Elt F)),
    binary main_v105 main_v106 main_v107 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    TRef.nullary (TRef.of (T := ⟨S_, .f32⟩) main_call6_cst) (constant S_ .f32 0x00000000#32),
    TRef.binary (TRef.of (T := ⟨S100000x128, .f32⟩) main_v104) (TRef.of (T := ⟨S_, .f32⟩) main_call6_cst) (TRef.of (T := ⟨S128, .f32⟩) main_call6_v0) (fun x v => Host.reduceAdd x v reducesTo_S100000x128_S128_d0 h_S_),
    TRef.unary (TRef.of (T := ⟨S128, .f32⟩) main_call6_v0) (TRef.of (T := ⟨S1x128, .f32⟩) main_call6_v1) (broadcastInDim S1x128 ![1] bcast_S128_S1x128_1),
    TRef.nullary (TRef.of (T := ⟨S_, .f32⟩) main_call6_cst_0) (constant S_ .f32 0x47C35000#32),
    TRef.unary (TRef.of (T := ⟨S_, .f32⟩) main_call6_cst_0) (TRef.of (T := ⟨S1x128, .f32⟩) main_call6_v2) (broadcastInDim S1x128 ![] bcast_S_S1x128),
    TRef.binary (TRef.of (T := ⟨S1x128, .f32⟩) main_call6_v1) (TRef.of (T := ⟨S1x128, .f32⟩) main_call6_v2) (TRef.of (T := ⟨S1x128, .f32⟩) main_call6_v3) Host.divf,
    TRef.unary (TRef.of (T := ⟨S1x128, .f32⟩) main_call6_v3) (TRef.of (T := ⟨S100000x128, .f32⟩) main_call6_v4) (broadcastInDim S100000x128 ![0, 1] bcast_S1x128_S100000x128_0_1),
    TRef.binary (TRef.of (T := ⟨S100000x128, .f32⟩) main_v104) (TRef.of (T := ⟨S100000x128, .f32⟩) main_call6_v4) (TRef.of (T := ⟨S100000x128, .f32⟩) main_call6_v5) subf,
    TRef.binary (TRef.of (T := ⟨S100000x128, .f32⟩) main_call6_v5) (TRef.of (T := ⟨S100000x128, .f32⟩) main_call6_v5) (TRef.of (T := ⟨S100000x128, .f32⟩) main_call6_v6) mulf,
    TRef.unary (TRef.of (T := ⟨S_, .i32⟩) main_c_16) (TRef.of (T := ⟨S_, .f32⟩) main_call6_v7) (sitofp .f32),
    TRef.nullary (TRef.of (T := ⟨S_, .f32⟩) main_call6_cst_1) (constant S_ .f32 0x47C35000#32),
    TRef.binary (TRef.of (T := ⟨S_, .f32⟩) main_call6_cst_1) (TRef.of (T := ⟨S_, .f32⟩) main_call6_v7) (TRef.of (T := ⟨S_, .f32⟩) main_call6_v8) subf,
    TRef.nullary (TRef.of (T := ⟨S_, .f32⟩) main_call6_cst_2) (constant S_ .f32 0x00000000#32),
    TRef.binary (TRef.of (T := ⟨S100000x128, .f32⟩) main_call6_v6) (TRef.of (T := ⟨S_, .f32⟩) main_call6_cst_2) (TRef.of (T := ⟨S128, .f32⟩) main_call6_v9) (fun x v => Host.reduceAdd x v reducesTo_S100000x128_S128_d0 h_S_),
    TRef.unary (TRef.of (T := ⟨S_, .f32⟩) main_call6_v8) (TRef.of (T := ⟨S128, .f32⟩) main_call6_v10) (broadcastInDim S128 ![] bcast_S_S128),
    TRef.binary (TRef.of (T := ⟨S128, .f32⟩) main_call6_v9) (TRef.of (T := ⟨S128, .f32⟩) main_call6_v10) (TRef.of (T := ⟨S128, .f32⟩) main_call6_v11) Host.divf,
    TRef.nullary (TRef.of (T := ⟨S_, .f32⟩) main_call6_cst_3) (constant S_ .f32 0x00000000#32),
    TRef.binary (TRef.of (T := ⟨S_, .f32⟩) main_call6_v8) (TRef.of (T := ⟨S_, .f32⟩) main_call6_cst_3) (TRef.of (T := ⟨S_, .i1⟩) main_call6_v12) (cmpf .ogt),
    TRef.nullary (TRef.of (T := ⟨S_, .f32⟩) main_call6_cst_4) (constant S_ .f32 0x7FC00000#32),
    TRef.unary (TRef.of (T := ⟨S_, .f32⟩) main_call6_cst_4) (TRef.of (T := ⟨S_, .f32⟩) main_call6_call0_v0) id,
    TRef.unary (TRef.of (T := ⟨S_, .f32⟩) main_call6_call0_v0) (TRef.of (T := ⟨S128, .f32⟩) main_call6_call0_v1) (broadcastInDim S128 ![] bcast_S_S128),
    TRef.ternary (TRef.of (T := ⟨S_, .i1⟩) main_call6_v12) (TRef.of (T := ⟨S128, .f32⟩) main_call6_v11) (TRef.of (T := ⟨S128, .f32⟩) main_call6_call0_v1) (TRef.of (T := ⟨S128, .f32⟩) main_v108) (fun p a b => select (broadcastInDim S128 ![] bcast_S_S128 p) a b),
    unary main_v107 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v104 main_v110 main_v111 (subf : (⟨S100000x128, .f32⟩ : BufTy).Contents (Elt F) → (⟨S100000x128, .f32⟩ : BufTy).Contents (Elt F) → (⟨S100000x128, .f32⟩ : BufTy).Contents (Elt F)),
    unary main_v75 main_v112 (broadcastInDim S1x128 ![1] bcast_S128_S1x128_1 : (⟨S128, .f32⟩ : BufTy).Contents (Elt F) → (⟨S1x128, .f32⟩ : BufTy).Contents (Elt F)),
    unary main_v112 main_v113 (broadcastInDim S100000x128 ![0, 1] bcast_S1x128_S100000x128_0_1 : (⟨S1x128, .f32⟩ : BufTy).Contents (Elt F) → (⟨S100000x128, .f32⟩ : BufTy).Contents (Elt F)),
    binary main_v113 main_v111 main_v114 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3727C5AC#32),
    unary main_cst_17 main_v115 (broadcastInDim S128 ![] bcast_S_S128 : (⟨S_, .f32⟩ : BufTy).Contents (Elt F) → (⟨S128, .f32⟩ : BufTy).Contents (Elt F)),
    binary main_v108 main_v115 main_v116 (addf : (⟨S128, .f32⟩ : BufTy).Contents (Elt F) → (⟨S128, .f32⟩ : BufTy).Contents (Elt F) → (⟨S128, .f32⟩ : BufTy).Contents (Elt F)),
    unary main_v116 main_v117 (Host.rsqrt : (⟨S128, .f32⟩ : BufTy).Contents (Elt F) → (⟨S128, .f32⟩ : BufTy).Contents (Elt F)),
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v114 main_v119 main_v120 (mulf : (⟨S100000x128, .f32⟩ : BufTy).Contents (Elt F) → (⟨S100000x128, .f32⟩ : BufTy).Contents (Elt F) → (⟨S100000x128, .f32⟩ : BufTy).Contents (Elt F)),
    unary main_v77 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (addf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    unary main_cst_18 main_v124 (broadcastInDim S100000x128 ![] bcast_S_S100000x128 : (⟨S_, .f32⟩ : BufTy).Contents (Elt F) → (⟨S100000x128, .f32⟩ : BufTy).Contents (Elt F)),
    binary main_v123 main_v124 main_v125 (cmpf .oge : (⟨S100000x128, .f32⟩ : BufTy).Contents (Elt F) → (⟨S100000x128, .f32⟩ : BufTy).Contents (Elt F) → (⟨S100000x128, .i1⟩ : BufTy).Contents (Elt F)),
    nullary main_cst_19 (constant S_ .f32 0x3C23D70A#32),
    unary main_cst_19 main_v126 (broadcastInDim S100000x128 ![] bcast_S_S100000x128 : (⟨S_, .f32⟩ : BufTy).Contents (Elt F) → (⟨S100000x128, .f32⟩ : BufTy).Contents (Elt F)),
    binary main_v126 main_v123 main_v127 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v125) (TRef.of (T := ⟨S100000x128, .f32⟩) main_v123) (TRef.of (T := ⟨S100000x128, .f32⟩) main_v127) (TRef.of (T := ⟨S100000x128, .f32⟩) main_v128) select,
    unary main_v79 main_v129 ((transpose S128x128 [1, 0] · transposes_S128x128_S128x128_1_0) : (⟨S128x128, .f32⟩ : BufTy).Contents (Elt F) → (⟨S128x128, .f32⟩ : BufTy).Contents (Elt F)),
    binary main_v128 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v130 main_v132 main_v133 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x00000000#32),
    unary main_cst_20 main_v134 (broadcastInDim S100000x128 ![] bcast_S_S100000x128 : (⟨S_, .f32⟩ : BufTy).Contents (Elt F) → (⟨S100000x128, .f32⟩ : BufTy).Contents (Elt F)),
    binary main_v133 main_v134 main_v135 (cmpf .oge : (⟨S100000x128, .f32⟩ : BufTy).Contents (Elt F) → (⟨S100000x128, .f32⟩ : BufTy).Contents (Elt F) → (⟨S100000x128, .i1⟩ : BufTy).Contents (Elt F)),
    nullary main_cst_21 (constant S_ .f32 0x3C23D70A#32),
    unary main_cst_21 main_v136 (broadcastInDim S100000x128 ![] bcast_S_S100000x128 : (⟨S_, .f32⟩ : BufTy).Contents (Elt F) → (⟨S100000x128, .f32⟩ : BufTy).Contents (Elt F)),
    binary main_v136 main_v133 main_v137 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v135) (TRef.of (T := ⟨S100000x128, .f32⟩) main_v133) (TRef.of (T := ⟨S100000x128, .f32⟩) main_v137) (TRef.of (T := ⟨S100000x128, .f32⟩) main_v138) select,
    nullary main_cst_22 (constant S_ .f32 0x00000000#32),
    unary main_cst_22 main_v139 (broadcastInDim S100000x128 ![] bcast_S_S100000x128 : (⟨S_, .f32⟩ : BufTy).Contents (Elt F) → (⟨S100000x128, .f32⟩ : BufTy).Contents (Elt F)),
    binary main_v138 main_v139 main_v140 (cmpf .oge : (⟨S100000x128, .f32⟩ : BufTy).Contents (Elt F) → (⟨S100000x128, .f32⟩ : BufTy).Contents (Elt F) → (⟨S100000x128, .i1⟩ : BufTy).Contents (Elt F)),
    nullary main_cst_23 (constant S_ .f32 0x3C23D70A#32),
    unary main_cst_23 main_v141 (broadcastInDim S100000x128 ![] bcast_S_S100000x128 : (⟨S_, .f32⟩ : BufTy).Contents (Elt F) → (⟨S100000x128, .f32⟩ : BufTy).Contents (Elt F)),
    binary main_v141 main_v138 main_v142 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v140) (TRef.of (T := ⟨S100000x128, .f32⟩) main_v138) (TRef.of (T := ⟨S100000x128, .f32⟩) main_v142) (TRef.of (T := ⟨S100000x128, .f32⟩) main_v143) select ]

abbrev opsL2 : List (HloOp τ sig (Elt F)) :=
  [ unary main_arg12 main_v144 ((extractStridedSlice S1x128x7 ![1, 0, 0] · slices_S3x128x7_S1x128x7_1_0_0) : (⟨S3x128x7, .f32⟩ : BufTy).Contents (Elt F) → (⟨S1x128x7, .f32⟩ : BufTy).Contents (Elt F)),
    reshape main_v144 main_v145 rfl shapeCasts_S1x128x7_S128x7,
    unary main_arg13 main_v146 ((extractStridedSlice S1x128 ![1, 0] · slices_S3x128_S1x128_1_0) : (⟨S3x128, .f32⟩ : BufTy).Contents (Elt F) → (⟨S1x128, .f32⟩ : BufTy).Contents (Elt F)),
    reshape main_v146 main_v147 rfl shapeCasts_S1x128_S128,
    unary main_arg14 main_v148 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v148 main_v149 rfl shapeCasts_S1x128x128_S128x128,
    unary main_arg15 main_v150 ((extractStridedSlice S1x128 ![1, 0] · slices_S3x128_S1x128_1_0) : (⟨S3x128, .f32⟩ : BufTy).Contents (Elt F) → (⟨S1x128, .f32⟩ : BufTy).Contents (Elt F)),
    reshape main_v150 main_v151 rfl shapeCasts_S1x128_S128,
    unary main_arg16 main_v152 ((extractStridedSlice S1x128 ![1, 0] · slices_S3x128_S1x128_1_0) : (⟨S3x128, .f32⟩ : BufTy).Contents (Elt F) → (⟨S1x128, .f32⟩ : BufTy).Contents (Elt F)),
    reshape main_v152 main_v153 rfl shapeCasts_S1x128_S128,
    unary main_arg17 main_v154 ((extractStridedSlice S1x128 ![1, 0] · slices_S3x128_S1x128_1_0) : (⟨S3x128, .f32⟩ : BufTy).Contents (Elt F) → (⟨S1x128, .f32⟩ : BufTy).Contents (Elt F)),
    reshape main_v154 main_v155 rfl shapeCasts_S1x128_S128,
    unary main_arg18 main_v156 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v156 main_v157 rfl shapeCasts_S1x128x128_S128x128,
    unary main_arg19 main_v158 ((extractStridedSlice S1x128 ![1, 0] · slices_S3x128_S1x128_1_0) : (⟨S3x128, .f32⟩ : BufTy).Contents (Elt F) → (⟨S1x128, .f32⟩ : BufTy).Contents (Elt F)),
    reshape main_v158 main_v159 rfl shapeCasts_S1x128_S128,
    unary main_v145 main_v160 ((transpose S7x128 [1, 0] · transposes_S128x7_S7x128_1_0) : (⟨S128x7, .f32⟩ : BufTy).Contents (Elt F) → (⟨S7x128, .f32⟩ : BufTy).Contents (Elt F)),
    binary main_arg3 main_v160 main_v161 ((fun l r => Host.dotGeneral dot_S600000x7_S7x128_S600000x128_1_0_0_1_n_n none l r) : (⟨S600000x7, .f32⟩ : BufTy).Contents (Elt F) → (⟨S7x128, .f32⟩ : BufTy).Contents (Elt F) → (⟨S600000x128, .f32⟩ : BufTy).Contents (Elt F)),
    unary main_v147 main_v162 (broadcastInDim S1x128 ![1] bcast_S128_S1x128_1 : (⟨S128, .f32⟩ : BufTy).Contents (Elt F) → (⟨S1x128, .f32⟩ : BufTy).Contents (Elt F)),
    unary main_v162 main_v163 (broadcastInDim S600000x128 ![0, 1] bcast_S1x128_S600000x128_0_1 : (⟨S1x128, .f32⟩ : BufTy).Contents (Elt F) → (⟨S600000x128, .f32⟩ : BufTy).Contents (Elt F)),
    binary main_v161 main_v163 main_v164 (addf : (⟨S600000x128, .f32⟩ : BufTy).Contents (Elt F) → (⟨S600000x128, .f32⟩ : BufTy).Contents (Elt F) → (⟨S600000x128, .f32⟩ : BufTy).Contents (Elt F)),
    nullary main_c_24 (constantI S_ 32 0#32),
    unary main_c_24 main_v165 (broadcastInDim S600000 ![] bcast_S_S600000 : (⟨S_, .i32⟩ : BufTy).Contents (Elt F) → (⟨S600000, .i32⟩ : BufTy).Contents (Elt F)),
    binary main_v1 main_v165 main_v166 (cmpi .slt : (⟨S600000, .i32⟩ : BufTy).Contents (Elt F) → (⟨S600000, .i32⟩ : BufTy).Contents (Elt F) → (⟨S600000, .i1⟩ : BufTy).Contents (Elt F)),
    nullary main_c_25 (constantI S_ 32 100000#32),
    unary main_c_25 main_v167 (broadcastInDim S600000 ![] bcast_S_S600000 : (⟨S_, .i32⟩ : BufTy).Contents (Elt F) → (⟨S600000, .i32⟩ : BufTy).Contents (Elt F)),
    binary main_v1 main_v167 main_v168 (addi : (⟨S600000, .i32⟩ : BufTy).Contents (Elt F) → (⟨S600000, .i32⟩ : BufTy).Contents (Elt F) → (⟨S600000, .i32⟩ : BufTy).Contents (Elt F)),
    ternary main_v166 main_v168 main_v1 main_v169 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v169 main_v170 (broadcastInDim S600000x1 ![0] bcast_S600000_S600000x1_0 : (⟨S600000, .i32⟩ : BufTy).Contents (Elt F) → (⟨S600000x1, .i32⟩ : BufTy).Contents (Elt F)),
    binary main_v143 main_v170 main_v171 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v171 main_v164 main_v172 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S600000x128, .f32⟩) main_call10_v0) (broadcastInDim S600000x128 ![] bcast_S_S600000x128),
    TRef.binary (TRef.of (T := ⟨S600000x128, .f32⟩) main_v172) (TRef.of (T := ⟨S600000x128, .f32⟩) main_call10_v0) (TRef.of (T := ⟨S600000x128, .f32⟩) main_v173) maximumf,
    nullary main_cst_26 (constant S_ .f32 0x00000000#32),
    unary main_cst_26 main_v174 (broadcastInDim S100000x128 ![] bcast_S_S100000x128 : (⟨S_, .f32⟩ : BufTy).Contents (Elt F) → (⟨S100000x128, .f32⟩ : BufTy).Contents (Elt F)),
    unary main_v3 main_v175 (broadcastInDim S600000x1 ![0] bcast_S600000_S600000x1_0 : (⟨S600000, .i32⟩ : BufTy).Contents (Elt F) → (⟨S600000x1, .i32⟩ : BufTy).Contents (Elt F)),
    ternary main_v174 main_v175 main_v173 main_v176 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v143 main_v176 main_v177 (addf : (⟨S100000x128, .f32⟩ : BufTy).Contents (Elt F) → (⟨S100000x128, .f32⟩ : BufTy).Contents (Elt F) → (⟨S100000x128, .f32⟩ : BufTy).Contents (Elt F)),
    unary main_v149 main_v178 ((transpose S128x128 [1, 0] · transposes_S128x128_S128x128_1_0) : (⟨S128x128, .f32⟩ : BufTy).Contents (Elt F) → (⟨S128x128, .f32⟩ : BufTy).Contents (Elt F)),
    binary main_v177 main_v178 main_v179 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v151 main_v180 (broadcastInDim S1x128 ![1] bcast_S128_S1x128_1 : (⟨S128, .f32⟩ : BufTy).Contents (Elt F) → (⟨S1x128, .f32⟩ : BufTy).Contents (Elt F)),
    unary main_v180 main_v181 (broadcastInDim S100000x128 ![0, 1] bcast_S1x128_S100000x128_0_1 : (⟨S1x128, .f32⟩ : BufTy).Contents (Elt F) → (⟨S100000x128, .f32⟩ : BufTy).Contents (Elt F)),
    binary main_v179 main_v181 main_v182 (addf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v182 main_cst_27 main_v183 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v184 (broadcastInDim S128 ![] bcast_S_S128 : (⟨S_, .f32⟩ : BufTy).Contents (Elt F) → (⟨S128, .f32⟩ : BufTy).Contents (Elt F)),
    binary main_v183 main_v184 main_v185 (Host.divf : (⟨S128, .f32⟩ : BufTy).Contents (Elt F) → (⟨S128, .f32⟩ : BufTy).Contents (Elt F) → (⟨S128, .f32⟩ : BufTy).Contents (Elt F)),
    nullary main_c_29 (constantI S_ 32 0#32),
    TRef.nullary (TRef.of (T := ⟨S_, .f32⟩) main_call11_cst) (constant S_ .f32 0x00000000#32),
    TRef.binary (TRef.of (T := ⟨S100000x128, .f32⟩) main_v182) (TRef.of (T := ⟨S_, .f32⟩) main_call11_cst) (TRef.of (T := ⟨S128, .f32⟩) main_call11_v0) (fun x v => Host.reduceAdd x v reducesTo_S100000x128_S128_d0 h_S_),
    TRef.unary (TRef.of (T := ⟨S128, .f32⟩) main_call11_v0) (TRef.of (T := ⟨S1x128, .f32⟩) main_call11_v1) (broadcastInDim S1x128 ![1] bcast_S128_S1x128_1),
    TRef.nullary (TRef.of (T := ⟨S_, .f32⟩) main_call11_cst_0) (constant S_ .f32 0x47C35000#32),
    TRef.unary (TRef.of (T := ⟨S_, .f32⟩) main_call11_cst_0) (TRef.of (T := ⟨S1x128, .f32⟩) main_call11_v2) (broadcastInDim S1x128 ![] bcast_S_S1x128),
    TRef.binary (TRef.of (T := ⟨S1x128, .f32⟩) main_call11_v1) (TRef.of (T := ⟨S1x128, .f32⟩) main_call11_v2) (TRef.of (T := ⟨S1x128, .f32⟩) main_call11_v3) Host.divf,
    TRef.unary (TRef.of (T := ⟨S1x128, .f32⟩) main_call11_v3) (TRef.of (T := ⟨S100000x128, .f32⟩) main_call11_v4) (broadcastInDim S100000x128 ![0, 1] bcast_S1x128_S100000x128_0_1),
    TRef.binary (TRef.of (T := ⟨S100000x128, .f32⟩) main_v182) (TRef.of (T := ⟨S100000x128, .f32⟩) main_call11_v4) (TRef.of (T := ⟨S100000x128, .f32⟩) main_call11_v5) subf,
    TRef.binary (TRef.of (T := ⟨S100000x128, .f32⟩) main_call11_v5) (TRef.of (T := ⟨S100000x128, .f32⟩) main_call11_v5) (TRef.of (T := ⟨S100000x128, .f32⟩) main_call11_v6) mulf,
    TRef.unary (TRef.of (T := ⟨S_, .i32⟩) main_c_29) (TRef.of (T := ⟨S_, .f32⟩) main_call11_v7) (sitofp .f32),
    TRef.nullary (TRef.of (T := ⟨S_, .f32⟩) main_call11_cst_1) (constant S_ .f32 0x47C35000#32),
    TRef.binary (TRef.of (T := ⟨S_, .f32⟩) main_call11_cst_1) (TRef.of (T := ⟨S_, .f32⟩) main_call11_v7) (TRef.of (T := ⟨S_, .f32⟩) main_call11_v8) subf,
    TRef.nullary (TRef.of (T := ⟨S_, .f32⟩) main_call11_cst_2) (constant S_ .f32 0x00000000#32),
    TRef.binary (TRef.of (T := ⟨S100000x128, .f32⟩) main_call11_v6) (TRef.of (T := ⟨S_, .f32⟩) main_call11_cst_2) (TRef.of (T := ⟨S128, .f32⟩) main_call11_v9) (fun x v => Host.reduceAdd x v reducesTo_S100000x128_S128_d0 h_S_),
    TRef.unary (TRef.of (T := ⟨S_, .f32⟩) main_call11_v8) (TRef.of (T := ⟨S128, .f32⟩) main_call11_v10) (broadcastInDim S128 ![] bcast_S_S128),
    TRef.binary (TRef.of (T := ⟨S128, .f32⟩) main_call11_v9) (TRef.of (T := ⟨S128, .f32⟩) main_call11_v10) (TRef.of (T := ⟨S128, .f32⟩) main_call11_v11) Host.divf,
    TRef.nullary (TRef.of (T := ⟨S_, .f32⟩) main_call11_cst_3) (constant S_ .f32 0x00000000#32),
    TRef.binary (TRef.of (T := ⟨S_, .f32⟩) main_call11_v8) (TRef.of (T := ⟨S_, .f32⟩) main_call11_cst_3) (TRef.of (T := ⟨S_, .i1⟩) main_call11_v12) (cmpf .ogt),
    TRef.nullary (TRef.of (T := ⟨S_, .f32⟩) main_call11_cst_4) (constant S_ .f32 0x7FC00000#32),
    TRef.unary (TRef.of (T := ⟨S_, .f32⟩) main_call11_cst_4) (TRef.of (T := ⟨S_, .f32⟩) main_call11_call0_v0) id,
    TRef.unary (TRef.of (T := ⟨S_, .f32⟩) main_call11_call0_v0) (TRef.of (T := ⟨S128, .f32⟩) main_call11_call0_v1) (broadcastInDim S128 ![] bcast_S_S128),
    TRef.ternary (TRef.of (T := ⟨S_, .i1⟩) main_call11_v12) (TRef.of (T := ⟨S128, .f32⟩) main_call11_v11) (TRef.of (T := ⟨S128, .f32⟩) main_call11_call0_v1) (TRef.of (T := ⟨S128, .f32⟩) main_v186) (fun p a b => select (broadcastInDim S128 ![] bcast_S_S128 p) a b),
    unary main_v185 main_v187 (broadcastInDim S1x128 ![1] bcast_S128_S1x128_1 : (⟨S128, .f32⟩ : BufTy).Contents (Elt F) → (⟨S1x128, .f32⟩ : BufTy).Contents (Elt F)),
    unary main_v187 main_v188 (broadcastInDim S100000x128 ![0, 1] bcast_S1x128_S100000x128_0_1 : (⟨S1x128, .f32⟩ : BufTy).Contents (Elt F) → (⟨S100000x128, .f32⟩ : BufTy).Contents (Elt F)),
    binary main_v182 main_v188 main_v189 (subf : (⟨S100000x128, .f32⟩ : BufTy).Contents (Elt F) → (⟨S100000x128, .f32⟩ : BufTy).Contents (Elt F) → (⟨S100000x128, .f32⟩ : BufTy).Contents (Elt F)),
    unary main_v153 main_v190 (broadcastInDim S1x128 ![1] bcast_S128_S1x128_1 : (⟨S128, .f32⟩ : BufTy).Contents (Elt F) → (⟨S1x128, .f32⟩ : BufTy).Contents (Elt F)),
    unary main_v190 main_v191 (broadcastInDim S100000x128 ![0, 1] bcast_S1x128_S100000x128_0_1 : (⟨S1x128, .f32⟩ : BufTy).Contents (Elt F) → (⟨S100000x128, .f32⟩ : BufTy).Contents (Elt F)),
    binary main_v191 main_v189 main_v192 (mulf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v193 (broadcastInDim S128 ![] bcast_S_S128 : (⟨S_, .f32⟩ : BufTy).Contents (Elt F) → (⟨S128, .f32⟩ : BufTy).Contents (Elt F)),
    binary main_v186 main_v193 main_v194 (addf : (⟨S128, .f32⟩ : BufTy).Contents (Elt F) → (⟨S128, .f32⟩ : BufTy).Contents (Elt F) → (⟨S128, .f32⟩ : BufTy).Contents (Elt F)),
    unary main_v194 main_v195 (Host.rsqrt : (⟨S128, .f32⟩ : BufTy).Contents (Elt F) → (⟨S128, .f32⟩ : BufTy).Contents (Elt F)),
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S100000x128 ![0, 1] bcast_S1x128_S100000x128_0_1 : (⟨S1x128, .f32⟩ : BufTy).Contents (Elt F) → (⟨S100000x128, .f32⟩ : BufTy).Contents (Elt F)),
    binary main_v192 main_v197 main_v198 (mulf : (⟨S100000x128, .f32⟩ : BufTy).Contents (Elt F) → (⟨S100000x128, .f32⟩ : BufTy).Contents (Elt F) → (⟨S100000x128, .f32⟩ : BufTy).Contents (Elt F)),
    unary main_v155 main_v199 (broadcastInDim S1x128 ![1] bcast_S128_S1x128_1 : (⟨S128, .f32⟩ : BufTy).Contents (Elt F) → (⟨S1x128, .f32⟩ : BufTy).Contents (Elt F)),
    unary main_v199 main_v200 (broadcastInDim S100000x128 ![0, 1] bcast_S1x128_S100000x128_0_1 : (⟨S1x128, .f32⟩ : BufTy).Contents (Elt F) → (⟨S100000x128, .f32⟩ : BufTy).Contents (Elt F)),
    binary main_v198 main_v200 main_v201 (addf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x00000000#32),
    unary main_cst_31 main_v202 (broadcastInDim S100000x128 ![] bcast_S_S100000x128 : (⟨S_, .f32⟩ : BufTy).Contents (Elt F) → (⟨S100000x128, .f32⟩ : BufTy).Contents (Elt F)),
    binary main_v201 main_v202 main_v203 (cmpf .oge : (⟨S100000x128, .f32⟩ : BufTy).Contents (Elt F) → (⟨S100000x128, .f32⟩ : BufTy).Contents (Elt F) → (⟨S100000x128, .i1⟩ : BufTy).Contents (Elt F)),
    nullary main_cst_32 (constant S_ .f32 0x3C23D70A#32),
    unary main_cst_32 main_v204 (broadcastInDim S100000x128 ![] bcast_S_S100000x128 : (⟨S_, .f32⟩ : BufTy).Contents (Elt F) → (⟨S100000x128, .f32⟩ : BufTy).Contents (Elt F)),
    binary main_v204 main_v201 main_v205 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v203) (TRef.of (T := ⟨S100000x128, .f32⟩) main_v201) (TRef.of (T := ⟨S100000x128, .f32⟩) main_v205) (TRef.of (T := ⟨S100000x128, .f32⟩) main_v206) select,
    unary main_v157 main_v207 ((transpose S128x128 [1, 0] · transposes_S128x128_S128x128_1_0) : (⟨S128x128, .f32⟩ : BufTy).Contents (Elt F) → (⟨S128x128, .f32⟩ : BufTy).Contents (Elt F)),
    binary main_v206 main_v207 main_v208 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v159 main_v209 (broadcastInDim S1x128 ![1] bcast_S128_S1x128_1 : (⟨S128, .f32⟩ : BufTy).Contents (Elt F) → (⟨S1x128, .f32⟩ : BufTy).Contents (Elt F)),
    unary main_v209 main_v210 (broadcastInDim S100000x128 ![0, 1] bcast_S1x128_S100000x128_0_1 : (⟨S1x128, .f32⟩ : BufTy).Contents (Elt F) → (⟨S100000x128, .f32⟩ : BufTy).Contents (Elt F)),
    binary main_v208 main_v210 main_v211 (addf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x00000000#32),
    unary main_cst_33 main_v212 (broadcastInDim S100000x128 ![] bcast_S_S100000x128 : (⟨S_, .f32⟩ : BufTy).Contents (Elt F) → (⟨S100000x128, .f32⟩ : BufTy).Contents (Elt F)),
    binary main_v211 main_v212 main_v213 (cmpf .oge : (⟨S100000x128, .f32⟩ : BufTy).Contents (Elt F) → (⟨S100000x128, .f32⟩ : BufTy).Contents (Elt F) → (⟨S100000x128, .i1⟩ : BufTy).Contents (Elt F)),
    nullary main_cst_34 (constant S_ .f32 0x3C23D70A#32),
    unary main_cst_34 main_v214 (broadcastInDim S100000x128 ![] bcast_S_S100000x128 : (⟨S_, .f32⟩ : BufTy).Contents (Elt F) → (⟨S100000x128, .f32⟩ : BufTy).Contents (Elt F)),
    binary main_v214 main_v211 main_v215 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v213) (TRef.of (T := ⟨S100000x128, .f32⟩) main_v211) (TRef.of (T := ⟨S100000x128, .f32⟩) main_v215) (TRef.of (T := ⟨S100000x128, .f32⟩) main_v216) select,
    nullary main_cst_35 (constant S_ .f32 0x00000000#32),
    unary main_cst_35 main_v217 (broadcastInDim S100000x128 ![] bcast_S_S100000x128 : (⟨S_, .f32⟩ : BufTy).Contents (Elt F) → (⟨S100000x128, .f32⟩ : BufTy).Contents (Elt F)),
    binary main_v216 main_v217 main_v218 (cmpf .oge : (⟨S100000x128, .f32⟩ : BufTy).Contents (Elt F) → (⟨S100000x128, .f32⟩ : BufTy).Contents (Elt F) → (⟨S100000x128, .i1⟩ : BufTy).Contents (Elt F)),
    nullary main_cst_36 (constant S_ .f32 0x3C23D70A#32),
    unary main_cst_36 main_v219 (broadcastInDim S100000x128 ![] bcast_S_S100000x128 : (⟨S_, .f32⟩ : BufTy).Contents (Elt F) → (⟨S100000x128, .f32⟩ : BufTy).Contents (Elt F)),
    binary main_v219 main_v216 main_v220 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v218) (TRef.of (T := ⟨S100000x128, .f32⟩) main_v216) (TRef.of (T := ⟨S100000x128, .f32⟩) main_v220) (TRef.of (T := ⟨S100000x128, .f32⟩) main_v221) select ]

abbrev opsL3 : List (HloOp τ sig (Elt F)) :=
  [ unary main_arg12 main_v222 ((extractStridedSlice S1x128x7 ![2, 0, 0] · slices_S3x128x7_S1x128x7_2_0_0) : (⟨S3x128x7, .f32⟩ : BufTy).Contents (Elt F) → (⟨S1x128x7, .f32⟩ : BufTy).Contents (Elt F)),
    reshape main_v222 main_v223 rfl shapeCasts_S1x128x7_S128x7,
    unary main_arg13 main_v224 ((extractStridedSlice S1x128 ![2, 0] · slices_S3x128_S1x128_2_0) : (⟨S3x128, .f32⟩ : BufTy).Contents (Elt F) → (⟨S1x128, .f32⟩ : BufTy).Contents (Elt F)),
    reshape main_v224 main_v225 rfl shapeCasts_S1x128_S128,
    unary main_arg14 main_v226 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v226 main_v227 rfl shapeCasts_S1x128x128_S128x128,
    unary main_arg15 main_v228 ((extractStridedSlice S1x128 ![2, 0] · slices_S3x128_S1x128_2_0) : (⟨S3x128, .f32⟩ : BufTy).Contents (Elt F) → (⟨S1x128, .f32⟩ : BufTy).Contents (Elt F)),
    reshape main_v228 main_v229 rfl shapeCasts_S1x128_S128,
    unary main_arg16 main_v230 ((extractStridedSlice S1x128 ![2, 0] · slices_S3x128_S1x128_2_0) : (⟨S3x128, .f32⟩ : BufTy).Contents (Elt F) → (⟨S1x128, .f32⟩ : BufTy).Contents (Elt F)),
    reshape main_v230 main_v231 rfl shapeCasts_S1x128_S128,
    unary main_arg17 main_v232 ((extractStridedSlice S1x128 ![2, 0] · slices_S3x128_S1x128_2_0) : (⟨S3x128, .f32⟩ : BufTy).Contents (Elt F) → (⟨S1x128, .f32⟩ : BufTy).Contents (Elt F)),
    reshape main_v232 main_v233 rfl shapeCasts_S1x128_S128,
    unary main_arg18 main_v234 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v234 main_v235 rfl shapeCasts_S1x128x128_S128x128,
    unary main_arg19 main_v236 ((extractStridedSlice S1x128 ![2, 0] · slices_S3x128_S1x128_2_0) : (⟨S3x128, .f32⟩ : BufTy).Contents (Elt F) → (⟨S1x128, .f32⟩ : BufTy).Contents (Elt F)),
    reshape main_v236 main_v237 rfl shapeCasts_S1x128_S128,
    unary main_v223 main_v238 ((transpose S7x128 [1, 0] · transposes_S128x7_S7x128_1_0) : (⟨S128x7, .f32⟩ : BufTy).Contents (Elt F) → (⟨S7x128, .f32⟩ : BufTy).Contents (Elt F)),
    binary main_arg3 main_v238 main_v239 ((fun l r => Host.dotGeneral dot_S600000x7_S7x128_S600000x128_1_0_0_1_n_n none l r) : (⟨S600000x7, .f32⟩ : BufTy).Contents (Elt F) → (⟨S7x128, .f32⟩ : BufTy).Contents (Elt F) → (⟨S600000x128, .f32⟩ : BufTy).Contents (Elt F)),
    unary main_v225 main_v240 (broadcastInDim S1x128 ![1] bcast_S128_S1x128_1 : (⟨S128, .f32⟩ : BufTy).Contents (Elt F) → (⟨S1x128, .f32⟩ : BufTy).Contents (Elt F)),
    unary main_v240 main_v241 (broadcastInDim S600000x128 ![0, 1] bcast_S1x128_S600000x128_0_1 : (⟨S1x128, .f32⟩ : BufTy).Contents (Elt F) → (⟨S600000x128, .f32⟩ : BufTy).Contents (Elt F)),
    binary main_v239 main_v241 main_v242 (addf : (⟨S600000x128, .f32⟩ : BufTy).Contents (Elt F) → (⟨S600000x128, .f32⟩ : BufTy).Contents (Elt F) → (⟨S600000x128, .f32⟩ : BufTy).Contents (Elt F)),
    nullary main_c_37 (constantI S_ 32 0#32),
    unary main_c_37 main_v243 (broadcastInDim S600000 ![] bcast_S_S600000 : (⟨S_, .i32⟩ : BufTy).Contents (Elt F) → (⟨S600000, .i32⟩ : BufTy).Contents (Elt F)),
    binary main_v1 main_v243 main_v244 (cmpi .slt : (⟨S600000, .i32⟩ : BufTy).Contents (Elt F) → (⟨S600000, .i32⟩ : BufTy).Contents (Elt F) → (⟨S600000, .i1⟩ : BufTy).Contents (Elt F)),
    nullary main_c_38 (constantI S_ 32 100000#32),
    unary main_c_38 main_v245 (broadcastInDim S600000 ![] bcast_S_S600000 : (⟨S_, .i32⟩ : BufTy).Contents (Elt F) → (⟨S600000, .i32⟩ : BufTy).Contents (Elt F)),
    binary main_v1 main_v245 main_v246 (addi : (⟨S600000, .i32⟩ : BufTy).Contents (Elt F) → (⟨S600000, .i32⟩ : BufTy).Contents (Elt F) → (⟨S600000, .i32⟩ : BufTy).Contents (Elt F)),
    ternary main_v244 main_v246 main_v1 main_v247 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v247 main_v248 (broadcastInDim S600000x1 ![0] bcast_S600000_S600000x1_0 : (⟨S600000, .i32⟩ : BufTy).Contents (Elt F) → (⟨S600000x1, .i32⟩ : BufTy).Contents (Elt F)),
    binary main_v221 main_v248 main_v249 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v249 main_v242 main_v250 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S600000x128, .f32⟩) main_call15_v0) (broadcastInDim S600000x128 ![] bcast_S_S600000x128),
    TRef.binary (TRef.of (T := ⟨S600000x128, .f32⟩) main_v250) (TRef.of (T := ⟨S600000x128, .f32⟩) main_call15_v0) (TRef.of (T := ⟨S600000x128, .f32⟩) main_v251) maximumf,
    nullary main_cst_39 (constant S_ .f32 0x00000000#32),
    unary main_cst_39 main_v252 (broadcastInDim S100000x128 ![] bcast_S_S100000x128 : (⟨S_, .f32⟩ : BufTy).Contents (Elt F) → (⟨S100000x128, .f32⟩ : BufTy).Contents (Elt F)),
    unary main_v3 main_v253 (broadcastInDim S600000x1 ![0] bcast_S600000_S600000x1_0 : (⟨S600000, .i32⟩ : BufTy).Contents (Elt F) → (⟨S600000x1, .i32⟩ : BufTy).Contents (Elt F)),
    ternary main_v252 main_v253 main_v251 main_v254 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v221 main_v254 main_v255 (addf : (⟨S100000x128, .f32⟩ : BufTy).Contents (Elt F) → (⟨S100000x128, .f32⟩ : BufTy).Contents (Elt F) → (⟨S100000x128, .f32⟩ : BufTy).Contents (Elt F)),
    unary main_v227 main_v256 ((transpose S128x128 [1, 0] · transposes_S128x128_S128x128_1_0) : (⟨S128x128, .f32⟩ : BufTy).Contents (Elt F) → (⟨S128x128, .f32⟩ : BufTy).Contents (Elt F)),
    binary main_v255 main_v256 main_v257 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v229 main_v258 (broadcastInDim S1x128 ![1] bcast_S128_S1x128_1 : (⟨S128, .f32⟩ : BufTy).Contents (Elt F) → (⟨S1x128, .f32⟩ : BufTy).Contents (Elt F)),
    unary main_v258 main_v259 (broadcastInDim S100000x128 ![0, 1] bcast_S1x128_S100000x128_0_1 : (⟨S1x128, .f32⟩ : BufTy).Contents (Elt F) → (⟨S100000x128, .f32⟩ : BufTy).Contents (Elt F)),
    binary main_v257 main_v259 main_v260 (addf : (⟨S100000x128, .f32⟩ : BufTy).Contents (Elt F) → (⟨S100000x128, .f32⟩ : BufTy).Contents (Elt F) → (⟨S100000x128, .f32⟩ : BufTy).Contents (Elt F)),
    nullary main_cst_40 (constant S_ .f32 0x00000000#32),
    binary main_v260 main_cst_40 main_v261 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_41 (constant S_ .f32 0x47C35000#32),
    unary main_cst_41 main_v262 (broadcastInDim S128 ![] bcast_S_S128 : (⟨S_, .f32⟩ : BufTy).Contents (Elt F) → (⟨S128, .f32⟩ : BufTy).Contents (Elt F)),
    binary main_v261 main_v262 main_v263 (Host.divf : (⟨S128, .f32⟩ : BufTy).Contents (Elt F) → (⟨S128, .f32⟩ : BufTy).Contents (Elt F) → (⟨S128, .f32⟩ : BufTy).Contents (Elt F)),
    nullary main_c_42 (constantI S_ 32 0#32),
    TRef.nullary (TRef.of (T := ⟨S_, .f32⟩) main_call16_cst) (constant S_ .f32 0x00000000#32),
    TRef.binary (TRef.of (T := ⟨S100000x128, .f32⟩) main_v260) (TRef.of (T := ⟨S_, .f32⟩) main_call16_cst) (TRef.of (T := ⟨S128, .f32⟩) main_call16_v0) (fun x v => Host.reduceAdd x v reducesTo_S100000x128_S128_d0 h_S_),
    TRef.unary (TRef.of (T := ⟨S128, .f32⟩) main_call16_v0) (TRef.of (T := ⟨S1x128, .f32⟩) main_call16_v1) (broadcastInDim S1x128 ![1] bcast_S128_S1x128_1),
    TRef.nullary (TRef.of (T := ⟨S_, .f32⟩) main_call16_cst_0) (constant S_ .f32 0x47C35000#32),
    TRef.unary (TRef.of (T := ⟨S_, .f32⟩) main_call16_cst_0) (TRef.of (T := ⟨S1x128, .f32⟩) main_call16_v2) (broadcastInDim S1x128 ![] bcast_S_S1x128),
    TRef.binary (TRef.of (T := ⟨S1x128, .f32⟩) main_call16_v1) (TRef.of (T := ⟨S1x128, .f32⟩) main_call16_v2) (TRef.of (T := ⟨S1x128, .f32⟩) main_call16_v3) Host.divf,
    TRef.unary (TRef.of (T := ⟨S1x128, .f32⟩) main_call16_v3) (TRef.of (T := ⟨S100000x128, .f32⟩) main_call16_v4) (broadcastInDim S100000x128 ![0, 1] bcast_S1x128_S100000x128_0_1),
    TRef.binary (TRef.of (T := ⟨S100000x128, .f32⟩) main_v260) (TRef.of (T := ⟨S100000x128, .f32⟩) main_call16_v4) (TRef.of (T := ⟨S100000x128, .f32⟩) main_call16_v5) subf,
    TRef.binary (TRef.of (T := ⟨S100000x128, .f32⟩) main_call16_v5) (TRef.of (T := ⟨S100000x128, .f32⟩) main_call16_v5) (TRef.of (T := ⟨S100000x128, .f32⟩) main_call16_v6) mulf,
    TRef.unary (TRef.of (T := ⟨S_, .i32⟩) main_c_42) (TRef.of (T := ⟨S_, .f32⟩) main_call16_v7) (sitofp .f32),
    TRef.nullary (TRef.of (T := ⟨S_, .f32⟩) main_call16_cst_1) (constant S_ .f32 0x47C35000#32),
    TRef.binary (TRef.of (T := ⟨S_, .f32⟩) main_call16_cst_1) (TRef.of (T := ⟨S_, .f32⟩) main_call16_v7) (TRef.of (T := ⟨S_, .f32⟩) main_call16_v8) subf,
    TRef.nullary (TRef.of (T := ⟨S_, .f32⟩) main_call16_cst_2) (constant S_ .f32 0x00000000#32),
    TRef.binary (TRef.of (T := ⟨S100000x128, .f32⟩) main_call16_v6) (TRef.of (T := ⟨S_, .f32⟩) main_call16_cst_2) (TRef.of (T := ⟨S128, .f32⟩) main_call16_v9) (fun x v => Host.reduceAdd x v reducesTo_S100000x128_S128_d0 h_S_),
    TRef.unary (TRef.of (T := ⟨S_, .f32⟩) main_call16_v8) (TRef.of (T := ⟨S128, .f32⟩) main_call16_v10) (broadcastInDim S128 ![] bcast_S_S128),
    TRef.binary (TRef.of (T := ⟨S128, .f32⟩) main_call16_v9) (TRef.of (T := ⟨S128, .f32⟩) main_call16_v10) (TRef.of (T := ⟨S128, .f32⟩) main_call16_v11) Host.divf,
    TRef.nullary (TRef.of (T := ⟨S_, .f32⟩) main_call16_cst_3) (constant S_ .f32 0x00000000#32),
    TRef.binary (TRef.of (T := ⟨S_, .f32⟩) main_call16_v8) (TRef.of (T := ⟨S_, .f32⟩) main_call16_cst_3) (TRef.of (T := ⟨S_, .i1⟩) main_call16_v12) (cmpf .ogt),
    TRef.nullary (TRef.of (T := ⟨S_, .f32⟩) main_call16_cst_4) (constant S_ .f32 0x7FC00000#32),
    TRef.unary (TRef.of (T := ⟨S_, .f32⟩) main_call16_cst_4) (TRef.of (T := ⟨S_, .f32⟩) main_call16_call0_v0) id,
    TRef.unary (TRef.of (T := ⟨S_, .f32⟩) main_call16_call0_v0) (TRef.of (T := ⟨S128, .f32⟩) main_call16_call0_v1) (broadcastInDim S128 ![] bcast_S_S128),
    TRef.ternary (TRef.of (T := ⟨S_, .i1⟩) main_call16_v12) (TRef.of (T := ⟨S128, .f32⟩) main_call16_v11) (TRef.of (T := ⟨S128, .f32⟩) main_call16_call0_v1) (TRef.of (T := ⟨S128, .f32⟩) main_v264) (fun p a b => select (broadcastInDim S128 ![] bcast_S_S128 p) a b),
    unary main_v263 main_v265 (broadcastInDim S1x128 ![1] bcast_S128_S1x128_1 : (⟨S128, .f32⟩ : BufTy).Contents (Elt F) → (⟨S1x128, .f32⟩ : BufTy).Contents (Elt F)),
    unary main_v265 main_v266 (broadcastInDim S100000x128 ![0, 1] bcast_S1x128_S100000x128_0_1 : (⟨S1x128, .f32⟩ : BufTy).Contents (Elt F) → (⟨S100000x128, .f32⟩ : BufTy).Contents (Elt F)),
    binary main_v260 main_v266 main_v267 (subf : (⟨S100000x128, .f32⟩ : BufTy).Contents (Elt F) → (⟨S100000x128, .f32⟩ : BufTy).Contents (Elt F) → (⟨S100000x128, .f32⟩ : BufTy).Contents (Elt F)),
    unary main_v231 main_v268 (broadcastInDim S1x128 ![1] bcast_S128_S1x128_1 : (⟨S128, .f32⟩ : BufTy).Contents (Elt F) → (⟨S1x128, .f32⟩ : BufTy).Contents (Elt F)),
    unary main_v268 main_v269 (broadcastInDim S100000x128 ![0, 1] bcast_S1x128_S100000x128_0_1 : (⟨S1x128, .f32⟩ : BufTy).Contents (Elt F) → (⟨S100000x128, .f32⟩ : BufTy).Contents (Elt F)),
    binary main_v269 main_v267 main_v270 (mulf : (⟨S100000x128, .f32⟩ : BufTy).Contents (Elt F) → (⟨S100000x128, .f32⟩ : BufTy).Contents (Elt F) → (⟨S100000x128, .f32⟩ : BufTy).Contents (Elt F)),
    nullary main_cst_43 (constant S_ .f32 0x3727C5AC#32),
    unary main_cst_43 main_v271 (broadcastInDim S128 ![] bcast_S_S128 : (⟨S_, .f32⟩ : BufTy).Contents (Elt F) → (⟨S128, .f32⟩ : BufTy).Contents (Elt F)),
    binary main_v264 main_v271 main_v272 (addf : (⟨S128, .f32⟩ : BufTy).Contents (Elt F) → (⟨S128, .f32⟩ : BufTy).Contents (Elt F) → (⟨S128, .f32⟩ : BufTy).Contents (Elt F)),
    unary main_v272 main_v273 (Host.rsqrt : (⟨S128, .f32⟩ : BufTy).Contents (Elt F) → (⟨S128, .f32⟩ : BufTy).Contents (Elt F)),
    unary main_v273 main_v274 (broadcastInDim S1x128 ![1] bcast_S128_S1x128_1 : (⟨S128, .f32⟩ : BufTy).Contents (Elt F) → (⟨S1x128, .f32⟩ : BufTy).Contents (Elt F)),
    unary main_v274 main_v275 (broadcastInDim S100000x128 ![0, 1] bcast_S1x128_S100000x128_0_1 : (⟨S1x128, .f32⟩ : BufTy).Contents (Elt F) → (⟨S100000x128, .f32⟩ : BufTy).Contents (Elt F)),
    binary main_v270 main_v275 main_v276 (mulf : (⟨S100000x128, .f32⟩ : BufTy).Contents (Elt F) → (⟨S100000x128, .f32⟩ : BufTy).Contents (Elt F) → (⟨S100000x128, .f32⟩ : BufTy).Contents (Elt F)),
    unary main_v233 main_v277 (broadcastInDim S1x128 ![1] bcast_S128_S1x128_1 : (⟨S128, .f32⟩ : BufTy).Contents (Elt F) → (⟨S1x128, .f32⟩ : BufTy).Contents (Elt F)),
    unary main_v277 main_v278 (broadcastInDim S100000x128 ![0, 1] bcast_S1x128_S100000x128_0_1 : (⟨S1x128, .f32⟩ : BufTy).Contents (Elt F) → (⟨S100000x128, .f32⟩ : BufTy).Contents (Elt F)),
    binary main_v276 main_v278 main_v279 (addf : (⟨S100000x128, .f32⟩ : BufTy).Contents (Elt F) → (⟨S100000x128, .f32⟩ : BufTy).Contents (Elt F) → (⟨S100000x128, .f32⟩ : BufTy).Contents (Elt F)),
    nullary main_cst_44 (constant S_ .f32 0x00000000#32),
    unary main_cst_44 main_v280 (broadcastInDim S100000x128 ![] bcast_S_S100000x128 : (⟨S_, .f32⟩ : BufTy).Contents (Elt F) → (⟨S100000x128, .f32⟩ : BufTy).Contents (Elt F)),
    binary main_v279 main_v280 main_v281 (cmpf .oge : (⟨S100000x128, .f32⟩ : BufTy).Contents (Elt F) → (⟨S100000x128, .f32⟩ : BufTy).Contents (Elt F) → (⟨S100000x128, .i1⟩ : BufTy).Contents (Elt F)),
    nullary main_cst_45 (constant S_ .f32 0x3C23D70A#32),
    unary main_cst_45 main_v282 (broadcastInDim S100000x128 ![] bcast_S_S100000x128 : (⟨S_, .f32⟩ : BufTy).Contents (Elt F) → (⟨S100000x128, .f32⟩ : BufTy).Contents (Elt F)),
    binary main_v282 main_v279 main_v283 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v281) (TRef.of (T := ⟨S100000x128, .f32⟩) main_v279) (TRef.of (T := ⟨S100000x128, .f32⟩) main_v283) (TRef.of (T := ⟨S100000x128, .f32⟩) main_v284) select,
    unary main_v235 main_v285 ((transpose S128x128 [1, 0] · transposes_S128x128_S128x128_1_0) : (⟨S128x128, .f32⟩ : BufTy).Contents (Elt F) → (⟨S128x128, .f32⟩ : BufTy).Contents (Elt F)),
    binary main_v284 main_v285 main_v286 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v237 main_v287 (broadcastInDim S1x128 ![1] bcast_S128_S1x128_1 : (⟨S128, .f32⟩ : BufTy).Contents (Elt F) → (⟨S1x128, .f32⟩ : BufTy).Contents (Elt F)),
    unary main_v287 main_v288 (broadcastInDim S100000x128 ![0, 1] bcast_S1x128_S100000x128_0_1 : (⟨S1x128, .f32⟩ : BufTy).Contents (Elt F) → (⟨S100000x128, .f32⟩ : BufTy).Contents (Elt F)),
    binary main_v286 main_v288 main_v289 (addf : (⟨S100000x128, .f32⟩ : BufTy).Contents (Elt F) → (⟨S100000x128, .f32⟩ : BufTy).Contents (Elt F) → (⟨S100000x128, .f32⟩ : BufTy).Contents (Elt F)),
    nullary main_cst_46 (constant S_ .f32 0x00000000#32),
    unary main_cst_46 main_v290 (broadcastInDim S100000x128 ![] bcast_S_S100000x128 : (⟨S_, .f32⟩ : BufTy).Contents (Elt F) → (⟨S100000x128, .f32⟩ : BufTy).Contents (Elt F)),
    binary main_v289 main_v290 main_v291 (cmpf .oge : (⟨S100000x128, .f32⟩ : BufTy).Contents (Elt F) → (⟨S100000x128, .f32⟩ : BufTy).Contents (Elt F) → (⟨S100000x128, .i1⟩ : BufTy).Contents (Elt F)),
    nullary main_cst_47 (constant S_ .f32 0x3C23D70A#32),
    unary main_cst_47 main_v292 (broadcastInDim S100000x128 ![] bcast_S_S100000x128 : (⟨S_, .f32⟩ : BufTy).Contents (Elt F) → (⟨S100000x128, .f32⟩ : BufTy).Contents (Elt F)),
    binary main_v292 main_v289 main_v293 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v291) (TRef.of (T := ⟨S100000x128, .f32⟩) main_v289) (TRef.of (T := ⟨S100000x128, .f32⟩) main_v293) (TRef.of (T := ⟨S100000x128, .f32⟩) main_v294) select,
    nullary main_cst_48 (constant S_ .f32 0x00000000#32),
    unary main_cst_48 main_v295 (broadcastInDim S100000x128 ![] bcast_S_S100000x128 : (⟨S_, .f32⟩ : BufTy).Contents (Elt F) → (⟨S100000x128, .f32⟩ : BufTy).Contents (Elt F)),
    binary main_v294 main_v295 main_v296 (cmpf .oge : (⟨S100000x128, .f32⟩ : BufTy).Contents (Elt F) → (⟨S100000x128, .f32⟩ : BufTy).Contents (Elt F) → (⟨S100000x128, .i1⟩ : BufTy).Contents (Elt F)),
    nullary main_cst_49 (constant S_ .f32 0x3C23D70A#32),
    unary main_cst_49 main_v297 (broadcastInDim S100000x128 ![] bcast_S_S100000x128 : (⟨S_, .f32⟩ : BufTy).Contents (Elt F) → (⟨S100000x128, .f32⟩ : BufTy).Contents (Elt F)),
    binary main_v297 main_v294 main_v298 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v296) (TRef.of (T := ⟨S100000x128, .f32⟩) main_v294) (TRef.of (T := ⟨S100000x128, .f32⟩) main_v298) (TRef.of (T := ⟨S100000x128, .f32⟩) main_v299) select ]

abbrev opsT : List (HloOp τ sig (Elt F)) :=
  [ nullary main_cst_50 (constant S_ .f32 0x00000000#32),
    unary main_cst_50 main_v300 (broadcastInDim S64x128 ![] bcast_S_S64x128 : (⟨S_, .f32⟩ : BufTy).Contents (Elt F) → (⟨S64x128, .f32⟩ : BufTy).Contents (Elt F)),
    unary main_arg2 main_v301 (broadcastInDim S100000x1 ![0] bcast_S100000_S100000x1_0 : (⟨S100000, .i32⟩ : BufTy).Contents (Elt F) → (⟨S100000x1, .i32⟩ : BufTy).Contents (Elt F)),
    ternary main_v300 main_v301 main_v299 main_v302 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_51 (constant S_ .f32 0x3F800000#32),
    unary main_cst_51 main_v303 (broadcastInDim S100000 ![] bcast_S_S100000 : (⟨S_, .f32⟩ : BufTy).Contents (Elt F) → (⟨S100000, .f32⟩ : BufTy).Contents (Elt F)),
    nullary main_cst_52 (constant S_ .f32 0x00000000#32),
    unary main_cst_52 main_v304 (broadcastInDim S64 ![] bcast_S_S64 : (⟨S_, .f32⟩ : BufTy).Contents (Elt F) → (⟨S64, .f32⟩ : BufTy).Contents (Elt F)),
    unary main_arg2 main_v305 (broadcastInDim S100000x1 ![0] bcast_S100000_S100000x1_0 : (⟨S100000, .i32⟩ : BufTy).Contents (Elt F) → (⟨S100000x1, .i32⟩ : BufTy).Contents (Elt F)),
    ternary main_v304 main_v305 main_v303 main_v306 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_53 (constant S_ .f32 0x3F800000#32),
    unary main_cst_53 main_v307 (broadcastInDim S64 ![] bcast_S_S64 : (⟨S_, .f32⟩ : BufTy).Contents (Elt F) → (⟨S64, .f32⟩ : BufTy).Contents (Elt F)),
    binary main_v306 main_v307 main_v308 (maximumf : (⟨S64, .f32⟩ : BufTy).Contents (Elt F) → (⟨S64, .f32⟩ : BufTy).Contents (Elt F) → (⟨S64, .f32⟩ : BufTy).Contents (Elt F)),
    unary main_v308 main_v309 (broadcastInDim S64x1 ![0] bcast_S64_S64x1_0 : (⟨S64, .f32⟩ : BufTy).Contents (Elt F) → (⟨S64x1, .f32⟩ : BufTy).Contents (Elt F)),
    unary main_v309 main_v310 (broadcastInDim S64x128 ![0, 1] bcast_S64x1_S64x128_0_1 : (⟨S64x1, .f32⟩ : BufTy).Contents (Elt F) → (⟨S64x128, .f32⟩ : BufTy).Contents (Elt F)),
    binary main_v302 main_v310 main_v311 (Host.divf : (⟨S64x128, .f32⟩ : BufTy).Contents (Elt F) → (⟨S64x128, .f32⟩ : BufTy).Contents (Elt F) → (⟨S64x128, .f32⟩ : BufTy).Contents (Elt F)),
    unary main_arg20 main_v312 ((transpose S128x500 [1, 0] · transposes_S500x128_S128x500_1_0) : (⟨S500x128, .f32⟩ : BufTy).Contents (Elt F) → (⟨S128x500, .f32⟩ : BufTy).Contents (Elt F)),
    binary main_v311 main_v312 main_v313 ((fun l r => Host.dotGeneral dot_S64x128_S128x500_S64x500_1_0_0_1_n_n none l r) : (⟨S64x128, .f32⟩ : BufTy).Contents (Elt F) → (⟨S128x500, .f32⟩ : BufTy).Contents (Elt F) → (⟨S64x500, .f32⟩ : BufTy).Contents (Elt F)),
    unary main_arg21 main_v314 (broadcastInDim S1x500 ![1] bcast_S500_S1x500_1 : (⟨S500, .f32⟩ : BufTy).Contents (Elt F) → (⟨S1x500, .f32⟩ : BufTy).Contents (Elt F)),
    unary main_v314 main_v315 (broadcastInDim S64x500 ![0, 1] bcast_S1x500_S64x500_0_1 : (⟨S1x500, .f32⟩ : BufTy).Contents (Elt F) → (⟨S64x500, .f32⟩ : BufTy).Contents (Elt F)),
    binary main_v313 main_v315 main_v316 (addf : (⟨S64x500, .f32⟩ : BufTy).Contents (Elt F) → (⟨S64x500, .f32⟩ : BufTy).Contents (Elt F) → (⟨S64x500, .f32⟩ : BufTy).Contents (Elt F)),
    nullary main_cst_54 (constant S_ .f32 0x00000000#32),
    unary main_cst_54 main_v317 (broadcastInDim S64x500 ![] bcast_S_S64x500 : (⟨S_, .f32⟩ : BufTy).Contents (Elt F) → (⟨S64x500, .f32⟩ : BufTy).Contents (Elt F)),
    binary main_v316 main_v317 main_v318 (cmpf .oge : (⟨S64x500, .f32⟩ : BufTy).Contents (Elt F) → (⟨S64x500, .f32⟩ : BufTy).Contents (Elt F) → (⟨S64x500, .i1⟩ : BufTy).Contents (Elt F)),
    nullary main_cst_55 (constant S_ .f32 0x3C23D70A#32),
    unary main_cst_55 main_v319 (broadcastInDim S64x500 ![] bcast_S_S64x500 : (⟨S_, .f32⟩ : BufTy).Contents (Elt F) → (⟨S64x500, .f32⟩ : BufTy).Contents (Elt F)),
    binary main_v319 main_v316 main_v320 (mulf : (⟨S64x500, .f32⟩ : BufTy).Contents (Elt F) → (⟨S64x500, .f32⟩ : BufTy).Contents (Elt F) → (⟨S64x500, .f32⟩ : BufTy).Contents (Elt F)),
    TRef.ternary (TRef.of (T := ⟨S64x500, .i1⟩) main_v318) (TRef.of (T := ⟨S64x500, .f32⟩) main_v316) (TRef.of (T := ⟨S64x500, .f32⟩) main_v320) (TRef.of (T := ⟨S64x500, .f32⟩) main_v321) select,
    unary main_arg22 main_v322 ((transpose S500x1 [1, 0] · transposes_S1x500_S500x1_1_0) : (⟨S1x500, .f32⟩ : BufTy).Contents (Elt F) → (⟨S500x1, .f32⟩ : BufTy).Contents (Elt F)),
    binary main_v321 main_v322 main_v323 ((fun l r => Host.dotGeneral dot_S64x500_S500x1_S64x1_1_0_0_1_n_n none l r) : (⟨S64x500, .f32⟩ : BufTy).Contents (Elt F) → (⟨S500x1, .f32⟩ : BufTy).Contents (Elt F) → (⟨S64x1, .f32⟩ : BufTy).Contents (Elt F)),
    unary main_arg23 main_v324 (broadcastInDim S1x1 ![1] bcast_S1_S1x1_1 : (⟨S1, .f32⟩ : BufTy).Contents (Elt F) → (⟨S1x1, .f32⟩ : BufTy).Contents (Elt F)),
    unary main_v324 main_v325 (broadcastInDim S64x1 ![0, 1] bcast_S1x1_S64x1_0_1 : (⟨S1x1, .f32⟩ : BufTy).Contents (Elt F) → (⟨S64x1, .f32⟩ : BufTy).Contents (Elt F)),
    binary main_v323 main_v325 main_v326 (addf : (⟨S64x1, .f32⟩ : BufTy).Contents (Elt F) → (⟨S64x1, .f32⟩ : BufTy).Contents (Elt F) → (⟨S64x1, .f32⟩ : BufTy).Contents (Elt F)) ]

abbrev ops : List (HloOp τ sig (Elt F)) :=
  opsL0 ++ opsL1 ++ opsL2 ++ opsL3 ++ opsT

end Cert.ReferenceIdeal.RefOps

end
-- ==== Proof.RefRun.lean ====
import proofs.«425852_j85495618995090_1_alg».proof.Proof.RefOps
import Idealize.ShloMosaic.Lib.Pipeline.Frame

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

abbrev rest1 : List (HloOp τ sig (Elt F)) := ops.drop 83
abbrev rest2 : List (HloOp τ sig (Elt F)) := rest1.drop 62
abbrev rest3 : List (HloOp τ sig (Elt F)) := rest2.drop 81
abbrev rest4 : List (HloOp τ sig (Elt F)) := rest3.drop 83
abbrev rest5 : List (HloOp τ sig (Elt F)) := rest4.drop 62
abbrev rest6 : List (HloOp τ sig (Elt F)) := rest5.drop 81

set_option maxRecDepth 8192 in
theorem main_part0_eq (c : Dev nD) : main_part0 (F := F) c = seq (ops.take 83) := rfl

set_option maxRecDepth 8192 in
theorem main_part1_eq (c : Dev nD) : main_part1 (F := F) c = seq (rest1.take 62) := rfl

set_option maxRecDepth 8192 in
theorem main_part2_eq (c : Dev nD) : main_part2 (F := F) c = seq (rest2.take 81) := rfl

set_option maxRecDepth 8192 in
theorem main_part3_eq (c : Dev nD) : main_part3 (F := F) c = seq (rest3.take 83) := rfl

set_option maxRecDepth 8192 in
theorem main_part4_eq (c : Dev nD) : main_part4 (F := F) c = seq (rest4.take 62) := rfl

set_option maxRecDepth 8192 in
theorem main_part5_eq (c : Dev nD) : main_part5 (F := F) c = seq (rest5.take 81) := rfl

set_option maxRecDepth 8192 in
theorem main_part6_eq (c : Dev nD) : main_part6 (F := F) c = seq rest6 := rfl

theorem ops_split : (ops : List (HloOp τ sig (Elt F))) = ops.take 83 ++ (rest1.take 62 ++ (rest2.take 81 ++
    (rest3.take 83 ++ (rest4.take 62 ++ (rest5.take 81 ++ rest6))))) := by
  simp only [List.take_append_drop]

theorem main_eq (c : Dev nD) : main (F := F) c = seq ops := by
  rw [ops_split]
  simp only [seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

local macro "each_bufs_sub" : tactic => `(tactic| repeat (first
    | with_reducible refine (List.forall_cons _ _ _).mpr ⟨?_, ?_⟩
    | with_reducible exact nullary_bufs_sub ..
    | with_reducible exact unary_bufs_sub ..
    | with_reducible exact binary_bufs_sub ..
    | with_reducible exact ternary_bufs_sub ..
    | with_reducible exact reshape_bufs_sub ..
    | exact trivial))

local macro "each_fresh" : tactic => `(tactic| repeat (first
    | with_reducible refine (List.forall_cons _ _ _).mpr ⟨?_, ?_⟩
    | exact rfl
    | exact trivial))

set_option maxRecDepth 8192 in
theorem opsL0_sub : (opsL0 : List (HloOp τ sig (Elt F))).Forall fun op => op.bufs ⊆ tcRefs τ sig := by
  each_bufs_sub

set_option maxRecDepth 8192 in
theorem opsL1_sub : (opsL1 : List (HloOp τ sig (Elt F))).Forall fun op => op.bufs ⊆ tcRefs τ sig := by
  each_bufs_sub

set_option maxRecDepth 8192 in
theorem opsL2_sub : (opsL2 : List (HloOp τ sig (Elt F))).Forall fun op => op.bufs ⊆ tcRefs τ sig := by
  each_bufs_sub

set_option maxRecDepth 8192 in
theorem opsL3_sub : (opsL3 : List (HloOp τ sig (Elt F))).Forall fun op => op.bufs ⊆ tcRefs τ sig := by
  each_bufs_sub

set_option maxRecDepth 8192 in
theorem opsT_sub : (opsT : List (HloOp τ sig (Elt F))).Forall fun op => op.bufs ⊆ tcRefs τ sig := by
  each_bufs_sub

theorem forall_ops {p : HloOp τ sig (Elt F) → Prop} (h0 : opsL0.Forall p) (h1 : opsL1.Forall p) (h2 : opsL2.Forall p)
    (h3 : opsL3.Forall p) (hT : opsT.Forall p) : ∀ op ∈ (ops : List (HloOp τ sig (Elt F))), p op := by
  intro op h
  simp only [ops, List.mem_append] at h
  rcases h with (((h | h) | h) | h) | h
  exacts [List.forall_iff_forall_mem.mp h0 op h, List.forall_iff_forall_mem.mp h1 op h,
    List.forall_iff_forall_mem.mp h2 op h, List.forall_iff_forall_mem.mp h3 op h, List.forall_iff_forall_mem.mp hT op h]

theorem ops_sub : (ops : List (HloOp τ sig (Elt F))).Forall fun op => op.bufs ⊆ tcRefs τ sig :=
  List.forall_iff_forall_mem.mpr (forall_ops opsL0_sub opsL1_sub opsL2_sub opsL3_sub opsT_sub)

set_option maxRecDepth 8192 in
theorem opsL0_fresh : (opsL0 : List (HloOp τ sig (Elt F))).Forall fun op => op.fresh = ∅ := by
  each_fresh

set_option maxRecDepth 8192 in
theorem opsL1_fresh : (opsL1 : List (HloOp τ sig (Elt F))).Forall fun op => op.fresh = ∅ := by
  each_fresh

set_option maxRecDepth 8192 in
theorem opsL2_fresh : (opsL2 : List (HloOp τ sig (Elt F))).Forall fun op => op.fresh = ∅ := by
  each_fresh

set_option maxRecDepth 8192 in
theorem opsL3_fresh : (opsL3 : List (HloOp τ sig (Elt F))).Forall fun op => op.fresh = ∅ := by
  each_fresh

set_option maxRecDepth 8192 in
theorem opsT_fresh : (opsT : List (HloOp τ sig (Elt F))).Forall fun op => op.fresh = ∅ := by
  each_fresh

theorem ops_fresh : ∀ op ∈ (ops : List (HloOp τ sig (Elt F))), op.fresh = ∅ :=
  forall_ops opsL0_fresh opsL1_fresh opsL2_fresh opsL3_fresh opsT_fresh

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ (fun _ => ops_fresh)

theorem after_ops (V : Valuation τ sig (Elt F)) :
    after ops V = after opsT (after opsL3 (after opsL2 (after opsL1 (after opsL0 V)))) := by
  simp only [ops, after_append]

theorem keep_of_singleton {lo hi : Nat} {op : HloOp τ sig (Elt F)} {y : Ref sig .tc}
    (hw : op.writes = {Proc.devRef .tc y}) (hy : lo ≤ y.idx.val ∧ y.idx.val ≤ hi) :
    ∀ r : Ref sig .tc, (r.idx.val < lo ∨ hi < r.idx.val) → Proc.devRef (τ := τ) .tc r ∉ op.writes := by
  intro r hr h
  rw [hw, Finset.mem_singleton] at h
  have e := Proc.devRef_injective _ h
  subst e
  omega

local macro "each_keep" : tactic => `(tactic| repeat (first
    | with_reducible refine (List.forall_cons _ _ _).mpr ⟨?_, ?_⟩
    | with_reducible exact keep_of_singleton (nullary_writes ..) (by decide)
    | with_reducible exact keep_of_singleton (unary_writes ..) (by decide)
    | with_reducible exact keep_of_singleton (binary_writes ..) (by decide)
    | with_reducible exact keep_of_singleton (ternary_writes ..) (by decide)
    | with_reducible exact keep_of_singleton (reshape_writes ..) (by decide)
    | exact trivial))

set_option maxRecDepth 8192 in
theorem opsL0_keep : (opsL0 : List (HloOp τ sig (Elt F))).Forall fun op =>
    ∀ r : Ref sig .tc, (r.idx.val < 24 ∨ 125 < r.idx.val) → Proc.devRef (τ := τ) .tc r ∉ op.writes := by
  each_keep

theorem after_opsL0_keep (V : Valuation τ sig (Elt F)) (r : Ref sig .tc) (h : r.idx.val < 24 ∨ 125 < r.idx.val) :
    after opsL0 V (Proc.devRef .tc r) = V (Proc.devRef .tc r) :=
  after_of_forall_not_mem opsL0 V fun op hop => List.forall_iff_forall_mem.mp opsL0_keep op hop r h

set_option maxRecDepth 8192 in
theorem opsL1_keep : (opsL1 : List (HloOp τ sig (Elt F))).Forall fun op =>
    ∀ r : Ref sig .tc, (r.idx.val < 126 ∨ 239 < r.idx.val) → Proc.devRef (τ := τ) .tc r ∉ op.writes := by
  each_keep

theorem after_opsL1_keep (V : Valuation τ sig (Elt F)) (r : Ref sig .tc) (h : r.idx.val < 126 ∨ 239 < r.idx.val) :
    after opsL1 V (Proc.devRef .tc r) = V (Proc.devRef .tc r) :=
  after_of_forall_not_mem opsL1 V fun op hop => List.forall_iff_forall_mem.mp opsL1_keep op hop r h

set_option maxRecDepth 8192 in
theorem opsL2_keep : (opsL2 : List (HloOp τ sig (Elt F))).Forall fun op =>
    ∀ r : Ref sig .tc, (r.idx.val < 240 ∨ 353 < r.idx.val) → Proc.devRef (τ := τ) .tc r ∉ op.writes := by
  each_keep

theorem after_opsL2_keep (V : Valuation τ sig (Elt F)) (r : Ref sig .tc) (h : r.idx.val < 240 ∨ 353 < r.idx.val) :
    after opsL2 V (Proc.devRef .tc r) = V (Proc.devRef .tc r) :=
  after_of_forall_not_mem opsL2 V fun op hop => List.forall_iff_forall_mem.mp opsL2_keep op hop r h

set_option maxRecDepth 8192 in
theorem opsL3_keep : (opsL3 : List (HloOp τ sig (Elt F))).Forall fun op =>
    ∀ r : Ref sig .tc, (r.idx.val < 354 ∨ 467 < r.idx.val) → Proc.devRef (τ := τ) .tc r ∉ op.writes := by
  each_keep

theorem after_opsL3_keep (V : Valuation τ sig (Elt F)) (r : Ref sig .tc) (h : r.idx.val < 354 ∨ 467 < r.idx.val) :
    after opsL3 V (Proc.devRef .tc r) = V (Proc.devRef .tc r) :=
  after_of_forall_not_mem opsL3 V fun op hop => List.forall_iff_forall_mem.mp opsL3_keep op hop r h

set_option maxRecDepth 8192 in
theorem opsT_keep : (opsT : List (HloOp τ sig (Elt F))).Forall fun op =>
    ∀ r : Ref sig .tc, (r.idx.val < 468 ∨ 500 < r.idx.val) → Proc.devRef (τ := τ) .tc r ∉ op.writes := by
  each_keep

theorem after_opsT_keep (V : Valuation τ sig (Elt F)) (r : Ref sig .tc) (h : r.idx.val < 468 ∨ 500 < r.idx.val) :
    after opsT V (Proc.devRef .tc r) = V (Proc.devRef .tc r) :=
  after_of_forall_not_mem opsT V fun op hop => List.forall_iff_forall_mem.mp opsT_keep op hop r h

theorem after_ops_arg (V : Valuation τ sig (Elt F)) (r : Ref sig .tc) (hr : r.idx.val < 24) :
    after ops V (Proc.devRef .tc r) = V (Proc.devRef .tc r) := by
  rw [after_ops, after_opsT_keep _ r (Or.inl (by omega)), after_opsL3_keep _ r (Or.inl (by omega)),
    after_opsL2_keep _ r (Or.inl (by omega)), after_opsL1_keep _ r (Or.inl (by omega)),
    after_opsL0_keep _ r (Or.inl hr)]

theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v326) = after ops (launchContents m c) (Proc.devRef .tc main_v326)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨h c main_v326,
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide)),
      (h c main_arg8).trans (after_ops_arg (launchContents m c) main_arg8 (by decide)),
      (h c main_arg9).trans (after_ops_arg (launchContents m c) main_arg9 (by decide)),
      (h c main_arg10).trans (after_ops_arg (launchContents m c) main_arg10 (by decide)),
      (h c main_arg11).trans (after_ops_arg (launchContents m c) main_arg11 (by decide)),
      (h c main_arg12).trans (after_ops_arg (launchContents m c) main_arg12 (by decide)),
      (h c main_arg13).trans (after_ops_arg (launchContents m c) main_arg13 (by decide)),
      (h c main_arg14).trans (after_ops_arg (launchContents m c) main_arg14 (by decide)),
      (h c main_arg15).trans (after_ops_arg (launchContents m c) main_arg15 (by decide)),
      (h c main_arg16).trans (after_ops_arg (launchContents m c) main_arg16 (by decide)),
      (h c main_arg17).trans (after_ops_arg (launchContents m c) main_arg17 (by decide)),
      (h c main_arg18).trans (after_ops_arg (launchContents m c) main_arg18 (by decide)),
      (h c main_arg19).trans (after_ops_arg (launchContents m c) main_arg19 (by decide)),
      (h c main_arg20).trans (after_ops_arg (launchContents m c) main_arg20 (by decide)),
      (h c main_arg21).trans (after_ops_arg (launchContents m c) main_arg21 (by decide)),
      (h c main_arg22).trans (after_ops_arg (launchContents m c) main_arg22 (by decide)),
      (h c main_arg23).trans (after_ops_arg (launchContents m c) main_arg23 (by decide))⟩)
    (run m ρ)

end Cert.ReferenceIdeal.RefRun

end
-- ==== Proof.Consts.lean ====
import proofs.«425852_j85495618995090_1_alg».proof.Defs
import Idealize.ShloMosaic.PureOps.IdealRules

noncomputable section

namespace Cert.Consts

open Idealize.ShloMosaic

theorem zero_val : Ideal.ofBits .f32 0x00000000#32 = (0 : EReal) := by
  simp [Ideal.ofBits, Ideal.ieee]

theorem count_val : Ideal.ofBits .f32 0x47C35000#32 = ((100000 : ℝ) : EReal) := by
  simp [Ideal.ofBits, Ideal.ieee, -EReal.coe_mul]; norm_num

theorem slope_val : Ideal.ofBits .f32 0x3C23D70A#32 = ((5368709 / 536870912 : ℝ) : EReal) := by
  simp [Ideal.ofBits, Ideal.ieee, -EReal.coe_mul]; norm_num

theorem eps_val : ∃ e : ℝ, 0 < e ∧ Ideal.ofBits .f32 0x3727C5AC#32 = (e : EReal) := by
  refine ⟨2748779 / 274877906944, by norm_num, ?_⟩
  simp [Ideal.ofBits, Ideal.ieee, -EReal.coe_mul]; norm_num

theorem slope_sq_val : Named.named (F := Ideal) Cert.KernelIdeal.κ "leaky_slope_sq" (φ := .f32) 0x38D1B717#32
    = Ideal.ofBits .f32 0x3C23D70A#32 * Ideal.ofBits .f32 0x3C23D70A#32 := by
  have hn : Named.named (F := Ideal) Cert.KernelIdeal.κ "leaky_slope_sq" (φ := .f32) 0x38D1B717#32
      = ((28823036326681 / 288230376151711744 : ℝ) : EReal) :=
    IdealRules.named_const.ideal_named_scalar _ _ _ _ rfl
  rw [hn, slope_val, ← EReal.coe_mul]
  norm_num

theorem preserves : Cert.preserves_Kernel_KernelIdeal :=
  ⟨IdealRules.named_const.statement Cert.KernelIdeal.κ "leaky_slope_sq" .f32 0x38D1B717#32
      ((28823036326681 / 288230376151711744 : ℝ) : EReal) rfl,
   IdealRules.named_const.statement Cert.KernelIdeal.κ "leaky_slope_sq" .f32 0x38D1B717#32
      ((28823036326681 / 288230376151711744 : ℝ) : EReal) rfl,
   IdealRules.named_const.statement Cert.KernelIdeal.κ "leaky_slope_sq" .f32 0x38D1B717#32
      ((28823036326681 / 288230376151711744 : ℝ) : EReal) rfl,
   IdealRules.named_const.statement Cert.KernelIdeal.κ "leaky_slope_sq" .f32 0x38D1B717#32
      ((28823036326681 / 288230376151711744 : ℝ) : EReal) rfl⟩

end Cert.Consts

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) : Type := (⟨2, ![a, b]⟩ : Shape).Idx → EReal

def AllReal {ι : Type} (a : ι → EReal) : Prop := ∀ i, ∃ r : ℝ, a i = (r : EReal)

def leaky (c : EReal) (y : EReal) : EReal :=
  Scalar.select (FloatOps.cmpf (F := Ideal) (φ := .f32) .oge y (Ideal.ofBits .f32 0x00000000#32)) y (c * y)

def edgeMsg {D : Nat} (ea : Mat 600000 7) (ewt : Mat 7 D) (eb : Mat 1 D) (xg : Mat 600000 D) : Mat 600000 D :=
  fun i => max (xg (ix2 (i 0) (i 1)) + ((∑ k : Fin 7, ea (ix2 (i 0) k) * ewt (ix2 k (i 1))) + eb (ix2 0 (i 1))))
    (Ideal.ofBits .f32 0x00000000#32)

def lin1 {D : Nat} (x aggr : Mat 100000 D) (w1t : Mat D 128) (b1 : Mat 1 128) : Mat 100000 128 :=
  fun i => (∑ k : Fin D, (x (ix2 (i 0) k) + aggr (ix2 (i 0) k)) * w1t (ix2 k (i 1))) + b1 (ix2 0 (i 1))

def colSum (h : Mat 100000 128) : Mat 1 128 := fun j => ∑ p : Fin 100000, h (ix2 p (j 1))

def colSumSq (h : Mat 100000 128) : Mat 1 128 := fun j => ∑ p : Fin 100000, h (ix2 p (j 1)) * h (ix2 p (j 1))

def meanOf (n : EReal) (s : Mat 1 128) : Mat 1 128 := fun j => Ideal.div (s (ix2 0 (j 1))) n

def varMoments (n : EReal) (s ss : Mat 1 128) : Mat 1 128 :=
  fun j => Ideal.div (ss (ix2 0 (j 1))) n - Ideal.div (s (ix2 0 (j 1))) n * Ideal.div (s (ix2 0 (j 1))) n

def varCentred (n : EReal) (h : Mat 100000 128) : Mat 1 128 :=
  fun j => Ideal.div (∑ p : Fin 100000,
      (h (ix2 p (j 1)) - Ideal.div (∑ r : Fin 100000, h (ix2 r (j 1))) n)
        * (h (ix2 p (j 1)) - Ideal.div (∑ r : Fin 100000, h (ix2 r (j 1))) n)) n

def normActR (c eps : EReal) (h mu var g b : EReal) : EReal :=
  leaky c (g * ((h - mu) * Ideal.rsqrt (var + eps)) + b)

def normActL (c eps : EReal) (h mu var g b : EReal) : EReal :=
  leaky c ((g * (h - mu)) * Ideal.rsqrt (var + eps) + b)

def bnActFused (c c2 eps : EReal) (h1 : Mat 100000 128) (mu var g b : Mat 1 128) (w2t : Mat 128 128) (b2 : Mat 1 128) :
    Mat 100000 128 :=
  fun i => leaky c2 ((∑ k : Fin 128,
      normActR c eps (h1 (ix2 (i 0) k)) (mu (ix2 0 k)) (var (ix2 0 k)) (g (ix2 0 k)) (b (ix2 0 k)) * w2t (ix2 k (i 1)))
    + b2 (ix2 0 (i 1)))

def bnActTwice (c eps : EReal) (h1 : Mat 100000 128) (mu var g b : Mat 1 128) (w2t : Mat 128 128) (b2 : Mat 1 128) :
    Mat 100000 128 :=
  fun i => leaky c (leaky c ((∑ k : Fin 128,
      normActL c eps (h1 (ix2 (i 0) k)) (mu (ix2 0 k)) (var (ix2 0 k)) (g (ix2 0 k)) (b (ix2 0 k)) * w2t (ix2 k (i 1)))
    + b2 (ix2 0 (i 1))))

def regHead (c : EReal) (p : Mat 64 128) (wrt : Mat 128 500) (br : Mat 1 500) (wet : Mat 500 1) (be : Mat 1 1) : Mat 64 1 :=
  fun i => (∑ k : Fin 500, leaky c ((∑ l : Fin 128, p (ix2 (i 0) l) * wrt (ix2 l k)) + br (ix2 0 k)) * wet (ix2 k (i 1)))
    + be (ix2 0 (i 1))

end Cert.Spec

end
-- ==== Proof.LeakyMath.lean ====
import proofs.«425852_j85495618995090_1_alg».proof.Proof.Spec
import Idealize.ShloMosaic.PureOps.Ideal.Laws
import Mathlib.Data.EReal.Operations

noncomputable section

open scoped BigOperators

namespace Cert.Spec

open Idealize.ShloMosaic Idealize.ShloMosaic.ValueIdx

theorem zero_word : Ideal.ofBits .f32 0x00000000#32 = (0 : EReal) := Ideal.ofBits_zero_f32

theorem leaky_eq (c y : EReal) : leaky c y = if 0 ≤ y then y else c * y := by
  unfold leaky
  rw [zero_word]
  show Scalar.select (Ideal.cmp .oge y 0) y (c * y) = _
  by_cases h : (0 : EReal) ≤ y
  · have hb : Ideal.cmp .oge y 0 = 1#1 := by simp [Ideal.cmp, h]
    rw [hb, select_one, if_pos h]
  · have hb : Ideal.cmp .oge y 0 = 0#1 := by simp [Ideal.cmp, h]
    rw [hb, select_zero, if_neg h]

theorem normAct_eq (c eps h mu var g b : EReal) : normActL c eps h mu var g b = normActR c eps h mu var g b := by
  unfold normActL normActR
  rw [mul_assoc]

theorem leaky_twice {c c2 : EReal} {r : ℝ} (hc : c = (r : EReal)) (hr : 0 < r) (h2 : c2 = c * c) (y : EReal) :
    leaky c (leaky c y) = leaky c2 y := by
  by_cases h : (0 : EReal) ≤ y
  · rw [leaky_eq c y, if_pos h, leaky_eq c y, if_pos h, leaky_eq c2 y, if_pos h]
  · have hy : y < 0 := not_le.mp h
    have hcpos : (0 : EReal) < c := by rw [hc]; exact_mod_cast hr
    have hcy : c * y < 0 := EReal.mul_neg_iff.mpr (Or.inl ⟨hcpos, hy⟩)
    rw [leaky_eq c y, if_neg h, leaky_eq c (c * y), if_neg (not_le.mpr hcy), leaky_eq c2 y, if_neg h, h2, mul_assoc]

theorem bnAct_eq {c c2 : EReal} {r : ℝ} (hc : c = (r : EReal)) (hr : 0 < r) (h2 : c2 = c * c) (eps : EReal)
    (h1 : Mat 100000 128) (mu var g b : Mat 1 128) (w2t : Mat 128 128) (b2 : Mat 1 128) :
    bnActTwice c eps h1 mu var g b w2t b2 = bnActFused c c2 eps h1 mu var g b w2t b2 := by
  funext i
  unfold bnActTwice bnActFused
  rw [leaky_twice hc hr h2]
  simp only [normAct_eq]

end Cert.Spec

end
-- ==== Proof.MomentMath.lean ====
import proofs.«425852_j85495618995090_1_alg».proof.Proof.Spec
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.NormNum

noncomputable section

open scoped BigOperators

namespace Cert.Spec

open Idealize.ShloMosaic Idealize.ShloMosaic.ValueIdx

theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases max_choice x y with h | h <;> rw [h] <;> assumption

theorem real_sum {κ : Type} (s : Finset κ) (u : κ → EReal) (hu : ∀ j, ∃ r : ℝ, u j = (r : EReal)) :
    ∃ r : ℝ, ∑ j ∈ s, u j = (r : EReal) := by
  choose g hg using hu
  exact ⟨∑ j ∈ s, g j, by rw [coe_sum]; exact Finset.sum_congr rfl (fun j _ => hg j)⟩

theorem real_div {x : EReal} {n : ℝ} (hn : n ≠ 0) (hx : ∃ r : ℝ, x = (r : EReal)) :
    ∃ r : ℝ, Ideal.div x (n : EReal) = (r : EReal) := by
  rw [Ideal.div_coe hn]; exact real_mul hx ⟨_, rfl⟩

theorem real_rsqrt {v e : ℝ} (hv : 0 ≤ v) (he : 0 < e) : ∃ t : ℝ, Ideal.rsqrt ((v : EReal) + (e : EReal)) = (t : EReal) := by
  have hpos : 0 < v + e := add_pos_of_nonneg_of_pos hv he
  rw [← EReal.coe_add, Ideal.rsqrt_coe, if_neg (not_lt.mpr hpos.le), if_neg hpos.ne']
  exact ⟨_, rfl⟩

theorem real_var_identity {ι : Type} [Fintype ι] (a : ι → ℝ) {n : ℝ} (hn : n ≠ 0) (hcard : (Fintype.card ι : ℝ) = n) :
    (∑ p, (a p - (∑ r, a r) * (1 / n)) * (a p - (∑ r, a r) * (1 / n))) * (1 / n)
      = (∑ p, a p * a p) * (1 / n) - (∑ r, a r) * (1 / n) * ((∑ r, a r) * (1 / n)) := by
  have expand : ∀ m : ℝ, ∑ p, (a p - m) * (a p - m) = (∑ p, a p * a p) - 2 * m * (∑ p, a p) + n * (m * m) := by
    intro m
    have sq : ∀ p, (a p - m) * (a p - m) = a p * a p - 2 * m * a p + m * m := fun p => by ring
    simp only [sq, Finset.sum_add_distrib, Finset.sum_sub_distrib, ← Finset.mul_sum, Finset.sum_const,
      Finset.card_univ, nsmul_eq_mul, hcard]
    ring
  rw [expand]
  field_simp
  ring

theorem centred_coe {ι : Type} [Fintype ι] (a : ι → ℝ) {n : ℝ} (hn : n ≠ 0) :
    Ideal.div (∑ p, ((a p : EReal) - Ideal.div (∑ r, (a r : EReal)) (n : EReal))
        * ((a p : EReal) - Ideal.div (∑ r, (a r : EReal)) (n : EReal))) (n : EReal)
      = (((∑ p, (a p - (∑ r, a r) * (1 / n)) * (a p - (∑ r, a r) * (1 / n))) * (1 / n) : ℝ) : EReal) := by
  simp only [Ideal.div_coe hn, ← coe_sum, ← EReal.coe_mul, ← EReal.coe_sub]

theorem moments_coe {ι : Type} [Fintype ι] (a : ι → ℝ) {n : ℝ} (hn : n ≠ 0) :
    Ideal.div (∑ p, (a p : EReal) * (a p : EReal)) (n : EReal)
        - Ideal.div (∑ r, (a r : EReal)) (n : EReal) * Ideal.div (∑ r, (a r : EReal)) (n : EReal)
      = (((∑ p, a p * a p) * (1 / n) - (∑ r, a r) * (1 / n) * ((∑ r, a r) * (1 / n)) : ℝ) : EReal) := by
  simp only [Ideal.div_coe hn, ← coe_sum, ← EReal.coe_mul, ← EReal.coe_sub]

theorem var_eq {n : ℝ} (hn : 0 < n) (hN : n = 100000) (h : Mat 100000 128) (hh : AllReal h) :
    varCentred (n : EReal) h = varMoments (n : EReal) (colSum h) (colSumSq h) := by
  funext j
  choose f hf using hh
  have hcard : (Fintype.card (Fin 100000) : ℝ) = n := by rw [Fintype.card_fin, hN]; norm_num
  show Ideal.div (∑ p : Fin 100000, (h (ix2 p (j 1)) - Ideal.div (∑ r : Fin 100000, h (ix2 r (j 1))) (n : EReal))
        * (h (ix2 p (j 1)) - Ideal.div (∑ r : Fin 100000, h (ix2 r (j 1))) (n : EReal))) (n : EReal)
      = Ideal.div (∑ p : Fin 100000, h (ix2 p (j 1)) * h (ix2 p (j 1))) (n : EReal)
        - Ideal.div (∑ p : Fin 100000, h (ix2 p (j 1))) (n : EReal) * Ideal.div (∑ p : Fin 100000, h (ix2 p (j 1))) (n : EReal)
  simp only [hf]
  have e1 := centred_coe (fun p : Fin 100000 => f (ix2 p (j 1))) hn.ne'
  have e2 := moments_coe (fun p : Fin 100000 => f (ix2 p (j 1))) hn.ne'
  have e3 := real_var_identity (fun p : Fin 100000 => f (ix2 p (j 1))) hn.ne' hcard
  exact e1.trans ((congrArg (fun t : ℝ => (t : EReal)) e3).trans e2.symm)

theorem varCentred_nonneg {n : ℝ} (hn : 0 < n) (h : Mat 100000 128) (hh : AllReal h) (j) :
    ∃ v : ℝ, 0 ≤ v ∧ varCentred (n : EReal) h j = (v : EReal) := by
  choose f hf using hh
  refine ⟨(∑ p : Fin 100000, (f (ix2 p (j 1)) - (∑ r : Fin 100000, f (ix2 r (j 1))) * (1 / n))
      * (f (ix2 p (j 1)) - (∑ r : Fin 100000, f (ix2 r (j 1))) * (1 / n))) * (1 / n), ?_, ?_⟩
  · exact mul_nonneg (Finset.sum_nonneg fun p _ => mul_self_nonneg _) (one_div_pos.mpr hn).le
  · show Ideal.div (∑ p : Fin 100000, (h (ix2 p (j 1)) - Ideal.div (∑ r : Fin 100000, h (ix2 r (j 1))) (n : EReal))
        * (h (ix2 p (j 1)) - Ideal.div (∑ r : Fin 100000, h (ix2 r (j 1))) (n : EReal))) (n : EReal) = _
    simp only [hf]
    exact centred_coe (fun p : Fin 100000 => f (ix2 p (j 1))) hn.ne'

theorem allReal_leaky {c : EReal} {r : ℝ} (hc : c = (r : EReal)) (h0 : Ideal.ofBits .f32 0x00000000#32 = (0 : EReal))
    (y : EReal) (hy : ∃ t : ℝ, y = (t : EReal)) : ∃ t : ℝ, leaky c y = (t : EReal) := by
  obtain ⟨t, rfl⟩ := hy
  unfold leaky Scalar.select
  split
  · exact ⟨t, rfl⟩
  · exact ⟨r * t, by rw [hc, EReal.coe_mul]⟩

theorem allReal_edgeMsg {D : Nat} (ea : Mat 600000 7) (ewt : Mat 7 D) (eb : Mat 1 D) (xg : Mat 600000 D)
    (h0 : Ideal.ofBits .f32 0x00000000#32 = (0 : EReal))
    (hea : AllReal ea) (hew : AllReal ewt) (heb : AllReal eb) (hxg : AllReal xg) : AllReal (edgeMsg ea ewt eb xg) := by
  intro i
  unfold edgeMsg
  rw [h0]
  exact real_max (real_add (hxg _) (real_add (real_sum _ _ (fun k => real_mul (hea _) (hew _))) (heb _))) ⟨0, rfl⟩

theorem allReal_lin1 {D : Nat} (x aggr : Mat 100000 D) (w1t : Mat D 128) (b1 : Mat 1 128)
    (hx : AllReal x) (ha : AllReal aggr) (hw : AllReal w1t) (hb : AllReal b1) : AllReal (lin1 x aggr w1t b1) := by
  intro i
  unfold lin1
  exact real_add (real_sum _ _ (fun k => real_mul (real_add (hx _) (ha _)) (hw _))) (hb _)

theorem allReal_colSum (h : Mat 100000 128) (hh : AllReal h) : AllReal (colSum h) := by
  intro j
  unfold colSum
  exact real_sum _ _ (fun p => hh _)

theorem allReal_meanOf {n : ℝ} (hn : n ≠ 0) (s : Mat 1 128) (hs : AllReal s) : AllReal (meanOf (n : EReal) s) := by
  intro j
  unfold meanOf
  exact real_div hn (hs _)

theorem real_normActL {c : EReal} {r e : ℝ} (hc : c = (r : EReal)) (he : 0 < e)
    (h0 : Ideal.ofBits .f32 0x00000000#32 = (0 : EReal)) {h mu var g b : EReal}
    (hh : ∃ t : ℝ, h = (t : EReal)) (hmu : ∃ t : ℝ, mu = (t : EReal)) (hvar : ∃ v : ℝ, 0 ≤ v ∧ var = (v : EReal))
    (hg : ∃ t : ℝ, g = (t : EReal)) (hb : ∃ t : ℝ, b = (t : EReal)) :
    ∃ t : ℝ, normActL c (e : EReal) h mu var g b = (t : EReal) := by
  obtain ⟨v, hv, rfl⟩ := hvar
  unfold normActL
  exact allReal_leaky hc h0 _ (real_add (real_mul (real_mul hg (real_sub hh hmu)) (real_rsqrt hv he)) hb)

theorem allReal_bnActTwice {c : EReal} {r e : ℝ} (hc : c = (r : EReal)) (he : 0 < e)
    (h0 : Ideal.ofBits .f32 0x00000000#32 = (0 : EReal)) (h1 : Mat 100000 128) (mu var g b : Mat 1 128)
    (w2t : Mat 128 128) (b2 : Mat 1 128)
    (hh : AllReal h1) (hmu : AllReal mu) (hvar : ∀ j, ∃ v : ℝ, 0 ≤ v ∧ var j = (v : EReal)) (hg : AllReal g)
    (hb : AllReal b) (hw : AllReal w2t) (hb2 : AllReal b2) :
    AllReal (bnActTwice c (e : EReal) h1 mu var g b w2t b2) := by
  intro i
  unfold bnActTwice
  exact allReal_leaky hc h0 _ (allReal_leaky hc h0 _ (real_add (real_sum _ _ (fun k =>
    real_mul (real_normActL hc he h0 (hh _) (hmu _) (hvar _) (hg _) (hb _)) (hw _))) (hb2 _)))

theorem allReal_sum_filter {ι κ : Type} [Fintype κ] [DecidableEq ι] (x : ι → EReal) (u : κ → EReal) (f : κ → Option ι)
    (hx : AllReal x) (hu : AllReal u) :
    AllReal (fun i => x i + ∑ j ∈ Finset.univ.filter (fun j => f j = some i), u j) := by
  intro i
  exact real_add (hx i) (real_sum _ _ hu)

theorem allReal_hostScatterAdd {s si su : Shape} (d : ScatterDims s si su) {w : Nat} (x : s.Idx → EReal) (idx : IVec si w)
    (upd : su.Idx → EReal) (hx : AllReal x) (hu : AllReal upd) : AllReal (Ideal.hostScatterAdd d x idx upd) :=
  allReal_sum_filter x upd (fun j => d.resultIdx? j idx) hx hu

end Cert.Spec

end
-- ==== Proof.LayerBridge.lean ====
import proofs.«425852_j85495618995090_1_alg».proof.Proof.Spec
import proofs.«425852_j85495618995090_1_alg».proof.Proof.LeakyMath
import proofs.«425852_j85495618995090_1_alg».proof.Proof.MomentMath

noncomputable section

namespace Cert.Spec

open Idealize.ShloMosaic Idealize.ShloMosaic.ValueIdx

def layerFused {D : Nat} (c c2 eps n : EReal) (gth : Mat 100000 D → Mat 600000 D) (sct : Mat 600000 D → Mat 100000 D)
    (x : Mat 100000 D) (ea : Mat 600000 7) (ewt : Mat 7 D) (eb : Mat 1 D) (w1t : Mat D 128) (b1 g b : Mat 1 128)
    (w2t : Mat 128 128) (b2 : Mat 1 128) : Mat 100000 128 :=
  bnActFused c c2 eps (lin1 x (sct (edgeMsg ea ewt eb (gth x))) w1t b1)
    (meanOf n (colSum (lin1 x (sct (edgeMsg ea ewt eb (gth x))) w1t b1)))
    (varMoments n (colSum (lin1 x (sct (edgeMsg ea ewt eb (gth x))) w1t b1))
      (colSumSq (lin1 x (sct (edgeMsg ea ewt eb (gth x))) w1t b1))) g b w2t b2

def layerTwice {D : Nat} (c eps n : EReal) (gth : Mat 100000 D → Mat 600000 D) (sct : Mat 600000 D → Mat 100000 D)
    (x : Mat 100000 D) (ea : Mat 600000 7) (ewt : Mat 7 D) (eb : Mat 1 D) (w1t : Mat D 128) (b1 g b : Mat 1 128)
    (w2t : Mat 128 128) (b2 : Mat 1 128) : Mat 100000 128 :=
  bnActTwice c eps (lin1 x (sct (edgeMsg ea ewt eb (gth x))) w1t b1)
    (meanOf n (colSum (lin1 x (sct (edgeMsg ea ewt eb (gth x))) w1t b1)))
    (varCentred n (lin1 x (sct (edgeMsg ea ewt eb (gth x))) w1t b1)) g b w2t b2

theorem layer_bridge {D : Nat} {c c2 eps n : EReal} {r e N : ℝ} (hc : c = (r : EReal)) (hr : 0 < r) (h2 : c2 = c * c)
    (he : 0 < e) (heps : eps = (e : EReal)) (hn : n = (N : EReal)) (hN : N = 100000)
    (h0 : Ideal.ofBits .f32 0x00000000#32 = (0 : EReal))
    (gK gR : Mat 100000 D → Mat 600000 D) (sK sR : Mat 600000 D → Mat 100000 D)
    (hg : ∀ x, AllReal x → gK x = gR x) (hgr : ∀ x, AllReal x → AllReal (gR x))
    (hs : sK = sR) (hsr : ∀ u, AllReal u → AllReal (sR u))
    (x : Mat 100000 D) (ea : Mat 600000 7) (ewt : Mat 7 D) (eb : Mat 1 D) (w1t : Mat D 128) (b1 g b : Mat 1 128)
    (w2t : Mat 128 128) (b2 : Mat 1 128)
    (hx : AllReal x) (hea : AllReal ea) (hewt : AllReal ewt) (heb : AllReal eb) (hw1 : AllReal w1t) (hb1 : AllReal b1)
    (hg' : AllReal g) (hb : AllReal b) (hw2 : AllReal w2t) (hb2 : AllReal b2) :
    layerFused c c2 eps n gK sK x ea ewt eb w1t b1 g b w2t b2 = layerTwice c eps n gR sR x ea ewt eb w1t b1 g b w2t b2
      ∧ AllReal (layerTwice c eps n gR sR x ea ewt eb w1t b1 g b w2t b2) := by
  subst hs
  have hNpos : (0 : ℝ) < N := by rw [hN]; norm_num
  have hm : AllReal (edgeMsg ea ewt eb (gR x)) := allReal_edgeMsg ea ewt eb (gR x) h0 hea hewt heb (hgr x hx)
  have hh : AllReal (lin1 x (sK (edgeMsg ea ewt eb (gR x))) w1t b1) :=
    allReal_lin1 x _ w1t b1 hx (hsr _ hm) hw1 hb1
  have hvar := var_eq (n := N) hNpos hN _ hh
  refine ⟨?_, ?_⟩
  · unfold layerFused layerTwice
    rw [hg x hx, hn, ← hvar, heps]
    exact (bnAct_eq hc hr h2 _ _ _ _ _ _ _ _).symm
  · unfold layerTwice
    rw [hn, heps]
    exact allReal_bnActTwice hc he h0 _ _ _ _ _ _ _ hh
      (allReal_meanOf (ne_of_gt hNpos) _ (allReal_colSum _ hh)) (fun j => varCentred_nonneg hNpos _ hh j) hg' hb hw2 hb2

end Cert.Spec

end
-- ==== Proof.NetBridge.lean ====
import proofs.«425852_j85495618995090_1_alg».proof.Proof.LayerBridge

noncomputable section

namespace Cert.Spec

open Idealize.ShloMosaic Idealize.ShloMosaic.ValueIdx

theorem network_bridge {c c2 eps n : EReal} {r e N : ℝ} (hc : c = (r : EReal)) (hr : 0 < r) (h2 : c2 = c * c)
    (he : 0 < e) (heps : eps = (e : EReal)) (hn : n = (N : EReal)) (hN : N = 100000)
    (h0 : Ideal.ofBits .f32 0x00000000#32 = (0 : EReal))
    (gK2 gR2 : Mat 100000 2 → Mat 600000 2) (sK2 sR2 : Mat 600000 2 → Mat 100000 2)
    (gK gR : Mat 100000 128 → Mat 600000 128) (sK sR : Mat 600000 128 → Mat 100000 128)
    (hg2 : ∀ x, AllReal x → gK2 x = gR2 x) (hgr2 : ∀ x, AllReal x → AllReal (gR2 x))
    (hs2 : sK2 = sR2) (hsr2 : ∀ u, AllReal u → AllReal (sR2 u))
    (hg : ∀ x, AllReal x → gK x = gR x) (hgr : ∀ x, AllReal x → AllReal (gR x))
    (hs : sK = sR) (hsr : ∀ u, AllReal u → AllReal (sR u))
    (pool : Mat 100000 128 → Mat 64 128)
    (x : Mat 100000 2) (ea : Mat 600000 7)
    (ewt0 : Mat 7 2) (eb0 : Mat 1 2) (w1t0 : Mat 2 128) (b10 g0 be0 : Mat 1 128) (w2t0 : Mat 128 128) (b20 : Mat 1 128)
    (ewt1 : Mat 7 128) (eb1 : Mat 1 128) (w1t1 : Mat 128 128) (b11 g1 be1 : Mat 1 128) (w2t1 : Mat 128 128) (b21 : Mat 1 128)
    (ewt2 : Mat 7 128) (eb2 : Mat 1 128) (w1t2 : Mat 128 128) (b12 g2 be2 : Mat 1 128) (w2t2 : Mat 128 128) (b22 : Mat 1 128)
    (ewt3 : Mat 7 128) (eb3 : Mat 1 128) (w1t3 : Mat 128 128) (b13 g3 be3 : Mat 1 128) (w2t3 : Mat 128 128) (b23 : Mat 1 128)
    (wrt : Mat 128 500) (br : Mat 1 500) (wet : Mat 500 1) (bE : Mat 1 1)
    (hx : AllReal x) (hea : AllReal ea)
    (hewt0 : AllReal ewt0) (heb0 : AllReal eb0) (hw1t0 : AllReal w1t0) (hb10 : AllReal b10) (hga0 : AllReal g0) (hbe0 : AllReal be0) (hw2t0 : AllReal w2t0) (hb20 : AllReal b20)
    (hewt1 : AllReal ewt1) (heb1 : AllReal eb1) (hw1t1 : AllReal w1t1) (hb11 : AllReal b11) (hga1 : AllReal g1) (hbe1 : AllReal be1) (hw2t1 : AllReal w2t1) (hb21 : AllReal b21)
    (hewt2 : AllReal ewt2) (heb2 : AllReal eb2) (hw1t2 : AllReal w1t2) (hb12 : AllReal b12) (hga2 : AllReal g2) (hbe2 : AllReal be2) (hw2t2 : AllReal w2t2) (hb22 : AllReal b22)
    (hewt3 : AllReal ewt3) (heb3 : AllReal eb3) (hw1t3 : AllReal w1t3) (hb13 : AllReal b13) (hga3 : AllReal g3) (hbe3 : AllReal be3) (hw2t3 : AllReal w2t3) (hb23 : AllReal b23)
    (y0K y1K y2K y3K y0R y1R y2R y3R : Mat 100000 128) (outK outR : Mat 64 1)
    (K0 : y0K = layerFused c c2 eps n gK2 sK2 x ea ewt0 eb0 w1t0 b10 g0 be0 w2t0 b20)
    (K1 : y1K = layerFused c c2 eps n gK sK y0K ea ewt1 eb1 w1t1 b11 g1 be1 w2t1 b21)
    (K2 : y2K = layerFused c c2 eps n gK sK y1K ea ewt2 eb2 w1t2 b12 g2 be2 w2t2 b22)
    (K3 : y3K = layerFused c c2 eps n gK sK y2K ea ewt3 eb3 w1t3 b13 g3 be3 w2t3 b23)
    (KT : outK = regHead c (pool y3K) wrt br wet bE)
    (R0 : y0R = layerTwice c eps n gR2 sR2 x ea ewt0 eb0 w1t0 b10 g0 be0 w2t0 b20)
    (R1 : y1R = layerTwice c eps n gR sR y0R ea ewt1 eb1 w1t1 b11 g1 be1 w2t1 b21)
    (R2 : y2R = layerTwice c eps n gR sR y1R ea ewt2 eb2 w1t2 b12 g2 be2 w2t2 b22)
    (R3 : y3R = layerTwice c eps n gR sR y2R ea ewt3 eb3 w1t3 b13 g3 be3 w2t3 b23)
    (RT : outR = regHead c (pool y3R) wrt br wet bE) : outK = outR := by
  obtain ⟨e0, a0⟩ := layer_bridge hc hr h2 he heps hn hN h0 gK2 gR2 sK2 sR2 hg2 hgr2 hs2 hsr2 x ea ewt0 eb0 w1t0 b10 g0 be0 w2t0 b20
    hx hea hewt0 heb0 hw1t0 hb10 hga0 hbe0 hw2t0 hb20
  have E0 : y0K = y0R := by rw [K0, R0]; exact e0
  have A0 : AllReal y0R := by rw [R0]; exact a0
  rw [E0] at K1
  obtain ⟨e1, a1⟩ := layer_bridge hc hr h2 he heps hn hN h0 gK gR sK sR hg hgr hs hsr y0R ea ewt1 eb1 w1t1 b11 g1 be1 w2t1 b21
    A0 hea hewt1 heb1 hw1t1 hb11 hga1 hbe1 hw2t1 hb21
  have E1 : y1K = y1R := by rw [K1, R1]; exact e1
  have A1 : AllReal y1R := by rw [R1]; exact a1
  rw [E1] at K2
  obtain ⟨e2, a2⟩ := layer_bridge hc hr h2 he heps hn hN h0 gK gR sK sR hg hgr hs hsr y1R ea ewt2 eb2 w1t2 b12 g2 be2 w2t2 b22
    A1 hea hewt2 heb2 hw1t2 hb12 hga2 hbe2 hw2t2 hb22
  have E2 : y2K = y2R := by rw [K2, R2]; exact e2
  have A2 : AllReal y2R := by rw [R2]; exact a2
  rw [E2] at K3
  obtain ⟨e3, _⟩ := layer_bridge hc hr h2 he heps hn hN h0 gK gR sK sR hg hgr hs hsr y2R ea ewt3 eb3 w1t3 b13 g3 be3 w2t3 b23
    A2 hea hewt3 heb3 hw1t3 hb13 hga3 hbe3 hw2t3 hb23
  have E3 : y3K = y3R := by rw [K3, R3]; exact e3
  rw [KT, RT, E3]

end Cert.Spec

end
-- ==== Proof.GatherScatter.lean ====
import proofs.«425852_j85495618995090_1_alg».proof.KernelIdeal
import proofs.«425852_j85495618995090_1_alg».proof.ReferenceIdeal
import proofs.«425852_j85495618995090_1_alg».proof.Proof.Spec
import Idealize.ShloMosaic.Lib.ValueIdx
import Idealize.ShloMosaic.Lib.StableHlo.Predicate

noncomputable section

namespace Cert.GatherScatter

open Idealize.ShloMosaic Idealize.ShloMosaic.ValueIdx
open Cert.KernelIdeal (S_ S1 S1x1 S600000 S600000x1 S600000x2 S600000x128 S100000x2 S100000x128)

theorem toNat_lt (w : BitVec 32) (h : 0 ≤ w.toInt ∧ w.toInt < 100000) : w.toNat < 100000 := by
  have hc := BitVec.toInt_eq_toNat_cond w
  have hl := w.isLt
  split at hc <;> omega

theorem toInt_toNat (w : BitVec 32) (h : 0 ≤ w.toInt) : w.toInt.toNat = w.toNat := by
  have hc := BitVec.toInt_eq_toNat_cond w
  have hl := w.isLt
  split at hc <;> omega

theorem slt_zero (w : BitVec 32) (h : 0 ≤ w.toInt) : IntOp.cmpi .slt w 0#32 = 0#1 := by
  have z : (0#32 : BitVec 32).toInt = 0 := by decide
  have hb : w.slt 0#32 = false := by
    simp only [BitVec.slt, z, decide_eq_false_iff_not]; omega
  show BitVec.ofBool (w.slt 0#32) = 0#1
  rw [hb]; rfl

theorem sge_zero (w : BitVec 32) (h : 0 ≤ w.toInt) : IntOp.cmpi .sge w 0#32 = 1#1 := by
  have z : (0#32 : BitVec 32).toInt = 0 := by decide
  have hb : (0#32 : BitVec 32).sle w = true := by
    simp only [BitVec.sle, z, decide_eq_true_eq]; exact h
  show BitVec.ofBool ((0#32 : BitVec 32).sle w) = 1#1
  rw [hb]; rfl

theorem sle_last (w : BitVec 32) (h : w.toInt < 100000) : IntOp.cmpi .sle w 99999#32 = 1#1 := by
  have z : (99999#32 : BitVec 32).toInt = 99999 := by decide
  have hb : w.sle 99999#32 = true := by
    simp only [BitVec.sle, z, decide_eq_true_eq]; omega
  show BitVec.ofBool (w.sle 99999#32) = 1#1
  rw [hb]; rfl

theorem bcast_first {α : Type} {n m : Nat} (h : (⟨1, ![n]⟩ : Shape).BroadcastsInDim ⟨2, ![n, m]⟩ ![0])
    (v : (⟨1, ![n]⟩ : Shape).Idx → α) (j : (⟨2, ![n, m]⟩ : Shape).Idx) :
    broadcastInDim ⟨2, ![n, m]⟩ ![0] h v j = v (ix1 (j 0)) := by
  simp only [broadcastInDim]
  congr 1
  funext a
  have ha : a = 0 := Subsingleton.elim _ _
  subst ha
  apply Fin.ext
  have hp := (j 0).isLt
  split
  · next h1 => change n = 1 at h1; change (j 0).val < n at hp; show (0 : Nat) = (j 0).val; omega
  · rfl

theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  show List.foldl (fun r i => IntOp.andi r (x i)) 1#1 _ = 1#1
  generalize (List.filter (fun i => decide (h.drop i = j)) (List.map (⇑s.rowMajor.symm) (List.finRange s.numel))) = l
  induction l with
  | nil => rfl
  | cons a l ih =>
    rw [List.foldl_cons, hx a]
    exact ih

theorem gather_rows {α : Type} {N n D w : Nat} (hN : 0 < N) (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (j : (⟨2, ![n, D]⟩ : Shape).Idx) :
    Host.gather d x idx j = x (ix2 ⟨min (idx (ix2 (j 0) 0)).toInt.toNat (N - 1), by omega⟩ (j 1)) := by
  have hb : ∀ c : Fin 2, c ∉ d.operandBatchingDims := by intro c; rw [hob]; exact List.not_mem_nil
  have hbd : d.batchDims = [(0 : Fin 2)] := by
    show (List.finRange 2).filter (fun c => decide (c ∉ d.offsetDims)) = _
    rw [hoff]
    show (List.finRange 2).filter (fun c : Fin 2 => decide (c ∉ ([1] : List (Fin 2)))) = [(0 : Fin 2)]
    decide
  have hsk : d.sKept = [(1 : Fin 2)] := by
    show (List.finRange 2).filter (fun c => decide (c ∉ d.collapsedSliceDims ++ d.operandBatchingDims)) = _
    rw [hcoll, hob, List.append_nil]
    show (List.finRange 2).filter (fun c : Fin 2 => decide (c ∉ ([0] : List (Fin 2)))) = [(1 : Fin 2)]
    decide
  have hbd' : ∀ (k : Nat) (hk : k < d.batchDims.length), d.batchDims[k]'hk = (0 : Fin 2) := by
    intro k hk
    rw [List.getElem_of_eq hbd hk]
    have h0 : k = 0 := by rw [hbd] at hk; simpa using hk
    subst h0; rfl
  have hod' : ∀ (k : Nat) (hk : k < d.offsetDims.length), d.offsetDims[k]'hk = (1 : Fin 2) := by
    intro k hk
    rw [List.getElem_of_eq hoff hk]
    have h0 : k = 0 := by rw [hoff] at hk; simpa using hk
    subst h0; rfl
  have two : ∀ c : Fin 2, c = (0 : Fin 2) ∨ c = (1 : Fin 2) := by decide
  unfold Host.gather
  congr 1
  funext a
  rcases two a with rfl | rfl
  ·
    apply Fin.ext
    have hk : (0 : Fin 2) ∉ d.sKept := by
      rw [hsk]
      show (0 : Fin 2) ∉ ([1] : List (Fin 2))
      decide
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    have hsi : d.siIdx j ⟨List.idxOf (0 : Fin 2) d.startIndexMap, List.idxOf_lt_length_iff.2 hm⟩ = ix2 (j 0) 0 := by
      funext b
      rcases two b with rfl | rfl
      · unfold GatherDims.siIdx
        rw [dif_neg (by rw [hivd]; show ¬ ((0 : Fin 2) : Nat) = 1; decide)]
        unfold GatherDims.siCoord
        apply Fin.ext
        simp only [Fin.val_cast]
        rw [hbd']
      · unfold GatherDims.siIdx
        rw [dif_pos (by rw [hivd]; rfl)]
        apply Fin.ext
        show List.idxOf (0 : Fin 2) d.startIndexMap = 0
        rw [hsim]; simp
    simp only [GatherDims.operandIdx, GatherDims.batchCoord_eq_zero _ _ _ (hb _), GatherDims.offCoord_eq_zero _ _ _ hk,
      Nat.add_zero, GatherDims.start, dif_pos hm]
    rw [hsi, hsl]
    rfl
  ·
    apply Fin.ext
    have hk : (1 : Fin 2) ∈ d.sKept := by rw [hsk]; exact List.mem_singleton.mpr rfl
    have hm : (1 : Fin 2) ∉ d.startIndexMap := by
      rw [hsim]
      show (1 : Fin 2) ∉ ([0] : List (Fin 2))
      decide
    simp only [GatherDims.operandIdx, GatherDims.batchCoord_eq_zero _ _ _ (hb _), Nat.add_zero, GatherDims.start, dif_neg hm,
      Nat.zero_add, GatherDims.offCoord, dif_pos hk]
    rw [hod']

theorem gather_rows_at {α : Type} {N n D w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (j : (⟨2, ![n, D]⟩ : Shape).Idx) (r : Fin N)
    (hr : (idx (ix2 (j 0) 0)).toInt.toNat = r.val) :
    Host.gather d x idx j = x (ix2 r (j 1)) := by
  have hN : 0 < N := by have := r.isLt; omega
  rw [gather_rows hN d hoff hcoll hob hsim hivd]
  have e : (⟨min (idx (ix2 (j 0) 0)).toInt.toNat (N - 1), by omega⟩ : Fin N) = r := Fin.ext (by
    show min (idx (ix2 (j 0) 0)).toInt.toNat (N - 1) = r.val
    rw [hr]; exact Nat.min_eq_left (by have := r.isLt; omega))
  rw [e]

theorem norm_eq (bc : S_.BroadcastsInDim S600000 (![] : Fin 0 → Fin S600000.rank)) (src : IVec S600000 32)
    (hsrc : ∀ e : Fin 600000, 0 ≤ (src (ix1 e)).toInt ∧ (src (ix1 e)).toInt < 100000) :
    select (cmpi .slt src (broadcastInDim S600000 ![] bc (constantI S_ 32 0#32)))
      (addi src (broadcastInDim S600000 ![] bc (constantI S_ 32 100000#32))) src = src := by
  funext k
  rw [eq_ix1 k]
  show Scalar.select (IntOp.cmpi .slt (src (ix1 (k 0))) 0#32) _ _ = _
  rw [slt_zero _ (hsrc (k 0)).1, select_zero]

theorem mask_one (b1 : S600000.BroadcastsInDim S600000x1 (![0] : Fin 1 → Fin S600000x1.rank))
    (b2 : S_.BroadcastsInDim S600000x1 (![] : Fin 0 → Fin S600000x1.rank))
    (b3 : S1.BroadcastsInDim S1x1 (![1] : Fin 1 → Fin S1x1.rank))
    (b4 : S1x1.BroadcastsInDim S600000x1 (![0, 1] : Fin 2 → Fin S600000x1.rank))
    (hr : S600000x1.ReducesTo [1] S600000) (h0 : 0 < S_.numel) (src : IVec S600000 32)
    (hsrc : ∀ e : Fin 600000, 0 ≤ (src (ix1 e)).toInt ∧ (src (ix1 e)).toInt < 100000) (k : S600000.Idx) :
    Host.reduce IntOp.andi
      (andi (cmpi .sge (broadcastInDim S600000x1 ![0] b1 src) (broadcastInDim S600000x1 ![] b2 (constantI S_ 32 0#32)))
        (cmpi .sle (broadcastInDim S600000x1 ![0] b1 src)
          (broadcastInDim S600000x1 ![0, 1] b4 (broadcastInDim S1x1 ![1] b3 (constantI S1 32 99999#32)))))
      (constantI S_ 1 1#1) hr h0 k = 1#1 := by
  apply reduce_andi_ones
  intro i
  show IntOp.andi (IntOp.cmpi .sge (broadcastInDim S600000x1 ![0] b1 src i) 0#32)
    (IntOp.cmpi .sle (broadcastInDim S600000x1 ![0] b1 src i) 99999#32) = 1#1
  rw [bcast_first]
  have h := hsrc (i 0)
  rw [sge_zero _ h.1, sle_last _ h.2]
  rfl

section KernelProgram

variable [hK : Cert.KernelIdeal.Facts₀]

def takeK2 (x : FVec Ideal S100000x2 .f32) (src : IVec S600000 32) : FVec Ideal S600000x2 .f32 :=
  let c : IVec S_ 32 := constantI S_ 32 0#32
  let v0 : IVec S600000 32 := broadcastInDim S600000 ![] Cert.KernelIdeal.Facts₀.bcast_S_S600000 c
  let v1 : IVec S600000 1 := cmpi .slt src v0
  let c_0 : IVec S_ 32 := constantI S_ 32 100000#32
  let v2 : IVec S600000 32 := broadcastInDim S600000 ![] Cert.KernelIdeal.Facts₀.bcast_S_S600000 c_0
  let v3 : IVec S600000 32 := addi src v2
  let v4 : IVec S600000 32 := select v1 v3 src
  let v5 : IVec S600000x1 32 := broadcastInDim S600000x1 ![0] Cert.KernelIdeal.Facts₀.bcast_S600000_S600000x1_0 v4
  let c_1 : IVec S1 32 := constantI S1 32 99999#32
  let c_2 : IVec S_ 32 := constantI S_ 32 0#32
  let v6 : IVec S600000x1 32 := broadcastInDim S600000x1 ![] Cert.KernelIdeal.Facts₀.bcast_S_S600000x1 c_2
  let v7 : IVec S600000x1 1 := cmpi .sge v5 v6
  let v8 : IVec S1x1 32 := broadcastInDim S1x1 ![1] Cert.KernelIdeal.Facts₀.bcast_S1_S1x1_1 c_1
  let v9 : IVec S600000x1 32 := broadcastInDim S600000x1 ![0, 1] Cert.KernelIdeal.Facts₀.bcast_S1x1_S600000x1_0_1 v8
  let v10 : IVec S600000x1 1 := cmpi .sle v5 v9
  let v11 : IVec S600000x1 1 := andi v7 v10
  let c_3 : IVec S_ 1 := constantI S_ 1 1#1
  let v12 : IVec S600000 1 := Host.reduce IntOp.andi v11 c_3 Cert.KernelIdeal.Facts₀.reducesTo_S600000x1_S600000_d1 Cert.KernelIdeal.Facts₀.h_S_
  let v13 : FVec Ideal S600000x2 .f32 := Host.gather Cert.KernelIdeal.gather_S100000x2_S600000x1_S600000x2_1_0_n_n_0_1_12 x v5
  let v14 : IVec S600000x2 1 := broadcastInDim S600000x2 ![0] Cert.KernelIdeal.Facts₀.bcast_S600000_S600000x2_0 v12
  let cst : FVec Ideal S_ .f32 := constant S_ .f32 0x7FC00000#32
  let v15 : FVec Ideal S600000x2 .f32 := broadcastInDim S600000x2 ![] Cert.KernelIdeal.Facts₀.bcast_S_S600000x2 cst
  select v14 v13 v15

theorem takeK2_rows (x : FVec Ideal S100000x2 .f32) (src : IVec S600000 32)
    (hsrc : ∀ e : Fin 600000, 0 ≤ (src (ix1 e)).toInt ∧ (src (ix1 e)).toInt < 100000) :
    takeK2 x src = fun i : S600000x2.Idx => x (ix2 ⟨(src (ix1 (i 0))).toNat, toNat_lt _ (hsrc (i 0))⟩ (i 1)) := by
  funext i
  simp only [takeK2, norm_eq _ src hsrc]
  rw [select_apply, bcast_first, mask_one _ _ _ _ _ _ src hsrc, select_one]
  exact gather_rows_at _ rfl rfl rfl rfl rfl x _ i ⟨_, _⟩ (by rw [bcast_first]; exact toInt_toNat _ (hsrc _).1)

def takeK128 (x : FVec Ideal S100000x128 .f32) (src : IVec S600000 32) : FVec Ideal S600000x128 .f32 :=
  let c : IVec S_ 32 := constantI S_ 32 0#32
  let v0 : IVec S600000 32 := broadcastInDim S600000 ![] Cert.KernelIdeal.Facts₀.bcast_S_S600000 c
  let v1 : IVec S600000 1 := cmpi .slt src v0
  let c_0 : IVec S_ 32 := constantI S_ 32 100000#32
  let v2 : IVec S600000 32 := broadcastInDim S600000 ![] Cert.KernelIdeal.Facts₀.bcast_S_S600000 c_0
  let v3 : IVec S600000 32 := addi src v2
  let v4 : IVec S600000 32 := select v1 v3 src
  let v5 : IVec S600000x1 32 := broadcastInDim S600000x1 ![0] Cert.KernelIdeal.Facts₀.bcast_S600000_S600000x1_0 v4
  let c_1 : IVec S1 32 := constantI S1 32 99999#32
  let c_2 : IVec S_ 32 := constantI S_ 32 0#32
  let v6 : IVec S600000x1 32 := broadcastInDim S600000x1 ![] Cert.KernelIdeal.Facts₀.bcast_S_S600000x1 c_2
  let v7 : IVec S600000x1 1 := cmpi .sge v5 v6
  let v8 : IVec S1x1 32 := broadcastInDim S1x1 ![1] Cert.KernelIdeal.Facts₀.bcast_S1_S1x1_1 c_1
  let v9 : IVec S600000x1 32 := broadcastInDim S600000x1 ![0, 1] Cert.KernelIdeal.Facts₀.bcast_S1x1_S600000x1_0_1 v8
  let v10 : IVec S600000x1 1 := cmpi .sle v5 v9
  let v11 : IVec S600000x1 1 := andi v7 v10
  let c_3 : IVec S_ 1 := constantI S_ 1 1#1
  let v12 : IVec S600000 1 := Host.reduce IntOp.andi v11 c_3 Cert.KernelIdeal.Facts₀.reducesTo_S600000x1_S600000_d1 Cert.KernelIdeal.Facts₀.h_S_
  let v13 : FVec Ideal S600000x128 .f32 := Host.gather Cert.KernelIdeal.gather_S100000x128_S600000x1_S600000x128_1_0_n_n_0_1_1128 x v5
  let v14 : IVec S600000x128 1 := broadcastInDim S600000x128 ![0] Cert.KernelIdeal.Facts₀.bcast_S600000_S600000x128_0 v12
  let cst : FVec Ideal S_ .f32 := constant S_ .f32 0x7FC00000#32
  let v15 : FVec Ideal S600000x128 .f32 := broadcastInDim S600000x128 ![] Cert.KernelIdeal.Facts₀.bcast_S_S600000x128 cst
  select v14 v13 v15

theorem takeK128_rows (x : FVec Ideal S100000x128 .f32) (src : IVec S600000 32)
    (hsrc : ∀ e : Fin 600000, 0 ≤ (src (ix1 e)).toInt ∧ (src (ix1 e)).toInt < 100000) :
    takeK128 x src = fun i : S600000x128.Idx => x (ix2 ⟨(src (ix1 (i 0))).toNat, toNat_lt _ (hsrc (i 0))⟩ (i 1)) := by
  funext i
  simp only [takeK128, norm_eq _ src hsrc]
  rw [select_apply, bcast_first, mask_one _ _ _ _ _ _ src hsrc, select_one]
  exact gather_rows_at _ rfl rfl rfl rfl rfl x _ i ⟨_, _⟩ (by rw [bcast_first]; exact toInt_toNat _ (hsrc _).1)

end KernelProgram

section Reference

variable [hR : Cert.ReferenceIdeal.Facts₀]

def takeR2 (x : FVec Ideal S100000x2 .f32) (src : IVec S600000 32) : FVec Ideal S600000x2 .f32 :=
  let c : IVec S_ 32 := constantI S_ 32 0#32
  let v9 : IVec S600000 32 := broadcastInDim S600000 ![] Cert.ReferenceIdeal.Facts₀.bcast_S_S600000 c
  let v10 : IVec S600000 1 := cmpi .slt src v9
  let c_0 : IVec S_ 32 := constantI S_ 32 100000#32
  let v11 : IVec S600000 32 := broadcastInDim S600000 ![] Cert.ReferenceIdeal.Facts₀.bcast_S_S600000 c_0
  let v12 : IVec S600000 32 := addi src v11
  let v13 : IVec S600000 32 := select v10 v12 src
  let v14 : IVec S600000x1 32 := broadcastInDim S600000x1 ![0] Cert.ReferenceIdeal.Facts₀.bcast_S600000_S600000x1_0 v13
  Host.gather Cert.ReferenceIdeal.gather_S100000x2_S600000x1_S600000x2_1_0_n_n_0_1_12 x v14

theorem takeR2_rows (x : FVec Ideal S100000x2 .f32) (src : IVec S600000 32)
    (hsrc : ∀ e : Fin 600000, 0 ≤ (src (ix1 e)).toInt ∧ (src (ix1 e)).toInt < 100000) :
    takeR2 x src = fun i : S600000x2.Idx => x (ix2 ⟨(src (ix1 (i 0))).toNat, toNat_lt _ (hsrc (i 0))⟩ (i 1)) := by
  funext i
  simp only [takeR2, norm_eq _ src hsrc]
  exact gather_rows_at _ rfl rfl rfl rfl rfl x _ i ⟨_, _⟩ (by rw [bcast_first]; exact toInt_toNat _ (hsrc _).1)

theorem allReal_take2 (x : FVec Ideal S100000x2 .f32) (src : IVec S600000 32) (hx : Cert.Spec.AllReal x) :
    Cert.Spec.AllReal (takeR2 x src) := by
  intro i
  exact hx _

def takeR128 (x : FVec Ideal S100000x128 .f32) (src : IVec S600000 32) : FVec Ideal S600000x128 .f32 :=
  let c : IVec S_ 32 := constantI S_ 32 0#32
  let v9 : IVec S600000 32 := broadcastInDim S600000 ![] Cert.ReferenceIdeal.Facts₀.bcast_S_S600000 c
  let v10 : IVec S600000 1 := cmpi .slt src v9
  let c_0 : IVec S_ 32 := constantI S_ 32 100000#32
  let v11 : IVec S600000 32 := broadcastInDim S600000 ![] Cert.ReferenceIdeal.Facts₀.bcast_S_S600000 c_0
  let v12 : IVec S600000 32 := addi src v11
  let v13 : IVec S600000 32 := select v10 v12 src
  let v14 : IVec S600000x1 32 := broadcastInDim S600000x1 ![0] Cert.ReferenceIdeal.Facts₀.bcast_S600000_S600000x1_0 v13
  Host.gather Cert.ReferenceIdeal.gather_S100000x128_S600000x1_S600000x128_1_0_n_n_0_1_1128 x v14

theorem takeR128_rows (x : FVec Ideal S100000x128 .f32) (src : IVec S600000 32)
    (hsrc : ∀ e : Fin 600000, 0 ≤ (src (ix1 e)).toInt ∧ (src (ix1 e)).toInt < 100000) :
    takeR128 x src = fun i : S600000x128.Idx => x (ix2 ⟨(src (ix1 (i 0))).toNat, toNat_lt _ (hsrc (i 0))⟩ (i 1)) := by
  funext i
  simp only [takeR128, norm_eq _ src hsrc]
  exact gather_rows_at _ rfl rfl rfl rfl rfl x _ i ⟨_, _⟩ (by rw [bcast_first]; exact toInt_toNat _ (hsrc _).1)

theorem allReal_take128 (x : FVec Ideal S100000x128 .f32) (src : IVec S600000 32) (hx : Cert.Spec.AllReal x) :
    Cert.Spec.AllReal (takeR128 x src) := by
  intro i
  exact hx _

end Reference

section Agree

variable [hK : Cert.KernelIdeal.Facts₀] [hR : Cert.ReferenceIdeal.Facts₀]

theorem take_rows2 (x : FVec Ideal S100000x2 .f32) (src : IVec S600000 32)
    (hsrc : ∀ e : Fin 600000, 0 ≤ (src (ix1 e)).toInt ∧ (src (ix1 e)).toInt < 100000) :
    takeK2 x src = takeR2 x src := by
  rw [takeK2_rows x src hsrc, takeR2_rows x src hsrc]

theorem take_rows128 (x : FVec Ideal S100000x128 .f32) (src : IVec S600000 32)
    (hsrc : ∀ e : Fin 600000, 0 ≤ (src (ix1 e)).toInt ∧ (src (ix1 e)).toInt < 100000) :
    takeK128 x src = takeR128 x src := by
  rw [takeK128_rows x src hsrc, takeR128_rows x src hsrc]

end Agree

end Cert.GatherScatter

end
-- ==== Proof.ScatterFacts.lean ====
import proofs.«425852_j85495618995090_1_alg».proof.KernelIdeal
import proofs.«425852_j85495618995090_1_alg».proof.ReferenceIdeal
import proofs.«425852_j85495618995090_1_alg».proof.Proof.Spec
import proofs.«425852_j85495618995090_1_alg».proof.Proof.MomentMath

noncomputable section

namespace Cert.ScatterFacts

open Idealize.ShloMosaic

section kernel
variable [Cert.KernelIdeal.Facts₀]
open Cert.KernelIdeal Cert.KernelIdeal.Facts₀

def scatK2 (dst : IVec S600000 32) (u : FVec Ideal S600000x2 .f32) : FVec Ideal S100000x2 .f32 :=
  Host.scatterAdd scatter_S100000x2_S600000x1_S600000x2_1_0_0_1
    (broadcastInDim S100000x2 ![] bcast_S_S100000x2 (constant S_ .f32 0x00000000#32))
    (broadcastInDim S600000x1 ![0] bcast_S600000_S600000x1_0 dst) u

def scatK128 (dst : IVec S600000 32) (u : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) u

end kernel

section reference
variable [Cert.ReferenceIdeal.Facts₀]
open Cert.ReferenceIdeal Cert.ReferenceIdeal.Facts₀

def scatR2 (dst : IVec S600000 32) (u : FVec Ideal S600000x2 .f32) : FVec Ideal S100000x2 .f32 :=
  Host.scatterAdd scatter_S100000x2_S600000x1_S600000x2_1_0_0_1
    (broadcastInDim S100000x2 ![] bcast_S_S100000x2 (constant S_ .f32 0x00000000#32))
    (broadcastInDim S600000x1 ![0] bcast_S600000_S600000x1_0 dst) u

def scatR128 (dst : IVec S600000 32) (u : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) u

theorem allReal_zeros {t : Shape} (bc : S_.BroadcastsInDim t (![] : Fin 0 → Fin t.rank))
    (h0 : Ideal.ofBits .f32 0x00000000#32 = (0 : EReal)) :
    Cert.Spec.AllReal (broadcastInDim t ![] bc (constant (F := Ideal) S_ .f32 0x00000000#32)) :=
  fun i => ⟨0, h0⟩

theorem allReal_scat2 (dst : IVec S600000 32) (u : FVec Ideal S600000x2 .f32) (hu : Cert.Spec.AllReal u)
    (h0 : Ideal.ofBits .f32 0x00000000#32 = (0 : EReal)) : Cert.Spec.AllReal (scatR2 dst u) :=
  Cert.Spec.allReal_hostScatterAdd _ _ _ _ (allReal_zeros _ h0) hu

theorem allReal_scat128 (dst : IVec S600000 32) (u : FVec Ideal S600000x128 .f32) (hu : Cert.Spec.AllReal u)
    (h0 : Ideal.ofBits .f32 0x00000000#32 = (0 : EReal)) : Cert.Spec.AllReal (scatR128 dst u) :=
  Cert.Spec.allReal_hostScatterAdd _ _ _ _ (allReal_zeros _ h0) hu

end reference

section both
variable [Cert.KernelIdeal.Facts₀] [Cert.ReferenceIdeal.Facts₀]

theorem scat_eq2 : scatK2 = scatR2 := rfl

theorem scat_eq128 : scatK128 = scatR128 := rfl

end both

end Cert.ScatterFacts

end
-- ==== Proof.FinalCore.lean ====
import proofs.«425852_j85495618995090_1_alg».proof.Proof.NetBridge
import proofs.«425852_j85495618995090_1_alg».proof.Proof.Consts
import proofs.«425852_j85495618995090_1_alg».proof.Proof.GatherScatter
import proofs.«425852_j85495618995090_1_alg».proof.Proof.ScatterFacts

noncomputable section

namespace Cert.Final

open Idealize.ShloMosaic Idealize.ShloMosaic.ValueIdx
open Cert.Spec Cert.GatherScatter Cert.ScatterFacts
open Cert.KernelIdeal (S_ S1 S2 S128 S500 S2x7 S128x2 S128x128 S3x128x7 S3x128 S3x128x128 S500x128 S1x500 S600000 S600000x7
  S100000 S100000x2 S100000x128 S600000x2 S600000x128 S2x600000)

abbrev tr (a b : Nat) (w : Mat a b) : Mat b a := fun j => w (ix2 (j 1) (j 0))

abbrev row (a : Nat) (v : (⟨1, ![a]⟩ : Shape).Idx → EReal) : Mat 1 a := fun j => v (ix1 (j 1))

abbrev trS (a b : Nat) (l : Fin 3) (S : (⟨3, ![3, a, b]⟩ : Shape).Idx → EReal) : Mat b a := fun j => S (ix3 l (j 1) (j 0))

abbrev rowS (a : Nat) (l : Fin 3) (S : (⟨2, ![3, a]⟩ : Shape).Idx → EReal) : Mat 1 a := fun j => S (ix2 l (j 1))

abbrev srcP (a1 : IVec S2x600000 32) : IVec S600000 32 := fun i => a1 (ix2 (0 : Fin 2) (i 0))

abbrev dstP (a1 : IVec S2x600000 32) : IVec S600000 32 := fun i => a1 (ix2 (1 : Fin 2) (i 0))

theorem allReal_comp {ι κ : Type} (a : ι → EReal) (f : κ → ι) (h : AllReal a) : AllReal (fun j => a (f j)) :=
  fun j => h (f j)

abbrev slope : EReal := Ideal.ofBits .f32 0x3C23D70A#32

abbrev slope2 : EReal := Named.named (F := Ideal) Cert.KernelIdeal.κ "leaky_slope_sq" (φ := .f32) 0x38D1B717#32

abbrev eps : EReal := Ideal.ofBits .f32 0x3727C5AC#32

abbrev cnt : EReal := Ideal.ofBits .f32 0x47C35000#32

section
variable [Cert.KernelIdeal.Facts₀] [Cert.ReferenceIdeal.Facts₀]

theorem core
    (a0 : FVec Ideal S100000x2 .f32) (src dst : IVec S600000 32) (a3 : FVec Ideal S600000x7 .f32)
    (a4 : FVec Ideal S2x7 .f32) (a5 : FVec Ideal S2 .f32) (a6 : FVec Ideal S128x2 .f32) (a7 a8 a9 : FVec Ideal S128 .f32)
    (a10 : FVec Ideal S128x128 .f32) (a11 : FVec Ideal S128 .f32)
    (a12 : FVec Ideal S3x128x7 .f32) (a13 : FVec Ideal S3x128 .f32) (a14 : FVec Ideal S3x128x128 .f32)
    (a15 a16 a17 : FVec Ideal S3x128 .f32) (a18 : FVec Ideal S3x128x128 .f32) (a19 : FVec Ideal S3x128 .f32)
    (a20 : FVec Ideal S500x128 .f32) (a21 : FVec Ideal S500 .f32) (a22 : FVec Ideal S1x500 .f32) (a23 : FVec Ideal S1 .f32)
    (hsrc : ∀ e : Fin 600000, 0 ≤ (src (ix1 e)).toInt ∧ (src (ix1 e)).toInt < 100000)
    (h0 : AllReal a0) (h3 : AllReal a3) (h4 : AllReal a4) (h5 : AllReal a5) (h6 : AllReal a6) (h7 : AllReal a7)
    (h8 : AllReal a8) (h9 : AllReal a9) (h10 : AllReal a10) (h11 : AllReal a11) (h12 : AllReal a12) (h13 : AllReal a13)
    (h14 : AllReal a14) (h15 : AllReal a15) (h16 : AllReal a16) (h17 : AllReal a17) (h18 : AllReal a18) (h19 : AllReal a19)
    (pool : Mat 100000 128 → Mat 64 128)
    (y0K y1K y2K y3K y0R y1R y2R y3R : Mat 100000 128) (outK outR : Mat 64 1)
    (K0 : y0K = layerFused slope slope2 eps cnt (fun x => takeK2 x src) (scatK2 dst) a0 a3
      (tr 2 7 a4) (row 2 a5) (tr 128 2 a6) (row 128 a7) (row 128 a8) (row 128 a9) (tr 128 128 a10) (row 128 a11))
    (K1 : y1K = layerFused slope slope2 eps cnt (fun x => takeK128 x src) (scatK128 dst) y0K a3
      (trS 128 7 0 a12) (rowS 128 0 a13) (trS 128 128 0 a14) (rowS 128 0 a15) (rowS 128 0 a16) (rowS 128 0 a17)
      (trS 128 128 0 a18) (rowS 128 0 a19))
    (K2 : y2K = layerFused slope slope2 eps cnt (fun x => takeK128 x src) (scatK128 dst) y1K a3
      (trS 128 7 1 a12) (rowS 128 1 a13) (trS 128 128 1 a14) (rowS 128 1 a15) (rowS 128 1 a16) (rowS 128 1 a17)
      (trS 128 128 1 a18) (rowS 128 1 a19))
    (K3 : y3K = layerFused slope slope2 eps cnt (fun x => takeK128 x src) (scatK128 dst) y2K a3
      (trS 128 7 2 a12) (rowS 128 2 a13) (trS 128 128 2 a14) (rowS 128 2 a15) (rowS 128 2 a16) (rowS 128 2 a17)
      (trS 128 128 2 a18) (rowS 128 2 a19))
    (KT : outK = regHead slope (pool y3K) (tr 500 128 a20) (row 500 a21) (tr 1 500 a22) (row 1 a23))
    (R0 : y0R = layerTwice slope eps cnt (fun x => takeR2 x src) (scatR2 dst) a0 a3
      (tr 2 7 a4) (row 2 a5) (tr 128 2 a6) (row 128 a7) (row 128 a8) (row 128 a9) (tr 128 128 a10) (row 128 a11))
    (R1 : y1R = layerTwice slope eps cnt (fun x => takeR128 x src) (scatR128 dst) y0R a3
      (trS 128 7 0 a12) (rowS 128 0 a13) (trS 128 128 0 a14) (rowS 128 0 a15) (rowS 128 0 a16) (rowS 128 0 a17)
      (trS 128 128 0 a18) (rowS 128 0 a19))
    (R2 : y2R = layerTwice slope eps cnt (fun x => takeR128 x src) (scatR128 dst) y1R a3
      (trS 128 7 1 a12) (rowS 128 1 a13) (trS 128 128 1 a14) (rowS 128 1 a15) (rowS 128 1 a16) (rowS 128 1 a17)
      (trS 128 128 1 a18) (rowS 128 1 a19))
    (R3 : y3R = layerTwice slope eps cnt (fun x => takeR128 x src) (scatR128 dst) y2R a3
      (trS 128 7 2 a12) (rowS 128 2 a13) (trS 128 128 2 a14) (rowS 128 2 a15) (rowS 128 2 a16) (rowS 128 2 a17)
      (trS 128 128 2 a18) (rowS 128 2 a19))
    (RT : outR = regHead slope (pool y3R) (tr 500 128 a20) (row 500 a21) (tr 1 500 a22) (row 1 a23)) :
    outK = outR := by
  obtain ⟨e, he, heps⟩ := Cert.Consts.eps_val
  have hz : Ideal.ofBits .f32 0x00000000#32 = (0 : EReal) := Cert.Consts.zero_val
  exact network_bridge (c := slope) (c2 := slope2) (eps := eps) (n := cnt) (r := 5368709 / 536870912) (e := e)
    (N := 100000) Cert.Consts.slope_val (by norm_num) Cert.Consts.slope_sq_val he heps Cert.Consts.count_val rfl hz
    (fun x => takeK2 x src) (fun x => takeR2 x src) (scatK2 dst) (scatR2 dst)
    (fun x => takeK128 x src) (fun x => takeR128 x src) (scatK128 dst) (scatR128 dst)
    (fun x _ => take_rows2 x src hsrc) (fun x hx => allReal_take2 x src hx)
    (congrFun scat_eq2 dst) (fun u hu => allReal_scat2 dst u hu hz)
    (fun x _ => take_rows128 x src hsrc) (fun x hx => allReal_take128 x src hx)
    (congrFun scat_eq128 dst) (fun u hu => allReal_scat128 dst u hu hz)
    pool a0 a3
    (tr 2 7 a4) (row 2 a5) (tr 128 2 a6) (row 128 a7) (row 128 a8) (row 128 a9) (tr 128 128 a10) (row 128 a11)
    (trS 128 7 0 a12) (rowS 128 0 a13) (trS 128 128 0 a14) (rowS 128 0 a15) (rowS 128 0 a16) (rowS 128 0 a17)
    (trS 128 128 0 a18) (rowS 128 0 a19)
    (trS 128 7 1 a12) (rowS 128 1 a13) (trS 128 128 1 a14) (rowS 128 1 a15) (rowS 128 1 a16) (rowS 128 1 a17)
    (trS 128 128 1 a18) (rowS 128 1 a19)
    (trS 128 7 2 a12) (rowS 128 2 a13) (trS 128 128 2 a14) (rowS 128 2 a15) (rowS 128 2 a16) (rowS 128 2 a17)
    (trS 128 128 2 a18) (rowS 128 2 a19)
    (tr 500 128 a20) (row 500 a21) (tr 1 500 a22) (row 1 a23)
    h0 h3
    (allReal_comp a4 _ h4) (allReal_comp a5 _ h5) (allReal_comp a6 _ h6) (allReal_comp a7 _ h7) (allReal_comp a8 _ h8)
    (allReal_comp a9 _ h9) (allReal_comp a10 _ h10) (allReal_comp a11 _ h11)
    (allReal_comp a12 _ h12) (allReal_comp a13 _ h13) (allReal_comp a14 _ h14) (allReal_comp a15 _ h15)
    (allReal_comp a16 _ h16) (allReal_comp a17 _ h17) (allReal_comp a18 _ h18) (allReal_comp a19 _ h19)
    (allReal_comp a12 _ h12) (allReal_comp a13 _ h13) (allReal_comp a14 _ h14) (allReal_comp a15 _ h15)
    (allReal_comp a16 _ h16) (allReal_comp a17 _ h17) (allReal_comp a18 _ h18) (allReal_comp a19 _ h19)
    (allReal_comp a12 _ h12) (allReal_comp a13 _ h13) (allReal_comp a14 _ h14) (allReal_comp a15 _ h15)
    (allReal_comp a16 _ h16) (allReal_comp a17 _ h17) (allReal_comp a18 _ h18) (allReal_comp a19 _ h19)
    y0K y1K y2K y3K y0R y1R y2R y3R outK outR K0 K1 K2 K3 KT R0 R1 R2 R3 RT

end

end Cert.Final

end
-- ==== Proof.LayoutCanon.lean ====
import Idealize.ShloMosaic.PureOps.Ideal
import Idealize.ShloMosaic.Lib.ValueIdx
import Idealize.ShloMosaic.Lib.ValueLayout
import Idealize.ShloMosaic.Lib.Pipeline.Value

namespace Cert.Layout

open Idealize.ShloMosaic Idealize.ShloMosaic.ValueIdx

variable {α : Type}

theorem transpose2_apply {a b : ℕ} (x : (⟨2, ![a, b]⟩ : Shape).Idx → α)
    (h : (⟨2, ![a, b]⟩ : Shape).Transposes [1, 0] ⟨2, ![b, a]⟩) (i : (⟨2, ![b, a]⟩ : Shape).Idx) :
    transpose ⟨2, ![b, a]⟩ [1, 0] x h i = x (ix2 (i 1) (i 0)) :=
  (congrArg (transpose ⟨2, ![b, a]⟩ [1, 0] x h) (eq_ix2 i)).trans (transpose_ix2_apply x h (i 0) (i 1))

theorem transpose2_eq {a b : ℕ} (x : (⟨2, ![a, b]⟩ : Shape).Idx → α)
    (h : (⟨2, ![a, b]⟩ : Shape).Transposes [1, 0] ⟨2, ![b, a]⟩) :
    transpose ⟨2, ![b, a]⟩ [1, 0] x h = fun i => x (ix2 (i 1) (i 0)) :=
  funext (transpose2_apply x h)

theorem reshape_n_1n_apply {n : ℕ} (v : (⟨1, ![n]⟩ : Shape).Idx → α)
    (h : (⟨1, ![n]⟩ : Shape).ShapeCasts ⟨2, ![1, n]⟩) (j : (⟨2, ![1, n]⟩ : Shape).Idx) :
    shapeCast ⟨2, ![1, n]⟩ v h j = v (ix1 (j 1)) :=
  (congrArg (shapeCast ⟨2, ![1, n]⟩ v h) (eq_ix2 j)).trans (shapeCast_a_1a_apply v h (j 0) (j 1))

theorem reshape_1n_n_apply {n : ℕ} (x : (⟨2, ![1, n]⟩ : Shape).Idx → α)
    (h : (⟨2, ![1, n]⟩ : Shape).ShapeCasts ⟨1, ![n]⟩) (i : (⟨1, ![n]⟩ : Shape).Idx) :
    shapeCast ⟨1, ![n]⟩ x h i = x (ix2 (0 : Fin 1) (i 0)) :=
  (congrArg (shapeCast ⟨1, ![n]⟩ x h) (eq_ix1 i)).trans (shapeCast_1a_a_apply x h (i 0))

theorem reshape_1ab_ab_apply {a b : ℕ} (x : (⟨3, ![1, a, b]⟩ : Shape).Idx → α)
    (h : (⟨3, ![1, a, b]⟩ : Shape).ShapeCasts ⟨2, ![a, b]⟩) (i : (⟨2, ![a, b]⟩ : Shape).Idx) :
    shapeCast ⟨2, ![a, b]⟩ x h i = x (ix3 (0 : Fin 1) (i 0) (i 1)) :=
  (congrArg (shapeCast ⟨2, ![a, b]⟩ x h) (eq_ix2 i)).trans (shapeCast_1ab_ab_apply x h (i 0) (i 1))

theorem bcast_scalar_apply {T : Shape} (h : (⟨0, ![]⟩ : Shape).BroadcastsInDim T ![])
    (x : (⟨0, ![]⟩ : Shape).Idx → α) (i : T.Idx) : broadcastInDim T ![] h x i = x ix0 := by
  unfold broadcastInDim; exact congrArg x (funext fun a => a.elim0)

theorem bcast_scalar_eq {T : Shape} (h : (⟨0, ![]⟩ : Shape).BroadcastsInDim T ![])
    (x : (⟨0, ![]⟩ : Shape).Idx → α) : broadcastInDim T ![] h x = fun _ => x ix0 :=
  funext (bcast_scalar_apply h x)

theorem bcast_n_1n_apply {n : ℕ} (h : (⟨1, ![n]⟩ : Shape).BroadcastsInDim ⟨2, ![1, n]⟩ ![1])
    (v : (⟨1, ![n]⟩ : Shape).Idx → α) (j : (⟨2, ![1, n]⟩ : Shape).Idx) :
    broadcastInDim ⟨2, ![1, n]⟩ ![1] h v j = v (ix1 (j 1)) := by
  refine broadcastInDim_apply _ h v j (ix1 (j 1)) fun ax => ?_
  match ax with
  | ⟨0, _⟩ =>
    show (j 1).val = if n = 1 then 0 else (j 1).val
    split
    · have := (j 1).isLt; have : (j 1).val < n := this; omega
    · rfl

theorem bcast_n_nk_apply {n k : ℕ} (h : (⟨1, ![n]⟩ : Shape).BroadcastsInDim ⟨2, ![n, k]⟩ ![0])
    (v : (⟨1, ![n]⟩ : Shape).Idx → α) (i : (⟨2, ![n, k]⟩ : Shape).Idx) :
    broadcastInDim ⟨2, ![n, k]⟩ ![0] h v i = v (ix1 (i 0)) := by
  refine broadcastInDim_apply _ h v i (ix1 (i 0)) fun ax => ?_
  match ax with
  | ⟨0, _⟩ =>
    show (i 0).val = if n = 1 then 0 else (i 0).val
    split
    · have : (i 0).val < n := (i 0).isLt; omega
    · rfl

theorem bcast_n_nk_eq {n k : ℕ} (h : (⟨1, ![n]⟩ : Shape).BroadcastsInDim ⟨2, ![n, k]⟩ ![0])
    (v : (⟨1, ![n]⟩ : Shape).Idx → α) :
    broadcastInDim ⟨2, ![n, k]⟩ ![0] h v = fun i => v (ix1 (i 0)) :=
  funext (bcast_n_nk_apply h v)

theorem bcast_1n_mn_apply {m n : ℕ} (h : (⟨2, ![1, n]⟩ : Shape).BroadcastsInDim ⟨2, ![m, n]⟩ ![0, 1])
    (row : (⟨2, ![1, n]⟩ : Shape).Idx → α) (i : (⟨2, ![m, n]⟩ : Shape).Idx) :
    broadcastInDim ⟨2, ![m, n]⟩ ![0, 1] h row i = row (ix2 (0 : Fin 1) (i 1)) := by
  refine broadcastInDim_apply _ h row i (ix2 (0 : Fin 1) (i 1)) fun ax => ?_
  match ax with
  | ⟨0, _⟩ => rfl
  | ⟨1, _⟩ =>
    show (i 1).val = if n = 1 then 0 else (i 1).val
    split
    · have : (i 1).val < n := (i 1).isLt; omega
    · rfl

theorem sliceRow_apply {c n : ℕ} (l : ℕ) (S : (⟨2, ![c, n]⟩ : Shape).Idx → α)
    (h : (⟨2, ![c, n]⟩ : Shape).Slices ![l, 0] ⟨2, ![1, n]⟩) (L : Fin c) (hL : L.val = l)
    (j : (⟨2, ![1, n]⟩ : Shape).Idx) :
    extractStridedSlice ⟨2, ![1, n]⟩ ![l, 0] S h j = S (ix2 L (j 1)) :=
  extractStridedSlice_apply _ S h j (ix2 L (j 1)) (fun ax => by
    match ax with
    | ⟨0, _⟩ =>
      show L.val = l + (j 0).val
      have : (j 0).val < 1 := (j 0).isLt
      omega
    | ⟨1, _⟩ => exact (Nat.zero_add _).symm)

theorem sliceMat_apply {c a b : ℕ} (l : ℕ) (S : (⟨3, ![c, a, b]⟩ : Shape).Idx → α)
    (h : (⟨3, ![c, a, b]⟩ : Shape).Slices ![l, 0, 0] ⟨3, ![1, a, b]⟩) (L : Fin c) (hL : L.val = l)
    (j : (⟨3, ![1, a, b]⟩ : Shape).Idx) :
    extractStridedSlice ⟨3, ![1, a, b]⟩ ![l, 0, 0] S h j = S (ix3 L (j 1) (j 2)) :=
  extractStridedSlice_apply _ S h j (ix3 L (j 1) (j 2)) (fun ax => by
    match ax with
    | ⟨0, _⟩ =>
      show L.val = l + (j 0).val
      have : (j 0).val < 1 := (j 0).isLt
      omega
    | ⟨1, _⟩ => exact (Nat.zero_add _).symm
    | ⟨2, _⟩ => exact (Nat.zero_add _).symm)

theorem stackRow_apply {c n : ℕ} (l : ℕ) (S : (⟨2, ![c, n]⟩ : Shape).Idx → α)
    (hs : (⟨2, ![c, n]⟩ : Shape).Slices ![l, 0] ⟨2, ![1, n]⟩) (hc : (⟨2, ![1, n]⟩ : Shape).ShapeCasts ⟨1, ![n]⟩)
    (L : Fin c) (hL : L.val = l) (i : (⟨1, ![n]⟩ : Shape).Idx) :
    shapeCast ⟨1, ![n]⟩ (extractStridedSlice ⟨2, ![1, n]⟩ ![l, 0] S hs) hc i = S (ix2 L (i 0)) :=
  (reshape_1n_n_apply _ hc i).trans (sliceRow_apply l S hs L hL _)

theorem stackMat_apply {c a b : ℕ} (l : ℕ) (S : (⟨3, ![c, a, b]⟩ : Shape).Idx → α)
    (hs : (⟨3, ![c, a, b]⟩ : Shape).Slices ![l, 0, 0] ⟨3, ![1, a, b]⟩)
    (hc : (⟨3, ![1, a, b]⟩ : Shape).ShapeCasts ⟨2, ![a, b]⟩)
    (L : Fin c) (hL : L.val = l) (i : (⟨2, ![a, b]⟩ : Shape).Idx) :
    shapeCast ⟨2, ![a, b]⟩ (extractStridedSlice ⟨3, ![1, a, b]⟩ ![l, 0, 0] S hs) hc i = S (ix3 L (i 0) (i 1)) :=
  (reshape_1ab_ab_apply _ hc i).trans (sliceMat_apply l S hs L hL _)

end Cert.Layout
-- ==== Proof.RefLayer0.lean ====
import proofs.«425852_j85495618995090_1_alg».proof.ReferenceIdeal
import proofs.«425852_j85495618995090_1_alg».proof.Proof.Gen.ReferenceIdeal
import proofs.«425852_j85495618995090_1_alg».proof.Proof.Spec
import proofs.«425852_j85495618995090_1_alg».proof.Proof.LayoutCanon
import Idealize.ShloMosaic.PureOps.Ideal.Laws
import Idealize.ShloMosaic.Lib.StackMember
import Idealize.ShloMosaic.Lib.ValueIdx
import Idealize.ShloMosaic.Lib.ValueLayout
import Idealize.ShloMosaic.Lib.Pipeline.Value

noncomputable section

open scoped BigOperators

namespace Cert.ReferenceIdeal.RefLayer0

open Idealize.ShloMosaic Idealize.ShloMosaic.ValueIdx Cert.ReferenceIdeal Cert.Layout

open Facts₀ Facts

def edgeRow0 (ei : IVec S2x600000 32) : IVec S600000 32 :=
  shapeCast S600000 (extractStridedSlice S1x600000 ![0, 0] ei slices_S2x600000_S1x600000_0_0)
    shapeCasts_S1x600000_S600000

def edgeRow1 (ei : IVec S2x600000 32) : IVec S600000 32 :=
  shapeCast S600000 (extractStridedSlice S1x600000 ![1, 0] ei slices_S2x600000_S1x600000_1_0)
    shapeCasts_S1x600000_S600000

def edgeProj (ea : FVec Ideal S600000x7 .f32) (ew : FVec Ideal S2x7 .f32) (eb : FVec Ideal S2 .f32) :
    FVec Ideal S600000x2 .f32 :=
  addf (Host.dotGeneral dot_S600000x7_S7x2_S600000x2_1_0_0_1_n_n none ea (transpose S7x2 [1, 0] ew transposes_S2x7_S7x2_1_0))
    (broadcastInDim S600000x2 ![0, 1] bcast_S1x2_S600000x2_0_1 (broadcastInDim S1x2 ![1] bcast_S2_S1x2_1 eb))

def startIdx (v1 : IVec S600000 32) : IVec S600000x1 32 :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 100000#32))) v1)

def edgeMsgV (x : FVec Ideal S100000x2 .f32) (v14 : IVec S600000x1 32) (v8 : FVec Ideal S600000x2 .f32) :
    FVec Ideal S600000x2 .f32 :=
  maximumf (addf (Host.gather gather_S100000x2_S600000x1_S600000x2_1_0_n_n_0_1_12 x v14) v8)
    (broadcastInDim S600000x2 ![] bcast_S_S600000x2 (constant S_ .f32 0x00000000#32))

def aggrV (v3 : IVec S600000 32) (v17 : FVec Ideal S600000x2 .f32) : FVec Ideal S100000x2 .f32 :=
  Host.scatterAdd scatter_S100000x2_S600000x1_S600000x2_1_0_0_1
    (broadcastInDim S100000x2 ![] bcast_S_S100000x2 (constant S_ .f32 0x00000000#32))
    (broadcastInDim S600000x1 ![0] bcast_S600000_S600000x1_0 v3) v17

def rowOver (v : FVec Ideal S128 .f32) : FVec Ideal S100000x128 .f32 :=
  broadcastInDim S100000x128 ![0, 1] bcast_S1x128_S100000x128_0_1 (broadcastInDim S1x128 ![1] bcast_S128_S1x128_1 v)

def lin1V (x v20 : FVec Ideal S100000x2 .f32) (w1 : FVec Ideal S128x2 .f32) (b1 : FVec Ideal S128 .f32) :
    FVec Ideal S100000x128 .f32 :=
  addf (Host.dotGeneral dot_S100000x2_S2x128_S100000x128_1_0_0_1_n_n none (addf x v20) (transpose S2x128 [1, 0] w1 transposes_S128x2_S2x128_1_0))
    (rowOver b1)

def colSumV (h : FVec Ideal S100000x128 .f32) : FVec Ideal S128 .f32 :=
  Host.reduceAdd h (constant S_ .f32 0x00000000#32) reducesTo_S100000x128_S128_d0 h_S_

def meanV (h : FVec Ideal S100000x128 .f32) : FVec Ideal S128 .f32 :=
  Host.divf (colSumV h) (broadcastInDim S128 ![] bcast_S_S128 (constant S_ .f32 0x47C35000#32))

def varDev (h : FVec Ideal S100000x128 .f32) : FVec Ideal S100000x128 .f32 :=
  subf h (broadcastInDim S100000x128 ![0, 1] bcast_S1x128_S100000x128_0_1
    (Host.divf (broadcastInDim S1x128 ![1] bcast_S128_S1x128_1 (colSumV h))
      (broadcastInDim S1x128 ![] bcast_S_S1x128 (constant S_ .f32 0x47C35000#32))))

def varDenom : FVec Ideal S_ .f32 :=
  subf (constant S_ .f32 0x47C35000#32) (sitofp .f32 (constantI S_ 32 0#32))

def varV (h : FVec Ideal S100000x128 .f32) : FVec Ideal S128 .f32 :=
  select (broadcastInDim S128 ![] bcast_S_S128 (cmpf .ogt varDenom (constant S_ .f32 0x00000000#32)))
    (Host.divf (colSumV (mulf (varDev h) (varDev h))) (broadcastInDim S128 ![] bcast_S_S128 varDenom))
    (broadcastInDim S128 ![] bcast_S_S128 (id (constant S_ .f32 0x7FC00000#32)))

def normV (h : FVec Ideal S100000x128 .f32) (mu var g be : FVec Ideal S128 .f32) : FVec Ideal S100000x128 .f32 :=
  addf (mulf (mulf (rowOver g) (subf h (rowOver mu)))
      (rowOver (Host.rsqrt (addf var (broadcastInDim S128 ![] bcast_S_S128 (constant S_ .f32 0x3727C5AC#32))))))
    (rowOver be)

def leakyV (v : FVec Ideal S100000x128 .f32) : FVec Ideal S100000x128 .f32 :=
  select (cmpf .oge v (broadcastInDim S100000x128 ![] bcast_S_S100000x128 (constant S_ .f32 0x00000000#32))) v
    (mulf (broadcastInDim S100000x128 ![] bcast_S_S100000x128 (constant S_ .f32 0x3C23D70A#32)) v)

def lin2V (a : FVec Ideal S100000x128 .f32) (w2 : FVec Ideal S128x128 .f32) (b2 : FVec Ideal S128 .f32) :
    FVec Ideal S100000x128 .f32 :=
  addf (Host.dotGeneral dot_S100000x128_S128x128_S100000x128_1_0_0_1_n_n none a (transpose S128x128 [1, 0] w2 transposes_S128x128_S128x128_1_0)) (rowOver b2)

def layer0 (x : FVec Ideal S100000x2 .f32) (ei : IVec S2x600000 32) (ea : FVec Ideal S600000x7 .f32)
    (ew : FVec Ideal S2x7 .f32) (eb : FVec Ideal S2 .f32) (w1 : FVec Ideal S128x2 .f32)
    (b1 g be : FVec Ideal S128 .f32) (w2 : FVec Ideal S128x128 .f32) (b2 : FVec Ideal S128 .f32) :
    FVec Ideal S100000x128 .f32 :=
  let h1 := lin1V x (aggrV (edgeRow1 ei) (edgeMsgV x (startIdx (edgeRow0 ei)) (edgeProj ea ew eb))) w1 b1
  leakyV (leakyV (lin2V (leakyV (normV h1 (meanV h1) (varV h1) g be)) w2 b2))

def normIdx (s : BitVec 32) : BitVec 32 :=
  Scalar.select (IntOp.cmpi .slt s 0#32) (IntOp.addi s 100000#32) s

def gatherRows (x : FVec Ideal S100000x2 .f32) (src : Fin 600000 → BitVec 32) : FVec Ideal S600000x2 .f32 :=
  Host.gather gather_S100000x2_S600000x1_S600000x2_1_0_n_n_0_1_12 x (fun j : S600000x1.Idx => normIdx (src (j 0)))

def scatterRows (dst : Fin 600000 → BitVec 32) (u : FVec Ideal S600000x2 .f32) : FVec Ideal S100000x2 .f32 :=
  Host.scatterAdd scatter_S100000x2_S600000x1_S600000x2_1_0_0_1 (fun _ : S100000x2.Idx => Ideal.ofBits .f32 0x00000000#32)
    (fun j : S600000x1.Idx => dst (j 0)) u

theorem edgeRow0_apply (ei : IVec S2x600000 32) (i : S600000.Idx) :
    edgeRow0 ei i = ei (ix2 (0 : Fin 2) (i 0)) :=
  stackRow_apply 0 ei _ _ (0 : Fin 2) rfl i

theorem edgeRow1_apply (ei : IVec S2x600000 32) (i : S600000.Idx) :
    edgeRow1 ei i = ei (ix2 (1 : Fin 2) (i 0)) :=
  stackRow_apply 1 ei _ _ (1 : Fin 2) rfl i

theorem rowOver_apply (v : FVec Ideal S128 .f32) (i : S100000x128.Idx) : rowOver v i = v (ix1 (i 1)) :=
  (bcast_1n_mn_apply _ _ i).trans (bcast_n_1n_apply _ v _)

theorem dotE_apply (l : FVec Ideal S600000x7 .f32) (r : FVec Ideal S7x2 .f32) (i : S600000x2.Idx) :
    Host.dotGeneral dot_S600000x7_S7x2_S600000x2_1_0_0_1_n_n none l r i = ∑ k : Fin 7, l (ix2 (i 0) k) * r (ix2 k (i 1)) :=
  (congrArg _ (eq_ix2 i)).trans (StackMember.dotGeneral_plain_apply none l r (i 0) (i 1))

theorem dot1_apply (l : FVec Ideal S100000x2 .f32) (r : FVec Ideal S2x128 .f32) (i : S100000x128.Idx) :
    Host.dotGeneral dot_S100000x2_S2x128_S100000x128_1_0_0_1_n_n none l r i = ∑ k : Fin 2, l (ix2 (i 0) k) * r (ix2 k (i 1)) :=
  (congrArg _ (eq_ix2 i)).trans (StackMember.dotGeneral_plain_apply none l r (i 0) (i 1))

theorem dot2_apply (l : FVec Ideal S100000x128 .f32) (r : FVec Ideal S128x128 .f32) (i : S100000x128.Idx) :
    Host.dotGeneral dot_S100000x128_S128x128_S100000x128_1_0_0_1_n_n none l r i = ∑ k : Fin 128, l (ix2 (i 0) k) * r (ix2 k (i 1)) :=
  (congrArg _ (eq_ix2 i)).trans (StackMember.dotGeneral_plain_apply none l r (i 0) (i 1))

theorem edgeProj_apply (ea : FVec Ideal S600000x7 .f32) (ew : FVec Ideal S2x7 .f32) (eb : FVec Ideal S2 .f32)
    (i : S600000x2.Idx) :
    edgeProj ea ew eb i = (∑ k : Fin 7, ea (ix2 (i 0) k) * ew (ix2 (i 1) k)) + eb (ix1 (i 1)) := by
  unfold edgeProj
  rw [addf_apply, dotE_apply, bcast_1n_mn_apply, bcast_n_1n_apply]
  refine congrArg (· + _) (Finset.sum_congr rfl fun k _ => ?_)
  rw [transpose2_apply]

theorem startIdx_eq (ei : IVec S2x600000 32) :
    startIdx (edgeRow0 ei) = fun j : S600000x1.Idx => normIdx (ei (ix2 (0 : Fin 2) (j 0))) := by
  funext j
  unfold startIdx
  rw [bcast_n_nk_apply, select_apply]
  show Scalar.select (IntOp.cmpi .slt (edgeRow0 ei (ix1 (j 0))) _) (IntOp.addi (edgeRow0 ei (ix1 (j 0))) _) (edgeRow0 ei (ix1 (j 0))) = _
  rw [bcast_scalar_apply, bcast_scalar_apply, edgeRow0_apply]
  rfl

theorem edgeMsgV_eq (x : FVec Ideal S100000x2 .f32) (ei : IVec S2x600000 32) (ea : FVec Ideal S600000x7 .f32)
    (ew : FVec Ideal S2x7 .f32) (eb : FVec Ideal S2 .f32) :
    edgeMsgV x (startIdx (edgeRow0 ei)) (edgeProj ea ew eb)
      = Cert.Spec.edgeMsg (D := 2) ea (fun j => ew (ix2 (j 1) (j 0))) (fun j => eb (ix1 (j 1)))
          (gatherRows x fun e => ei (ix2 (0 : Fin 2) e)) := by
  funext i
  obtain ⟨p, q, rfl⟩ : ∃ (p : Fin 600000) (q : Fin 2), i = ix2 p q := ⟨i 0, i 1, eq_ix2 i⟩
  unfold edgeMsgV Cert.Spec.edgeMsg gatherRows
  rw [startIdx_eq, maximumf_apply, addf_apply, edgeProj_apply, bcast_scalar_apply]
  rfl

theorem aggrV_eq (ei : IVec S2x600000 32) (u : FVec Ideal S600000x2 .f32) :
    aggrV (edgeRow1 ei) u = scatterRows (fun e => ei (ix2 (1 : Fin 2) e)) u := by
  unfold aggrV scatterRows
  rw [bcast_scalar_eq, bcast_n_nk_eq]
  have e : (fun i : S600000x1.Idx => edgeRow1 ei (ix1 (i 0))) = fun j : S600000x1.Idx => ei (ix2 (1 : Fin 2) (j 0)) :=
    funext fun j => edgeRow1_apply ei _
  rw [e]
  rfl

theorem lin1V_eq (x a : FVec Ideal S100000x2 .f32) (w1 : FVec Ideal S128x2 .f32) (b1 : FVec Ideal S128 .f32) :
    lin1V x a w1 b1 = Cert.Spec.lin1 (D := 2) x a (fun j => w1 (ix2 (j 1) (j 0))) (fun j => b1 (ix1 (j 1))) := by
  funext i
  unfold lin1V Cert.Spec.lin1
  rw [addf_apply, dot1_apply, rowOver_apply]
  refine congrArg (· + _) (Finset.sum_congr rfl fun k _ => ?_)
  rw [transpose2_apply, addf_apply]

theorem colSumV_apply (h : FVec Ideal S100000x128 .f32) (j : S128.Idx) :
    colSumV h j = ∑ p : Fin 100000, h (ix2 p (j 0)) := by
  unfold colSumV Host.reduceAdd
  rw [Ideal.hostReduceAdd_def, Ideal.hostReduceAdd_single reducesTo_S100000x128_S128_d0 (by decide)]
  show Ideal.ofBits .f32 0x00000000#32 + _ = _
  rw [Ideal.ofBits_zero_f32, zero_add]
  refine Finset.sum_congr rfl fun k _ => ?_
  exact congrArg h (funext fun a => Fin.ext (by match a with | ⟨0, _⟩ => rfl | ⟨1, _⟩ => rfl))

theorem meanV_apply (h : FVec Ideal S100000x128 .f32) (j : S128.Idx) :
    meanV h j = Cert.Spec.meanOf (Ideal.ofBits .f32 0x47C35000#32) (Cert.Spec.colSum h) (ix2 (0 : Fin 1) (j 0)) := by
  unfold meanV Cert.Spec.meanOf Cert.Spec.colSum
  show Ideal.div (colSumV h j) (broadcastInDim S128 ![] bcast_S_S128 (constant (F := Ideal) S_ .f32 0x47C35000#32) j) = _
  rw [colSumV_apply, bcast_scalar_apply]
  rfl

theorem varDev_apply (h : FVec Ideal S100000x128 .f32) (i : S100000x128.Idx) :
    varDev h i = h i - Ideal.div (∑ r : Fin 100000, h (ix2 r (i 1))) (Ideal.ofBits .f32 0x47C35000#32) := by
  unfold varDev
  rw [subf_apply, bcast_1n_mn_apply]
  show h i - Ideal.div (broadcastInDim S1x128 ![1] bcast_S128_S1x128_1 (colSumV h) (ix2 (0 : Fin 1) (i 1)))
    (broadcastInDim S1x128 ![] bcast_S_S1x128 (constant (F := Ideal) S_ .f32 0x47C35000#32) (ix2 (0 : Fin 1) (i 1))) = _
  rw [bcast_n_1n_apply, colSumV_apply, bcast_scalar_apply]
  rfl

theorem varDenom_eq : (varDenom : FVec Ideal S_ .f32) = fun _ => Ideal.ofBits .f32 0x47C35000#32 := by
  funext a
  show Ideal.ofBits .f32 0x47C35000#32 - (((0#32 : BitVec 32).toInt : ℝ) : EReal) = _
  simp

theorem varV_apply (hn : (0 : EReal) < Ideal.ofBits .f32 0x47C35000#32) (h : FVec Ideal S100000x128 .f32)
    (j : S128.Idx) :
    varV h j = Cert.Spec.varCentred (Ideal.ofBits .f32 0x47C35000#32) h (ix2 (0 : Fin 1) (j 0)) := by
  unfold varV Cert.Spec.varCentred
  rw [varDenom_eq, select_apply, bcast_scalar_apply]
  have hc : cmpf (F := Ideal) (φ := .f32) .ogt (fun _ : S_.Idx => Ideal.ofBits .f32 0x47C35000#32)
      (constant S_ .f32 0x00000000#32) ix0 = 1#1 := by
    show BitVec.ofBool (decide (Ideal.ofBits .f32 0x00000000#32 < Ideal.ofBits .f32 0x47C35000#32)) = 1#1
    rw [Ideal.ofBits_zero_f32, decide_eq_true hn]
    rfl
  rw [hc, select_one]
  show Ideal.div (colSumV (mulf (varDev h) (varDev h)) j)
    (broadcastInDim S128 ![] bcast_S_S128 (fun _ : S_.Idx => Ideal.ofBits .f32 0x47C35000#32) j) = _
  rw [colSumV_apply, bcast_scalar_apply]
  have e : ∀ p : Fin 100000, mulf (varDev h) (varDev h) (ix2 p (j 0))
      = (h (ix2 p (j 0)) - Ideal.div (∑ r : Fin 100000, h (ix2 r (j 0))) (Ideal.ofBits .f32 0x47C35000#32))
        * (h (ix2 p (j 0)) - Ideal.div (∑ r : Fin 100000, h (ix2 r (j 0))) (Ideal.ofBits .f32 0x47C35000#32)) :=
    fun p => by rw [mulf_apply, varDev_apply]
  rw [Finset.sum_congr rfl fun p _ => e p]

theorem leakyV_apply (v : FVec Ideal S100000x128 .f32) (i : S100000x128.Idx) :
    leakyV v i = Cert.Spec.leaky (Ideal.ofBits .f32 0x3C23D70A#32) (v i) := by
  unfold leakyV Cert.Spec.leaky
  rw [select_apply, cmpf_apply, mulf_apply, bcast_scalar_apply, bcast_scalar_apply]
  rfl

theorem normV_apply (h : FVec Ideal S100000x128 .f32) (mu var g be : FVec Ideal S128 .f32) (i : S100000x128.Idx) :
    normV h mu var g be i
      = (g (ix1 (i 1)) * (h i - mu (ix1 (i 1))))
          * Ideal.rsqrt (var (ix1 (i 1)) + Ideal.ofBits .f32 0x3727C5AC#32) + be (ix1 (i 1)) := by
  unfold normV
  rw [addf_apply, mulf_apply, mulf_apply, subf_apply, rowOver_apply, rowOver_apply, rowOver_apply, rowOver_apply]
  show _ * Ideal.rsqrt (var (ix1 (i 1))
    + broadcastInDim S128 ![] bcast_S_S128 (constant (F := Ideal) S_ .f32 0x3727C5AC#32) (ix1 (i 1))) + _ = _
  rw [bcast_scalar_apply]
  rfl

theorem lin2V_apply (a : FVec Ideal S100000x128 .f32) (w2 : FVec Ideal S128x128 .f32) (b2 : FVec Ideal S128 .f32)
    (i : S100000x128.Idx) :
    lin2V a w2 b2 i = (∑ k : Fin 128, a (ix2 (i 0) k) * w2 (ix2 (i 1) k)) + b2 (ix1 (i 1)) := by
  unfold lin2V
  rw [addf_apply, dot2_apply, rowOver_apply]
  refine congrArg (· + _) (Finset.sum_congr rfl fun k _ => ?_)
  rw [transpose2_apply]

theorem layer0_spec (hn : (0 : EReal) < Ideal.ofBits .f32 0x47C35000#32)
    (x : FVec Ideal S100000x2 .f32) (ei : IVec S2x600000 32) (ea : FVec Ideal S600000x7 .f32)
    (ew : FVec Ideal S2x7 .f32) (eb : FVec Ideal S2 .f32) (w1 : FVec Ideal S128x2 .f32)
    (b1 g be : FVec Ideal S128 .f32) (w2 : FVec Ideal S128x128 .f32) (b2 : FVec Ideal S128 .f32) :
    layer0 x ei ea ew eb w1 b1 g be w2 b2
      = Cert.Spec.bnActTwice (Ideal.ofBits .f32 0x3C23D70A#32) (Ideal.ofBits .f32 0x3727C5AC#32)
          (Cert.Spec.lin1 (D := 2) x
            (scatterRows (fun e => ei (ix2 (1 : Fin 2) e))
              (Cert.Spec.edgeMsg (D := 2) ea (fun j => ew (ix2 (j 1) (j 0))) (fun j => eb (ix1 (j 1)))
                (gatherRows x fun e => ei (ix2 (0 : Fin 2) e))))
            (fun j => w1 (ix2 (j 1) (j 0))) (fun j => b1 (ix1 (j 1))))
          (Cert.Spec.meanOf (Ideal.ofBits .f32 0x47C35000#32)
            (Cert.Spec.colSum (Cert.Spec.lin1 (D := 2) x
              (scatterRows (fun e => ei (ix2 (1 : Fin 2) e))
                (Cert.Spec.edgeMsg (D := 2) ea (fun j => ew (ix2 (j 1) (j 0))) (fun j => eb (ix1 (j 1)))
                  (gatherRows x fun e => ei (ix2 (0 : Fin 2) e))))
              (fun j => w1 (ix2 (j 1) (j 0))) (fun j => b1 (ix1 (j 1))))))
          (Cert.Spec.varCentred (Ideal.ofBits .f32 0x47C35000#32)
            (Cert.Spec.lin1 (D := 2) x
              (scatterRows (fun e => ei (ix2 (1 : Fin 2) e))
                (Cert.Spec.edgeMsg (D := 2) ea (fun j => ew (ix2 (j 1) (j 0))) (fun j => eb (ix1 (j 1)))
                  (gatherRows x fun e => ei (ix2 (0 : Fin 2) e))))
              (fun j => w1 (ix2 (j 1) (j 0))) (fun j => b1 (ix1 (j 1)))))
          (fun j => g (ix1 (j 1))) (fun j => be (ix1 (j 1)))
          (fun j => w2 (ix2 (j 1) (j 0))) (fun j => b2 (ix1 (j 1))) := by
  unfold layer0
  rw [edgeMsgV_eq, aggrV_eq, lin1V_eq]
  generalize Cert.Spec.lin1 (D := 2) x _ _ _ = h1
  funext i
  rw [leakyV_apply, leakyV_apply, lin2V_apply]
  unfold Cert.Spec.bnActTwice
  refine congrArg (fun t => Cert.Spec.leaky _ (Cert.Spec.leaky _ (t + _))) (Finset.sum_congr rfl fun k _ => ?_)
  rw [leakyV_apply, normV_apply, meanV_apply, varV_apply hn]
  rfl

end Cert.ReferenceIdeal.RefLayer0

end
-- ==== Proof.RefLayer0Read.lean ====
import proofs.«425852_j85495618995090_1_alg».proof.Proof.RefLayer0
import proofs.«425852_j85495618995090_1_alg».proof.Proof.RefOps
import Idealize.ShloMosaic.Lib.StableHlo.Run
import Idealize.ShloMosaic.Lib.ValueIdx

noncomputable section

namespace Cert.ReferenceIdeal.RefLayer0Read

open Idealize.ShloMosaic Idealize.ShloMosaic.TcCoe Idealize.ShloMosaic.ValueIdx Idealize.SL.Sem Idealize.ShloMosaic.StableHlo
open Cert.ReferenceIdeal Cert.ReferenceIdeal.Gen

set_option maxRecDepth 16384 in

theorem layer0_read (W : Valuation τ sig (Elt Ideal)) :
    (StableHlo.after (RefOps.opsL0 (F := Ideal)) W (Proc.devRef .tc main_v65) : S100000x128.Idx → EReal)
      = RefLayer0.layer0 (W (Proc.devRef .tc main_arg0)) (W (Proc.devRef .tc main_arg1)) (W (Proc.devRef .tc main_arg3))
          (W (Proc.devRef .tc main_arg4)) (W (Proc.devRef .tc main_arg5)) (W (Proc.devRef .tc main_arg6))
          (W (Proc.devRef .tc main_arg7)) (W (Proc.devRef .tc main_arg8)) (W (Proc.devRef .tc main_arg9))
          (W (Proc.devRef .tc main_arg10)) (W (Proc.devRef .tc main_arg11)) := by
  after_results_simp
  try simp only [TRef.ofBuf, TRef.toBuf, cast_eq]
  rfl

set_option maxRecDepth 16384 in

theorem row0_read (W : Valuation τ sig (Elt Ideal)) :
    (StableHlo.after (RefOps.opsL0 (F := Ideal)) W (Proc.devRef .tc main_v1) : S600000.Idx → BitVec 32)
      = RefLayer0.edgeRow0 (W (Proc.devRef .tc main_arg1)) := by
  after_results_simp
  try simp only [TRef.ofBuf, TRef.toBuf, cast_eq]
  rfl

set_option maxRecDepth 16384 in

theorem row1_read (W : Valuation τ sig (Elt Ideal)) :
    (StableHlo.after (RefOps.opsL0 (F := Ideal)) W (Proc.devRef .tc main_v3) : S600000.Idx → BitVec 32)
      = RefLayer0.edgeRow1 (W (Proc.devRef .tc main_arg1)) := by
  after_results_simp
  try simp only [TRef.ofBuf, TRef.toBuf, cast_eq]
  rfl

end Cert.ReferenceIdeal.RefLayer0Read

end
-- ==== Proof.RefLayerS.lean ====
import proofs.«425852_j85495618995090_1_alg».proof.ReferenceIdeal
import proofs.«425852_j85495618995090_1_alg».proof.Proof.Spec
import proofs.«425852_j85495618995090_1_alg».proof.Proof.LayoutCanon
import Idealize.ShloMosaic.Lib.StackMember

noncomputable section

open scoped BigOperators

namespace Cert.ReferenceIdeal.RefLayerS

open Idealize.ShloMosaic Idealize.ShloMosaic.ValueIdx
open Cert.ReferenceIdeal Cert.ReferenceIdeal.Facts₀

variable [Facts₀]

def startIdx (ix : IVec S600000 32) : IVec S600000x1 32 :=
  broadcastInDim S600000x1 ![0] bcast_S600000_S600000x1_0
    (select (cmpi .slt ix (broadcastInDim S600000 ![] bcast_S_S600000 (constantI S_ 32 0#32)))
      (addi ix (broadcastInDim S600000 ![] bcast_S_S600000 (constantI S_ 32 100000#32))) ix)

def gatherRows (x : FVec Ideal S100000x128 .f32) (src : IVec S600000 32) : FVec Ideal S600000x128 .f32 :=
  Host.gather gather_S100000x128_S600000x1_S600000x128_1_0_n_n_0_1_1128 x (startIdx src)

def scatterRows (dst : IVec S600000 32) (u : FVec Ideal S600000x128 .f32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) u

theorem slicesM {a b : ℕ} (k : Fin 3) : (⟨3, ![3, a, b]⟩ : Shape).Slices ![k.val, 0, 0] ⟨3, ![1, a, b]⟩ :=
  ⟨rfl, fun i => match i with
    | ⟨0, _⟩ => k.isLt
    | ⟨1, _⟩ => (Nat.zero_add a).le
    | ⟨2, _⟩ => (Nat.zero_add b).le⟩

theorem slicesV {n : ℕ} (k : Fin 3) : (⟨2, ![3, n]⟩ : Shape).Slices ![k.val, 0] ⟨2, ![1, n]⟩ :=
  ⟨rfl, fun i => match i with
    | ⟨0, _⟩ => k.isLt
    | ⟨1, _⟩ => (Nat.zero_add n).le⟩

def slice7T (k : Fin 3) (S : FVec Ideal S3x128x7 .f32) : FVec Ideal S7x128 .f32 :=
  transpose S7x128 [1, 0]
    (shapeCast S128x7 (extractStridedSlice S1x128x7 ![k.val, 0, 0] S (slicesM k)) shapeCasts_S1x128x7_S128x7)
    transposes_S128x7_S7x128_1_0

def sliceMT (k : Fin 3) (S : FVec Ideal S3x128x128 .f32) : FVec Ideal S128x128 .f32 :=
  transpose S128x128 [1, 0]
    (shapeCast S128x128 (extractStridedSlice S1x128x128 ![k.val, 0, 0] S (slicesM k)) shapeCasts_S1x128x128_S128x128)
    transposes_S128x128_S128x128_1_0

def sliceV (k : Fin 3) (S : FVec Ideal S3x128 .f32) : FVec Ideal S128 .f32 :=
  shapeCast S128 (extractStridedSlice S1x128 ![k.val, 0] S (slicesV k)) shapeCasts_S1x128_S128

def rowOf (v : FVec Ideal S128 .f32) : FVec Ideal S1x128 .f32 := broadcastInDim S1x128 ![1] bcast_S128_S1x128_1 v

def overN (r : FVec Ideal S1x128 .f32) : FVec Ideal S100000x128 .f32 :=
  broadcastInDim S100000x128 ![0, 1] bcast_S1x128_S100000x128_0_1 r

def rowsN (v : FVec Ideal S128 .f32) : FVec Ideal S100000x128 .f32 := overN (rowOf v)

def rowsE (v : FVec Ideal S128 .f32) : FVec Ideal S600000x128 .f32 :=
  broadcastInDim S600000x128 ![0, 1] bcast_S1x128_S600000x128_0_1 (rowOf v)

def reluE (y : FVec Ideal S600000x128 .f32) : FVec Ideal S600000x128 .f32 :=
  maximumf y (broadcastInDim S600000x128 ![] bcast_S_S600000x128 (constant (F := Ideal) S_ .f32 0x00000000#32))

def leakyN (y : FVec Ideal S100000x128 .f32) : FVec Ideal S100000x128 .f32 :=
  select (cmpf .oge y (broadcastInDim S100000x128 ![] bcast_S_S100000x128 (constant (F := Ideal) S_ .f32 0x00000000#32))) y
    (mulf (broadcastInDim S100000x128 ![] bcast_S_S100000x128 (constant (F := Ideal) S_ .f32 0x3C23D70A#32)) y)

def sumN (x : FVec Ideal S100000x128 .f32) : FVec Ideal S128 .f32 :=
  Host.reduceAdd x (constant (F := Ideal) S_ .f32 0x00000000#32) reducesTo_S100000x128_S128_d0 h_S_

def edgeMsgP (ea : FVec Ideal S600000x7 .f32) (ewt : FVec Ideal S7x128 .f32) (eb : FVec Ideal S128 .f32)
    (xg : FVec Ideal S600000x128 .f32) : FVec Ideal S600000x128 .f32 :=
  reluE (addf xg (addf (Host.dotGeneral dot_S600000x7_S7x128_S600000x128_1_0_0_1_n_n none ea ewt) (rowsE eb)))

def lin1P (h aggr : FVec Ideal S100000x128 .f32) (w1t : FVec Ideal S128x128 .f32) (b1 : FVec Ideal S128 .f32) :
    FVec Ideal S100000x128 .f32 :=
  addf (Host.dotGeneral dot_S100000x128_S128x128_S100000x128_1_0_0_1_n_n none (addf h aggr) w1t) (rowsN b1)

def meanP (x : FVec Ideal S100000x128 .f32) : FVec Ideal S128 .f32 :=
  Host.divf (sumN x) (broadcastInDim S128 ![] bcast_S_S128 (constant (F := Ideal) S_ .f32 0x47C35000#32))

def meanRow (x : FVec Ideal S100000x128 .f32) : FVec Ideal S1x128 .f32 :=
  Host.divf (rowOf (sumN x)) (broadcastInDim S1x128 ![] bcast_S_S1x128 (constant (F := Ideal) S_ .f32 0x47C35000#32))

def centred (x : FVec Ideal S100000x128 .f32) : FVec Ideal S100000x128 .f32 := subf x (overN (meanRow x))

def divisor : FVec Ideal S_ .f32 :=
  subf (constant (F := Ideal) S_ .f32 0x47C35000#32) (sitofp .f32 (constantI S_ 32 0#32))

def varN (x : FVec Ideal S100000x128 .f32) : FVec Ideal S128 .f32 :=
  select (broadcastInDim S128 ![] bcast_S_S128 (cmpf .ogt divisor (constant (F := Ideal) S_ .f32 0x00000000#32)))
    (Host.divf (sumN (mulf (centred x) (centred x))) (broadcastInDim S128 ![] bcast_S_S128 divisor))
    (broadcastInDim S128 ![] bcast_S_S128 (id (constant (F := Ideal) S_ .f32 0x7FC00000#32)))

def rstd (v : FVec Ideal S128 .f32) : FVec Ideal S128 .f32 :=
  Host.rsqrt (addf v (broadcastInDim S128 ![] bcast_S_S128 (constant (F := Ideal) S_ .f32 0x3727C5AC#32)))

def bnActP (x : FVec Ideal S100000x128 .f32) (g be : FVec Ideal S128 .f32) (w2t : FVec Ideal S128x128 .f32)
    (b2 : FVec Ideal S128 .f32) : FVec Ideal S100000x128 .f32 :=
  leakyN (leakyN (addf (Host.dotGeneral dot_S100000x128_S128x128_S100000x128_1_0_0_1_n_n none
    (leakyN (addf (mulf (mulf (rowsN g) (subf x (rowsN (meanP x)))) (rowsN (rstd (varN x)))) (rowsN be))) w2t) (rowsN b2)))

def layer (k : Fin 3) (h : FVec Ideal S100000x128 .f32) (src dst : IVec S600000 32) (ea : FVec Ideal S600000x7 .f32)
    (ewS : FVec Ideal S3x128x7 .f32) (ebS : FVec Ideal S3x128 .f32) (w1S : FVec Ideal S3x128x128 .f32)
    (b1S gS beS : FVec Ideal S3x128 .f32) (w2S : FVec Ideal S3x128x128 .f32) (b2S : FVec Ideal S3x128 .f32) :
    FVec Ideal S100000x128 .f32 :=
  bnActP (lin1P h (scatterRows dst (edgeMsgP ea (slice7T k ewS) (sliceV k ebS) (gatherRows h src))) (sliceMT k w1S)
    (sliceV k b1S)) (sliceV k gS) (sliceV k beS) (sliceMT k w2S) (sliceV k b2S)

theorem slice7T_eq (k : Fin 3) (S : FVec Ideal S3x128x7 .f32) : slice7T k S = fun j => S (ix3 k (j 1) (j 0)) :=
  funext fun j => (Cert.Layout.transpose2_apply _ _ j).trans (Cert.Layout.stackMat_apply k.val S _ _ k rfl _)

theorem sliceMT_eq (k : Fin 3) (S : FVec Ideal S3x128x128 .f32) : sliceMT k S = fun j => S (ix3 k (j 1) (j 0)) :=
  funext fun j => (Cert.Layout.transpose2_apply _ _ j).trans (Cert.Layout.stackMat_apply k.val S _ _ k rfl _)

theorem sliceV_apply (k : Fin 3) (S : FVec Ideal S3x128 .f32) (i : S128.Idx) : sliceV k S i = S (ix2 k (i 0)) :=
  Cert.Layout.stackRow_apply k.val S _ _ k rfl i

theorem rowOf_apply (v : FVec Ideal S128 .f32) (q : Fin 128) : rowOf v (ix2 (0 : Fin 1) q) = v (ix1 q) :=
  Cert.Layout.bcast_n_1n_apply _ v (ix2 (0 : Fin 1) q)

theorem overN_apply (r : FVec Ideal S1x128 .f32) (p : Fin 100000) (q : Fin 128) :
    overN r (ix2 p q) = r (ix2 (0 : Fin 1) q) :=
  Cert.Layout.bcast_1n_mn_apply _ r (ix2 p q)

theorem rowsN_apply (v : FVec Ideal S128 .f32) (p : Fin 100000) (q : Fin 128) : rowsN v (ix2 p q) = v (ix1 q) :=
  (overN_apply _ p q).trans (rowOf_apply v q)

theorem rowsE_apply (v : FVec Ideal S128 .f32) (p : Fin 600000) (q : Fin 128) : rowsE v (ix2 p q) = v (ix1 q) :=
  (Cert.Layout.bcast_1n_mn_apply _ (rowOf v) (ix2 p q)).trans (rowOf_apply v q)

theorem reluE_apply (y : FVec Ideal S600000x128 .f32) (i : S600000x128.Idx) :
    reluE y i = max (y i) (Ideal.ofBits .f32 0x00000000#32) := rfl

theorem leakyN_apply (y : FVec Ideal S100000x128 .f32) (i : S100000x128.Idx) :
    leakyN y i = Cert.Spec.leaky (Ideal.ofBits .f32 0x3C23D70A#32) (y i) := rfl

theorem rstd_apply (v : FVec Ideal S128 .f32) (j : S128.Idx) :
    rstd v j = Ideal.rsqrt (v j + Ideal.ofBits .f32 0x3727C5AC#32) := rfl

theorem dotE_apply (l : FVec Ideal S600000x7 .f32) (r : FVec Ideal S7x128 .f32) (p : Fin 600000) (q : Fin 128) :
    Host.dotGeneral dot_S600000x7_S7x128_S600000x128_1_0_0_1_n_n none l r (ix2 p q)
      = ∑ k : Fin 7, l (ix2 p k) * r (ix2 k q) :=
  StackMember.dotGeneral_plain_apply none l r p q

theorem dotN_apply (l : FVec Ideal S100000x128 .f32) (r : FVec Ideal S128x128 .f32) (p : Fin 100000) (q : Fin 128) :
    Host.dotGeneral dot_S100000x128_S128x128_S100000x128_1_0_0_1_n_n none l r (ix2 p q)
      = ∑ k : Fin 128, l (ix2 p k) * r (ix2 k q) :=
  StackMember.dotGeneral_plain_apply none l r p q

theorem sumN_apply (x : FVec Ideal S100000x128 .f32) (q : Fin 128) : sumN x (ix1 q) = ∑ p : Fin 100000, x (ix2 p q) := by
  unfold sumN
  simp only [Host.reduceAdd, Ideal.hostReduceAdd_def]
  rw [Ideal.hostReduceAdd_single reducesTo_S100000x128_S128_d0 (by decide)]
  show Ideal.ofBits .f32 0x00000000#32 + _ = _
  rw [Ideal.ofBits_zero_f32, zero_add]
  exact Finset.sum_congr rfl fun k _ =>
    congrArg x (funext fun a => Fin.ext (by match a with | ⟨0, _⟩ => rfl | ⟨1, _⟩ => rfl))

theorem edgeMsgP_eq (ea : FVec Ideal S600000x7 .f32) (ewt : FVec Ideal S7x128 .f32) (eb : FVec Ideal S128 .f32)
    (xg : FVec Ideal S600000x128 .f32) :
    edgeMsgP ea ewt eb xg = Cert.Spec.edgeMsg (D := 128) ea ewt (fun j => eb (ix1 (j 1))) xg := by
  funext i
  obtain ⟨p, q, rfl⟩ : ∃ (p : Fin 600000) (q : Fin 128), i = ix2 p q := ⟨i 0, i 1, eq_ix2 i⟩
  unfold edgeMsgP Cert.Spec.edgeMsg
  simp only [reluE_apply, addf_apply, dotE_apply, rowsE_apply]

theorem lin1P_eq (h aggr : FVec Ideal S100000x128 .f32) (w1t : FVec Ideal S128x128 .f32) (b1 : FVec Ideal S128 .f32) :
    lin1P h aggr w1t b1 = Cert.Spec.lin1 (D := 128) h aggr w1t (fun j => b1 (ix1 (j 1))) := by
  funext i
  obtain ⟨p, q, rfl⟩ : ∃ (p : Fin 100000) (q : Fin 128), i = ix2 p q := ⟨i 0, i 1, eq_ix2 i⟩
  unfold lin1P Cert.Spec.lin1
  simp only [addf_apply, dotN_apply, rowsN_apply]

theorem meanP_apply (x : FVec Ideal S100000x128 .f32) (q : Fin 128) :
    meanP x (ix1 q) = Cert.Spec.meanOf (Ideal.ofBits .f32 0x47C35000#32) (Cert.Spec.colSum x) (ix2 (0 : Fin 1) q) :=
  congrArg (Ideal.div · (Ideal.ofBits .f32 0x47C35000#32)) (sumN_apply x q)

theorem centred_apply (x : FVec Ideal S100000x128 .f32) (p : Fin 100000) (q : Fin 128) :
    centred x (ix2 p q)
      = x (ix2 p q) - Ideal.div (∑ r : Fin 100000, x (ix2 r q)) (Ideal.ofBits .f32 0x47C35000#32) := by
  show x (ix2 p q) - overN (meanRow x) (ix2 p q) = _
  rw [overN_apply]
  show _ - Ideal.div (rowOf (sumN x) (ix2 (0 : Fin 1) q)) (Ideal.ofBits .f32 0x47C35000#32) = _
  rw [rowOf_apply, sumN_apply]

/-- The divisor is the count itself, and it is positive, so the guarded branch is never taken. -/
theorem varN_apply (hn : Ideal.ofBits .f32 0x47C35000#32 = ((100000 : ℝ) : EReal)) (x : FVec Ideal S100000x128 .f32)
    (q : Fin 128) :
    varN x (ix1 q) = Cert.Spec.varCentred (Ideal.ofBits .f32 0x47C35000#32) x (ix2 (0 : Fin 1) q) := by
  have hs : FloatOps.sitofp (F := Ideal) .f32 (0#32 : BitVec 32) = (0 : EReal) := by
    show (((0#32 : BitVec 32).toInt : ℝ) : EReal) = 0
    simp
  have hd : Ideal.ofBits .f32 0x47C35000#32 - FloatOps.sitofp (F := Ideal) .f32 (0#32 : BitVec 32)
      = Ideal.ofBits .f32 0x47C35000#32 := by rw [hs, sub_zero]
  have hlt : Ideal.ofBits .f32 0x00000000#32 < Ideal.ofBits .f32 0x47C35000#32 := by
    rw [Ideal.ofBits_zero_f32, hn]; exact EReal.coe_pos.mpr (by norm_num)
  have hg : FloatOps.cmpf (F := Ideal) (φ := .f32) .ogt (Ideal.ofBits .f32 0x47C35000#32)
      (Ideal.ofBits .f32 0x00000000#32) = 1#1 := by
    show BitVec.ofBool (decide (Ideal.ofBits .f32 0x00000000#32 < Ideal.ofBits .f32 0x47C35000#32)) = 1#1
    rw [decide_eq_true hlt]; rfl
  show Scalar.select (FloatOps.cmpf (F := Ideal) (φ := .f32) .ogt
      (Ideal.ofBits .f32 0x47C35000#32 - FloatOps.sitofp (F := Ideal) .f32 (0#32 : BitVec 32))
      (Ideal.ofBits .f32 0x00000000#32))
    (Ideal.div (sumN (mulf (centred x) (centred x)) (ix1 q))
      (Ideal.ofBits .f32 0x47C35000#32 - FloatOps.sitofp (F := Ideal) .f32 (0#32 : BitVec 32)))
    (Ideal.ofBits .f32 0x7FC00000#32) = _
  rw [hd, hg, select_one, sumN_apply]
  simp only [mulf_apply, centred_apply]
  rfl

theorem bnActP_eq (hn : Ideal.ofBits .f32 0x47C35000#32 = ((100000 : ℝ) : EReal)) (x : FVec Ideal S100000x128 .f32)
    (g be : FVec Ideal S128 .f32) (w2t : FVec Ideal S128x128 .f32) (b2 : FVec Ideal S128 .f32) :
    bnActP x g be w2t b2
      = Cert.Spec.bnActTwice (Ideal.ofBits .f32 0x3C23D70A#32) (Ideal.ofBits .f32 0x3727C5AC#32) x
          (Cert.Spec.meanOf (Ideal.ofBits .f32 0x47C35000#32) (Cert.Spec.colSum x))
          (Cert.Spec.varCentred (Ideal.ofBits .f32 0x47C35000#32) x)
          (fun j => g (ix1 (j 1))) (fun j => be (ix1 (j 1))) w2t (fun j => b2 (ix1 (j 1))) := by
  funext i
  obtain ⟨p, q, rfl⟩ : ∃ (p : Fin 100000) (q : Fin 128), i = ix2 p q := ⟨i 0, i 1, eq_ix2 i⟩
  unfold bnActP Cert.Spec.bnActTwice Cert.Spec.normActL
  simp only [leakyN_apply, addf_apply, mulf_apply, subf_apply, dotN_apply, rowsN_apply, rstd_apply, meanP_apply,
    varN_apply hn]

theorem layer_spec (k : Fin 3) (hn : Ideal.ofBits .f32 0x47C35000#32 = ((100000 : ℝ) : EReal))
    (h : FVec Ideal S100000x128 .f32) (src dst : IVec S600000 32) (ea : FVec Ideal S600000x7 .f32)
    (ewS : FVec Ideal S3x128x7 .f32) (ebS : FVec Ideal S3x128 .f32) (w1S : FVec Ideal S3x128x128 .f32)
    (b1S gS beS : FVec Ideal S3x128 .f32) (w2S : FVec Ideal S3x128x128 .f32) (b2S : FVec Ideal S3x128 .f32) :
    layer k h src dst ea ewS ebS w1S b1S gS beS w2S b2S
      = (fun x => Cert.Spec.bnActTwice (Ideal.ofBits .f32 0x3C23D70A#32) (Ideal.ofBits .f32 0x3727C5AC#32) x
          (Cert.Spec.meanOf (Ideal.ofBits .f32 0x47C35000#32) (Cert.Spec.colSum x))
          (Cert.Spec.varCentred (Ideal.ofBits .f32 0x47C35000#32) x)
          (fun j => gS (ix2 k (j 1))) (fun j => beS (ix2 k (j 1)))
          (fun j => w2S (ix3 k (j 1) (j 0))) (fun j => b2S (ix2 k (j 1))))
        (Cert.Spec.lin1 (D := 128) h
          (scatterRows dst (Cert.Spec.edgeMsg (D := 128) ea (fun j => ewS (ix3 k (j 1) (j 0)))
            (fun j => ebS (ix2 k (j 1))) (gatherRows h src)))
          (fun j => w1S (ix3 k (j 1) (j 0))) (fun j => b1S (ix2 k (j 1)))) := by
  unfold layer
  rw [edgeMsgP_eq, lin1P_eq, bnActP_eq hn, slice7T_eq, sliceMT_eq, sliceMT_eq]
  simp only [sliceV_apply]

end Cert.ReferenceIdeal.RefLayerS

end
-- ==== Proof.RefLayer1Read.lean ====
import proofs.«425852_j85495618995090_1_alg».proof.Proof.RefLayerS
import proofs.«425852_j85495618995090_1_alg».proof.Proof.RefOps
import Idealize.ShloMosaic.Lib.StableHlo.Run

noncomputable section

namespace Cert.ReferenceIdeal.RefLayer1Read

open Idealize.ShloMosaic Idealize.ShloMosaic.ValueIdx Idealize.ShloMosaic.StableHlo Idealize.SL.Sem
open Cert.ReferenceIdeal

set_option maxHeartbeats 4000000 in
theorem layer1_read (W : Valuation τ sig (Elt Ideal)) :
    (StableHlo.after (RefOps.opsL1 (F := Ideal)) W (Proc.devRef .tc main_v143) : S100000x128.Idx → EReal)
      = RefLayerS.layer 0 (W (Proc.devRef .tc main_v65)) (W (Proc.devRef .tc main_v1)) (W (Proc.devRef .tc main_v3))
          (W (Proc.devRef .tc main_arg3)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) (W (Proc.devRef .tc main_arg19)) := by
  after_results_simp
  try simp only [TRef.ofBuf, TRef.toBuf, cast_eq]
  rfl

end Cert.ReferenceIdeal.RefLayer1Read

end
-- ==== Proof.RefLayer2Read.lean ====
import proofs.«425852_j85495618995090_1_alg».proof.Proof.RefLayerS
import proofs.«425852_j85495618995090_1_alg».proof.Proof.RefOps
import Idealize.ShloMosaic.Lib.StableHlo.Run

noncomputable section

namespace Cert.ReferenceIdeal.RefLayer2Read

open Idealize.ShloMosaic Idealize.ShloMosaic.ValueIdx Idealize.ShloMosaic.StableHlo Idealize.SL.Sem
open Cert.ReferenceIdeal

set_option maxHeartbeats 4000000 in
theorem layer2_read (W : Valuation τ sig (Elt Ideal)) :
    (StableHlo.after (RefOps.opsL2 (F := Ideal)) W (Proc.devRef .tc main_v221) : S100000x128.Idx → EReal)
      = RefLayerS.layer 1 (W (Proc.devRef .tc main_v143)) (W (Proc.devRef .tc main_v1)) (W (Proc.devRef .tc main_v3))
          (W (Proc.devRef .tc main_arg3)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) (W (Proc.devRef .tc main_arg19)) := by
  after_results_simp
  try simp only [TRef.ofBuf, TRef.toBuf, cast_eq]
  rfl

end Cert.ReferenceIdeal.RefLayer2Read

end
-- ==== Proof.RefLayer3Read.lean ====
import proofs.«425852_j85495618995090_1_alg».proof.Proof.RefLayerS
import proofs.«425852_j85495618995090_1_alg».proof.Proof.RefOps
import Idealize.ShloMosaic.Lib.StableHlo.Run

noncomputable section

namespace Cert.ReferenceIdeal.RefLayer3Read

open Idealize.ShloMosaic Idealize.ShloMosaic.ValueIdx Idealize.ShloMosaic.StableHlo Idealize.SL.Sem
open Cert.ReferenceIdeal

set_option maxHeartbeats 4000000 in
theorem layer3_read (W : Valuation τ sig (Elt Ideal)) :
    (StableHlo.after (RefOps.opsL3 (F := Ideal)) W (Proc.devRef .tc main_v299) : S100000x128.Idx → EReal)
      = RefLayerS.layer 2 (W (Proc.devRef .tc main_v221)) (W (Proc.devRef .tc main_v1)) (W (Proc.devRef .tc main_v3))
          (W (Proc.devRef .tc main_arg3)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) (W (Proc.devRef .tc main_arg19)) := by
  after_results_simp
  try simp only [TRef.ofBuf, TRef.toBuf, cast_eq]
  rfl

end Cert.ReferenceIdeal.RefLayer3Read

end
-- ==== Proof.RefTail.lean ====
import proofs.«425852_j85495618995090_1_alg».proof.ReferenceIdeal
import proofs.«425852_j85495618995090_1_alg».proof.Proof.Spec
import proofs.«425852_j85495618995090_1_alg».proof.Proof.RefOps
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.KernelVsHost
import Idealize.ShloMosaic.Lib.StackMember

noncomputable section

namespace Cert.ReferenceIdeal.RefTail

open Idealize.ShloMosaic Idealize.ShloMosaic.ValueIdx Idealize.ShloMosaic.StableHlo Idealize.SL.Sem
open Cert.ReferenceIdeal Cert.ReferenceIdeal.Facts₀ Cert.ReferenceIdeal.Facts
open scoped BigOperators

variable [Cert.ReferenceIdeal.Facts]

def pooled (h : FVec Ideal S100000x128 .f32) (batch : IVec S100000 32) : FVec Ideal S64x128 .f32 :=
  let main_v300 : FVec Ideal S64x128 .f32 := broadcastInDim S64x128 ![] bcast_S_S64x128 (constant (F := Ideal) S_ .f32 0x00000000#32)
  let main_v301 : IVec S100000x1 32 := broadcastInDim S100000x1 ![0] bcast_S100000_S100000x1_0 batch
  let main_v302 : FVec Ideal S64x128 .f32 := Host.scatterAdd scatter_S64x128_S100000x1_S100000x128_1_0_0_1 main_v300 main_v301 h
  let main_v303 : FVec Ideal S100000 .f32 := broadcastInDim S100000 ![] bcast_S_S100000 (constant (F := Ideal) S_ .f32 0x3F800000#32)
  let main_v304 : FVec Ideal S64 .f32 := broadcastInDim S64 ![] bcast_S_S64 (constant (F := Ideal) S_ .f32 0x00000000#32)
  let main_v305 : IVec S100000x1 32 := broadcastInDim S100000x1 ![0] bcast_S100000_S100000x1_0 batch
  let main_v306 : FVec Ideal S64 .f32 := Host.scatterAdd scatter_S64_S100000x1_S100000_n_0_0_1 main_v304 main_v305 main_v303
  let main_v307 : FVec Ideal S64 .f32 := broadcastInDim S64 ![] bcast_S_S64 (constant (F := Ideal) S_ .f32 0x3F800000#32)
  let main_v308 : FVec Ideal S64 .f32 := maximumf main_v306 main_v307
  let main_v309 : FVec Ideal S64x1 .f32 := broadcastInDim S64x1 ![0] bcast_S64_S64x1_0 main_v308
  let main_v310 : FVec Ideal S64x128 .f32 := broadcastInDim S64x128 ![0, 1] bcast_S64x1_S64x128_0_1 main_v309
  Host.divf main_v302 main_v310

def tail (h : FVec Ideal S100000x128 .f32) (batch : IVec S100000 32) (wr : FVec Ideal S500x128 .f32)
    (br : FVec Ideal S500 .f32) (we : FVec Ideal S1x500 .f32) (be : FVec Ideal S1 .f32) : FVec Ideal S64x1 .f32 :=
  let main_v311 : FVec Ideal S64x128 .f32 := pooled h batch
  let main_v312 : FVec Ideal S128x500 .f32 := transpose S128x500 [1, 0] wr transposes_S500x128_S128x500_1_0
  let main_v313 : FVec Ideal S64x500 .f32 := Host.dotGeneral dot_S64x128_S128x500_S64x500_1_0_0_1_n_n none main_v311 main_v312
  let main_v314 : FVec Ideal S1x500 .f32 := broadcastInDim S1x500 ![1] bcast_S500_S1x500_1 br
  let main_v315 : FVec Ideal S64x500 .f32 := broadcastInDim S64x500 ![0, 1] bcast_S1x500_S64x500_0_1 main_v314
  let main_v316 : FVec Ideal S64x500 .f32 := addf main_v313 main_v315
  let main_v317 : FVec Ideal S64x500 .f32 := broadcastInDim S64x500 ![] bcast_S_S64x500 (constant (F := Ideal) S_ .f32 0x00000000#32)
  let main_v318 : IVec S64x500 1 := cmpf .oge main_v316 main_v317
  let main_v319 : FVec Ideal S64x500 .f32 := broadcastInDim S64x500 ![] bcast_S_S64x500 (constant (F := Ideal) S_ .f32 0x3C23D70A#32)
  let main_v320 : FVec Ideal S64x500 .f32 := mulf main_v319 main_v316
  let main_v321 : FVec Ideal S64x500 .f32 := select main_v318 main_v316 main_v320
  let main_v322 : FVec Ideal S500x1 .f32 := transpose S500x1 [1, 0] we transposes_S1x500_S500x1_1_0
  let main_v323 : FVec Ideal S64x1 .f32 := Host.dotGeneral dot_S64x500_S500x1_S64x1_1_0_0_1_n_n none main_v321 main_v322
  let main_v324 : FVec Ideal S1x1 .f32 := broadcastInDim S1x1 ![1] bcast_S1_S1x1_1 be
  let main_v325 : FVec Ideal S64x1 .f32 := broadcastInDim S64x1 ![0, 1] bcast_S1x1_S64x1_0_1 main_v324
  addf main_v323 main_v325

theorem rowOf_apply {α : Type} {n : Nat} (hd : (⟨1, ![n]⟩ : Shape).BroadcastsInDim ⟨2, ![1, n]⟩ ![1])
    (x : (⟨1, ![n]⟩ : Shape).Idx → α) (t : Fin n) :
    broadcastInDim ⟨2, ![1, n]⟩ ![1] hd x (ix2 (0 : Fin 1) t) = x (ix1 t) := by
  refine broadcastInDim_apply ![1] hd x (ix2 (0 : Fin 1) t) (ix1 t) ?_
  intro a
  match a with
  | ⟨0, _⟩ =>
    show t.val = if n = 1 then 0 else t.val
    split
    · have := t.isLt; omega
    · rfl

theorem rows_apply {α : Type} {m n : Nat} (hd : (⟨1, ![n]⟩ : Shape).BroadcastsInDim ⟨2, ![1, n]⟩ ![1])
    (hbc : (⟨2, ![1, n]⟩ : Shape).BroadcastsInDim ⟨2, ![m, n]⟩ ![0, 1]) (x : (⟨1, ![n]⟩ : Shape).Idx → α)
    (r : Fin m) (t : Fin n) :
    broadcastInDim ⟨2, ![m, n]⟩ ![0, 1] hbc (broadcastInDim ⟨2, ![1, n]⟩ ![1] hd x) (ix2 r t) = x (ix1 t) := by
  rw [broadcastInDim_oneRow_apply, rowOf_apply]

theorem dot_v313_apply (x : FVec Ideal S64x128 .f32) (y : FVec Ideal S128x500 .f32) (p : Fin 64) (k : Fin 500) :
    Host.dotGeneral (F := Ideal) dot_S64x128_S128x500_S64x500_1_0_0_1_n_n none x y (ix2 p k)
      = ∑ l : Fin 128, x (ix2 p l) * y (ix2 l k) :=
  StackMember.dotGeneral_plain_apply none x y p k

theorem dot_v323_apply (x : FVec Ideal S64x500 .f32) (y : FVec Ideal S500x1 .f32) (p : Fin 64) (q : Fin 1) :
    Host.dotGeneral (F := Ideal) dot_S64x500_S500x1_S64x1_1_0_0_1_n_n none x y (ix2 p q)
      = ∑ k : Fin 500, x (ix2 p k) * y (ix2 k q) :=
  StackMember.dotGeneral_plain_apply none x y p q

theorem hidden_apply (P : FVec Ideal S64x128 .f32) (wr : FVec Ideal S500x128 .f32) (br : FVec Ideal S500 .f32)
    (p : Fin 64) (k : Fin 500) :
    addf (Host.dotGeneral (F := Ideal) dot_S64x128_S128x500_S64x500_1_0_0_1_n_n none P
        (transpose S128x500 [1, 0] wr transposes_S500x128_S128x500_1_0))
      (broadcastInDim S64x500 ![0, 1] bcast_S1x500_S64x500_0_1 (broadcastInDim S1x500 ![1] bcast_S500_S1x500_1 br)) (ix2 p k)
      = (∑ l : Fin 128, P (ix2 p l) * wr (ix2 k l)) + br (ix1 k) := by
  rw [addf_apply, dot_v313_apply, rows_apply]
  refine congrArg (· + br (ix1 k)) (Finset.sum_congr rfl fun l _ => ?_)
  rw [transpose_ix2_apply]

theorem tail_spec (h : FVec Ideal S100000x128 .f32) (batch : IVec S100000 32) (wr : FVec Ideal S500x128 .f32)
    (br : FVec Ideal S500 .f32) (we : FVec Ideal S1x500 .f32) (be : FVec Ideal S1 .f32) :
    tail h batch wr br we be
      = Cert.Spec.regHead (Ideal.ofBits .f32 0x3C23D70A#32) (pooled h batch)
          (fun j => wr (ix2 (j 1) (j 0))) (fun j => br (ix1 (j 1)))
          (fun j => we (ix2 (j 1) (j 0))) (fun j => be (ix1 (j 1))) := by
  funext i
  obtain ⟨p, q, rfl⟩ : ∃ (p : Fin 64) (q : Fin 1), i = ix2 p q := ⟨i 0, i 1, eq_ix2 i⟩
  unfold tail Cert.Spec.regHead
  dsimp only
  rw [addf_apply, dot_v323_apply, rows_apply]
  refine congrArg (· + be (ix1 q)) (Finset.sum_congr rfl fun k _ => ?_)
  rw [transpose_ix2_apply, select_apply, cmpf_apply, mulf_apply, hidden_apply, broadcastInDim_scalar_apply,
    broadcastInDim_scalar_apply, constant_apply, constant_apply]
  rfl

set_option maxRecDepth 16384 in

theorem tail_read (W : Valuation τ sig (Elt Ideal)) :
    (StableHlo.after (RefOps.opsT (F := Ideal)) W (Proc.devRef .tc main_v326) : S64x1.Idx → EReal)
      = tail (W (Proc.devRef .tc main_v299)) (W (Proc.devRef .tc main_arg2)) (W (Proc.devRef .tc main_arg20))
          (W (Proc.devRef .tc main_arg21)) (W (Proc.devRef .tc main_arg22)) (W (Proc.devRef .tc main_arg23)) := by
  after_results_simp
  try simp only [TRef.ofBuf, TRef.toBuf, cast_eq]
  rfl

end Cert.ReferenceIdeal.RefTail

end
-- ==== Proof.FinalRef.lean ====
import proofs.«425852_j85495618995090_1_alg».proof.Proof.FinalCore
import proofs.«425852_j85495618995090_1_alg».proof.Proof.RefRun
import proofs.«425852_j85495618995090_1_alg».proof.Proof.RefLayer0Read
import proofs.«425852_j85495618995090_1_alg».proof.Proof.RefLayer1Read
import proofs.«425852_j85495618995090_1_alg».proof.Proof.RefLayer2Read
import proofs.«425852_j85495618995090_1_alg».proof.Proof.RefLayer3Read
import proofs.«425852_j85495618995090_1_alg».proof.Proof.RefTail
import proofs.«425852_j85495618995090_1_alg».proof.Proof.LayoutCanon

noncomputable section

namespace Cert.Final

open Idealize.ShloMosaic Idealize.ShloMosaic.ValueIdx Idealize.ShloMosaic.StableHlo Idealize.SL.Sem
open Cert.Spec Cert.GatherScatter Cert.ScatterFacts
open Cert.ReferenceIdeal

theorem cnt_pos : (0 : EReal) < Ideal.ofBits .f32 0x47C35000#32 := by
  rw [Cert.Consts.count_val]
  exact EReal.coe_pos.2 (by norm_num)

theorem gather0_eq (x : FVec Ideal S100000x2 .f32) (ei : IVec S2x600000 32) :
    RefLayer0.gatherRows x (fun e => ei (ix2 (0 : Fin 2) e)) = takeR2 x (srcP ei) := by
  unfold RefLayer0.gatherRows takeR2
  dsimp only
  refine congrArg (Host.gather _ x) (funext fun j => ?_)
  rw [Cert.Layout.bcast_n_nk_apply]
  rfl

theorem scatter0_eq (ei : IVec S2x600000 32) (u : FVec Ideal S600000x2 .f32) :
    RefLayer0.scatterRows (fun e => ei (ix2 (1 : Fin 2) e)) u = scatR2 (dstP ei) u := by
  unfold RefLayer0.scatterRows scatR2
  rw [Cert.Layout.bcast_scalar_eq, Cert.Layout.bcast_n_nk_eq]
  rfl

theorem ref_layer0 (V : Valuation τ sig (Elt Ideal)) :
    (after (RefOps.opsL0 (F := Ideal)) V (Proc.devRef .tc main_v65) : Mat 100000 128)
      = layerTwice slope eps cnt (fun x => takeR2 x (srcP (V (Proc.devRef .tc main_arg1)))) (scatR2 (dstP (V (Proc.devRef .tc main_arg1))))
          (V (Proc.devRef .tc main_arg0)) (V (Proc.devRef .tc main_arg3))
          (tr 2 7 (V (Proc.devRef .tc main_arg4))) (row 2 (V (Proc.devRef .tc main_arg5))) (tr 128 2 (V (Proc.devRef .tc main_arg6))) (row 128 (V (Proc.devRef .tc main_arg7)))
          (row 128 (V (Proc.devRef .tc main_arg8))) (row 128 (V (Proc.devRef .tc main_arg9))) (tr 128 128 (V (Proc.devRef .tc main_arg10))) (row 128 (V (Proc.devRef .tc main_arg11))) := by
  rw [RefLayer0Read.layer0_read, RefLayer0.layer0_spec cnt_pos, gather0_eq, scatter0_eq]
  rfl

theorem ref_layer (k : Fin 3) {y y' out : Mat 100000 128} {s s' d d' : IVec S600000 32} {ea ea' : FVec Ideal S600000x7 .f32}
    {a12 a12' : FVec Ideal S3x128x7 .f32} {a14 a14' a18 a18' : FVec Ideal S3x128x128 .f32}
    {a13 a13' a15 a15' a16 a16' a17 a17' a19 a19' : FVec Ideal S3x128 .f32}
    (hr : out = RefLayerS.layer k y s d ea a12 a13 a14 a15 a16 a17 a18 a19)
    (hy : y = y') (hs : s = s') (hd : d = d') (h3 : ea = ea') (h12 : a12 = a12') (h13 : a13 = a13') (h14 : a14 = a14')
    (h15 : a15 = a15') (h16 : a16 = a16') (h17 : a17 = a17') (h18 : a18 = a18') (h19 : a19 = a19') :
    out = layerTwice slope eps cnt (fun x => takeR128 x s') (scatR128 d') y' ea'
        (trS 128 7 k a12') (rowS 128 k a13') (trS 128 128 k a14') (rowS 128 k a15') (rowS 128 k a16') (rowS 128 k a17')
        (trS 128 128 k a18') (rowS 128 k a19') := by
  subst hy hs hd h3 h12 h13 h14 h15 h16 h17 h18 h19
  rw [hr, RefLayerS.layer_spec k Cert.Consts.count_val]
  rfl

theorem keep0 (W : Valuation τ sig (Elt Ideal)) (r : Ref sig .tc) (h : r.idx.val < 24) :
    after (RefOps.opsL0 (F := Ideal)) W (Proc.devRef .tc r) = W (Proc.devRef .tc r) :=
  RefRun.after_opsL0_keep W r (Or.inl h)

theorem keep1 (W : Valuation τ sig (Elt Ideal)) (r : Ref sig .tc) (h : r.idx.val < 126) :
    after (RefOps.opsL1 (F := Ideal)) W (Proc.devRef .tc r) = W (Proc.devRef .tc r) :=
  RefRun.after_opsL1_keep W r (Or.inl h)

theorem keep2 (W : Valuation τ sig (Elt Ideal)) (r : Ref sig .tc) (h : r.idx.val < 240) :
    after (RefOps.opsL2 (F := Ideal)) W (Proc.devRef .tc r) = W (Proc.devRef .tc r) :=
  RefRun.after_opsL2_keep W r (Or.inl h)

theorem keep3 (W : Valuation τ sig (Elt Ideal)) (r : Ref sig .tc) (h : r.idx.val < 354) :
    after (RefOps.opsL3 (F := Ideal)) W (Proc.devRef .tc r) = W (Proc.devRef .tc r) :=
  RefRun.after_opsL3_keep W r (Or.inl h)

theorem keep01 (W : Valuation τ sig (Elt Ideal)) (r : Ref sig .tc) (h : r.idx.val < 24) :
    (after (RefOps.opsL1 (F := Ideal)) (after (RefOps.opsL0 (F := Ideal)) W)) (Proc.devRef .tc r) = W (Proc.devRef .tc r) :=
  (keep1 _ r (by omega)).trans (keep0 W r h)

theorem keep012 (W : Valuation τ sig (Elt Ideal)) (r : Ref sig .tc) (h : r.idx.val < 24) :
    (after (RefOps.opsL2 (F := Ideal)) (after (RefOps.opsL1 (F := Ideal)) (after (RefOps.opsL0 (F := Ideal)) W))) (Proc.devRef .tc r) = W (Proc.devRef .tc r) :=
  (keep2 _ r (by omega)).trans (keep01 W r h)

theorem keep0123 (W : Valuation τ sig (Elt Ideal)) (r : Ref sig .tc) (h : r.idx.val < 24) :
    (after (RefOps.opsL3 (F := Ideal)) (after (RefOps.opsL2 (F := Ideal)) (after (RefOps.opsL1 (F := Ideal)) (after (RefOps.opsL0 (F := Ideal)) W)))) (Proc.devRef .tc r) = W (Proc.devRef .tc r) :=
  (keep3 _ r (by omega)).trans (keep012 W r h)

theorem src0 (W : Valuation τ sig (Elt Ideal)) :
    ((after (RefOps.opsL0 (F := Ideal)) W) (Proc.devRef .tc main_v1) : IVec S600000 32) = srcP (W (Proc.devRef .tc main_arg1)) :=
  (RefLayer0Read.row0_read W).trans (funext fun i => RefLayer0.edgeRow0_apply _ i)

theorem dst0 (W : Valuation τ sig (Elt Ideal)) :
    ((after (RefOps.opsL0 (F := Ideal)) W) (Proc.devRef .tc main_v3) : IVec S600000 32) = dstP (W (Proc.devRef .tc main_arg1)) :=
  (RefLayer0Read.row1_read W).trans (funext fun i => RefLayer0.edgeRow1_apply _ i)

theorem src1 (W : Valuation τ sig (Elt Ideal)) :
    ((after (RefOps.opsL1 (F := Ideal)) (after (RefOps.opsL0 (F := Ideal)) W)) (Proc.devRef .tc main_v1) : IVec S600000 32) = srcP (W (Proc.devRef .tc main_arg1)) :=
  (keep1 _ main_v1 (by decide)).trans (src0 W)

theorem dst1 (W : Valuation τ sig (Elt Ideal)) :
    ((after (RefOps.opsL1 (F := Ideal)) (after (RefOps.opsL0 (F := Ideal)) W)) (Proc.devRef .tc main_v3) : IVec S600000 32) = dstP (W (Proc.devRef .tc main_arg1)) :=
  (keep1 _ main_v3 (by decide)).trans (dst0 W)

theorem src2 (W : Valuation τ sig (Elt Ideal)) :
    ((after (RefOps.opsL2 (F := Ideal)) (after (RefOps.opsL1 (F := Ideal)) (after (RefOps.opsL0 (F := Ideal)) W))) (Proc.devRef .tc main_v1) : IVec S600000 32) = srcP (W (Proc.devRef .tc main_arg1)) :=
  (keep2 _ main_v1 (by decide)).trans (src1 W)

theorem dst2 (W : Valuation τ sig (Elt Ideal)) :
    ((after (RefOps.opsL2 (F := Ideal)) (after (RefOps.opsL1 (F := Ideal)) (after (RefOps.opsL0 (F := Ideal)) W))) (Proc.devRef .tc main_v3) : IVec S600000 32) = dstP (W (Proc.devRef .tc main_arg1)) :=
  (keep2 _ main_v3 (by decide)).trans (dst1 W)

theorem ref_side (W : Valuation τ sig (Elt Ideal)) :
    ∃ y0 y1 y2 y3 : Mat 100000 128,
      y0 = layerTwice slope eps cnt (fun x => takeR2 x (srcP (W (Proc.devRef .tc main_arg1)))) (scatR2 (dstP (W (Proc.devRef .tc main_arg1))))
          (W (Proc.devRef .tc main_arg0)) (W (Proc.devRef .tc main_arg3))
          (tr 2 7 (W (Proc.devRef .tc main_arg4))) (row 2 (W (Proc.devRef .tc main_arg5))) (tr 128 2 (W (Proc.devRef .tc main_arg6))) (row 128 (W (Proc.devRef .tc main_arg7)))
          (row 128 (W (Proc.devRef .tc main_arg8))) (row 128 (W (Proc.devRef .tc main_arg9))) (tr 128 128 (W (Proc.devRef .tc main_arg10))) (row 128 (W (Proc.devRef .tc main_arg11)))
      ∧ y1 = layerTwice slope eps cnt (fun x => takeR128 x (srcP (W (Proc.devRef .tc main_arg1)))) (scatR128 (dstP (W (Proc.devRef .tc main_arg1))))
          y0 (W (Proc.devRef .tc main_arg3))
          (trS 128 7 0 (W (Proc.devRef .tc main_arg12))) (rowS 128 0 (W (Proc.devRef .tc main_arg13))) (trS 128 128 0 (W (Proc.devRef .tc main_arg14))) (rowS 128 0 (W (Proc.devRef .tc main_arg15)))
          (rowS 128 0 (W (Proc.devRef .tc main_arg16))) (rowS 128 0 (W (Proc.devRef .tc main_arg17))) (trS 128 128 0 (W (Proc.devRef .tc main_arg18))) (rowS 128 0 (W (Proc.devRef .tc main_arg19)))
      ∧ y2 = layerTwice slope eps cnt (fun x => takeR128 x (srcP (W (Proc.devRef .tc main_arg1)))) (scatR128 (dstP (W (Proc.devRef .tc main_arg1))))
          y1 (W (Proc.devRef .tc main_arg3))
          (trS 128 7 1 (W (Proc.devRef .tc main_arg12))) (rowS 128 1 (W (Proc.devRef .tc main_arg13))) (trS 128 128 1 (W (Proc.devRef .tc main_arg14))) (rowS 128 1 (W (Proc.devRef .tc main_arg15)))
          (rowS 128 1 (W (Proc.devRef .tc main_arg16))) (rowS 128 1 (W (Proc.devRef .tc main_arg17))) (trS 128 128 1 (W (Proc.devRef .tc main_arg18))) (rowS 128 1 (W (Proc.devRef .tc main_arg19)))
      ∧ y3 = layerTwice slope eps cnt (fun x => takeR128 x (srcP (W (Proc.devRef .tc main_arg1)))) (scatR128 (dstP (W (Proc.devRef .tc main_arg1))))
          y2 (W (Proc.devRef .tc main_arg3))
          (trS 128 7 2 (W (Proc.devRef .tc main_arg12))) (rowS 128 2 (W (Proc.devRef .tc main_arg13))) (trS 128 128 2 (W (Proc.devRef .tc main_arg14))) (rowS 128 2 (W (Proc.devRef .tc main_arg15)))
          (rowS 128 2 (W (Proc.devRef .tc main_arg16))) (rowS 128 2 (W (Proc.devRef .tc main_arg17))) (trS 128 128 2 (W (Proc.devRef .tc main_arg18))) (rowS 128 2 (W (Proc.devRef .tc main_arg19)))
      ∧ (after (RefOps.ops (F := Ideal)) W (Proc.devRef .tc main_v326) : Mat 64 1)
          = regHead slope (RefTail.pooled y3 (W (Proc.devRef .tc main_arg2)))
              (tr 500 128 (W (Proc.devRef .tc main_arg20))) (row 500 (W (Proc.devRef .tc main_arg21))) (tr 1 500 (W (Proc.devRef .tc main_arg22))) (row 1 (W (Proc.devRef .tc main_arg23))) := by
  refine ⟨(after (RefOps.opsL0 (F := Ideal)) W) (Proc.devRef .tc main_v65), (after (RefOps.opsL1 (F := Ideal)) (after (RefOps.opsL0 (F := Ideal)) W)) (Proc.devRef .tc main_v143), (after (RefOps.opsL2 (F := Ideal)) (after (RefOps.opsL1 (F := Ideal)) (after (RefOps.opsL0 (F := Ideal)) W))) (Proc.devRef .tc main_v221), (after (RefOps.opsL3 (F := Ideal)) (after (RefOps.opsL2 (F := Ideal)) (after (RefOps.opsL1 (F := Ideal)) (after (RefOps.opsL0 (F := Ideal)) W)))) (Proc.devRef .tc main_v299),
    ref_layer0 W, ?_, ?_, ?_, ?_⟩
  · exact ref_layer 0 (RefLayer1Read.layer1_read _) rfl (src0 W) (dst0 W)
      (keep0 W main_arg3 (by decide)) (keep0 W main_arg12 (by decide)) (keep0 W main_arg13 (by decide)) (keep0 W main_arg14 (by decide)) (keep0 W main_arg15 (by decide)) (keep0 W main_arg16 (by decide)) (keep0 W main_arg17 (by decide)) (keep0 W main_arg18 (by decide)) (keep0 W main_arg19 (by decide))
  · exact ref_layer 1 (RefLayer2Read.layer2_read _) rfl (src1 W) (dst1 W)
      (keep01 W main_arg3 (by decide)) (keep01 W main_arg12 (by decide)) (keep01 W main_arg13 (by decide)) (keep01 W main_arg14 (by decide)) (keep01 W main_arg15 (by decide)) (keep01 W main_arg16 (by decide)) (keep01 W main_arg17 (by decide)) (keep01 W main_arg18 (by decide)) (keep01 W main_arg19 (by decide))
  · exact ref_layer 2 (RefLayer3Read.layer3_read _) rfl (src2 W) (dst2 W)
      (keep012 W main_arg3 (by decide)) (keep012 W main_arg12 (by decide)) (keep012 W main_arg13 (by decide)) (keep012 W main_arg14 (by decide)) (keep012 W main_arg15 (by decide)) (keep012 W main_arg16 (by decide)) (keep012 W main_arg17 (by decide)) (keep012 W main_arg18 (by decide)) (keep012 W main_arg19 (by decide))
  · rw [RefRun.after_ops, RefTail.tail_read, RefTail.tail_spec,
      keep0123 W main_arg2 (by decide), keep0123 W main_arg20 (by decide), keep0123 W main_arg21 (by decide),
      keep0123 W main_arg22 (by decide), keep0123 W main_arg23 (by decide)]

end Cert.Final

end
-- ==== Proof.PreFacts.lean ====
import proofs.«425852_j85495618995090_1_alg».proof.Pre_finite_inputs
import proofs.«425852_j85495618995090_1_alg».proof.Proof.Gen.Pre_finite_inputs
import proofs.«425852_j85495618995090_1_alg».proof.Proof.Spec
import Idealize.ShloMosaic.Lib.ReduceAll
import Idealize.ShloMosaic.Lib.StableHlo.Predicate
import Idealize.ShloMosaic.Lib.ValueLayout

noncomputable section

namespace Cert.PreFacts

open Idealize.ShloMosaic Idealize.ShloMosaic.ValueIdx
open Cert.Pre_finite_inputs

instance subsingleton_scalar_idx : Subsingleton S_.Idx := ⟨fun a b => funext fun d => d.elim0⟩

theorem inf_word : Ideal.ofBits .f32 0x7F800000#32 = (⊤ : EReal) := by
  simp [Ideal.ofBits, Ideal.ieee]

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < (⊤ : EReal))) = 1#1 := by
    rw [← inf_word]; exact h
  rw [StableHlo.Predicate.ofBool_eq_one_iff, decide_eq_true_eq] at h'
  induction x using EReal.rec with
  | bot => simp at h'
  | coe r => exact ⟨r, rfl⟩
  | top => simp at h'

theorem allReal_of_all {s : Shape} {axes : List (Fin s.rank)} (x : FVec Ideal s .f32)
    (bc : S_.BroadcastsInDim s (![] : Fin 0 → Fin s.rank)) (hr : s.ReducesTo axes S_) (h0 : 0 < S_.numel)
    (e : Host.reduce IntOp.andi
        (cmpf .olt (Host.absf x) (broadcastInDim s ![] bc (constant (F := Ideal) S_ .f32 0x7F800000#32)))
        (constantI S_ 1 1#1) hr h0 ix0 = 1#1) :
    Cert.Spec.AllReal x := by
  intro i
  exact real_of_abs_lt (x i) (Host.reduce_andi_all _ _ hr h0 ix0 e i)

theorem range_of_cmp (w : BitVec 32)
    (h : IntOp.andi (IntOp.cmpi .sge w 0#32) (IntOp.cmpi .slt w 100000#32) = 1#1) : 0 ≤ w.toInt ∧ w.toInt < 100000 := by
  obtain ⟨h1, h2⟩ := IntOp.andi_eq_one.1 h
  unfold IntOp.cmpi at h1 h2
  rw [StableHlo.Predicate.ofBool_eq_one_iff] at h1 h2
  simp only [BitVec.sle, BitVec.slt, decide_eq_true_eq] at h1 h2
  have z : (0#32 : BitVec 32).toInt = 0 := by decide
  have c : (100000#32 : BitVec 32).toInt = 100000 := by decide
  rw [z] at h1; rw [c] at h2
  exact ⟨h1, h2⟩

theorem row0_apply (a1 : IVec S2x600000 32) (sl : S2x600000.Slices ![0, 0] S1x600000) (sc : S1x600000.ShapeCasts S600000)
    (e : Fin 600000) :
    shapeCast S600000 (extractStridedSlice S1x600000 ![0, 0] a1 sl) sc (ix1 e) = a1 (ix2 (0 : Fin 2) e) := by
  rw [shapeCast_1a_a_apply]
  exact slice2_axis0_apply 0 a1 sl (0 : Fin 1) e (0 : Fin 2) rfl

theorem range_of_all (a1 : IVec S2x600000 32) (sl : S2x600000.Slices ![0, 0] S1x600000) (sc : S1x600000.ShapeCasts S600000)
    (bc : S_.BroadcastsInDim S600000 (![] : Fin 0 → Fin S600000.rank)) (hr : S600000.ReducesTo [0] S_) (h0 : 0 < S_.numel)
    (e : Host.reduce IntOp.andi
        (andi
          (cmpi .sge (shapeCast S600000 (extractStridedSlice S1x600000 ![0, 0] a1 sl) sc)
            (broadcastInDim S600000 ![] bc (constantI S_ 32 0#32)))
          (cmpi .slt (shapeCast S600000 (extractStridedSlice S1x600000 ![0, 0] a1 sl) sc)
            (broadcastInDim S600000 ![] bc (constantI S_ 32 100000#32))))
        (constantI S_ 1 1#1) hr h0 ix0 = 1#1) :
    ∀ k : Fin 600000, 0 ≤ (a1 (ix2 (0 : Fin 2) k)).toInt ∧ (a1 (ix2 (0 : Fin 2) k)).toInt < 100000 := by
  intro k
  have hk := Host.reduce_andi_all _ _ hr h0 ix0 e (ix1 k)
  rw [← row0_apply a1 sl sc k]
  exact range_of_cmp _ hk

theorem split_and (x y : IVec S_ 1) (h : andi x y ix0 = 1#1) : x ix0 = 1#1 ∧ y ix0 = 1#1 := IntOp.andi_eq_one.1 h

theorem decode [Cert.Pre_finite_inputs.Facts]
    (a0 : FVec Ideal S100000x2 .f32) (a1 : IVec S2x600000 32) (a2 : IVec S100000 32) (a3 : FVec Ideal S600000x7 .f32)
    (a4 : FVec Ideal S2x7 .f32) (a5 : FVec Ideal S2 .f32) (a6 : FVec Ideal S128x2 .f32) (a7 : FVec Ideal S128 .f32)
    (a8 : FVec Ideal S128 .f32) (a9 : FVec Ideal S128 .f32) (a10 : FVec Ideal S128x128 .f32) (a11 : FVec Ideal S128 .f32)
    (a12 : FVec Ideal S3x128x7 .f32) (a13 : FVec Ideal S3x128 .f32) (a14 : FVec Ideal S3x128x128 .f32)
    (a15 : FVec Ideal S3x128 .f32) (a16 : FVec Ideal S3x128 .f32) (a17 : FVec Ideal S3x128 .f32)
    (a18 : FVec Ideal S3x128x128 .f32) (a19 : FVec Ideal S3x128 .f32) (a20 : FVec Ideal S500x128 .f32)
    (a21 : FVec Ideal S500 .f32) (a22 : FVec Ideal S1x500 .f32) (a23 : FVec Ideal S1 .f32)
    (h : Cert.Pre_finite_inputs.fn (F := Ideal) a0 a1 a2 a3 a4 a5 a6 a7 a8 a9 a10 a11 a12 a13 a14 a15 a16 a17 a18 a19 a20 a21
      a22 a23 = fun _ => 1#1) :
    Cert.Spec.AllReal a0 ∧ Cert.Spec.AllReal a3 ∧ Cert.Spec.AllReal a4 ∧ Cert.Spec.AllReal a5 ∧ Cert.Spec.AllReal a6
      ∧ Cert.Spec.AllReal a7 ∧ Cert.Spec.AllReal a8 ∧ Cert.Spec.AllReal a9 ∧ Cert.Spec.AllReal a10 ∧ Cert.Spec.AllReal a11
      ∧ Cert.Spec.AllReal a12 ∧ Cert.Spec.AllReal a13 ∧ Cert.Spec.AllReal a14 ∧ Cert.Spec.AllReal a15 ∧ Cert.Spec.AllReal a16
      ∧ Cert.Spec.AllReal a17 ∧ Cert.Spec.AllReal a18 ∧ Cert.Spec.AllReal a19 ∧ Cert.Spec.AllReal a20 ∧ Cert.Spec.AllReal a21
      ∧ Cert.Spec.AllReal a22 ∧ Cert.Spec.AllReal a23
      ∧ (∀ e : Fin 600000, 0 ≤ (a1 (ValueIdx.ix2 (0 : Fin 2) e)).toInt ∧ (a1 (ValueIdx.ix2 (0 : Fin 2) e)).toInt < 100000) := by
  have e := congrFun h ix0
  dsimp only [fn, fn_part1, fn_part2, fn_part3, fn_part4, fn_part5, fn_part6] at e
  obtain ⟨e, h1⟩ := split_and _ _ e
  obtain ⟨e, h23⟩ := split_and _ _ e
  obtain ⟨e, h22⟩ := split_and _ _ e
  obtain ⟨e, h21⟩ := split_and _ _ e
  obtain ⟨e, h20⟩ := split_and _ _ e
  obtain ⟨e, h19⟩ := split_and _ _ e
  obtain ⟨e, h18⟩ := split_and _ _ e
  obtain ⟨e, h17⟩ := split_and _ _ e
  obtain ⟨e, h16⟩ := split_and _ _ e
  obtain ⟨e, h15⟩ := split_and _ _ e
  obtain ⟨e, h14⟩ := split_and _ _ e
  obtain ⟨e, h13⟩ := split_and _ _ e
  obtain ⟨e, h12⟩ := split_and _ _ e
  obtain ⟨e, h11⟩ := split_and _ _ e
  obtain ⟨e, h10⟩ := split_and _ _ e
  obtain ⟨e, h9⟩ := split_and _ _ e
  obtain ⟨e, h8⟩ := split_and _ _ e
  obtain ⟨e, h7⟩ := split_and _ _ e
  obtain ⟨e, h6⟩ := split_and _ _ e
  obtain ⟨e, h5⟩ := split_and _ _ e
  obtain ⟨e, h4⟩ := split_and _ _ e
  obtain ⟨h0, h3⟩ := split_and _ _ e
  exact ⟨allReal_of_all a0 _ _ _ h0, allReal_of_all a3 _ _ _ h3, allReal_of_all a4 _ _ _ h4, allReal_of_all a5 _ _ _ h5,
    allReal_of_all a6 _ _ _ h6, allReal_of_all a7 _ _ _ h7, allReal_of_all a8 _ _ _ h8, allReal_of_all a9 _ _ _ h9,
    allReal_of_all a10 _ _ _ h10, allReal_of_all a11 _ _ _ h11, allReal_of_all a12 _ _ _ h12, allReal_of_all a13 _ _ _ h13,
    allReal_of_all a14 _ _ _ h14, allReal_of_all a15 _ _ _ h15, allReal_of_all a16 _ _ _ h16, allReal_of_all a17 _ _ _ h17,
    allReal_of_all a18 _ _ _ h18, allReal_of_all a19 _ _ _ h19, allReal_of_all a20 _ _ _ h20, allReal_of_all a21 _ _ _ h21,
    allReal_of_all a22 _ _ _ h22, allReal_of_all a23 _ _ _ h23, range_of_all a1 _ _ _ _ _ h1⟩

end Cert.PreFacts

end
-- ==== Proof.RegionLib.lean ====
import Idealize.ShloMosaic.Lib.Pipeline.Value
import Idealize.ShloMosaic.Lib.ValueIdx

namespace Cert.KernelIdeal.RegionLib

open Idealize.ShloMosaic Idealize.ShloMosaic.ValueIdx Idealize.ShloMosaic.Pipeline

/-- An entry of point `t`'s block sits, on each axis, at the block index times the block size plus its own coordinate. -/
theorem rect_emb_at {sig : RefSig} {G : Grid} (w : Window sig G) (t : Fin G.N) {I : Fin w.shape.rank → Nat}
    (h : ∀ a, w.index t a = I a) (y : (w.xblock (G.coords t)).Idx) (a : Fin w.shape.rank) :
    ((w.rect t).emb y a : Nat) = I a * w.size a + y a :=
  (w.rect_emb_val t y a).trans (by rw [h a])

variable {m n M B T : Nat} {e : (⟨2, ![m, n]⟩ : Shape).Idx → (⟨2, ![M, n]⟩ : Shape).Idx}

/-- A block that moves along the rows only: entry `(p, k)` of block row `T` is entry `(T·B + p, k)` of the array. -/
theorem rowBlock_emb (h : ∀ y a, (e y a : Nat) = ![T, 0] a * ![B, n] a + y a) (p : Fin m) (k : Fin n) (r : Fin M)
    (hr : r.val = T * B + p.val) : e (ix2 p k) = ix2 r k :=
  Shape.idx_ext₂ ((h _ 0).trans hr.symm) ((h _ 1).trans (by show 0 * n + k.val = k.val; omega))

/-- Row blocks of `B` rows tile the rows: index `i` is entry `(i₀ mod B, i₁)` of block row `i₀ / B`. -/
theorem rowBlock_cover (hB : 0 < B) (i : (⟨2, ![M, n]⟩ : Shape).Idx)
    {e : (⟨2, ![B, n]⟩ : Shape).Idx → (⟨2, ![M, n]⟩ : Shape).Idx}
    (h : ∀ y a, (e y a : Nat) = ![(i 0).val / B, 0] a * ![B, n] a + y a) : ∃ y, e y = i :=
  ⟨ix2 ⟨(i 0).val % B, Nat.mod_lt _ hB⟩ (i 1),
    (rowBlock_emb h _ _ (i 0) (Nat.div_add_mod' _ _).symm).trans (eq_ix2 i).symm⟩

end Cert.KernelIdeal.RegionLib
-- ==== Proof.Region12.lean ====
import proofs.«425852_j85495618995090_1_alg».proof.Proof.Gen.KernelIdeal.Frame
import proofs.«425852_j85495618995090_1_alg».proof.Proof.Spec
import proofs.«425852_j85495618995090_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

noncomputable section

namespace Cert.KernelIdeal.Region12

open Cert.KernelIdeal Cert.KernelIdeal.Gen Cert.KernelIdeal.RegionLib
open Idealize.ShloMosaic Idealize.ShloMosaic.TcCoe Idealize.ShloMosaic.ValueIdx Idealize.SL.Sem
open Idealize.ShloMosaic.Pipeline (Dat)
open scoped BigOperators

theorem matmulA_apply (a : FVec Ideal S64x128 .bf16) (b : FVec Ideal S128x500 .bf16) (p : Fin 64) (k : Fin 500) :
    matmul dot_S64x128_S128x500_S64x500_1_0_0_1_n_n none a b (constant (F := Ideal) S64x500 .f32 0x00000000#32) (ix2 p k)
      = ∑ l : Fin 128, a (ix2 p l) * b (ix2 l k) :=
  (Ideal.matmul_constant_zero_apply _ none a b _).trans
    ((Ideal.dotGeneral_apply (DotDims.plain 64 128 500) none _ a b _).symm.trans
      (StackMember.dotGeneral_plain_apply none a b p k))

theorem matmulB_apply (a : FVec Ideal S64x500 .bf16) (b : FVec Ideal S500x1 .bf16) (p : Fin 64) (q : Fin 1) :
    matmul dot_S64x500_S500x1_S64x1_1_0_0_1_n_n none a b (constant (F := Ideal) S64x1 .f32 0x00000000#32) (ix2 p q)
      = ∑ k : Fin 500, a (ix2 p k) * b (ix2 k q) :=
  (Ideal.matmul_constant_zero_apply _ none a b _).trans
    ((Ideal.dotGeneral_apply (DotDims.plain 64 500 1) none _ a b _).symm.trans
      (StackMember.dotGeneral_plain_apply none a b p q))

theorem hidden_apply (x0 : Vec Ideal S64x128 .f32) (x1 : Vec Ideal S128x500 .f32) (x2 : Vec Ideal S1x500 .f32)
    (p : Fin 64) (k : Fin 500) :
    addf (matmul dot_S64x128_S128x500_S64x500_1_0_0_1_n_n none (truncf .bf16 x0 bitsLt_bf16_f32) (truncf .bf16 x1 bitsLt_bf16_f32)
          (constant (F := Ideal) S64x500 .f32 0x00000000#32))
        (broadcastTo S64x500 x2 broadcasts_S1x500_S64x500) (ix2 p k)
      = (∑ l : Fin 128, x0 (ix2 p l) * x1 (ix2 l k)) + x2 (ix2 0 k) :=
  congrArg₂ (· + ·) (matmulA_apply _ _ p k) (broadcastTo_apply x2 _ (ix2 p k) (ix2 0 k) fun a => by
    match a with | ⟨0, _⟩ => rfl | ⟨1, _⟩ => rfl)

theorem pay_apply (x0 : Vec Ideal S64x128 .f32) (x1 : Vec Ideal S128x500 .f32) (x2 : Vec Ideal S1x500 .f32)
    (x3 : Vec Ideal S500x1 .f32) (x4 : Vec Ideal S1x1 .f32) (p : Fin 64) (q : Fin 1) :
    k12_pay1 (F := Ideal) x0 x1 x2 x3 x4 (ix2 p q)
      = Cert.Spec.regHead (Ideal.ofBits .f32 0x3C23D70A#32) x0 x1 x2 x3 x4 (ix2 p q) := by
  unfold k12_pay1 Cert.Spec.regHead
  simp only [shapeCast_self]
  refine congrArg₂ (· + ·) ((matmulB_apply _ _ p q).trans (Finset.sum_congr rfl fun k _ => ?_)) ?_
  · refine congrArg₂ (· * ·) ?_ rfl
    rw [truncf_apply, select_apply, cmpf_apply, mulf_apply, broadcast_apply, broadcast_apply, hidden_apply]
    rfl
  · exact broadcastTo_apply x4 _ (ix2 p q) (ix2 0 q) fun a => by
      match a with
      | ⟨0, _⟩ => rfl
      | ⟨1, _⟩ => show q.val = 0; omega

theorem pay_eq (x0 : Vec Ideal S64x128 .f32) (x1 : Vec Ideal S128x500 .f32) (x2 : Vec Ideal S1x500 .f32)
    (x3 : Vec Ideal S500x1 .f32) (x4 : Vec Ideal S1x1 .f32) :
    k12_pay1 (F := Ideal) x0 x1 x2 x3 x4 = Cert.Spec.regHead (Ideal.ofBits .f32 0x3C23D70A#32) x0 x1 x2 x3 x4 := by
  funext j
  obtain ⟨p, q, rfl⟩ : ∃ (p : Fin 64) (q : Fin 1), j = ix2 p q := ⟨j 0, j 1, eq_ix2 j⟩
  exact pay_apply x0 x1 x2 x3 x4 p q

theorem zero_offsets : (![0, 0] : Fin 2 → Nat) = fun _ => 0 :=
  funext fun a => by match a with | ⟨0, _⟩ => rfl | ⟨1, _⟩ => rfl

theorem stored_eq_payload (x0 : Vec Ideal S64x128 .f32) (x1 : Vec Ideal S128x500 .f32) (x2 : Vec Ideal S1x500 .f32)
    (x3 : Vec Ideal S500x1 .f32) (x4 : Vec Ideal S1x1 .f32) :
    out12_5 (F := Ideal) x0 x1 x2 x3 x4 = k12_pay1 (F := Ideal) x0 x1 x2 x3 x4 := by
  unfold out12_5
  rw [View.canon_unit_zero zero_offsets]
  simp only [View.ld_unit_zero (S := S64x128) zero_offsets, View.ld_unit_zero (S := S128x500) zero_offsets,
    View.ld_unit_zero (S := S1x500) zero_offsets, View.ld_unit_zero (S := S500x1) zero_offsets,
    View.ld_unit_zero (S := S1x1) zero_offsets]

/-- A block at block row 0 that is as tall as the array is the array. -/
theorem whole {M n : Nat} {e : (⟨2, ![M, n]⟩ : Shape).Idx → (⟨2, ![M, n]⟩ : Shape).Idx}
    (h : ∀ y a, (e y a : Nat) = ![0, 0] a * ![M, n] a + y a) : e = fun y => y :=
  funext fun y => (congrArg e (eq_ix2 y)).trans ((rowBlock_emb h (y 0) (y 1) (y 0) (by omega)).trans (eq_ix2 y).symm)

theorem block_eq (A0 : Cert.Spec.Mat 64 128) (A1 : Cert.Spec.Mat 128 500) (A2 : Cert.Spec.Mat 1 500)
    (A3 : Cert.Spec.Mat 500 1) (A4 : Cert.Spec.Mat 1 1) (e0 : S64x128.Idx → S64x128.Idx) (e1 : S128x500.Idx → S128x500.Idx)
    (e2 : S1x500.Idx → S1x500.Idx) (e3 : S500x1.Idx → S500x1.Idx) (e4 : S1x1.Idx → S1x1.Idx) (e5 : S64x1.Idx → S64x1.Idx)
    (h0 : ∀ y a, (e0 y a : Nat) = ![0, 0] a * ![64, 128] a + y a)
    (h1 : ∀ y a, (e1 y a : Nat) = ![0, 0] a * ![128, 500] a + y a)
    (h2 : ∀ y a, (e2 y a : Nat) = ![0, 0] a * ![1, 500] a + y a)
    (h3 : ∀ y a, (e3 y a : Nat) = ![0, 0] a * ![500, 1] a + y a)
    (h4 : ∀ y a, (e4 y a : Nat) = ![0, 0] a * ![1, 1] a + y a)
    (h5 : ∀ y a, (e5 y a : Nat) = ![0, 0] a * ![64, 1] a + y a) :
    out12_5 (F := Ideal) (fun y => A0 (e0 y)) (fun y => A1 (e1 y)) (fun y => A2 (e2 y)) (fun y => A3 (e3 y))
        (fun y => A4 (e4 y))
      = fun j => Cert.Spec.regHead (Ideal.ofBits .f32 0x3C23D70A#32) A0 A1 A2 A3 A4 (e5 j) := by
  rw [whole h0, whole h1, whole h2, whole h3, whole h4, whole h5, stored_eq_payload, pay_eq]

theorem index_facts : ∀ t : Fin cfg12.N, (∀ a, win12_0.index t a = ![0, 0] a) ∧ (∀ a, win12_1.index t a = ![0, 0] a)
    ∧ (∀ a, win12_2.index t a = ![0, 0] a) ∧ (∀ a, win12_3.index t a = ![0, 0] a)
    ∧ (∀ a, win12_4.index t a = ![0, 0] a) ∧ ∀ a, win12_5.index t a = ![0, 0] a :=
  (by decide +kernel : ∀ t : Fin grid12.N, _)

theorem value (V : (c : Dev nD) → (b : Ref sig .tc) → Buf (Elt Ideal) ((c : Thread nD τ).loc b)) (c : Dev nD) : (dat12 (F := Ideal) V c).arrAt 5 cfg12.N
    = Cert.Spec.regHead (Ideal.ofBits .f32 0x3C23D70A#32) (V c (Pipeline.arrRef spec12 0)) (V c (Pipeline.arrRef spec12 1))
        (V c (Pipeline.arrRef spec12 2)) (V c (Pipeline.arrRef spec12 3)) (V c (Pipeline.arrRef spec12 4)) :=
  (dat12 (F := Ideal) V c).arrAt_eq_of_cover 5 _
    (fun t _ => by
      obtain ⟨i0, i1, i2, i3, i4, i5⟩ := index_facts t
      show (cfg12.win 5).cut (grid12.coords t) ((dat12 (F := Ideal) V c).after 5 t) = _
      rw [after12_5]
      exact block_eq (V c (Pipeline.arrRef spec12 0)) (V c (Pipeline.arrRef spec12 1)) (V c (Pipeline.arrRef spec12 2))
        (V c (Pipeline.arrRef spec12 3)) (V c (Pipeline.arrRef spec12 4)) _ _ _ _ _ _ (rect_emb_at win12_0 t i0) (rect_emb_at win12_1 t i1)
        (rect_emb_at win12_2 t i2) (rect_emb_at win12_3 t i3) (rect_emb_at win12_4 t i4) (rect_emb_at win12_5 t i5))
    fun (i : S64x1.Idx) => by
      have h0 : (i 0).val / 64 = 0 := Nat.div_eq_of_lt (i 0).isLt
      obtain ⟨y, hy⟩ := rowBlock_cover (B := 64) (by decide) i
        (rect_emb_at win12_5 t12_0 fun a => by rw [h0]; exact (index_facts t12_0).2.2.2.2.2 a)
      exact ⟨t12_0, flush12_5 _, Finset.mem_map.2 ⟨y, Finset.mem_univ y, hy⟩⟩

end Cert.KernelIdeal.Region12

end
-- ==== Proof.KTail.lean ====
import proofs.«425852_j85495618995090_1_alg».proof.Proof.Gen.KernelIdeal.Frame
import proofs.«425852_j85495618995090_1_alg».proof.Proof.Spec
import proofs.«425852_j85495618995090_1_alg».proof.Proof.Region12
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KTail

open Cert.KernelIdeal Cert.KernelIdeal.Gen
open Idealize.ShloMosaic Idealize.ShloMosaic.TcCoe Idealize.ShloMosaic.ValueIdx Idealize.SL.Sem
open scoped BigOperators

def pooled (h : FVec Ideal S100000x128 .f32) (batch : IVec S100000 32) : FVec Ideal S64x128 .f32 :=
  Host.divf
    (Host.scatterAdd scatter_S64x128_S100000x1_S100000x128_1_0_0_1
      (broadcastInDim S64x128 ![] bcast_S_S64x128 (constant (F := Ideal) S_ .f32 0x00000000#32))
      (broadcastInDim S100000x1 ![0] bcast_S100000_S100000x1_0 batch)
      h)
    (broadcastInDim S64x128 ![0, 1] bcast_S64x1_S64x128_0_1
      (broadcastInDim S64x1 ![0] bcast_S64_S64x1_0
        (maximumf
          (Host.scatterAdd scatter_S64_S100000x1_S100000_n_0_0_1
            (broadcastInDim S64 ![] bcast_S_S64 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S64 ![] bcast_S_S64 (constant (F := Ideal) S_ .f32 0x3F800000#32)))))

theorem transpose_canon {a b : ℕ} (w : (⟨2, ![a, b]⟩ : Shape).Idx → EReal)
    (h : (⟨2, ![a, b]⟩ : Shape).Transposes [1, 0] ⟨2, ![b, a]⟩) :
    transpose ⟨2, ![b, a]⟩ [1, 0] w h = fun j => w (ix2 (j 1) (j 0)) := by
  funext j
  exact transpose_apply _ w h j _ fun c => match c with | ⟨0, _⟩ => rfl | ⟨1, _⟩ => rfl

theorem row_canon {a : ℕ} (v : (⟨1, ![a]⟩ : Shape).Idx → EReal)
    (h : (⟨1, ![a]⟩ : Shape).ShapeCasts ⟨2, ![1, a]⟩) :
    shapeCast ⟨2, ![1, a]⟩ v h = fun j => v (ix1 (j 1)) := by
  funext j
  refine shapeCast_apply v h j _ ?_
  have hu : (j 0).val = 0 := by have := idx2_lt0 j; omega
  rw [Shape.rowMajor_val_two, Shape.rowMajor_val_one]
  show (j 1).val = (j 0).val * a + (j 1).val
  rw [hu, Nat.zero_mul, Nat.zero_add]

section Host
variable (W : Valuation τ sig (Elt Ideal))

theorem after_v147 : StableHlo.after (hostOps12 (F := Ideal)) W (Proc.devRef .tc main_v147)
    = pooled (W (Proc.devRef .tc main_v135)) (W (Proc.devRef .tc main_arg2)) := by
  after_results; rfl

theorem after_v148 : (StableHlo.after (hostOps12 (F := Ideal)) W (Proc.devRef .tc main_v148) : S128x500.Idx → EReal)
    = fun j => (W (Proc.devRef .tc main_arg20) : S500x128.Idx → EReal) (ix2 (j 1) (j 0)) := by
  refine Eq.trans ?_ (transpose_canon (W (Proc.devRef .tc main_arg20)) transposes_S500x128_S128x500_1_0)
  after_results

theorem after_v149 : (StableHlo.after (hostOps12 (F := Ideal)) W (Proc.devRef .tc main_v149) : S1x500.Idx → EReal)
    = fun j => (W (Proc.devRef .tc main_arg21) : S500.Idx → EReal) (ix1 (j 1)) := by
  refine Eq.trans ?_ (row_canon (W (Proc.devRef .tc main_arg21)) shapeCasts_S500_S1x500)
  after_results; rfl

theorem after_v150 : (StableHlo.after (hostOps12 (F := Ideal)) W (Proc.devRef .tc main_v150) : S500x1.Idx → EReal)
    = fun j => (W (Proc.devRef .tc main_arg22) : S1x500.Idx → EReal) (ix2 (j 1) (j 0)) := by
  refine Eq.trans ?_ (transpose_canon (W (Proc.devRef .tc main_arg22)) transposes_S1x500_S500x1_1_0)
  after_results

theorem after_v151 : (StableHlo.after (hostOps12 (F := Ideal)) W (Proc.devRef .tc main_v151) : S1x1.Idx → EReal)
    = fun j => (W (Proc.devRef .tc main_arg23) : S1.Idx → EReal) (ix1 (j 1)) := by
  refine Eq.trans ?_ (row_canon (W (Proc.devRef .tc main_arg23)) shapeCasts_S1_S1x1)
  after_results; rfl

end Host

section Run
variable (m : (ℓ : Loc nD τ sig) → Buf (Elt Ideal) ℓ) (ρ : Dev nD → PrngReg)

theorem value (c : Dev nD) :
    (W30 (F := Ideal) m ρ c (Proc.devRef .tc main_v152) : S64x1.Idx → EReal)
      = Cert.Spec.regHead (Ideal.ofBits .f32 0x3C23D70A#32)
          (pooled (W28 m ρ c (Proc.devRef .tc main_v135)) (W28 m ρ c (Proc.devRef .tc main_arg2)))
          (fun j => (W28 m ρ c (Proc.devRef .tc main_arg20) : S500x128.Idx → EReal) (ix2 (j 1) (j 0)))
          (fun j => (W28 m ρ c (Proc.devRef .tc main_arg21) : S500.Idx → EReal) (ix1 (j 1)))
          (fun j => (W28 m ρ c (Proc.devRef .tc main_arg22) : S1x500.Idx → EReal) (ix2 (j 1) (j 0)))
          (fun j => (W28 m ρ c (Proc.devRef .tc main_arg23) : S1.Idx → EReal) (ix1 (j 1))) := by
  refine (W30_arr m ρ c 5).trans ?_
  refine (Cert.KernelIdeal.Region12.value (V29 m ρ) c).trans ?_
  have e0 : V29 m ρ c (Pipeline.arrRef spec12 0)
      = pooled (W28 m ρ c (Proc.devRef .tc main_v135)) (W28 m ρ c (Proc.devRef .tc main_arg2)) :=
    after_v147 (W28 m ρ c)
  have e1 : (V29 m ρ c (Pipeline.arrRef spec12 1) : S128x500.Idx → EReal)
      = fun j => (W28 m ρ c (Proc.devRef .tc main_arg20) : S500x128.Idx → EReal) (ix2 (j 1) (j 0)) :=
    after_v148 (W28 m ρ c)
  have e2 : (V29 m ρ c (Pipeline.arrRef spec12 2) : S1x500.Idx → EReal)
      = fun j => (W28 m ρ c (Proc.devRef .tc main_arg21) : S500.Idx → EReal) (ix1 (j 1)) :=
    after_v149 (W28 m ρ c)
  have e3 : (V29 m ρ c (Pipeline.arrRef spec12 3) : S500x1.Idx → EReal)
      = fun j => (W28 m ρ c (Proc.devRef .tc main_arg22) : S1x500.Idx → EReal) (ix2 (j 1) (j 0)) :=
    after_v150 (W28 m ρ c)
  have e4 : (V29 m ρ c (Pipeline.arrRef spec12 4) : S1x1.Idx → EReal)
      = fun j => (W28 m ρ c (Proc.devRef .tc main_arg23) : S1.Idx → EReal) (ix1 (j 1)) :=
    after_v151 (W28 m ρ c)

  have key : ∀ (p p' : Cert.Spec.Mat 64 128) (a a' : Cert.Spec.Mat 128 500) (b b' : Cert.Spec.Mat 1 500)
      (d d' : Cert.Spec.Mat 500 1) (e e' : Cert.Spec.Mat 1 1), p = p' → a = a' → b = b' → d = d' → e = e' →
      Cert.Spec.regHead (Ideal.ofBits .f32 0x3C23D70A#32) p a b d e
        = Cert.Spec.regHead (Ideal.ofBits .f32 0x3C23D70A#32) p' a' b' d' e' := by
    intro p p' a a' b b' d d' e e' h0 h1 h2 h3 h4
    rw [h0, h1, h2, h3, h4]
  exact key _ _ _ _ _ _ _ _ _ _ e0 e1 e2 e3 e4

end Run

end Cert.KernelIdeal.KTail

end
-- ==== Proof.KHostDefs.lean ====
import proofs.«425852_j85495618995090_1_alg».proof.Proof.Gen.KernelIdeal
import proofs.«425852_j85495618995090_1_alg».proof.Proof.Spec

noncomputable section

namespace Cert.KernelIdeal.KHost

open Idealize.ShloMosaic Idealize.ShloMosaic.ValueIdx
open Cert.KernelIdeal Cert.KernelIdeal.Gen Cert.Spec

abbrev layer1 : Fin 3 := 0
abbrev layer2 : Fin 3 := 1
abbrev layer3 : Fin 3 := 2

def takeIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

def takeMask (src : IVec S600000 32) : IVec S600000 1 :=
  Host.reduce IntOp.andi
    (andi (cmpi .sge (takeIdx src) (broadcastInDim S600000x1 ![] bcast_S_S600000x1 (constantI S_ 32 0#32)))
      (cmpi .sle (takeIdx src)
        (broadcastInDim S600000x1 ![0, 1] bcast_S1x1_S600000x1_0_1
          (broadcastInDim S1x1 ![1] bcast_S1_S1x1_1 (constantI S1 32 99999#32)))))
    (constantI S_ 1 1#1) reducesTo_S600000x1_S600000_d1 h_S_

def gatherRows (x : FVec Ideal S100000x128 .f32) (src : IVec S600000 32) : FVec Ideal S600000x128 .f32 :=
  select (broadcastInDim S600000x128 ![0] bcast_S600000_S600000x128_0 (takeMask src))
    (Host.gather gather_S100000x128_S600000x1_S600000x128_1_0_n_n_0_1_1128 x (takeIdx src))
    (broadcastInDim S600000x128 ![] bcast_S_S600000x128 (constant (F := Ideal) S_ .f32 0x7FC00000#32))

def scatterRows (dst : IVec S600000 32) (u : FVec Ideal S600000x128 .f32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) u

def h1Val (ℓ : Fin 3) (X : Mat 100000 128) (src dst : IVec S600000 32) (EA : Mat 600000 7)
    (ewS : S3x128x7.Idx → EReal) (ebS : S3x128.Idx → EReal) (w1S : S3x128x128.Idx → EReal) (b1S : S3x128.Idx → EReal) :
    Mat 100000 128 :=
  lin1 (D := 128) X
    (scatterRows dst (edgeMsg (D := 128) EA (fun j => ewS (ix3 ℓ (j 1) (j 0))) (fun j => ebS (ix2 ℓ (j 1)))
      (gatherRows X src)))
    (fun j => w1S (ix3 ℓ (j 1) (j 0))) (fun j => b1S (ix2 ℓ (j 1)))

def layerVal (ℓ : Fin 3) (X : Mat 100000 128) (src dst : IVec S600000 32) (EA : Mat 600000 7)
    (ewS : S3x128x7.Idx → EReal) (ebS : S3x128.Idx → EReal) (w1S : S3x128x128.Idx → EReal) (b1S : S3x128.Idx → EReal)
    (gS beS : S3x128.Idx → EReal) (w2S : S3x128x128.Idx → EReal) (b2S : S3x128.Idx → EReal) : Mat 100000 128 :=
  bnActFused (Ideal.ofBits .f32 0x3C23D70A#32)
    (Named.named (F := Ideal) Cert.KernelIdeal.κ "leaky_slope_sq" (φ := .f32) 0x38D1B717#32)
    (Ideal.ofBits .f32 0x3727C5AC#32)
    (h1Val ℓ X src dst EA ewS ebS w1S b1S)
    (meanOf (Ideal.ofBits .f32 0x47C35000#32) (colSum (h1Val ℓ X src dst EA ewS ebS w1S b1S)))
    (varMoments (Ideal.ofBits .f32 0x47C35000#32) (colSum (h1Val ℓ X src dst EA ewS ebS w1S b1S))
      (colSumSq (h1Val ℓ X src dst EA ewS ebS w1S b1S)))
    (fun j => gS (ix2 ℓ (j 1))) (fun j => beS (ix2 ℓ (j 1))) (fun j => w2S (ix3 ℓ (j 1) (j 0)))
    (fun j => b2S (ix2 ℓ (j 1)))

theorem row_idx (j : S1x128.Idx) : j = ix2 (0 : Fin 1) (j 1) := by
  have h0 : (j 0).val < 1 := (j 0).isLt
  exact (eq_ix2 j).trans (congrArg (fun a : Fin 1 => ix2 a (j 1)) (Fin.ext (by show (j 0).val = 0; omega)))

theorem divf_count (s : Mat 1 128) (w : BitVec 32) (h : S_.BroadcastsInDim S1x128 ![]) :
    Host.divf (F := Ideal) (s := S1x128) (φ := .f32) s (broadcastInDim S1x128 ![] h (constant (F := Ideal) S_ .f32 w))
      = meanOf (Ideal.ofBits .f32 w) s := by
  funext j
  exact congrArg (fun i => Ideal.div (s i) (Ideal.ofBits .f32 w)) (row_idx j)

theorem moments_count (s ss : Mat 1 128) (w : BitVec 32) (h : S_.BroadcastsInDim S1x128 ![]) :
    subf (F := Ideal) (s := S1x128) (φ := .f32)
        (Host.divf (F := Ideal) (s := S1x128) (φ := .f32) ss (broadcastInDim S1x128 ![] h (constant (F := Ideal) S_ .f32 w)))
        (mulf (F := Ideal) (s := S1x128) (φ := .f32)
          (Host.divf (F := Ideal) (s := S1x128) (φ := .f32) s (broadcastInDim S1x128 ![] h (constant (F := Ideal) S_ .f32 w)))
          (Host.divf (F := Ideal) (s := S1x128) (φ := .f32) s (broadcastInDim S1x128 ![] h (constant (F := Ideal) S_ .f32 w))))
      = varMoments (Ideal.ofBits .f32 w) s ss := by
  funext j
  exact congrArg (fun i => Ideal.div (ss i) (Ideal.ofBits .f32 w)
    - Ideal.div (s i) (Ideal.ofBits .f32 w) * Ideal.div (s i) (Ideal.ofBits .f32 w)) (row_idx j)

end Cert.KernelIdeal.KHost

end
-- ==== Proof.Region0.lean ====
import proofs.«425852_j85495618995090_1_alg».proof.Proof.Gen.KernelIdeal.Frame
import proofs.«425852_j85495618995090_1_alg».proof.Proof.Spec
import proofs.«425852_j85495618995090_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

noncomputable section

open scoped BigOperators

namespace Cert.KernelIdeal.Region0

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.RegionLib

theorem matmul_apply (a : FVec Ideal S5000x7 .bf16) (b : FVec Ideal S7x2 .bf16) (p : Fin 5000) (q : Fin 2) :
    matmul dot_S5000x7_S7x2_S5000x2_1_0_0_1_n_n none a b (constant (F := Ideal) S5000x2 .f32 0x00000000#32) (ix2 p q)
      = ∑ k : Fin 7, a (ix2 p k) * b (ix2 k q) :=
  (Ideal.matmul_constant_zero_apply _ none a b _).trans
    ((Ideal.dotGeneral_apply (DotDims.plain 5000 7 2) none _ a b _).symm.trans
      (StackMember.dotGeneral_plain_apply none a b p q))

theorem pay_apply (x0 : Vec Ideal S5000x7 .f32) (x1 : Vec Ideal S7x2 .f32) (x2 : Vec Ideal S1x2 .f32) (x3 : Vec Ideal S5000x2 .f32)
    (p : Fin 5000) (q : Fin 2) :
    k0_pay1 (F := Ideal) x0 x1 x2 x3 (ix2 p q)
      = max (x3 (ix2 p q) + ((∑ k : Fin 7, x0 (ix2 p k) * x1 (ix2 k q)) + x2 (ix2 (0 : Fin 1) q))) (Ideal.ofBits .f32 0x00000000#32) := by
  unfold k0_pay1
  simp only [shapeCast_self]
  rw [maximumf_apply, addf_apply, addf_apply]
  rw [matmul_apply, broadcastTo_1b_ab_apply]
  rfl

theorem zero_offsets : (![0, 0] : Fin 2 → Nat) = fun _ => 0 :=
  funext fun a => by match a with | ⟨0, _⟩ => rfl | ⟨1, _⟩ => rfl

theorem stored_eq_payload (x0 : Vec Ideal S5000x7 .f32) (x1 : Vec Ideal S7x2 .f32) (x2 : Vec Ideal S1x2 .f32)
    (x3 : Vec Ideal S5000x2 .f32) :
    out0_4 (F := Ideal) x0 x1 x2 x3 = k0_pay1 (F := Ideal) x0 x1 x2 x3 := by
  unfold out0_4
  rw [View.canon_unit_zero zero_offsets]
  simp only [View.ld_unit_zero (S := S5000x7) zero_offsets, View.ld_unit_zero (S := S7x2) zero_offsets,
    View.ld_unit_zero (S := S1x2) zero_offsets, View.ld_unit_zero (S := S5000x2) zero_offsets]

theorem block_eq (T : Nat) (A0 : Cert.Spec.Mat 600000 7) (A1 : Cert.Spec.Mat 7 2) (A2 : Cert.Spec.Mat 1 2)
    (A3 : Cert.Spec.Mat 600000 2) (e0 : S5000x7.Idx → (⟨2, ![600000, 7]⟩ : Shape).Idx) (e1 : S7x2.Idx → S7x2.Idx)
    (e2 : S1x2.Idx → S1x2.Idx) (e3 e4 : S5000x2.Idx → S600000x2.Idx)
    (h0 : ∀ y a, (e0 y a : Nat) = ![T, 0] a * ![5000, 7] a + y a)
    (h1 : ∀ y a, (e1 y a : Nat) = ![0, 0] a * ![7, 2] a + y a)
    (h2 : ∀ y a, (e2 y a : Nat) = ![0, 0] a * ![1, 2] a + y a)
    (h3 : ∀ y a, (e3 y a : Nat) = ![T, 0] a * ![5000, 2] a + y a)
    (h4 : ∀ y a, (e4 y a : Nat) = ![T, 0] a * ![5000, 2] a + y a) :
    out0_4 (F := Ideal) (fun y => A0 (e0 y)) (fun y => A1 (e1 y)) (fun y => A2 (e2 y)) (fun y => A3 (e3 y))
      = fun j => Cert.Spec.edgeMsg (D := 2) A0 A1 A2 A3 (e4 j) := by
  rw [stored_eq_payload]
  funext j
  obtain ⟨p, q, rfl⟩ : ∃ (p : Fin 5000) (q : Fin 2), j = ix2 p q := ⟨j 0, j 1, eq_ix2 j⟩
  have hr : (e4 (ix2 p q) 0).val = T * 5000 + p.val := h4 _ 0
  refine (pay_apply _ _ _ _ p q).trans ?_
  show _ = Cert.Spec.edgeMsg (D := 2) A0 A1 A2 A3 (e4 (ix2 p q))
  rw [rowBlock_emb h4 p q _ hr, rowBlock_emb h3 p q _ hr, rowBlock_emb h2 0 q 0 (by omega),
    Finset.sum_congr rfl fun k _ => by rw [rowBlock_emb h0 p k _ hr, rowBlock_emb h1 k q k (by omega)]]
  rfl

theorem index_facts : ∀ t : Fin cfg0.N, (∀ a, win0_0.index t a = ![t.val, 0] a) ∧ (∀ a, win0_1.index t a = ![0, 0] a)
    ∧ (∀ a, win0_2.index t a = ![0, 0] a) ∧ (∀ a, win0_3.index t a = ![t.val, 0] a)
    ∧ ∀ a, win0_4.index t a = ![t.val, 0] a :=
  (by decide +kernel : ∀ t : Fin grid0.N, _)

theorem value (V : (c : Dev nD) → (b : Ref sig .tc) → Buf (Elt Ideal) ((c : Thread nD τ).loc b)) (c : Dev nD) :
    (dat0 (F := Ideal) V c).arrAt 4 cfg0.N
      = Cert.Spec.edgeMsg (D := 2) (V c (Pipeline.arrRef spec0 0)) (V c (Pipeline.arrRef spec0 1)) (V c (Pipeline.arrRef spec0 2)) (V c (Pipeline.arrRef spec0 3)) :=
  (dat0 (F := Ideal) V c).arrAt_eq_of_cover 4 _
    (fun t _ => by
      obtain ⟨i0, i1, i2, i3, i4⟩ := index_facts t
      show (cfg0.win 4).cut (grid0.coords t) ((dat0 (F := Ideal) V c).after 4 t) = _
      rw [after0_4]
      exact block_eq t.val (V c (Pipeline.arrRef spec0 0)) (V c (Pipeline.arrRef spec0 1)) (V c (Pipeline.arrRef spec0 2))
        (V c (Pipeline.arrRef spec0 3)) _ _ _ _ _ (rect_emb_at win0_0 t i0) (rect_emb_at win0_1 t i1)
        (rect_emb_at win0_2 t i2) (rect_emb_at win0_3 t i3) (rect_emb_at win0_4 t i4))
    fun (i : S600000x2.Idx) => by
      have ht : (i 0).val / 5000 < cfg0.N := (Nat.div_lt_of_lt_mul (n := 5000) (k := 120) (i 0).isLt).trans_eq N_0.symm
      obtain ⟨y, hy⟩ := rowBlock_cover (by decide) i (rect_emb_at win0_4 ⟨_, ht⟩ (index_facts _).2.2.2.2)
      exact ⟨⟨_, ht⟩, flush0_4 _, Finset.mem_map.2 ⟨y, Finset.mem_univ y, hy⟩⟩

end Cert.KernelIdeal.Region0

end
-- ==== Proof.RegionSumLib.lean ====
import proofs.«425852_j85495618995090_1_alg».proof.Proof.Gen.KernelIdeal.Skeleton
import proofs.«425852_j85495618995090_1_alg».proof.Proof.Spec
import proofs.«425852_j85495618995090_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Mathlib.Algebra.BigOperators.Fin
import Mathlib.Algebra.BigOperators.Intervals
import Mathlib.Data.Fintype.BigOperators
import Mathlib.Logic.Equiv.Fin.Basic

set_option maxRecDepth 16384

noncomputable section

open scoped BigOperators

namespace Cert.KernelIdeal.RegionSum

open Idealize.ShloMosaic Idealize.ShloMosaic.TcCoe Idealize.ShloMosaic.ValueIdx
open Cert.KernelIdeal Cert.KernelIdeal.Gen Cert.Spec

theorem sum_rows {M : Type*} [AddCommMonoid M] (f : Fin 100000 → M) :
    ∑ p : Fin 100000, f p = ∑ s : Fin 20, ∑ r : Fin 5000, f ⟨s.val * 5000 + r.val, by omega⟩ := by
  rw [← Equiv.sum_comp (finProdFinEquiv (m := 20) (n := 5000)) (fun p : Fin (20 * 5000) => f p), Fintype.sum_prod_type]
  refine Finset.sum_congr rfl fun s _ => Finset.sum_congr rfl fun r _ => congrArg f (Fin.ext ?_)
  show r.val + 5000 * s.val = s.val * 5000 + r.val
  omega

theorem colsum_apply (src : FVec Ideal S5000x128 .f32) (u : Fin 1) (q : Fin 128) :
    shapeCast S1x128 (multiReduction (F := Ideal) .add [0] S128 src 0x00000000#32 reduces_S5000x128_S128 (.inl rfl) rfl)
        shapeCasts_S128_S1x128 (ix2 u q)
      = ∑ r : Fin 5000, src (ix2 r q) := by
  refine (shapeCast_a_1a_apply _ _ u q).trans ?_
  refine (Ideal.multiReduction_add_single src 0x00000000#32 reduces_S5000x128_S128 (.inl rfl) rfl (ix1 q)).trans ?_
  refine Finset.sum_congr rfl fun r _ => congrArg src ?_
  funext d
  match d with
  | ⟨0, _⟩ => rfl
  | ⟨1, _⟩ => rfl

/-- A row grown by the column sums of `φ` of a block's entries. -/
def colAdd (φ : EReal → EReal) (b : Mat 5000 128) (a : Mat 1 128) : Mat 1 128 :=
  fun j => a j + ∑ r : Fin 5000, φ (b (ix2 r (j 1)))

/-- What a grid point leaves: its block, and the two carried rows grown by the block's column sums and column sums of squares. -/
def step (b : Mat 5000 128) (a : Mat 1 128 × Mat 1 128) : Mat 5000 128 × Mat 1 128 × Mat 1 128 :=
  (b, colAdd (fun x => x) b a.1, colAdd (fun x => x * x) b a.2)

/-- Three values that are a block and two rows grown by its column sums and column sums of squares are one step. -/
theorem step_of (b : Mat 5000 128) (p p' s s' : Mat 1 128)
    (h : ∀ (u : Fin 1) (q : Fin 128), p (ix2 u q) = s (ix2 u q) + ∑ r : Fin 5000, b (ix2 r q))
    (h' : ∀ (u : Fin 1) (q : Fin 128), p' (ix2 u q) = s' (ix2 u q) + ∑ r : Fin 5000, b (ix2 r q) * b (ix2 r q)) :
    (b, p, p') = step b (s, s') := by
  refine congrArg (Prod.mk _) (congrArg₂ Prod.mk (funext fun j => ?_) (funext fun j => ?_))
  · obtain ⟨u, q, rfl⟩ : ∃ (u : Fin 1) (q : Fin 128), j = ix2 u q := ⟨j 0, j 1, eq_ix2 j⟩
    exact h u q
  · obtain ⟨u, q, rfl⟩ : ∃ (u : Fin 1) (q : Fin 128), j = ix2 u q := ⟨j 0, j 1, eq_ix2 j⟩
    exact h' u q

section Run

variable {N : ℕ} (φ : EReal → EReal) (b : Fin N → Mat 5000 128)

def blkSum (s : ℕ) (q : Fin 128) : EReal := if h : s < N then ∑ r : Fin 5000, φ (b ⟨s, h⟩ (ix2 r q)) else 0

theorem blkSum_of_lt (s : ℕ) (h : s < N) (q : Fin 128) : blkSum φ b s q = ∑ r : Fin 5000, φ (b ⟨s, h⟩ (ix2 r q)) := dif_pos h

/-- A row that starts at a block's column sums and grows by each later block's is the sum of all of them so far. -/
theorem acc_apply (a : (n : ℕ) → n < N → Mat 1 128)
    (h0 : ∀ hn, a 0 hn = colAdd φ (b ⟨0, hn⟩) fun _ => 0)
    (hs : ∀ n hn, a (n + 1) hn = colAdd φ (b ⟨n + 1, hn⟩) (a n (Nat.lt_of_succ_lt hn))) :
    ∀ n hn (u : Fin 1) (q : Fin 128), a n hn (ix2 u q) = ∑ s ∈ Finset.range (n + 1), blkSum φ b s q
  | 0, hn, u, q => by
    rw [h0, Finset.sum_range_one, blkSum_of_lt φ b 0 hn]
    exact zero_add _
  | n + 1, hn, u, q => by
    have ih := acc_apply a h0 hs n (Nat.lt_of_succ_lt hn) u q
    rw [hs, Finset.sum_range_succ _ (n + 1), blkSum_of_lt φ b (n + 1) hn, ← ih]
    rfl

/-- Twenty blocks of 5000 rows of `h`: their column sums add up to the column sums of `h`. -/
theorem total (hN : N = 20) (h : Mat 100000 128)
    (hb : ∀ (t : Fin N) (r : Fin 5000) (q : Fin 128), b t (ix2 r q) = h (ix2 ⟨t.val * 5000 + r.val, by omega⟩ q)) (q : Fin 128) :
    ∑ s ∈ Finset.range 20, blkSum φ b s q = ∑ p : Fin 100000, φ (h (ix2 p q)) := by
  subst hN
  rw [sum_rows, Finset.sum_range]
  refine Finset.sum_congr rfl fun s _ => ?_
  rw [blkSum_of_lt φ b s.val s.isLt]
  exact Finset.sum_congr rfl fun r _ => congrArg φ (hb s r q)

end Run

/-- A run of 20 points over the blocks of `h`, the carried rows zero before the first point: every point leaves its block,
    and the last leaves the column sums and the column sums of squares of `h`. -/
theorem run {N : ℕ} (hN : N = 20) (h : Mat 100000 128) (o : (n : ℕ) → n < N → Mat 5000 128 × Mat 1 128 × Mat 1 128)
    (b : Fin N → Mat 5000 128)
    (hb : ∀ (t : Fin N) (r : Fin 5000) (q : Fin 128), b t (ix2 r q) = h (ix2 ⟨t.val * 5000 + r.val, by omega⟩ q))
    (hA : ∀ t : Fin N, t.val % 20 = 0 → o t.val t.isLt = step (b t) (fun _ => 0, fun _ => 0))
    (hB : ∀ t : Fin N, ¬t.val % 20 = 0 →
      o t.val t.isLt = step (b t) (o (t.val - 1) (Nat.lt_of_le_of_lt (Nat.sub_le _ _) t.isLt)).2)
    (t : Fin N) : (o t.val t.isLt).1 = b t
      ∧ (t.val = 19 → (o t.val t.isLt).2.1 = colSum h ∧ (o t.val t.isLt).2.2 = colSumSq h) := by
  have h1 : ∀ t : Fin N, (o t.val t.isLt).1 = b t := fun t => by
    by_cases h0 : t.val % 20 = 0
    · rw [hA t h0]; rfl
    · rw [hB t h0]; rfl
  have hs : ∀ n (hn : n + 1 < N), o (n + 1) hn = step (b ⟨n + 1, hn⟩) (o n (Nat.lt_of_succ_lt hn)).2 := fun n hn =>
    hB ⟨n + 1, hn⟩ (by dsimp only; omega)
  refine ⟨h1 t, fun h19 => ?_⟩
  obtain ⟨n, hn⟩ := t
  dsimp only at h19
  subst h19
  have e20 : ∀ (φ : EReal → EReal) (a : (n : ℕ) → n < N → Mat 1 128), (∀ hn, a 0 hn = colAdd φ (b ⟨0, hn⟩) fun _ => 0) →
      (∀ n hn, a (n + 1) hn = colAdd φ (b ⟨n + 1, hn⟩) (a n (Nat.lt_of_succ_lt hn))) →
      ∀ j : (⟨2, ![1, 128]⟩ : Shape).Idx, a 19 hn j = ∑ p : Fin 100000, φ (h (ix2 p (j 1))) := fun φ a h0 hs j => by
    obtain ⟨u, q, rfl⟩ : ∃ (u : Fin 1) (q : Fin 128), j = ix2 u q := ⟨j 0, j 1, eq_ix2 j⟩
    exact (acc_apply φ b a h0 hs 19 hn u q).trans (total φ b hN h hb q)
  refine ⟨funext fun j => ?_, funext fun j => ?_⟩
  · exact e20 (fun x => x) (fun n hn => (o n hn).2.1) (fun hn => congrArg Prod.fst (congrArg Prod.snd (hA ⟨0, hn⟩ rfl)))
      (fun n hn => congrArg Prod.fst (congrArg Prod.snd (hs n hn))) j
  · exact e20 (fun x => x * x) (fun n hn => (o n hn).2.2) (fun hn => congrArg Prod.snd (congrArg Prod.snd (hA ⟨0, hn⟩ rfl)))
      (fun n hn => congrArg Prod.snd (congrArg Prod.snd (hs n hn))) j

theorem hz : (![0, 0] : Fin 2 → Nat) = fun _ => 0 := funext fun a => by
  match a with
  | ⟨0, _⟩ => rfl
  | ⟨1, _⟩ => rfl

theorem mm_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) :=
  (Ideal.matmul_constant_zero_apply _ none a b _).trans
    ((Ideal.dotGeneral_apply (DotDims.plain 5000 128 128) none _ a b _).symm.trans
      (StackMember.dotGeneral_plain_apply none a b p q))

/-- The two reset rows are zero. -/
theorem zero_rows : ((k4_pay1 (F := Ideal), k4_pay2 (F := Ideal)) : Mat 1 128 × Mat 1 128) = (fun _ => 0, fun _ => 0) :=
  congrArg₂ Prod.mk (funext fun _ => Ideal.ofBits_zero_f32) (funext fun _ => Ideal.ofBits_zero_f32)

section Pay

variable (x0 x1 : Vec Ideal S5000x128 .f32) (x2 : Vec Ideal S128x128 .f32) (x3 : Vec Ideal S1x128 .f32)

theorem pay3_apply (p : Fin 5000) (q : Fin 128) :
    k4_pay3 (F := Ideal) x0 x1 x2 x3 (ix2 p q)
      = (∑ k : Fin 128, (x0 (ix2 p k) + x1 (ix2 p k)) * x2 (ix2 k q)) + x3 (ix2 0 q) := by
  unfold k4_pay3
  simp only [shapeCast_self]
  refine congrArg₂ (· + ·) ?_ ?_
  · exact mm_apply _ _ p q
  · exact broadcastTo_1b_ab_apply x3 _ p q

/-- Row p of the block product, when the blocks' rows p are rows r of x and aggr and the other two blocks are all of
    w1t and b1: row r of the first linear map. -/
theorem pay3_lin1 (x aggr : Mat 100000 128) (w1t : Mat 128 128) (b1 : Mat 1 128) (p : Fin 5000) (q : Fin 128) (r : Fin 100000)
    (h0 : ∀ k : Fin 128, x0 (ix2 p k) = x (ix2 r k)) (h1 : ∀ k : Fin 128, x1 (ix2 p k) = aggr (ix2 r k))
    (h2 : ∀ k : Fin 128, x2 (ix2 k q) = w1t (ix2 k q)) (h3 : x3 (ix2 (0 : Fin 1) q) = b1 (ix2 (0 : Fin 1) q)) :
    k4_pay3 (F := Ideal) x0 x1 x2 x3 (ix2 p q) = lin1 (D := 128) x aggr w1t b1 (ix2 r q) := by
  rw [pay3_apply, h3, Finset.sum_congr rfl fun k _ => by rw [h0 k, h1 k, h2 k]]
  rfl

theorem pay4_apply (acc : Vec Ideal S1x128 .f32) (u : Fin 1) (q : Fin 128) :
    k4_pay4 (F := Ideal) x0 x1 x2 x3 acc (ix2 u q)
      = acc (ix2 u q) + ∑ r : Fin 5000, k4_pay3 (F := Ideal) x0 x1 x2 x3 (ix2 r q) := by
  unfold k4_pay4
  simp only [shapeCast_self]
  exact congrArg (acc (ix2 u q) + ·) (colsum_apply _ u q)

theorem pay5_apply (acc : Vec Ideal S1x128 .f32) (u : Fin 1) (q : Fin 128) :
    k4_pay5 (F := Ideal) x0 x1 x2 x3 acc (ix2 u q)
      = acc (ix2 u q) + ∑ r : Fin 5000, k4_pay3 (F := Ideal) x0 x1 x2 x3 (ix2 r q) * k4_pay3 (F := Ideal) x0 x1 x2 x3 (ix2 r q) := by
  unfold k4_pay5
  simp only [shapeCast_self]
  exact congrArg (acc (ix2 u q) + ·) (colsum_apply _ u q)

/-- The body's three stored values at a point are one step of the run. -/
theorem step4 (s s' : Vec Ideal S1x128 .f32) :
    (k4_pay3 (F := Ideal) x0 x1 x2 x3, k4_pay4 (F := Ideal) x0 x1 x2 x3 s, k4_pay5 (F := Ideal) x0 x1 x2 x3 s')
      = step (k4_pay3 (F := Ideal) x0 x1 x2 x3) (s, s') :=
  step_of _ _ _ _ _ (pay4_apply x0 x1 x2 x3 s) (pay5_apply x0 x1 x2 x3 s')

theorem step4_zero :
    (k4_pay3 (F := Ideal) x0 x1 x2 x3, k4_pay4 (F := Ideal) x0 x1 x2 x3 (k4_pay1 (F := Ideal)), k4_pay5 (F := Ideal) x0 x1 x2 x3 (k4_pay2 (F := Ideal)))
      = step (k4_pay3 (F := Ideal) x0 x1 x2 x3) (fun _ => 0, fun _ => 0) :=
  (step4 x0 x1 x2 x3 _ _).trans (congrArg (step _) zero_rows)

end Pay

end Cert.KernelIdeal.RegionSum

end
-- ==== Proof.Region1Pay.lean ====
import proofs.«425852_j85495618995090_1_alg».proof.Proof.RegionSumLib

set_option maxRecDepth 16384

noncomputable section

open scoped BigOperators

namespace Cert.KernelIdeal.Region1

open Idealize.ShloMosaic Idealize.ShloMosaic.TcCoe
open Idealize.SL Idealize.SL.Sem
open Idealize.ShloMosaic.ValueIdx
open Cert.KernelIdeal Cert.KernelIdeal.Gen Cert.KernelIdeal.RegionSum Cert.Spec

theorem matmul_at (a : FVec Ideal S5000x2 .bf16) (b : FVec Ideal S2x128 .bf16) (p : Fin 5000) (q : Fin 128) :
    matmul dot_S5000x2_S2x128_S5000x128_1_0_0_1_n_n none a b (constant S5000x128 .f32 0x00000000#32) (ix2 p q)
      = ∑ k : Fin 2, a (ix2 p k) * b (ix2 k q) :=
  (Ideal.matmul_constant_zero_apply _ none a b _).trans
    ((Ideal.dotGeneral_apply (DotDims.plain 5000 2 128) none _ a b _).symm.trans
      (StackMember.dotGeneral_plain_apply none a b p q))

section Pay

variable (x0 x1 : Vec Ideal S5000x2 .f32) (x2 : Vec Ideal S2x128 .f32) (x3 : Vec Ideal S1x128 .f32)

theorem pay3_at (p : Fin 5000) (q : Fin 128) :
    k1_pay3 x0 x1 x2 x3 (ix2 p q)
      = (∑ k : Fin 2, (x0 (ix2 p k) + x1 (ix2 p k)) * x2 (ix2 k q)) + x3 (ix2 (0 : Fin 1) q) := by
  unfold k1_pay3
  rw [shapeCast_self, shapeCast_self, shapeCast_self, addf_apply, matmul_at, broadcastTo_1b_ab_apply]
  rfl

theorem pay_lin1 (x aggr : Mat 100000 2) (w1t : Mat 2 128) (b1 : Mat 1 128) (p : Fin 5000) (q : Fin 128) (r : Fin 100000)
    (h0 : ∀ k : Fin 2, x0 (ix2 p k) = x (ix2 r k)) (h1 : ∀ k : Fin 2, x1 (ix2 p k) = aggr (ix2 r k))
    (h2 : ∀ k : Fin 2, x2 (ix2 k q) = w1t (ix2 k q)) (h3 : x3 (ix2 (0 : Fin 1) q) = b1 (ix2 (0 : Fin 1) q)) :
    k1_pay3 (F := Ideal) x0 x1 x2 x3 (ix2 p q) = lin1 (D := 2) x aggr w1t b1 (ix2 r q) := by
  rw [pay3_at, h3, Finset.sum_congr rfl fun k _ => by rw [h0 k, h1 k, h2 k]]
  rfl

theorem pay4_at (acc : Vec Ideal S1x128 .f32) (u : Fin 1) (q : Fin 128) :
    k1_pay4 x0 x1 x2 x3 acc (ix2 u q) = acc (ix2 u q) + ∑ r : Fin 5000, k1_pay3 x0 x1 x2 x3 (ix2 r q) := by
  unfold k1_pay4
  rw [shapeCast_self, addf_apply]
  exact congrArg (acc (ix2 u q) + ·) (colsum_apply (k1_pay3 x0 x1 x2 x3) u q)

theorem pay5_at (acc : Vec Ideal S1x128 .f32) (u : Fin 1) (q : Fin 128) :
    k1_pay5 x0 x1 x2 x3 acc (ix2 u q)
      = acc (ix2 u q) + ∑ r : Fin 5000, k1_pay3 x0 x1 x2 x3 (ix2 r q) * k1_pay3 x0 x1 x2 x3 (ix2 r q) := by
  unfold k1_pay5
  rw [shapeCast_self, addf_apply]
  exact congrArg (acc (ix2 u q) + ·) (colsum_apply (mulf (k1_pay3 x0 x1 x2 x3) (k1_pay3 x0 x1 x2 x3)) u q)

theorem step1 (s s' : Vec Ideal S1x128 .f32) :
    (k1_pay3 (F := Ideal) x0 x1 x2 x3, k1_pay4 (F := Ideal) x0 x1 x2 x3 s, k1_pay5 (F := Ideal) x0 x1 x2 x3 s')
      = step (k1_pay3 (F := Ideal) x0 x1 x2 x3) (s, s') :=
  step_of _ _ _ _ _ (pay4_at x0 x1 x2 x3 s) (pay5_at x0 x1 x2 x3 s')

theorem step1_zero :
    (k1_pay3 (F := Ideal) x0 x1 x2 x3, k1_pay4 (F := Ideal) x0 x1 x2 x3 (k1_pay1 (F := Ideal)), k1_pay5 (F := Ideal) x0 x1 x2 x3 (k1_pay2 (F := Ideal)))
      = step (k1_pay3 (F := Ideal) x0 x1 x2 x3) (fun _ => 0, fun _ => 0) :=
  (step1 x0 x1 x2 x3 _ _).trans (congrArg (step _) zero_rows)

end Pay

end Cert.KernelIdeal.Region1

end
-- ==== Proof.Region1.lean ====
import proofs.«425852_j85495618995090_1_alg».proof.Proof.Gen.KernelIdeal.Frame
import proofs.«425852_j85495618995090_1_alg».proof.Proof.Region1Pay
import Idealize.ShloMosaic.Lib.Tactic

set_option maxRecDepth 16384

noncomputable section

open scoped BigOperators

namespace Cert.KernelIdeal.Region1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.RegionLib Cert.KernelIdeal.RegionSum Cert.Spec

section Pieces

variable (c : Dev nD) (i : grid1.Coords)
  (a1 : Memref sig .tc .vmem S5000x2 .f32) (w1 : a1.IsWhole) (a2 : Memref sig .tc .vmem S5000x2 .f32) (w2 : a2.IsWhole)
  (a3 : Memref sig .tc .vmem S2x128 .f32) (w3 : a3.IsWhole) (a4 : Memref sig .tc .vmem S1x128 .f32) (w4 : a4.IsWhole)
  (a5 : Memref sig .tc .vmem S5000x128 .f32) (w5 : a5.IsWhole) (a6 : Memref sig .tc .vmem S1x128 .f32) (w6 : a6.IsWhole)
  (a7 : Memref sig .tc .vmem S1x128 .f32) (w7 : a7.IsWhole)
  (x0 x1 : Vec Ideal S5000x2 .f32) (x2 : Vec Ideal S2x128 .f32) (x3 xo5 xo6 : Vec Ideal S1x128 .f32)

theorem out_A (hc : cond1_0 i) :
    (out1_A_4 (F := Ideal) c i a1 w1 a2 w2 a3 w3 a4 w4 a5 w5 a6 w6 a7 w7 hc x0 x1 x2 x3, out1_A_5 (F := Ideal) c i a1 w1 a2 w2 a3 w3 a4 w4 a5 w5 a6 w6 a7 w7 hc x0 x1 x2 x3, out1_A_6 (F := Ideal) c i a1 w1 a2 w2 a3 w3 a4 w4 a5 w5 a6 w6 a7 w7 hc x0 x1 x2 x3)
      = step (k1_pay3 (F := Ideal) x0 x1 x2 x3) (fun _ => 0, fun _ => 0) := by
  unfold out1_A_4 out1_A_5 out1_A_6
  rw [View.read_writes_eq_canon _ _ _ (cover1_A_4 _ _ _ _ _ _ _ _ _ _ _ _ _ _ _ _ _ _ _ _ _), View.read_writes_eq_canon _ _ _ (cover1_A_5 _ _ _ _ _ _ _ _ _ _ _ _ _ _ _ _ _ _ _ _ _),
    View.read_writes_eq_canon _ _ _ (cover1_A_6 _ _ _ _ _ _ _ _ _ _ _ _ _ _ _ _ _ _ _ _ _)]
  unfold kernelRun1_A
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x2) hz, View.ld_unit_zero (S := S2x128) hz, View.ld_unit_zero (S := S1x128) hz]
  exact step1_zero x0 x1 x2 x3

theorem out_B (hc : ¬cond1_0 i) :
    (out1_B_4 (F := Ideal) c i a1 w1 a2 w2 a3 w3 a4 w4 a5 w5 a6 w6 a7 w7 hc x0 x1 x2 x3 xo5 xo6, out1_B_5 (F := Ideal) c i a1 w1 a2 w2 a3 w3 a4 w4 a5 w5 a6 w6 a7 w7 hc x0 x1 x2 x3 xo5 xo6, out1_B_6 (F := Ideal) c i a1 w1 a2 w2 a3 w3 a4 w4 a5 w5 a6 w6 a7 w7 hc x0 x1 x2 x3 xo5 xo6)
      = step (k1_pay3 (F := Ideal) x0 x1 x2 x3) (xo5, xo6) := by
  unfold out1_B_4 out1_B_5 out1_B_6
  rw [View.read_writes_eq_canon _ _ _ (cover1_B_4 _ _ _ _ _ _ _ _ _ _ _ _ _ _ _ _ _ _ _ _ _ _ _), View.read_writes_eq_canon _ _ _ (cover1_B_5 _ _ _ _ _ _ _ _ _ _ _ _ _ _ _ _ _ _ _ _ _ _ _),
    View.read_writes_eq_canon _ _ _ (cover1_B_6 _ _ _ _ _ _ _ _ _ _ _ _ _ _ _ _ _ _ _ _ _ _ _)]
  unfold kernelRun1_B
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x2) hz, View.ld_unit_zero (S := S2x128) hz, View.ld_unit_zero (S := S1x128) hz]
  exact step1 x0 x1 x2 x3 xo5 xo6

end Pieces

theorem idx : ∀ t : Fin cfg1.N,
    (∀ a, win1_0.index t a = ![t.val, 0] a) ∧ (∀ a, win1_1.index t a = ![t.val, 0] a) ∧ (∀ a, win1_2.index t a = ![0, 0] a)
    ∧ (∀ a, win1_3.index t a = ![0, 0] a) ∧ (∀ a, win1_4.index t a = ![t.val, 0] a) ∧ (∀ a, win1_5.index t a = ![0, 0] a)
    ∧ (∀ a, win1_6.index t a = ![0, 0] a) :=
  (by decide +kernel : ∀ t : Fin grid1.N, _)

theorem lt_N (t : Fin cfg1.N) : t.val < 20 := lt_of_lt_of_eq t.isLt (show cfg1.N = 20 from N_1)

theorem lt_rows (t : Fin cfg1.N) (r : Fin 5000) : t.val * 5000 + r.val < 100000 := by
  have := lt_N t; have := r.isLt; omega

theorem emb5 (t : Fin cfg1.N) (u : Fin 1) (q : Fin 128) : ((cfg1.win 5).blk t).view.emb (ix2 u q) = ix2 u q :=
  rowBlock_emb (rect_emb_at win1_5 t (idx t).2.2.2.2.2.1) u q _ (by omega)

theorem emb6 (t : Fin cfg1.N) (u : Fin 1) (q : Fin 128) : ((cfg1.win 6).blk t).view.emb (ix2 u q) = ix2 u q :=
  rowBlock_emb (rect_emb_at win1_6 t (idx t).2.2.2.2.2.2) u q _ (by omega)

variable (V : (c : Dev nD) → (b : Ref sig .tc) → Buf (Elt Ideal) ((c : Thread nD τ).loc b)) (c : Dev nD)

abbrev h1 : Mat 100000 128 :=
  lin1 (D := 2) (V c (Pipeline.arrRef spec1 0)) (V c (Pipeline.arrRef spec1 1))
    (V c (Pipeline.arrRef spec1 2)) (V c (Pipeline.arrRef spec1 3))

abbrev hblk (t : Fin cfg1.N) : Vec Ideal S5000x128 .f32 :=
  k1_pay3 (F := Ideal) (iblk1 V c 0 t) (iblk1 V c 1 t) (iblk1 V c 2 t) (iblk1 V c 3 t)

theorem hblk_apply (t : Fin cfg1.N) (r : Fin 5000) (q : Fin 128) :
    hblk V c t (ix2 r q) = h1 V c (ix2 ⟨t.val * 5000 + r.val, lt_rows t r⟩ q) :=
  pay_lin1 (iblk1 V c 0 t) (iblk1 V c 1 t) (iblk1 V c 2 t) (iblk1 V c 3 t) _ _ _ _ r q _
    (fun k => congrArg (V c (Pipeline.arrRef spec1 0)) (rowBlock_emb (rect_emb_at win1_0 t (idx t).1) r k _ rfl))
    (fun k => congrArg (V c (Pipeline.arrRef spec1 1)) (rowBlock_emb (rect_emb_at win1_1 t (idx t).2.1) r k _ rfl))
    (fun k => congrArg (V c (Pipeline.arrRef spec1 2)) (rowBlock_emb (rect_emb_at win1_2 t (idx t).2.2.1) k q _ (by omega)))
    (congrArg (V c (Pipeline.arrRef spec1 3)) (rowBlock_emb (rect_emb_at win1_3 t (idx t).2.2.2.1) 0 q _ (by omega)))

theorem outs_A (t : Fin cfg1.N) (h0 : t.val % 20 = 0) :
    outsAt1 V c t.val t.isLt = step (hblk V c t) (fun _ => 0, fun _ => 0) :=
  (outsAt1_A V c t h0).trans (out_A ..)

theorem outs_B (t : Fin cfg1.N) (h0 : ¬t.val % 20 = 0) :
    outsAt1 V c t.val t.isLt
      = step (hblk V c t) (outsAt1 V c (t.val - 1) (Nat.lt_of_le_of_lt (Nat.sub_le _ _) t.isLt)).2 :=
  (outsAt1_B V c t h0).trans (out_B ..)

/-- Every point leaves its block of h1; the last leaves the column sums and the column sums of squares of h1. -/
theorem outs (t : Fin cfg1.N) : (outsAt1 V c t.val t.isLt).1 = hblk V c t
    ∧ (t.val = 19 → (outsAt1 V c t.val t.isLt).2.1 = colSum (h1 V c) ∧ (outsAt1 V c t.val t.isLt).2.2 = colSumSq (h1 V c)) :=
  run N_1 (h1 V c) (outsAt1 V c) (hblk V c) (hblk_apply V c) (outs_A V c) (outs_B V c) t

theorem lt19 : 19 < cfg1.N := lt_of_lt_of_eq (by decide : 19 < 20) (show 20 = cfg1.N from N_1.symm)

theorem flushed5 (t : Fin cfg1.N) (hf : (cfg1.win 5).flush t = true) :
    (dat1 V c).flushed 5 t = ((cfg1.win 5).blk t).view.read (Elt Ideal) (colSum (h1 V c)) := by
  have h19 : t.val = 19 := by have := (flush1_5 t).mp hf; have := lt_N t; omega
  show (cfg1.win 5).cut (grid1.coords t) ((dat1 V c).after 5 t) = _
  rw [after1_5, ((outs V c t).2 h19).1]
  generalize colSum (h1 V c) = G
  funext (j : S1x128.Idx)
  obtain ⟨u, q, rfl⟩ : ∃ (u : Fin 1) (q : Fin 128), j = ix2 u q := ⟨j 0, j 1, eq_ix2 j⟩
  show G (ix2 u q) = G (((cfg1.win 5).blk t).view.emb (ix2 u q))
  rw [emb5 t u q]

theorem flushed6 (t : Fin cfg1.N) (hf : (cfg1.win 6).flush t = true) :
    (dat1 V c).flushed 6 t = ((cfg1.win 6).blk t).view.read (Elt Ideal) (colSumSq (h1 V c)) := by
  have h19 : t.val = 19 := by have := (flush1_6 t).mp hf; have := lt_N t; omega
  show (cfg1.win 6).cut (grid1.coords t) ((dat1 V c).after 6 t) = _
  rw [after1_6, ((outs V c t).2 h19).2]
  generalize colSumSq (h1 V c) = G
  funext (j : S1x128.Idx)
  obtain ⟨u, q, rfl⟩ : ∃ (u : Fin 1) (q : Fin 128), j = ix2 u q := ⟨j 0, j 1, eq_ix2 j⟩
  show G (ix2 u q) = G (((cfg1.win 6).blk t).view.emb (ix2 u q))
  rw [emb6 t u q]

theorem cover5 (i : S1x128.Idx) : ∃ t : Fin cfg1.N, (cfg1.win 5).flush t = true ∧ i ∈ ((cfg1.win 5).blk t).view.set := by
  obtain ⟨u, q, rfl⟩ : ∃ (u : Fin 1) (q : Fin 128), i = ix2 u q := ⟨i 0, i 1, eq_ix2 i⟩
  refine ⟨⟨19, lt19⟩, (flush1_5 _).mpr rfl, ?_⟩
  have := ((cfg1.win 5).blk ⟨19, lt19⟩).view.emb_mem_set (ix2 u q)
  rwa [emb5] at this

theorem cover6 (i : S1x128.Idx) : ∃ t : Fin cfg1.N, (cfg1.win 6).flush t = true ∧ i ∈ ((cfg1.win 6).blk t).view.set := by
  obtain ⟨u, q, rfl⟩ : ∃ (u : Fin 1) (q : Fin 128), i = ix2 u q := ⟨i 0, i 1, eq_ix2 i⟩
  refine ⟨⟨19, lt19⟩, (flush1_6 _).mpr rfl, ?_⟩
  have := ((cfg1.win 6).blk ⟨19, lt19⟩).view.emb_mem_set (ix2 u q)
  rwa [emb6] at this

theorem value_sum : (dat1 (F := Ideal) V c).arrAt 5 cfg1.N = colSum (h1 V c) :=
  (dat1 V c).arrAt_eq_of_cover 5 (colSum (h1 V c)) (flushed5 V c) cover5

theorem value_sumsq : (dat1 (F := Ideal) V c).arrAt 6 cfg1.N = colSumSq (h1 V c) :=
  (dat1 V c).arrAt_eq_of_cover 6 (colSumSq (h1 V c)) (flushed6 V c) cover6

end Cert.KernelIdeal.Region1

end
-- ==== Proof.Region1H.lean ====
import proofs.«425852_j85495618995090_1_alg».proof.Proof.Region1

set_option maxRecDepth 16384

noncomputable section

namespace Cert.KernelIdeal.Region1H

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.RegionLib Cert.KernelIdeal.RegionSum Cert.KernelIdeal.Region1 Cert.Spec

variable (V : (c : Dev nD) → (b : Ref sig .tc) → Buf (Elt Ideal) ((c : Thread nD τ).loc b)) (c : Dev nD)

theorem flushed4 (t : Fin cfg1.N) :
    (dat1 (F := Ideal) V c).flushed 4 t = ((cfg1.win 4).blk t).view.read (Elt Ideal) (h1 V c) := by
  show (cfg1.win 4).cut (grid1.coords t) ((dat1 (F := Ideal) V c).after 4 t) = _
  rw [after1_4, (outs V c t).1]
  funext (j : S5000x128.Idx)
  obtain ⟨r, q, rfl⟩ : ∃ (r : Fin 5000) (q : Fin 128), j = ix2 r q := ⟨j 0, j 1, eq_ix2 j⟩
  show hblk V c t (ix2 r q) = h1 V c (((cfg1.win 4).blk t).view.emb (ix2 r q))
  rw [show ((cfg1.win 4).blk t).view.emb (ix2 r q) = ix2 ⟨t.val * 5000 + r.val, lt_rows t r⟩ q from
    rowBlock_emb (rect_emb_at win1_4 t (idx t).2.2.2.2.1) r q _ rfl]
  exact hblk_apply V c t r q

theorem cover4 (i : S100000x128.Idx) : ∃ t : Fin cfg1.N, (cfg1.win 4).flush t = true ∧ i ∈ ((cfg1.win 4).blk t).view.set := by
  have hi : (i 0).val < 100000 := (i 0).isLt
  have ht : (i 0).val / 5000 < cfg1.N := lt_of_lt_of_eq (by omega : (i 0).val / 5000 < 20) (show 20 = cfg1.N from N_1.symm)
  obtain ⟨y, hy⟩ := rowBlock_cover (by decide : 0 < 5000) i (rect_emb_at win1_4 ⟨_, ht⟩ (idx _).2.2.2.2.1)
  refine ⟨⟨_, ht⟩, flush1_4 _, ?_⟩
  have := ((cfg1.win 4).blk ⟨_, ht⟩).view.emb_mem_set y
  rwa [show ((cfg1.win 4).blk ⟨_, ht⟩).view.emb y = i from hy] at this

theorem value_h1 : (dat1 (F := Ideal) V c).arrAt 4 cfg1.N
    = lin1 (D := 2) (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed4 V c t) cover4

end Cert.KernelIdeal.Region1H

end
-- ==== Proof.Region2.lean ====
import proofs.«425852_j85495618995090_1_alg».proof.Proof.Gen.KernelIdeal.Frame
import proofs.«425852_j85495618995090_1_alg».proof.Proof.Spec
import proofs.«425852_j85495618995090_1_alg».proof.Proof.RegionLib
import Idealize.ShloMosaic.PureOps.Ideal.Laws
import Idealize.ShloMosaic.Lib.ValueLayout
import Idealize.ShloMosaic.Lib.StackMember

set_option maxRecDepth 16384

namespace Cert.KernelIdeal.Region2

open Idealize.ShloMosaic Idealize.ShloMosaic.TcCoe Idealize.ShloMosaic.ValueIdx
open Cert.KernelIdeal Cert.KernelIdeal.Gen Cert.KernelIdeal.RegionLib
open scoped BigOperators

/-- Into the zero accumulator the block product at `(p, q)` is the sum over the 128 contracted coordinates. -/
theorem matmul_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  (Ideal.matmul_constant_zero_apply _ none A B _).trans
    ((Ideal.dotGeneral_apply (DotDims.plain 5000 128 128) none _ A B _).symm.trans
      (StackMember.dotGeneral_plain_apply none A B p q))

theorem pre_apply (x0 : Vec Ideal S5000x128 .f32) (xv xm xg xb : Vec Ideal S1x128 .f32) (xw : Vec Ideal S128x128 .f32)
    (xc : Vec Ideal S1x128 .f32) (p : Fin 5000) (q : Fin 128) :
    k2_pay2 (F := Ideal) x0 xv xm xg xb xw xc (ix2 p q)
      = (∑ k : Fin 128, Cert.Spec.normActR (Ideal.ofBits .f32 0x3C23D70A#32) (Ideal.ofBits .f32 0x3727C5AC#32)
            (x0 (ix2 p k)) (xm (ix2 0 k)) (xv (ix2 0 k)) (xg (ix2 0 k)) (xb (ix2 0 k)) * xw (ix2 k q))
          + xc (ix2 0 q) := by
  unfold k2_pay2
  simp only [shapeCast_self]
  rw [addf_apply, matmul_apply, broadcastTo_1b_ab_apply]
  refine congrArg (· + xc (ix2 0 q)) (Finset.sum_congr rfl fun k _ => ?_)
  rw [truncf_apply, truncf_apply]
  refine congrArg (· * xw (ix2 k q)) ?_
  simp only [select_apply, cmpf_apply, mulf_apply, addf_apply, subf_apply, broadcast_apply, broadcastTo_1b_ab_apply]
  rfl

theorem hz : (![0, 0] : Fin 2 → Nat) = fun _ => 0 := funext fun a => by fin_cases a <;> rfl

theorem block_apply (x0 : Vec Ideal S5000x128 .f32) (xm xv xg xb : Vec Ideal S1x128 .f32) (xw : Vec Ideal S128x128 .f32)
    (xc : Vec Ideal S1x128 .f32) (p : Fin 5000) (q : Fin 128) :
    out2_7 (F := Ideal) x0 xm xv xg xb xw xc (ix2 p q)
      = Cert.Spec.leaky (Named.named (F := Ideal) Cert.KernelIdeal.κ "leaky_slope_sq" (φ := .f32) 0x38D1B717#32)
          ((∑ k : Fin 128, Cert.Spec.normActR (Ideal.ofBits .f32 0x3C23D70A#32) (Ideal.ofBits .f32 0x3727C5AC#32)
              (x0 (ix2 p k)) (xm (ix2 0 k)) (xv (ix2 0 k)) (xg (ix2 0 k)) (xb (ix2 0 k)) * xw (ix2 k q))
            + xc (ix2 0 q)) := by
  unfold out2_7
  rw [View.canon_unit_zero hz]
  simp only [View.ld_unit_zero (S := S5000x128) hz, View.ld_unit_zero (S := S1x128) hz, View.ld_unit_zero (S := S128x128) hz]
  show Cert.Spec.leaky (Named.named (F := Ideal) Cert.KernelIdeal.κ "leaky_slope_sq" (φ := .f32) 0x38D1B717#32) (k2_pay2 (F := Ideal) x0 xv xm xg xb xw xc (ix2 p q)) = _
  rw [pre_apply]

/-- With every block read off its array at block row `T` (or whole), a point stores its block of the fused map. -/
theorem block_eq (T : Nat) (A0 : Cert.Spec.Mat 100000 128) (A1 A2 A3 A4 : Cert.Spec.Mat 1 128) (A5 : Cert.Spec.Mat 128 128)
    (A6 : Cert.Spec.Mat 1 128) (e0 : S5000x128.Idx → S100000x128.Idx) (e1 e2 e3 e4 : S1x128.Idx → S1x128.Idx)
    (e5 : S128x128.Idx → S128x128.Idx) (e6 : S1x128.Idx → S1x128.Idx) (e7 : S5000x128.Idx → S100000x128.Idx)
    (h0 : ∀ y a, (e0 y a : Nat) = ![T, 0] a * ![5000, 128] a + y a)
    (h1 : ∀ y a, (e1 y a : Nat) = ![0, 0] a * ![1, 128] a + y a)
    (h2 : ∀ y a, (e2 y a : Nat) = ![0, 0] a * ![1, 128] a + y a)
    (h3 : ∀ y a, (e3 y a : Nat) = ![0, 0] a * ![1, 128] a + y a)
    (h4 : ∀ y a, (e4 y a : Nat) = ![0, 0] a * ![1, 128] a + y a)
    (h5 : ∀ y a, (e5 y a : Nat) = ![0, 0] a * ![128, 128] a + y a)
    (h6 : ∀ y a, (e6 y a : Nat) = ![0, 0] a * ![1, 128] a + y a)
    (h7 : ∀ y a, (e7 y a : Nat) = ![T, 0] a * ![5000, 128] a + y a) :
    out2_7 (F := Ideal) (fun y => A0 (e0 y)) (fun y => A1 (e1 y)) (fun y => A2 (e2 y)) (fun y => A3 (e3 y))
        (fun y => A4 (e4 y)) (fun y => A5 (e5 y)) (fun y => A6 (e6 y))
      = fun j => Cert.Spec.bnActFused (Ideal.ofBits .f32 0x3C23D70A#32) (Named.named (F := Ideal) Cert.KernelIdeal.κ "leaky_slope_sq" (φ := .f32) 0x38D1B717#32) (Ideal.ofBits .f32 0x3727C5AC#32) A0 A1 A2 A3 A4 A5 A6 (e7 j) := by
  funext j
  obtain ⟨p, q, rfl⟩ : ∃ (p : Fin 5000) (q : Fin 128), j = ix2 p q := ⟨j 0, j 1, eq_ix2 j⟩
  have hr : (e7 (ix2 p q) 0).val = T * 5000 + p.val := h7 _ 0
  refine (block_apply _ _ _ _ _ _ _ p q).trans ?_
  show _ = Cert.Spec.bnActFused _ _ _ A0 A1 A2 A3 A4 A5 A6 (e7 (ix2 p q))
  rw [rowBlock_emb h7 p q _ hr, rowBlock_emb h6 0 q 0 (by omega),
    Finset.sum_congr rfl fun k _ => by
      rw [rowBlock_emb h0 p k _ hr, rowBlock_emb h1 0 k 0 (by omega), rowBlock_emb h2 0 k 0 (by omega),
        rowBlock_emb h3 0 k 0 (by omega), rowBlock_emb h4 0 k 0 (by omega), rowBlock_emb h5 k q k (by omega)]]
  rfl

theorem index_facts : ∀ t : Fin cfg2.N, (∀ a, win2_0.index t a = ![t.val, 0] a) ∧ (∀ a, win2_1.index t a = ![0, 0] a)
    ∧ (∀ a, win2_2.index t a = ![0, 0] a) ∧ (∀ a, win2_3.index t a = ![0, 0] a)
    ∧ (∀ a, win2_4.index t a = ![0, 0] a) ∧ (∀ a, win2_5.index t a = ![0, 0] a)
    ∧ (∀ a, win2_6.index t a = ![0, 0] a) ∧ ∀ a, win2_7.index t a = ![t.val, 0] a :=
  (by decide +kernel : ∀ t : Fin grid2.N, _)

variable (V : (c : Dev nD) → (b : Ref sig .tc) → Buf (Elt Ideal) ((c : Thread nD τ).loc b)) (c : Dev nD)

noncomputable abbrev outArr : Cert.Spec.Mat 100000 128 :=
  Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))

theorem flushed_eq (t : Fin cfg2.N) :
    (dat2 (F := Ideal) V c).flushed 7 t = ((cfg2.win 7).blk t).view.read (Elt Ideal) (outArr V c) := by
  obtain ⟨i0, i1, i2, i3, i4, i5, i6, i7⟩ := index_facts t
  show (cfg2.win 7).cut (grid2.coords t) ((dat2 (F := Ideal) V c).after 7 t) = _
  rw [after2_7]
  exact block_eq t.val (V c (Pipeline.arrRef spec2 0)) (V c (Pipeline.arrRef spec2 1)) (V c (Pipeline.arrRef spec2 2)) (V c (Pipeline.arrRef spec2 3))
    (V c (Pipeline.arrRef spec2 4)) (V c (Pipeline.arrRef spec2 5)) (V c (Pipeline.arrRef spec2 6)) _ _ _ _ _ _ _ _
    (rect_emb_at win2_0 t i0) (rect_emb_at win2_1 t i1) (rect_emb_at win2_2 t i2) (rect_emb_at win2_3 t i3)
    (rect_emb_at win2_4 t i4) (rect_emb_at win2_5 t i5) (rect_emb_at win2_6 t i6) (rect_emb_at win2_7 t i7)

theorem covered (i : S100000x128.Idx) :
    ∃ t : Fin cfg2.N, (cfg2.win 7).flush t = true ∧ i ∈ ((cfg2.win 7).blk t).view.set := by
  have ht : (i 0).val / 5000 < cfg2.N := (Nat.div_lt_of_lt_mul (n := 5000) (k := 20) (i 0).isLt).trans_eq N_2.symm
  obtain ⟨y, hy⟩ := rowBlock_cover (by decide) i (rect_emb_at win2_7 ⟨_, ht⟩ (index_facts _).2.2.2.2.2.2.2)
  exact ⟨⟨_, ht⟩, flush2_7 _, Finset.mem_map.2 ⟨y, Finset.mem_univ y, hy⟩⟩

theorem value : (dat2 (F := Ideal) V c).arrAt 7 cfg2.N
    = Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 (outArr V c) (fun t _ => flushed_eq V c t) covered

end Cert.KernelIdeal.Region2
-- ==== Proof.KHost0.lean ====
import proofs.«425852_j85495618995090_1_alg».proof.Proof.Gen.KernelIdeal.Launch
import proofs.«425852_j85495618995090_1_alg».proof.Proof.LayoutCanon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host0

open Idealize.ShloMosaic Idealize.ShloMosaic.TcCoe Idealize.ShloMosaic.ValueIdx
open Idealize.SL.Sem
open Cert.KernelIdeal Cert.KernelIdeal.Gen

def takeIdx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

def takeMask (i : IVec S600000x1 32) : IVec S600000 1 :=
  Host.reduce IntOp.andi
    (andi (cmpi .sge i (broadcastInDim S600000x1 ![] bcast_S_S600000x1 (constantI S_ 32 0#32)))
      (cmpi .sle i (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

def takeRows (x : Vec Ideal S100000x2 .f32) (s : IVec S600000 32) : Vec Ideal S600000x2 .f32 :=
  select (broadcastInDim S600000x2 ![0] bcast_S600000_S600000x2_0 (takeMask (takeIdx s)))
    (Host.gather gather_S100000x2_S600000x1_S600000x2_1_0_n_n_0_1_12 x (takeIdx s))
    (broadcastInDim S600000x2 ![] bcast_S_S600000x2 (constant (F := Ideal) S_ .f32 0x7FC00000#32))

def gatherRows (x : Vec Ideal S100000x2 .f32) (src : Fin 600000 → BitVec 32) : Vec Ideal S600000x2 .f32 :=
  takeRows x (fun i => src (i 0))

def scatterTo (s : IVec S600000 32) (u : Vec Ideal S600000x2 .f32) : Vec Ideal S100000x2 .f32 :=
  Host.scatterAdd scatter_S100000x2_S600000x1_S600000x2_1_0_0_1
    (broadcastInDim S100000x2 ![] bcast_S_S100000x2 (constant (F := Ideal) S_ .f32 0x00000000#32))
    (broadcastInDim S600000x1 ![0] bcast_S600000_S600000x1_0 s) u

def scatterRows (dst : Fin 600000 → BitVec 32) (u : Vec Ideal S600000x2 .f32) : Vec Ideal S100000x2 .f32 :=
  scatterTo (fun i => dst (i 0)) u

variable (W : Valuation τ sig (Elt Ideal))

abbrev wr0 : List (Ref sig .tc) := [main_v0, main_v1, main_v2, main_v3, main_v4, main_v5]

abbrev wr0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]

abbrev wr1 : List (Ref sig .tc) := [main_cst, main_v8, main_v9, main_v10, main_v11, main_v12]

abbrev wr2 : List (Ref sig .tc) :=
  [main_cst_0, main_v14, main_v15, main_cst_1, main_v16, main_v17, main_v18, main_v19, main_v20, main_v21, main_v22, main_v23]

theorem keep0 (b : Ref sig .tc) (hb : b ∉ wr0) :
    StableHlo.after (hostOps0 (F := Ideal)) W (Proc.devRef .tc b) = W (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (fun e => hb (by subst e; decide))

theorem keep0_1 (b : Ref sig .tc) (hb : b ∉ wr0_1) :
    StableHlo.after (hostOps0_1 (F := Ideal)) W (Proc.devRef .tc b) = W (Proc.devRef .tc b) := by
  refine StableHlo.after_of_forall_not_mem (b := Proc.devRef .tc b) _ _ (List.forall_iff_forall_mem.mp ?_)
  simp only [hostOps0_1, List.Forall, StableHlo.nullary_writes, StableHlo.unary_writes, StableHlo.binary_writes, StableHlo.ternary_writes, StableHlo.reshape_writes, Finset.mem_singleton]
  repeat' apply And.intro
  all_goals exact StableHlo.devRef_ne_of_ne (fun e => hb (by subst e; decide))

theorem keep1 (b : Ref sig .tc) (hb : b ∉ wr1) :
    StableHlo.after (hostOps1 (F := Ideal)) W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.reshape_writes, Finset.mem_singleton]
  repeat' apply And.intro
  all_goals exact StableHlo.devRef_ne_of_ne (fun e => hb (by subst e; decide))

theorem keep2 (b : Ref sig .tc) (hb : b ∉ wr2) :
    StableHlo.after (hostOps2 (F := Ideal)) W (Proc.devRef .tc b) = W (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.reshape_writes, Finset.mem_singleton]
  repeat' apply And.intro
  all_goals exact StableHlo.devRef_ne_of_ne (fun e => hb (by subst e; decide))

theorem v1_read : StableHlo.after (hostOps0 (F := Ideal)) W (Proc.devRef .tc main_v1)
    = fun i : S600000.Idx => (W (Proc.devRef .tc main_arg1) : IVec S2x600000 32) (ix2 (0 : Fin 2) (i 0)) := by
  after_results
  funext i
  exact Cert.Layout.stackRow_apply 0 _ _ _ (0 : Fin 2) rfl i

theorem v3_read : StableHlo.after (hostOps0 (F := Ideal)) W (Proc.devRef .tc main_v3)
    = fun i : S600000.Idx => (W (Proc.devRef .tc main_arg1) : IVec S2x600000 32) (ix2 (1 : Fin 2) (i 0)) := by
  after_results
  funext i
  exact Cert.Layout.stackRow_apply 1 _ _ _ (1 : Fin 2) rfl i

theorem v4_read : StableHlo.after (hostOps0 (F := Ideal)) W (Proc.devRef .tc main_v4)
    = fun j : S7x2.Idx => (W (Proc.devRef .tc main_arg4) : Vec Ideal S2x7 .f32) (ix2 (j 1) (j 0)) := by
  after_results
  exact Cert.Layout.transpose2_eq _ _

theorem v5_read : StableHlo.after (hostOps0 (F := Ideal)) W (Proc.devRef .tc main_v5)
    = fun j : S1x2.Idx => (W (Proc.devRef .tc main_arg5) : Vec Ideal S2 .f32) (ix1 (j 1)) := by
  after_results
  funext j
  exact Cert.Layout.reshape_n_1n_apply _ _ j

theorem v6_read : StableHlo.after (hostOps0_1 (F := Ideal)) W (Proc.devRef .tc main_v6)
    = takeRows (W (Proc.devRef .tc main_arg0)) (W (Proc.devRef .tc main_v1)) := by
  after_results_simp
  simp only [StableHlo.TRef.toBuf, StableHlo.TRef.ofBuf, cast_eq]
  rfl

theorem v10_read : StableHlo.after (hostOps1 (F := Ideal)) W (Proc.devRef .tc main_v10)
    = scatterTo (W (Proc.devRef .tc main_v3)) (W (Proc.devRef .tc main_v7)) := by
  after_results
  rfl

theorem v11_read : StableHlo.after (hostOps1 (F := Ideal)) W (Proc.devRef .tc main_v11)
    = fun j : S2x128.Idx => (W (Proc.devRef .tc main_arg6) : Vec Ideal S128x2 .f32) (ix2 (j 1) (j 0)) := by
  after_results
  exact Cert.Layout.transpose2_eq _ _

theorem v12_read : StableHlo.after (hostOps1 (F := Ideal)) W (Proc.devRef .tc main_v12)
    = fun j : S1x128.Idx => (W (Proc.devRef .tc main_arg7) : Vec Ideal S128 .f32) (ix1 (j 1)) := by
  after_results
  funext j
  exact Cert.Layout.reshape_n_1n_apply _ _ j

theorem row_ix (j : (⟨2, ![1, 128]⟩ : Shape).Idx) : j = ix2 (0 : Fin 1) (j 1) := by
  funext d
  match d with
  | ⟨0, _⟩ =>
    refine Fin.ext ?_
    have : (j 0).val < 1 := (j 0).isLt
    show (j 0).val = 0
    omega
  | ⟨1, _⟩ => rfl

theorem div_splat (s : Vec Ideal S1x128 .f32) (w : BitVec 32) (j : S1x128.Idx) :
    Host.divf s (broadcastInDim S1x128 ![] bcast_S_S1x128 (constant (F := Ideal) S_ .f32 w)) j
      = Ideal.div (s (ix2 (0 : Fin 1) (j 1))) (Ideal.ofBits .f32 w) := by
  show Ideal.div (s j) (broadcastInDim S1x128 ![] bcast_S_S1x128 (constant (F := Ideal) S_ .f32 w) j) = _
  rw [Cert.Layout.bcast_scalar_apply]
  exact congrArg (fun k : S1x128.Idx => Ideal.div (s k) (Ideal.ofBits .f32 w)) (row_ix j)

theorem v15_read : StableHlo.after (hostOps2 (F := Ideal)) W (Proc.devRef .tc main_v15)
    = fun j : S1x128.Idx => Ideal.div ((W (Proc.devRef .tc main_v13_1) : Vec Ideal S1x128 .f32) (ix2 (0 : Fin 1) (j 1)))
        (Ideal.ofBits .f32 0x47C35000#32) := by
  after_results
  funext j
  exact div_splat _ _ j

theorem v19_read : StableHlo.after (hostOps2 (F := Ideal)) W (Proc.devRef .tc main_v19)
    = fun j : S1x128.Idx =>
        Ideal.div ((W (Proc.devRef .tc main_v13_2) : Vec Ideal S1x128 .f32) (ix2 (0 : Fin 1) (j 1))) (Ideal.ofBits .f32 0x47C35000#32)
          - Ideal.div ((W (Proc.devRef .tc main_v13_1) : Vec Ideal S1x128 .f32) (ix2 (0 : Fin 1) (j 1))) (Ideal.ofBits .f32 0x47C35000#32)
            * Ideal.div ((W (Proc.devRef .tc main_v13_1) : Vec Ideal S1x128 .f32) (ix2 (0 : Fin 1) (j 1))) (Ideal.ofBits .f32 0x47C35000#32) := by
  after_results
  funext j
  show Host.divf _ _ j - Host.divf _ _ j * Host.divf _ _ j = _
  rw [div_splat, div_splat]

theorem v20_read : StableHlo.after (hostOps2 (F := Ideal)) W (Proc.devRef .tc main_v20)
    = fun j : S1x128.Idx => (W (Proc.devRef .tc main_arg8) : Vec Ideal S128 .f32) (ix1 (j 1)) := by
  after_results
  funext j
  exact Cert.Layout.reshape_n_1n_apply _ _ j

theorem v21_read : StableHlo.after (hostOps2 (F := Ideal)) W (Proc.devRef .tc main_v21)
    = fun j : S1x128.Idx => (W (Proc.devRef .tc main_arg9) : Vec Ideal S128 .f32) (ix1 (j 1)) := by
  after_results
  funext j
  exact Cert.Layout.reshape_n_1n_apply _ _ j

theorem v22_read : StableHlo.after (hostOps2 (F := Ideal)) W (Proc.devRef .tc main_v22)
    = fun j : S128x128.Idx => (W (Proc.devRef .tc main_arg10) : Vec Ideal S128x128 .f32) (ix2 (j 1) (j 0)) := by
  after_results
  exact Cert.Layout.transpose2_eq _ _

theorem v23_read : StableHlo.after (hostOps2 (F := Ideal)) W (Proc.devRef .tc main_v23)
    = fun j : S1x128.Idx => (W (Proc.devRef .tc main_arg11) : Vec Ideal S128 .f32) (ix1 (j 1)) := by
  after_results
  funext j
  exact Cert.Layout.reshape_n_1n_apply _ _ j

end Cert.KernelIdeal.Host0

end
-- ==== Proof.KLayer0.lean ====
import proofs.«425852_j85495618995090_1_alg».proof.Proof.Gen.KernelIdeal.Frame
import proofs.«425852_j85495618995090_1_alg».proof.Proof.Spec
import proofs.«425852_j85495618995090_1_alg».proof.Proof.Region0
import proofs.«425852_j85495618995090_1_alg».proof.Proof.Region1
import proofs.«425852_j85495618995090_1_alg».proof.Proof.Region1H
import proofs.«425852_j85495618995090_1_alg».proof.Proof.Region2
import proofs.«425852_j85495618995090_1_alg».proof.Proof.KHost0

set_option maxRecDepth 16384

noncomputable section

open scoped BigOperators

namespace Cert.KernelIdeal.Layer0

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ) (ρ : Dev nD → PrngReg)

def src (c : Dev nD) : Fin 600000 → BitVec 32 :=
  fun e => (m ((c : Thread nD τ).loc main_arg1) : IVec S2x600000 32) (ix2 (0 : Fin 2) e)

def dst (c : Dev nD) : Fin 600000 → BitVec 32 :=
  fun e => (m ((c : Thread nD τ).loc main_arg1) : IVec S2x600000 32) (ix2 (1 : Fin 2) e)

def msg (c : Dev nD) : Cert.Spec.Mat 600000 2 :=
  Cert.Spec.edgeMsg (D := 2) (m ((c : Thread nD τ).loc main_arg3))
    (fun j => (m ((c : Thread nD τ).loc main_arg4) : Vec Ideal S2x7 .f32) (ix2 (j 1) (j 0)))
    (fun j => (m ((c : Thread nD τ).loc main_arg5) : Vec Ideal S2 .f32) (ix1 (j 1)))
    (Host0.gatherRows (m ((c : Thread nD τ).loc main_arg0)) (src m c))

def h1 (c : Dev nD) : Cert.Spec.Mat 100000 128 :=
  Cert.Spec.lin1 (D := 2) (m ((c : Thread nD τ).loc main_arg0)) (Host0.scatterRows (dst m c) (msg m c))
    (fun j => (m ((c : Thread nD τ).loc main_arg6) : Vec Ideal S128x2 .f32) (ix2 (j 1) (j 0)))
    (fun j => (m ((c : Thread nD τ).loc main_arg7) : Vec Ideal S128 .f32) (ix1 (j 1)))

open Cert.Spec in
/-- Each region's output is its function of its inputs and each input is what the stretch before it left. -/
theorem value_of {X x1 x4 aggr : Mat 100000 2} {s1 d3 : IVec S600000 32} {S D : Fin 600000 → BitVec 32}
    {EA ea : Mat 600000 7} {ewt EWT : Mat 7 2} {eb EB : Mat 1 2} {xg u : Mat 600000 2} {w1t W1T : Mat 2 128}
    {b1r B1 s ss mu var g G be BE b2r B2 : Mat 1 128} {H h5 h6 out : Mat 100000 128} {w2t W2T : Mat 128 128}
    (hH : H = lin1 (D := 2) X (Host0.scatterRows D (edgeMsg (D := 2) EA EWT EB (Host0.gatherRows X S))) W1T B1)
    (r0 : u = edgeMsg (D := 2) ea ewt eb xg) (hea : ea = EA) (hewt : ewt = EWT) (heb : eb = EB)
    (hxg : xg = Host0.takeRows x1 s1) (hx1 : x1 = X) (hs1 : s1 = fun i => S (i 0))
    (r1 : h5 = lin1 (D := 2) x4 aggr w1t b1r) (r1s : s = colSum (lin1 (D := 2) x4 aggr w1t b1r))
    (r1q : ss = colSumSq (lin1 (D := 2) x4 aggr w1t b1r)) (hx4 : x4 = X) (haggr : aggr = Host0.scatterTo d3 u)
    (hd3 : d3 = fun i => D (i 0)) (hw1t : w1t = W1T) (hb1r : b1r = B1)
    (r2 : out = bnActFused (Ideal.ofBits .f32 0x3C23D70A#32)
      (Named.named (F := Ideal) Cert.KernelIdeal.κ "leaky_slope_sq" (φ := .f32) 0x38D1B717#32)
      (Ideal.ofBits .f32 0x3727C5AC#32) h6 mu var g be w2t b2r) (hh6 : h6 = h5)
    (hmu : mu = meanOf (Ideal.ofBits .f32 0x47C35000#32) s) (hvar : var = varMoments (Ideal.ofBits .f32 0x47C35000#32) s ss)
    (hg : g = G) (hbe : be = BE) (hw2t : w2t = W2T) (hb2r : b2r = B2) :
    out = bnActFused (Ideal.ofBits .f32 0x3C23D70A#32)
      (Named.named (F := Ideal) Cert.KernelIdeal.κ "leaky_slope_sq" (φ := .f32) 0x38D1B717#32)
      (Ideal.ofBits .f32 0x3727C5AC#32) H (meanOf (Ideal.ofBits .f32 0x47C35000#32) (colSum H)) (varMoments (Ideal.ofBits .f32 0x47C35000#32) (colSum H) (colSumSq H)) G BE W2T B2 := by
  subst_vars
  rfl

theorem W1_arg (c : Dev nD) (b : Ref sig .tc) (h0 : b ∉ Host0.wr0) :
    W1 m ρ c (Proc.devRef .tc b) = m ((c : Thread nD τ).loc b) :=
  Host0.keep0 (W0 m ρ c) b h0

theorem W3_W1 (c : Dev nD) (b : Ref sig .tc) (h : b ∉ Host0.wr0_1 ∧ ∀ w, Pipeline.arrRef spec0 w ≠ b) :
    W3 m ρ c (Proc.devRef .tc b) = W1 m ρ c (Proc.devRef .tc b) :=
  (W3_of_ne m ρ c b h.2).trans (Host0.keep0_1 (W1 m ρ c) b h.1)

theorem W5_W3 (c : Dev nD) (b : Ref sig .tc) (h : b ∉ Host0.wr1 ∧ ∀ w, Pipeline.arrRef spec1 w ≠ b) :
    W5 m ρ c (Proc.devRef .tc b) = W3 m ρ c (Proc.devRef .tc b) :=
  (W5_of_ne m ρ c b h.2).trans (Host0.keep1 (W3 m ρ c) b h.1)

theorem W7_W5 (c : Dev nD) (b : Ref sig .tc) (h : b ∉ Host0.wr2 ∧ ∀ w, Pipeline.arrRef spec2 w ≠ b) :
    W7 m ρ c (Proc.devRef .tc b) = W5 m ρ c (Proc.devRef .tc b) :=
  (W7_of_ne m ρ c b h.2).trans (Host0.keep2 (W5 m ρ c) b h.1)

theorem W3_arg (c : Dev nD) (b : Ref sig .tc)
    (h : b ∉ Host0.wr0 ∧ b ∉ Host0.wr0_1 ∧ ∀ w, Pipeline.arrRef spec0 w ≠ b) :
    W3 m ρ c (Proc.devRef .tc b) = m ((c : Thread nD τ).loc b) :=
  (W3_W1 m ρ c b h.2).trans (W1_arg m ρ c b h.1)

theorem W5_arg (c : Dev nD) (b : Ref sig .tc)
    (h : (b ∉ Host0.wr0 ∧ b ∉ Host0.wr0_1 ∧ ∀ w, Pipeline.arrRef spec0 w ≠ b)
      ∧ b ∉ Host0.wr1 ∧ ∀ w, Pipeline.arrRef spec1 w ≠ b) :
    W5 m ρ c (Proc.devRef .tc b) = m ((c : Thread nD τ).loc b) :=
  (W5_W3 m ρ c b h.2).trans (W3_arg m ρ c b h.1)

theorem W7_arg (c : Dev nD) (b : Ref sig .tc)
    (h : ((b ∉ Host0.wr0 ∧ b ∉ Host0.wr0_1 ∧ ∀ w, Pipeline.arrRef spec0 w ≠ b)
      ∧ b ∉ Host0.wr1 ∧ ∀ w, Pipeline.arrRef spec1 w ≠ b) ∧ b ∉ Host0.wr2 ∧ ∀ w, Pipeline.arrRef spec2 w ≠ b) :
    W7 m ρ c (Proc.devRef .tc b) = m ((c : Thread nD τ).loc b) :=
  (W7_W5 m ρ c b h.2).trans (W5_arg m ρ c b h.1)

theorem W2_arg3 (c : Dev nD) : W2 m ρ c (Proc.devRef .tc main_arg3) = m ((c : Thread nD τ).loc main_arg3) :=
  (Host0.keep0_1 (W1 m ρ c) main_arg3 (by decide)).trans (W1_arg m ρ c main_arg3 (by decide))

theorem W3_v3 (c : Dev nD) : W3 m ρ c (Proc.devRef .tc main_v3) = fun i : S600000.Idx => dst m c (i 0) :=
  (W3_W1 m ρ c main_v3 (by decide)).trans (Host0.v3_read (W0 m ρ c))

theorem value (c : Dev nD) : W7 (F := Ideal) m ρ c (Proc.devRef .tc main_v24)
    = Cert.Spec.bnActFused (Ideal.ofBits .f32 0x3C23D70A#32)
        (Named.named (F := Ideal) Cert.KernelIdeal.κ "leaky_slope_sq" (φ := .f32) 0x38D1B717#32)
        (Ideal.ofBits .f32 0x3727C5AC#32) (h1 m c)
        (Cert.Spec.meanOf (Ideal.ofBits .f32 0x47C35000#32) (Cert.Spec.colSum (h1 m c)))
        (Cert.Spec.varMoments (Ideal.ofBits .f32 0x47C35000#32) (Cert.Spec.colSum (h1 m c)) (Cert.Spec.colSumSq (h1 m c)))
        (fun j => (m ((c : Thread nD τ).loc main_arg8) : Vec Ideal S128 .f32) (ix1 (j 1)))
        (fun j => (m ((c : Thread nD τ).loc main_arg9) : Vec Ideal S128 .f32) (ix1 (j 1)))
        (fun j => (m ((c : Thread nD τ).loc main_arg10) : Vec Ideal S128x128 .f32) (ix2 (j 1) (j 0)))
        (fun j => (m ((c : Thread nD τ).loc main_arg11) : Vec Ideal S128 .f32) (ix1 (j 1))) :=
  value_of rfl ((W3_arr m ρ c 4).trans (Region0.value (V2 m ρ) c)) (W2_arg3 m ρ c)
    ((Host0.keep0_1 (W1 m ρ c) main_v4 (by decide)).trans (Host0.v4_read (W0 m ρ c)))
    ((Host0.keep0_1 (W1 m ρ c) main_v5 (by decide)).trans (Host0.v5_read (W0 m ρ c)))
    (Host0.v6_read (W1 m ρ c)) (W1_arg m ρ c main_arg0 (by decide)) (Host0.v1_read (W0 m ρ c))
    ((W5_arr m ρ c 4).trans (Region1H.value_h1 (V4 m ρ) c)) ((W5_arr m ρ c 5).trans (Region1.value_sum (V4 m ρ) c))
    ((W5_arr m ρ c 6).trans (Region1.value_sumsq (V4 m ρ) c))
    ((Host0.keep1 (W3 m ρ c) main_arg0 (by decide)).trans (W3_arg m ρ c main_arg0 (by decide)))
    (Host0.v10_read (W3 m ρ c)) (W3_v3 m ρ c)
    ((Host0.v11_read (W3 m ρ c)).trans
      (congrArg (fun (v : Vec Ideal S128x2 .f32) => fun j : S2x128.Idx => v (ix2 (j 1) (j 0)))
        (W3_arg m ρ c main_arg6 (by decide))))
    ((Host0.v12_read (W3 m ρ c)).trans
      (congrArg (fun (v : Vec Ideal S128 .f32) => fun j : S1x128.Idx => v (ix1 (j 1))) (W3_arg m ρ c main_arg7 (by decide))))
    ((W7_arr m ρ c 7).trans (Region2.value (V6 m ρ) c)) (Host0.keep2 (W5 m ρ c) main_v13_0 (by decide))
    (Host0.v15_read (W5 m ρ c)) (Host0.v19_read (W5 m ρ c))
    ((Host0.v20_read (W5 m ρ c)).trans (congrArg (fun (v : Vec Ideal S128 .f32) => fun j : S1x128.Idx => v (ix1 (j 1)))
      (W5_arg m ρ c main_arg8 (by decide))))
    ((Host0.v21_read (W5 m ρ c)).trans (congrArg (fun (v : Vec Ideal S128 .f32) => fun j : S1x128.Idx => v (ix1 (j 1)))
      (W5_arg m ρ c main_arg9 (by decide))))
    ((Host0.v22_read (W5 m ρ c)).trans
      (congrArg (fun (v : Vec Ideal S128x128 .f32) => fun j : S128x128.Idx => v (ix2 (j 1) (j 0)))
        (W5_arg m ρ c main_arg10 (by decide))))
    ((Host0.v23_read (W5 m ρ c)).trans (congrArg (fun (v : Vec Ideal S128 .f32) => fun j : S1x128.Idx => v (ix1 (j 1)))
      (W5_arg m ρ c main_arg11 (by decide))))

theorem v1_val (c : Dev nD) : W7 m ρ c (Proc.devRef .tc main_v1) = fun i : S600000.Idx => src m c (i 0) :=
  (W7_W5 m ρ c main_v1 (by decide)).trans ((W5_W3 m ρ c main_v1 (by decide)).trans
    ((W3_W1 m ρ c main_v1 (by decide)).trans (Host0.v1_read (W0 m ρ c))))

theorem v3_val (c : Dev nD) : W7 m ρ c (Proc.devRef .tc main_v3) = fun i : S600000.Idx => dst m c (i 0) :=
  (W7_W5 m ρ c main_v3 (by decide)).trans ((W5_W3 m ρ c main_v3 (by decide)).trans
    (W3_v3 m ρ c))

theorem W7_main_arg3 (c : Dev nD) : W7 m ρ c (Proc.devRef .tc main_arg3) = m ((c : Thread nD τ).loc main_arg3) :=
  (W7_W5 m ρ c main_arg3 (by decide)).trans ((W5_W3 m ρ c main_arg3 (by decide)).trans
    (((W3_arr m ρ c 0).trans (((dat0 (V2 m ρ) c).arrAt_in 0 rfl _).trans (A_eq0 (V2 m ρ) c 0))).trans (W2_arg3 m ρ c)))

end Cert.KernelIdeal.Layer0

end
-- ==== Proof.KHost1.lean ====
import proofs.«425852_j85495618995090_1_alg».proof.Proof.Gen.KernelIdeal.Launch
import proofs.«425852_j85495618995090_1_alg».proof.Proof.Spec
import proofs.«425852_j85495618995090_1_alg».proof.Proof.LayoutCanon
import proofs.«425852_j85495618995090_1_alg».proof.Proof.KHostDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KHost1

open Idealize.ShloMosaic Idealize.ShloMosaic.TcCoe
open Idealize.ShloMosaic.ValueIdx
open Cert.KernelIdeal Cert.KernelIdeal.Gen Cert.KernelIdeal.KHost Cert.Spec Cert.Layout

abbrev ℓ : Fin 3 := layer1

variable (W : Valuation τ sig (Elt Ideal))

abbrev written3 : List (Ref sig .tc) := [main_v25, main_v26, main_v27, main_v28, main_v29, main_v30, main_v31, main_v32,
  main_v33, main_v34, main_v35, main_v36, main_v37, main_v38, main_v39, main_v40, main_v41, main_v42]

theorem writes3 : (hostOps3 (F := Ideal) : List (HloOp τ sig (Elt Ideal))).Forall
    fun op => op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep3 (b : Ref sig .tc) (hb : b ∉ written3) :
    StableHlo.after (hostOps3 (F := Ideal)) W (Proc.devRef .tc b) = W (Proc.devRef .tc b) :=
  StableHlo.after_of_writes_sub _ W writes3 hb

theorem ewt3 : StableHlo.after (hostOps3 (F := Ideal)) W (Proc.devRef .tc main_v41)
    = fun j => W (Proc.devRef .tc main_arg12) (ix3 ℓ (j 1) (j 0)) := by
  open StableHlo in after_results
  funext j
  refine (transpose2_apply _ _ j).trans ?_
  exact stackMat_apply _ _ _ _ ℓ rfl _

theorem eb3 : StableHlo.after (hostOps3 (F := Ideal)) W (Proc.devRef .tc main_v42)
    = fun j => W (Proc.devRef .tc main_arg13) (ix2 ℓ (j 1)) := by
  open StableHlo in after_results
  funext j
  refine (reshape_n_1n_apply _ _ j).trans ?_
  exact stackRow_apply _ _ _ _ ℓ rfl _

theorem w1_3 : StableHlo.after (hostOps3 (F := Ideal)) W (Proc.devRef .tc main_v30)
    = fun i => W (Proc.devRef .tc main_arg14) (ix3 ℓ (i 0) (i 1)) := by
  open StableHlo in after_results
  funext i
  exact stackMat_apply _ _ _ _ ℓ rfl _

theorem b1_3 : StableHlo.after (hostOps3 (F := Ideal)) W (Proc.devRef .tc main_v32)
    = fun i => W (Proc.devRef .tc main_arg15) (ix2 ℓ (i 0)) := by
  open StableHlo in after_results
  funext i
  exact stackRow_apply _ _ _ _ ℓ rfl _

theorem g3 : StableHlo.after (hostOps3 (F := Ideal)) W (Proc.devRef .tc main_v34)
    = fun i => W (Proc.devRef .tc main_arg16) (ix2 ℓ (i 0)) := by
  open StableHlo in after_results
  funext i
  exact stackRow_apply _ _ _ _ ℓ rfl _

theorem be3 : StableHlo.after (hostOps3 (F := Ideal)) W (Proc.devRef .tc main_v36)
    = fun i => W (Proc.devRef .tc main_arg17) (ix2 ℓ (i 0)) := by
  open StableHlo in after_results
  funext i
  exact stackRow_apply _ _ _ _ ℓ rfl _

theorem w2_3 : StableHlo.after (hostOps3 (F := Ideal)) W (Proc.devRef .tc main_v38)
    = fun i => W (Proc.devRef .tc main_arg18) (ix3 ℓ (i 0) (i 1)) := by
  open StableHlo in after_results
  funext i
  exact stackMat_apply _ _ _ _ ℓ rfl _

theorem b2_3 : StableHlo.after (hostOps3 (F := Ideal)) W (Proc.devRef .tc main_v40)
    = fun i => W (Proc.devRef .tc main_arg19) (ix2 ℓ (i 0)) := by
  open StableHlo in after_results
  funext i
  exact stackRow_apply _ _ _ _ ℓ rfl _

abbrev written3g : List (Ref sig .tc) := [main_call1_c, main_call1_v0, main_call1_v1, main_call1_c_0, main_call1_v2,
  main_call1_v3, main_call1_v4, main_call1_v5, main_call1_c_1, main_call1_c_2, main_call1_v6, main_call1_v7, main_call1_v8,
  main_call1_v9, main_call1_v10, main_call1_v11, main_call1_c_3, main_call1_v12, main_call1_v13, main_call1_v14,
  main_call1_cst, main_call1_v15, main_v43]

theorem writes3g : (hostOps3_1 (F := Ideal) : List (HloOp τ sig (Elt Ideal))).Forall
    fun op => op.writes ⊆ (written3g.map (Proc.devRef (τ := τ) .tc)).toFinset := by
  simp only [hostOps3_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep3g (b : Ref sig .tc) (hb : b ∉ written3g) :
    StableHlo.after (hostOps3_1 (F := Ideal)) W (Proc.devRef .tc b) = W (Proc.devRef .tc b) :=
  StableHlo.after_of_writes_sub _ W writes3g hb

theorem xg3 : StableHlo.after (hostOps3_1 (F := Ideal)) W (Proc.devRef .tc main_v43)
    = gatherRows (W (Proc.devRef .tc main_v24)) (W (Proc.devRef .tc main_v1)) := by
  open StableHlo in after_results_simp
  simp only [StableHlo.TRef.ofBuf, StableHlo.TRef.toBuf, cast_eq]
  rfl

abbrev written4 : List (Ref sig .tc) := [main_cst_2, main_v45, main_v46, main_v47, main_v48, main_v49]

theorem writes4 : (hostOps4 (F := Ideal) : List (HloOp τ sig (Elt Ideal))).Forall
    fun op => op.writes ⊆ (written4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep4 (b : Ref sig .tc) (hb : b ∉ written4) :
    StableHlo.after (hostOps4 (F := Ideal)) W (Proc.devRef .tc b) = W (Proc.devRef .tc b) :=
  StableHlo.after_of_writes_sub _ W writes4 hb

theorem aggr4 : StableHlo.after (hostOps4 (F := Ideal)) W (Proc.devRef .tc main_v47)
    = scatterRows (W (Proc.devRef .tc main_v3)) (W (Proc.devRef .tc main_v44)) := by
  open StableHlo in after_results
  rfl

theorem w1t4 : StableHlo.after (hostOps4 (F := Ideal)) W (Proc.devRef .tc main_v48)
    = fun j => W (Proc.devRef .tc main_v30) (ix2 (j 1) (j 0)) := by
  open StableHlo in after_results
  exact transpose2_eq _ _

theorem b1r4 : StableHlo.after (hostOps4 (F := Ideal)) W (Proc.devRef .tc main_v49)
    = fun j => W (Proc.devRef .tc main_v32) (ix1 (j 1)) := by
  open StableHlo in after_results
  funext j
  exact reshape_n_1n_apply _ _ j

abbrev written5 : List (Ref sig .tc) := [main_cst_3, main_v51, main_v52, main_cst_4, main_v53, main_v54, main_v55, main_v56,
  main_v57, main_v58, main_v59, main_v60]

theorem writes5 : (hostOps5 (F := Ideal) : List (HloOp τ sig (Elt Ideal))).Forall
    fun op => op.writes ⊆ (written5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep5 (b : Ref sig .tc) (hb : b ∉ written5) :
    StableHlo.after (hostOps5 (F := Ideal)) W (Proc.devRef .tc b) = W (Proc.devRef .tc b) :=
  StableHlo.after_of_writes_sub _ W writes5 hb

theorem mean5 : StableHlo.after (hostOps5 (F := Ideal)) W (Proc.devRef .tc main_v52)
    = meanOf (Ideal.ofBits .f32 0x47C35000#32) (W (Proc.devRef .tc main_v50_1)) := by
  open StableHlo in after_results
  exact divf_count _ _ _

theorem var5 : StableHlo.after (hostOps5 (F := Ideal)) W (Proc.devRef .tc main_v56)
    = varMoments (Ideal.ofBits .f32 0x47C35000#32) (W (Proc.devRef .tc main_v50_1)) (W (Proc.devRef .tc main_v50_2)) := by
  open StableHlo in after_results
  exact moments_count _ _ _ _

theorem g5 : StableHlo.after (hostOps5 (F := Ideal)) W (Proc.devRef .tc main_v57)
    = fun j => W (Proc.devRef .tc main_v34) (ix1 (j 1)) := by
  open StableHlo in after_results
  funext j
  exact reshape_n_1n_apply _ _ j

theorem be5 : StableHlo.after (hostOps5 (F := Ideal)) W (Proc.devRef .tc main_v58)
    = fun j => W (Proc.devRef .tc main_v36) (ix1 (j 1)) := by
  open StableHlo in after_results
  funext j
  exact reshape_n_1n_apply _ _ j

theorem w2t5 : StableHlo.after (hostOps5 (F := Ideal)) W (Proc.devRef .tc main_v59)
    = fun j => W (Proc.devRef .tc main_v38) (ix2 (j 1) (j 0)) := by
  open StableHlo in after_results
  exact transpose2_eq _ _

theorem b2r5 : StableHlo.after (hostOps5 (F := Ideal)) W (Proc.devRef .tc main_v60)
    = fun j => W (Proc.devRef .tc main_v40) (ix1 (j 1)) := by
  open StableHlo in after_results
  funext j
  exact reshape_n_1n_apply _ _ j

end Cert.KernelIdeal.KHost1

end
-- ==== Proof.KLayerLib.lean ====
import proofs.«425852_j85495618995090_1_alg».proof.Proof.KHostDefs

noncomputable section

namespace Cert.KernelIdeal.KHost

open Idealize.ShloMosaic Idealize.ShloMosaic.ValueIdx
open Cert.KernelIdeal Cert.KernelIdeal.Gen Cert.Spec

/-- The first linear map of the layer: the two regions' inputs are what the stretches before them left. -/
theorem h1Val_of {ℓ : Fin 3} {X x8 x4 aggr : Mat 100000 128} {src src8 dst dst10 : IVec S600000 32}
    {EA ea : Mat 600000 7} {xg msg : Mat 600000 128} {ewS : S3x128x7.Idx → EReal} {ebS b1S : S3x128.Idx → EReal}
    {w1S : S3x128x128.Idx → EReal} {ewt : Mat 7 128} {eb b1r : Mat 1 128} {w1t w1' : Mat 128 128}
    {b1' : (⟨1, ![128]⟩ : Shape).Idx → EReal}
    (r3 : msg = edgeMsg (D := 128) ea ewt eb xg) (hea : ea = EA) (hewt : ewt = fun j => ewS (ix3 ℓ (j 1) (j 0)))
    (heb : eb = fun j => ebS (ix2 ℓ (j 1))) (hxg : xg = gatherRows x8 src8) (hx8 : x8 = X) (hsrc : src8 = src)
    (hx4 : x4 = X) (haggr : aggr = scatterRows dst10 msg) (hdst : dst10 = dst)
    (hw1t : w1t = fun j => w1' (ix2 (j 1) (j 0))) (hw1 : w1' = fun i => w1S (ix3 ℓ (i 0) (i 1)))
    (hb1r : b1r = fun j => b1' (ix1 (j 1))) (hb1 : b1' = fun i => b1S (ix2 ℓ (i 0))) :
    lin1 (D := 128) x4 aggr w1t b1r = h1Val ℓ X src dst EA ewS ebS w1S b1S := by
  subst_vars
  rfl

/-- The layer's output: the last region's inputs are the first linear map, its moments and the layer's weights. -/
theorem layerVal_of {ℓ : Fin 3} {X L h1 h5 out : Mat 100000 128} {src dst : IVec S600000 32} {EA : Mat 600000 7}
    {ewS : S3x128x7.Idx → EReal} {ebS b1S gS beS b2S : S3x128.Idx → EReal} {w1S w2S : S3x128x128.Idx → EReal}
    {s ss mu var g be b2r : Mat 1 128} {w2t w2' : Mat 128 128} {g' be' b2' : (⟨1, ![128]⟩ : Shape).Idx → EReal}
    (r4 : h1 = L) (r4s : s = colSum L) (r4q : ss = colSumSq L) (hL : L = h1Val ℓ X src dst EA ewS ebS w1S b1S)
    (r5 : out = bnActFused (Ideal.ofBits .f32 0x3C23D70A#32)
      (Named.named (F := Ideal) Cert.KernelIdeal.κ "leaky_slope_sq" (φ := .f32) 0x38D1B717#32)
      (Ideal.ofBits .f32 0x3727C5AC#32) h5 mu var g be w2t b2r)
    (hh5 : h5 = h1) (hmu : mu = meanOf (Ideal.ofBits .f32 0x47C35000#32) s)
    (hvar : var = varMoments (Ideal.ofBits .f32 0x47C35000#32) s ss)
    (hg : g = fun j => g' (ix1 (j 1))) (hg' : g' = fun i => gS (ix2 ℓ (i 0)))
    (hbe : be = fun j => be' (ix1 (j 1))) (hbe' : be' = fun i => beS (ix2 ℓ (i 0)))
    (hw2t : w2t = fun j => w2' (ix2 (j 1) (j 0))) (hw2 : w2' = fun i => w2S (ix3 ℓ (i 0) (i 1)))
    (hb2r : b2r = fun j => b2' (ix1 (j 1))) (hb2 : b2' = fun i => b2S (ix2 ℓ (i 0))) :
    out = layerVal ℓ X src dst EA ewS ebS w1S b1S gS beS w2S b2S := by
  subst_vars
  rfl

end Cert.KernelIdeal.KHost

end
-- ==== Proof.Region3.lean ====
import proofs.«425852_j85495618995090_1_alg».proof.Proof.Gen.KernelIdeal.Frame
import proofs.«425852_j85495618995090_1_alg».proof.Proof.Spec
import proofs.«425852_j85495618995090_1_alg».proof.Proof.RegionLib
import Idealize.ShloMosaic.PureOps.Ideal.Laws
import Idealize.ShloMosaic.Lib.ValueLayout
import Idealize.ShloMosaic.Lib.StackMember

set_option maxRecDepth 16384

namespace Cert.KernelIdeal.Region3

open Idealize.ShloMosaic Idealize.ShloMosaic.TcCoe Idealize.ShloMosaic.ValueIdx
open Cert.KernelIdeal Cert.KernelIdeal.Gen Cert.KernelIdeal.RegionLib
open scoped BigOperators

/-- Into the zero accumulator the block product at `(p, q)` is the sum over the seven attributes. -/
theorem blockProduct_apply (a : FVec Ideal S5000x7 .bf16) (b : FVec Ideal S7x128 .bf16) (p : Fin 5000) (q : Fin 128) :
    FloatOps.matmul dot_S5000x7_S7x128_S5000x128_1_0_0_1_n_n none a b (constant (F := Ideal) S5000x128 .f32 0x00000000#32) (ix2 p q)
      = ∑ k : Fin 7, a (ix2 p k) * b (ix2 k q) :=
  (Ideal.matmul_constant_zero_apply _ none a b _).trans
    ((Ideal.dotGeneral_apply (DotDims.plain 5000 7 128) none _ a b _).symm.trans
      (StackMember.dotGeneral_plain_apply none a b p q))

theorem payload_apply (x0 : Vec Ideal S5000x7 .f32) (x1 : Vec Ideal S7x128 .f32) (x2 : Vec Ideal S1x128 .f32)
    (x3 : Vec Ideal S5000x128 .f32) (p : Fin 5000) (q : Fin 128) :
    k3_pay1 (F := Ideal) x0 x1 x2 x3 (ix2 p q)
      = max (x3 (ix2 p q) + ((∑ k : Fin 7, x0 (ix2 p k) * x1 (ix2 k q)) + x2 (ix2 (0 : Fin 1) q)))
          (Ideal.ofBits .f32 0x00000000#32) := by
  unfold k3_pay1
  simp only [shapeCast_self]
  rw [maximumf_apply, addf_apply, addf_apply, broadcast_apply, broadcastTo_1b_ab_apply]
  simp only [matmul]
  rw [blockProduct_apply]
  rfl

theorem zero_offsets : (![0, 0] : Fin 2 → Nat) = fun _ => 0 :=
  funext fun a => by match a with | ⟨0, _⟩ => rfl | ⟨1, _⟩ => rfl

theorem stored_eq_payload (x0 : Vec Ideal S5000x7 .f32) (x1 : Vec Ideal S7x128 .f32) (x2 : Vec Ideal S1x128 .f32)
    (x3 : Vec Ideal S5000x128 .f32) :
    out3_4 (F := Ideal) x0 x1 x2 x3 = k3_pay1 (F := Ideal) x0 x1 x2 x3 := by
  unfold out3_4
  rw [View.canon_unit_zero zero_offsets]
  simp only [View.ld_unit_zero (S := S5000x7) zero_offsets, View.ld_unit_zero (S := S7x128) zero_offsets,
    View.ld_unit_zero (S := S1x128) zero_offsets, View.ld_unit_zero (S := S5000x128) zero_offsets]

/-- With every block read off its array at block row `T` (or whole), a point stores its block of the edge message. -/
theorem block_eq (T : Nat) (A0 : Cert.Spec.Mat 600000 7) (A1 : Cert.Spec.Mat 7 128) (A2 : Cert.Spec.Mat 1 128)
    (A3 : Cert.Spec.Mat 600000 128) (e0 : S5000x7.Idx → (⟨2, ![600000, 7]⟩ : Shape).Idx) (e1 : S7x128.Idx → S7x128.Idx)
    (e2 : S1x128.Idx → S1x128.Idx) (e3 e4 : S5000x128.Idx → S600000x128.Idx)
    (h0 : ∀ y a, (e0 y a : Nat) = ![T, 0] a * ![5000, 7] a + y a)
    (h1 : ∀ y a, (e1 y a : Nat) = ![0, 0] a * ![7, 128] a + y a)
    (h2 : ∀ y a, (e2 y a : Nat) = ![0, 0] a * ![1, 128] a + y a)
    (h3 : ∀ y a, (e3 y a : Nat) = ![T, 0] a * ![5000, 128] a + y a)
    (h4 : ∀ y a, (e4 y a : Nat) = ![T, 0] a * ![5000, 128] a + y a) :
    out3_4 (F := Ideal) (fun y => A0 (e0 y)) (fun y => A1 (e1 y)) (fun y => A2 (e2 y)) (fun y => A3 (e3 y))
      = fun j => Cert.Spec.edgeMsg (D := 128) A0 A1 A2 A3 (e4 j) := by
  rw [stored_eq_payload]
  funext j
  obtain ⟨p, q, rfl⟩ : ∃ (p : Fin 5000) (q : Fin 128), j = ix2 p q := ⟨j 0, j 1, eq_ix2 j⟩
  have hr : (e4 (ix2 p q) 0).val = T * 5000 + p.val := h4 _ 0
  refine (payload_apply _ _ _ _ p q).trans ?_
  show _ = Cert.Spec.edgeMsg (D := 128) A0 A1 A2 A3 (e4 (ix2 p q))
  rw [rowBlock_emb h4 p q _ hr, rowBlock_emb h3 p q _ hr, rowBlock_emb h2 0 q 0 (by omega),
    Finset.sum_congr rfl fun k _ => by rw [rowBlock_emb h0 p k _ hr, rowBlock_emb h1 k q k (by omega)]]
  rfl

theorem index_facts : ∀ t : Fin cfg3.N, (∀ a, win3_0.index t a = ![t.val, 0] a) ∧ (∀ a, win3_1.index t a = ![0, 0] a)
    ∧ (∀ a, win3_2.index t a = ![0, 0] a) ∧ (∀ a, win3_3.index t a = ![t.val, 0] a)
    ∧ ∀ a, win3_4.index t a = ![t.val, 0] a :=
  (by decide +kernel : ∀ t : Fin grid3.N, _)

/-- The message array when the region ends is the edge message of the arrays found at entry. -/
theorem value (V : (c : Dev nD) → (b : Ref sig .tc) → Buf (Elt Ideal) ((c : Thread nD τ).loc b)) (c : Dev nD) :
    (dat3 (F := Ideal) V c).arrAt 4 cfg3.N
      = Cert.Spec.edgeMsg (D := 128) (V c (Pipeline.arrRef spec3 0)) (V c (Pipeline.arrRef spec3 1)) (V c (Pipeline.arrRef spec3 2)) (V c (Pipeline.arrRef spec3 3)) :=
  (dat3 (F := Ideal) V c).arrAt_eq_of_cover 4 _
    (fun t _ => by
      obtain ⟨i0, i1, i2, i3, i4⟩ := index_facts t
      show (cfg3.win 4).cut (grid3.coords t) ((dat3 (F := Ideal) V c).after 4 t) = _
      rw [after3_4]
      exact block_eq t.val (V c (Pipeline.arrRef spec3 0)) (V c (Pipeline.arrRef spec3 1)) (V c (Pipeline.arrRef spec3 2))
        (V c (Pipeline.arrRef spec3 3)) _ _ _ _ _ (rect_emb_at win3_0 t i0) (rect_emb_at win3_1 t i1)
        (rect_emb_at win3_2 t i2) (rect_emb_at win3_3 t i3) (rect_emb_at win3_4 t i4))
    fun (i : S600000x128.Idx) => by
      have ht : (i 0).val / 5000 < cfg3.N := (Nat.div_lt_of_lt_mul (n := 5000) (k := 120) (i 0).isLt).trans_eq N_3.symm
      obtain ⟨y, hy⟩ := rowBlock_cover (by decide) i (rect_emb_at win3_4 ⟨_, ht⟩ (index_facts _).2.2.2.2)
      exact ⟨⟨_, ht⟩, flush3_4 _, Finset.mem_map.2 ⟨y, Finset.mem_univ y, hy⟩⟩

end Cert.KernelIdeal.Region3
-- ==== Proof.Region4.lean ====
import proofs.«425852_j85495618995090_1_alg».proof.Proof.Gen.KernelIdeal.Frame
import proofs.«425852_j85495618995090_1_alg».proof.Proof.RegionSumLib
import Idealize.ShloMosaic.Lib.Tactic

set_option maxRecDepth 16384

noncomputable section

open scoped BigOperators

namespace Cert.KernelIdeal.Region4

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.RegionLib Cert.KernelIdeal.RegionSum Cert.Spec

section Pieces

variable (c : Dev nD) (i : grid4.Coords)
  (a1 : Memref sig .tc .vmem S5000x128 .f32) (w1 : a1.IsWhole) (a2 : Memref sig .tc .vmem S5000x128 .f32) (w2 : a2.IsWhole)
  (a3 : Memref sig .tc .vmem S128x128 .f32) (w3 : a3.IsWhole) (a4 : Memref sig .tc .vmem S1x128 .f32) (w4 : a4.IsWhole)
  (a5 : Memref sig .tc .vmem S5000x128 .f32) (w5 : a5.IsWhole) (a6 : Memref sig .tc .vmem S1x128 .f32) (w6 : a6.IsWhole)
  (a7 : Memref sig .tc .vmem S1x128 .f32) (w7 : a7.IsWhole)
  (x0 x1 : Vec Ideal S5000x128 .f32) (x2 : Vec Ideal S128x128 .f32) (x3 xo5 xo6 : Vec Ideal S1x128 .f32)

theorem out_A (hc : cond4_0 i) :
    (out4_A_4 (F := Ideal) c i a1 w1 a2 w2 a3 w3 a4 w4 a5 w5 a6 w6 a7 w7 hc x0 x1 x2 x3, out4_A_5 (F := Ideal) c i a1 w1 a2 w2 a3 w3 a4 w4 a5 w5 a6 w6 a7 w7 hc x0 x1 x2 x3, out4_A_6 (F := Ideal) c i a1 w1 a2 w2 a3 w3 a4 w4 a5 w5 a6 w6 a7 w7 hc x0 x1 x2 x3)
      = step (k4_pay3 (F := Ideal) x0 x1 x2 x3) (fun _ => 0, fun _ => 0) := by
  unfold out4_A_4 out4_A_5 out4_A_6
  rw [View.read_writes_eq_canon _ _ _ (cover4_A_4 _ _ _ _ _ _ _ _ _ _ _ _ _ _ _ _ _ _ _ _ _), View.read_writes_eq_canon _ _ _ (cover4_A_5 _ _ _ _ _ _ _ _ _ _ _ _ _ _ _ _ _ _ _ _ _),
    View.read_writes_eq_canon _ _ _ (cover4_A_6 _ _ _ _ _ _ _ _ _ _ _ _ _ _ _ _ _ _ _ _ _)]
  unfold kernelRun4_A
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x128) hz, View.ld_unit_zero (S := S128x128) hz, View.ld_unit_zero (S := S1x128) hz]
  exact step4_zero x0 x1 x2 x3

theorem out_B (hc : ¬cond4_0 i) :
    (out4_B_4 (F := Ideal) c i a1 w1 a2 w2 a3 w3 a4 w4 a5 w5 a6 w6 a7 w7 hc x0 x1 x2 x3 xo5 xo6, out4_B_5 (F := Ideal) c i a1 w1 a2 w2 a3 w3 a4 w4 a5 w5 a6 w6 a7 w7 hc x0 x1 x2 x3 xo5 xo6, out4_B_6 (F := Ideal) c i a1 w1 a2 w2 a3 w3 a4 w4 a5 w5 a6 w6 a7 w7 hc x0 x1 x2 x3 xo5 xo6)
      = step (k4_pay3 (F := Ideal) x0 x1 x2 x3) (xo5, xo6) := by
  unfold out4_B_4 out4_B_5 out4_B_6
  rw [View.read_writes_eq_canon _ _ _ (cover4_B_4 _ _ _ _ _ _ _ _ _ _ _ _ _ _ _ _ _ _ _ _ _ _ _), View.read_writes_eq_canon _ _ _ (cover4_B_5 _ _ _ _ _ _ _ _ _ _ _ _ _ _ _ _ _ _ _ _ _ _ _),
    View.read_writes_eq_canon _ _ _ (cover4_B_6 _ _ _ _ _ _ _ _ _ _ _ _ _ _ _ _ _ _ _ _ _ _ _)]
  unfold kernelRun4_B
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x128) hz, View.ld_unit_zero (S := S128x128) hz, View.ld_unit_zero (S := S1x128) hz]
  exact step4 x0 x1 x2 x3 xo5 xo6

end Pieces

theorem idx : ∀ t : Fin cfg4.N,
    (∀ a, win4_0.index t a = ![t.val, 0] a) ∧ (∀ a, win4_1.index t a = ![t.val, 0] a) ∧ (∀ a, win4_2.index t a = ![0, 0] a)
    ∧ (∀ a, win4_3.index t a = ![0, 0] a) ∧ (∀ a, win4_4.index t a = ![t.val, 0] a) ∧ (∀ a, win4_5.index t a = ![0, 0] a)
    ∧ (∀ a, win4_6.index t a = ![0, 0] a) :=
  (by decide +kernel : ∀ t : Fin grid4.N, _)

theorem lt_N (t : Fin cfg4.N) : t.val < 20 := lt_of_lt_of_eq t.isLt (show cfg4.N = 20 from N_4)

theorem lt_rows (t : Fin cfg4.N) (r : Fin 5000) : t.val * 5000 + r.val < 100000 := by
  have := lt_N t; have := r.isLt; omega

theorem emb5 (t : Fin cfg4.N) (u : Fin 1) (q : Fin 128) : ((cfg4.win 5).blk t).view.emb (ix2 u q) = ix2 u q :=
  rowBlock_emb (rect_emb_at win4_5 t (idx t).2.2.2.2.2.1) u q _ (by omega)

theorem emb6 (t : Fin cfg4.N) (u : Fin 1) (q : Fin 128) : ((cfg4.win 6).blk t).view.emb (ix2 u q) = ix2 u q :=
  rowBlock_emb (rect_emb_at win4_6 t (idx t).2.2.2.2.2.2) u q _ (by omega)

variable (V : (c : Dev nD) → (b : Ref sig .tc) → Buf (Elt Ideal) ((c : Thread nD τ).loc b)) (c : Dev nD)

abbrev h1 : Mat 100000 128 :=
  lin1 (D := 128) (V c (Pipeline.arrRef spec4 0)) (V c (Pipeline.arrRef spec4 1))
    (V c (Pipeline.arrRef spec4 2)) (V c (Pipeline.arrRef spec4 3))

abbrev hblk (t : Fin cfg4.N) : Vec Ideal S5000x128 .f32 :=
  k4_pay3 (F := Ideal) (iblk4 V c 0 t) (iblk4 V c 1 t) (iblk4 V c 2 t) (iblk4 V c 3 t)

theorem hblk_apply (t : Fin cfg4.N) (r : Fin 5000) (q : Fin 128) :
    hblk V c t (ix2 r q) = h1 V c (ix2 ⟨t.val * 5000 + r.val, lt_rows t r⟩ q) :=
  pay3_lin1 (iblk4 V c 0 t) (iblk4 V c 1 t) (iblk4 V c 2 t) (iblk4 V c 3 t) _ _ _ _ r q _
    (fun k => congrArg (V c (Pipeline.arrRef spec4 0)) (rowBlock_emb (rect_emb_at win4_0 t (idx t).1) r k _ rfl))
    (fun k => congrArg (V c (Pipeline.arrRef spec4 1)) (rowBlock_emb (rect_emb_at win4_1 t (idx t).2.1) r k _ rfl))
    (fun k => congrArg (V c (Pipeline.arrRef spec4 2)) (rowBlock_emb (rect_emb_at win4_2 t (idx t).2.2.1) k q _ (by omega)))
    (congrArg (V c (Pipeline.arrRef spec4 3)) (rowBlock_emb (rect_emb_at win4_3 t (idx t).2.2.2.1) 0 q _ (by omega)))

theorem outs_A (t : Fin cfg4.N) (h0 : t.val % 20 = 0) :
    outsAt4 V c t.val t.isLt = step (hblk V c t) (fun _ => 0, fun _ => 0) :=
  (outsAt4_A V c t h0).trans (out_A ..)

theorem outs_B (t : Fin cfg4.N) (h0 : ¬t.val % 20 = 0) :
    outsAt4 V c t.val t.isLt
      = step (hblk V c t) (outsAt4 V c (t.val - 1) (Nat.lt_of_le_of_lt (Nat.sub_le _ _) t.isLt)).2 :=
  (outsAt4_B V c t h0).trans (out_B ..)

/-- Every point leaves its block of h1; the last leaves the column sums and the column sums of squares of h1. -/
theorem outs (t : Fin cfg4.N) : (outsAt4 V c t.val t.isLt).1 = hblk V c t
    ∧ (t.val = 19 → (outsAt4 V c t.val t.isLt).2.1 = colSum (h1 V c) ∧ (outsAt4 V c t.val t.isLt).2.2 = colSumSq (h1 V c)) :=
  run N_4 (h1 V c) (outsAt4 V c) (hblk V c) (hblk_apply V c) (outs_A V c) (outs_B V c) t

theorem lt19 : 19 < cfg4.N := lt_of_lt_of_eq (by decide : 19 < 20) (show 20 = cfg4.N from N_4.symm)

theorem flushed5 (t : Fin cfg4.N) (hf : (cfg4.win 5).flush t = true) :
    (dat4 V c).flushed 5 t = ((cfg4.win 5).blk t).view.read (Elt Ideal) (colSum (h1 V c)) := by
  have h19 : t.val = 19 := by have := (flush4_5 t).mp hf; have := lt_N t; omega
  show (cfg4.win 5).cut (grid4.coords t) ((dat4 V c).after 5 t) = _
  rw [after4_5, ((outs V c t).2 h19).1]
  generalize colSum (h1 V c) = G
  funext (j : S1x128.Idx)
  obtain ⟨u, q, rfl⟩ : ∃ (u : Fin 1) (q : Fin 128), j = ix2 u q := ⟨j 0, j 1, eq_ix2 j⟩
  show G (ix2 u q) = G (((cfg4.win 5).blk t).view.emb (ix2 u q))
  rw [emb5 t u q]

theorem flushed6 (t : Fin cfg4.N) (hf : (cfg4.win 6).flush t = true) :
    (dat4 V c).flushed 6 t = ((cfg4.win 6).blk t).view.read (Elt Ideal) (colSumSq (h1 V c)) := by
  have h19 : t.val = 19 := by have := (flush4_6 t).mp hf; have := lt_N t; omega
  show (cfg4.win 6).cut (grid4.coords t) ((dat4 V c).after 6 t) = _
  rw [after4_6, ((outs V c t).2 h19).2]
  generalize colSumSq (h1 V c) = G
  funext (j : S1x128.Idx)
  obtain ⟨u, q, rfl⟩ : ∃ (u : Fin 1) (q : Fin 128), j = ix2 u q := ⟨j 0, j 1, eq_ix2 j⟩
  show G (ix2 u q) = G (((cfg4.win 6).blk t).view.emb (ix2 u q))
  rw [emb6 t u q]

theorem cover5 (i : S1x128.Idx) : ∃ t : Fin cfg4.N, (cfg4.win 5).flush t = true ∧ i ∈ ((cfg4.win 5).blk t).view.set := by
  obtain ⟨u, q, rfl⟩ : ∃ (u : Fin 1) (q : Fin 128), i = ix2 u q := ⟨i 0, i 1, eq_ix2 i⟩
  refine ⟨⟨19, lt19⟩, (flush4_5 _).mpr rfl, ?_⟩
  have := ((cfg4.win 5).blk ⟨19, lt19⟩).view.emb_mem_set (ix2 u q)
  rwa [emb5] at this

theorem cover6 (i : S1x128.Idx) : ∃ t : Fin cfg4.N, (cfg4.win 6).flush t = true ∧ i ∈ ((cfg4.win 6).blk t).view.set := by
  obtain ⟨u, q, rfl⟩ : ∃ (u : Fin 1) (q : Fin 128), i = ix2 u q := ⟨i 0, i 1, eq_ix2 i⟩
  refine ⟨⟨19, lt19⟩, (flush4_6 _).mpr rfl, ?_⟩
  have := ((cfg4.win 6).blk ⟨19, lt19⟩).view.emb_mem_set (ix2 u q)
  rwa [emb6] at this

theorem value_sum : (dat4 (F := Ideal) V c).arrAt 5 cfg4.N = colSum (h1 V c) :=
  (dat4 V c).arrAt_eq_of_cover 5 (colSum (h1 V c)) (flushed5 V c) cover5

theorem value_sumsq : (dat4 (F := Ideal) V c).arrAt 6 cfg4.N = colSumSq (h1 V c) :=
  (dat4 V c).arrAt_eq_of_cover 6 (colSumSq (h1 V c)) (flushed6 V c) cover6

end Cert.KernelIdeal.Region4

end
-- ==== Proof.Region4H.lean ====
import proofs.«425852_j85495618995090_1_alg».proof.Proof.Region4

set_option maxRecDepth 16384

noncomputable section

namespace Cert.KernelIdeal.Region4H

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.RegionLib Cert.KernelIdeal.RegionSum Cert.KernelIdeal.Region4 Cert.Spec

variable (V : (c : Dev nD) → (b : Ref sig .tc) → Buf (Elt Ideal) ((c : Thread nD τ).loc b)) (c : Dev nD)

theorem flushed4 (t : Fin cfg4.N) :
    (dat4 (F := Ideal) V c).flushed 4 t = ((cfg4.win 4).blk t).view.read (Elt Ideal) (h1 V c) := by
  show (cfg4.win 4).cut (grid4.coords t) ((dat4 (F := Ideal) V c).after 4 t) = _
  rw [after4_4, (outs V c t).1]
  funext (j : S5000x128.Idx)
  obtain ⟨r, q, rfl⟩ : ∃ (r : Fin 5000) (q : Fin 128), j = ix2 r q := ⟨j 0, j 1, eq_ix2 j⟩
  show hblk V c t (ix2 r q) = h1 V c (((cfg4.win 4).blk t).view.emb (ix2 r q))
  rw [show ((cfg4.win 4).blk t).view.emb (ix2 r q) = ix2 ⟨t.val * 5000 + r.val, lt_rows t r⟩ q from
    rowBlock_emb (rect_emb_at win4_4 t (idx t).2.2.2.2.1) r q _ rfl]
  exact hblk_apply V c t r q

theorem cover4 (i : S100000x128.Idx) : ∃ t : Fin cfg4.N, (cfg4.win 4).flush t = true ∧ i ∈ ((cfg4.win 4).blk t).view.set := by
  have hi : (i 0).val < 100000 := (i 0).isLt
  have ht : (i 0).val / 5000 < cfg4.N := lt_of_lt_of_eq (by omega : (i 0).val / 5000 < 20) (show 20 = cfg4.N from N_4.symm)
  obtain ⟨y, hy⟩ := rowBlock_cover (by decide : 0 < 5000) i (rect_emb_at win4_4 ⟨_, ht⟩ (idx _).2.2.2.2.1)
  refine ⟨⟨_, ht⟩, flush4_4 _, ?_⟩
  have := ((cfg4.win 4).blk ⟨_, ht⟩).view.emb_mem_set y
  rwa [show ((cfg4.win 4).blk ⟨_, ht⟩).view.emb y = i from hy] at this

theorem value_h1 : (dat4 (F := Ideal) V c).arrAt 4 cfg4.N
    = lin1 (D := 128) (V c (Pipeline.arrRef spec4 0)) (V c (Pipeline.arrRef spec4 1)) (V c (Pipeline.arrRef spec4 2)) (V c (Pipeline.arrRef spec4 3)) :=
  (dat4 (F := Ideal) V c).arrAt_eq_of_cover 4 _ (fun t _ => flushed4 V c t) cover4

end Cert.KernelIdeal.Region4H

end
-- ==== Proof.Region5.lean ====
import proofs.«425852_j85495618995090_1_alg».proof.Proof.Region2

set_option maxRecDepth 16384

namespace Cert.KernelIdeal.Region5

open Idealize.ShloMosaic Idealize.ShloMosaic.TcCoe
open Cert.KernelIdeal Cert.KernelIdeal.Gen Cert.KernelIdeal.RegionLib

theorem index_facts : ∀ t : Fin cfg5.N, (∀ a, win5_0.index t a = ![t.val, 0] a) ∧ (∀ a, win5_1.index t a = ![0, 0] a)
    ∧ (∀ a, win5_2.index t a = ![0, 0] a) ∧ (∀ a, win5_3.index t a = ![0, 0] a)
    ∧ (∀ a, win5_4.index t a = ![0, 0] a) ∧ (∀ a, win5_5.index t a = ![0, 0] a)
    ∧ (∀ a, win5_6.index t a = ![0, 0] a) ∧ ∀ a, win5_7.index t a = ![t.val, 0] a :=
  (by decide +kernel : ∀ t : Fin grid5.N, _)

variable (V : (c : Dev nD) → (b : Ref sig .tc) → Buf (Elt Ideal) ((c : Thread nD τ).loc b)) (c : Dev nD)

noncomputable abbrev outArr : Cert.Spec.Mat 100000 128 :=
  Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))

theorem flushed_eq (t : Fin cfg5.N) :
    (dat5 (F := Ideal) V c).flushed 7 t = ((cfg5.win 7).blk t).view.read (Elt Ideal) (outArr V c) := by
  obtain ⟨i0, i1, i2, i3, i4, i5, i6, i7⟩ := index_facts t
  show (cfg5.win 7).cut (grid5.coords t) ((dat5 (F := Ideal) V c).after 7 t) = _
  rw [after5_7]
  exact Region2.block_eq t.val (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6)) _ _ _ _ _ _ _ _
    (rect_emb_at win5_0 t i0) (rect_emb_at win5_1 t i1) (rect_emb_at win5_2 t i2) (rect_emb_at win5_3 t i3)
    (rect_emb_at win5_4 t i4) (rect_emb_at win5_5 t i5) (rect_emb_at win5_6 t i6) (rect_emb_at win5_7 t i7)

theorem covered (i : S100000x128.Idx) :
    ∃ t : Fin cfg5.N, (cfg5.win 7).flush t = true ∧ i ∈ ((cfg5.win 7).blk t).view.set := by
  have ht : (i 0).val / 5000 < cfg5.N := (Nat.div_lt_of_lt_mul (n := 5000) (k := 20) (i 0).isLt).trans_eq N_5.symm
  obtain ⟨y, hy⟩ := rowBlock_cover (by decide) i (rect_emb_at win5_7 ⟨_, ht⟩ (index_facts _).2.2.2.2.2.2.2)
  exact ⟨⟨_, ht⟩, flush5_7 _, Finset.mem_map.2 ⟨y, Finset.mem_univ y, hy⟩⟩

theorem value : (dat5 (F := Ideal) V c).arrAt 7 cfg5.N
    = Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 (F := Ideal) V c).arrAt_eq_of_cover 7 (outArr V c) (fun t _ => flushed_eq V c t) covered

end Cert.KernelIdeal.Region5
-- ==== Proof.KLayer1.lean ====
import proofs.«425852_j85495618995090_1_alg».proof.Proof.Gen.KernelIdeal.Frame
import proofs.«425852_j85495618995090_1_alg».proof.Proof.KHost1
import proofs.«425852_j85495618995090_1_alg».proof.Proof.KLayerLib
import proofs.«425852_j85495618995090_1_alg».proof.Proof.Region3
import proofs.«425852_j85495618995090_1_alg».proof.Proof.Region4
import proofs.«425852_j85495618995090_1_alg».proof.Proof.Region4H
import proofs.«425852_j85495618995090_1_alg».proof.Proof.Region5

set_option maxRecDepth 16384

noncomputable section

namespace Cert.KernelIdeal.KLayer1

open Idealize.ShloMosaic Idealize.ShloMosaic.TcCoe
open Idealize.ShloMosaic.ValueIdx
open Cert.KernelIdeal Cert.KernelIdeal.Gen Cert.KernelIdeal.KHost Cert.KernelIdeal.KHost1 Cert.Spec

variable (m : (l : Loc nD τ sig) → Buf (Elt Ideal) l) (ρ : Dev nD → PrngReg) (c : Dev nD)

theorem to10 (b : Ref sig .tc) (h : b ∉ written3g ∧ ∀ w, Pipeline.arrRef spec3 w ≠ b) :
    W10 m ρ c (Proc.devRef .tc b) = W8 m ρ c (Proc.devRef .tc b) :=
  (W10_of_ne m ρ c b h.2).trans (keep3g (W8 m ρ c) b h.1)

theorem up12 (b : Ref sig .tc) (h : b ∉ written4 ∧ ∀ w, Pipeline.arrRef spec4 w ≠ b) :
    W12 m ρ c (Proc.devRef .tc b) = W10 m ρ c (Proc.devRef .tc b) :=
  (W12_of_ne m ρ c b h.2).trans (keep4 (W10 m ρ c) b h.1)

theorem up14 (b : Ref sig .tc) (h : b ∉ written5 ∧ ∀ w, Pipeline.arrRef spec5 w ≠ b) :
    W14 m ρ c (Proc.devRef .tc b) = W12 m ρ c (Proc.devRef .tc b) :=
  (W14_of_ne m ρ c b h.2).trans (keep5 (W12 m ρ c) b h.1)

theorem to12 (b : Ref sig .tc) (h : (b ∉ written3g ∧ ∀ w, Pipeline.arrRef spec3 w ≠ b)
    ∧ b ∉ written4 ∧ ∀ w, Pipeline.arrRef spec4 w ≠ b) :
    W12 m ρ c (Proc.devRef .tc b) = W8 m ρ c (Proc.devRef .tc b) :=
  (up12 m ρ c b h.2).trans (to10 m ρ c b h.1)

theorem keep (b : Ref sig .tc) (h : b ∉ written3 ∧ ((b ∉ written3g ∧ ∀ w, Pipeline.arrRef spec3 w ≠ b)
    ∧ b ∉ written4 ∧ ∀ w, Pipeline.arrRef spec4 w ≠ b) ∧ b ∉ written5 ∧ ∀ w, Pipeline.arrRef spec5 w ≠ b) :
    W14 m ρ c (Proc.devRef .tc b) = W7 m ρ c (Proc.devRef .tc b) :=
  (up14 m ρ c b h.2.2).trans ((to12 m ρ c b h.2.1).trans (keep3 (W7 m ρ c) b h.1))

theorem ea9 : W9 m ρ c (Proc.devRef .tc main_arg3) = W7 m ρ c (Proc.devRef .tc main_arg3) :=
  (keep3g (W8 m ρ c) main_arg3 (by decide)).trans (keep3 (W7 m ρ c) main_arg3 (by decide))

theorem keep_arg3 : W14 m ρ c (Proc.devRef .tc main_arg3) = W7 m ρ c (Proc.devRef .tc main_arg3) :=
  (up14 m ρ c main_arg3 (by decide)).trans ((up12 m ρ c main_arg3 (by decide)).trans ((W10_arr m ρ c 0).trans
    (((dat3 (V9 m ρ) c).arrAt_in 0 rfl _).trans ((A_eq3 (V9 m ρ) c 0).trans (ea9 m ρ c)))))

theorem value : W14 m ρ c (Proc.devRef .tc main_v61)
    = layerVal ℓ (W7 m ρ c (Proc.devRef .tc main_v24)) (W7 m ρ c (Proc.devRef .tc main_v1))
        (W7 m ρ c (Proc.devRef .tc main_v3)) (W7 m ρ c (Proc.devRef .tc main_arg3))
        (W7 m ρ c (Proc.devRef .tc main_arg12)) (W7 m ρ c (Proc.devRef .tc main_arg13))
        (W7 m ρ c (Proc.devRef .tc main_arg14)) (W7 m ρ c (Proc.devRef .tc main_arg15))
        (W7 m ρ c (Proc.devRef .tc main_arg16)) (W7 m ρ c (Proc.devRef .tc main_arg17))
        (W7 m ρ c (Proc.devRef .tc main_arg18)) (W7 m ρ c (Proc.devRef .tc main_arg19)) :=
  layerVal_of ((W12_arr m ρ c 4).trans (Region4H.value_h1 (V11 m ρ) c))
    ((W12_arr m ρ c 5).trans (Region4.value_sum (V11 m ρ) c)) ((W12_arr m ρ c 6).trans (Region4.value_sumsq (V11 m ρ) c))
    (h1Val_of ((W10_arr m ρ c 4).trans (Region3.value (V9 m ρ) c)) (ea9 m ρ c)
      ((keep3g (W8 m ρ c) main_v41 (by decide)).trans (ewt3 (W7 m ρ c)))
      ((keep3g (W8 m ρ c) main_v42 (by decide)).trans (eb3 (W7 m ρ c)))
      (xg3 (W8 m ρ c)) (keep3 (W7 m ρ c) main_v24 (by decide)) (keep3 (W7 m ρ c) main_v1 (by decide))
      ((keep4 (W10 m ρ c) main_v24 (by decide)).trans ((to10 m ρ c main_v24 (by decide)).trans (keep3 (W7 m ρ c) main_v24 (by decide))))
      (aggr4 (W10 m ρ c)) ((to10 m ρ c main_v3 (by decide)).trans (keep3 (W7 m ρ c) main_v3 (by decide)))
      (w1t4 (W10 m ρ c)) ((to10 m ρ c main_v30 (by decide)).trans (w1_3 (W7 m ρ c)))
      (b1r4 (W10 m ρ c)) ((to10 m ρ c main_v32 (by decide)).trans (b1_3 (W7 m ρ c))))
    ((W14_arr m ρ c 7).trans (Region5.value (V13 m ρ) c)) (keep5 (W12 m ρ c) main_v50_0 (by decide))
    (mean5 (W12 m ρ c)) (var5 (W12 m ρ c))
    (g5 (W12 m ρ c)) ((to12 m ρ c main_v34 (by decide)).trans (g3 (W7 m ρ c)))
    (be5 (W12 m ρ c)) ((to12 m ρ c main_v36 (by decide)).trans (be3 (W7 m ρ c)))
    (w2t5 (W12 m ρ c)) ((to12 m ρ c main_v38 (by decide)).trans (w2_3 (W7 m ρ c)))
    (b2r5 (W12 m ρ c)) ((to12 m ρ c main_v40 (by decide)).trans (b2_3 (W7 m ρ c)))

end Cert.KernelIdeal.KLayer1

end
-- ==== Proof.KHost2.lean ====
import proofs.«425852_j85495618995090_1_alg».proof.Proof.Gen.KernelIdeal.Launch
import proofs.«425852_j85495618995090_1_alg».proof.Proof.Spec
import proofs.«425852_j85495618995090_1_alg».proof.Proof.LayoutCanon
import proofs.«425852_j85495618995090_1_alg».proof.Proof.KHostDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KHost2

open Idealize.ShloMosaic Idealize.ShloMosaic.TcCoe
open Idealize.ShloMosaic.ValueIdx
open Cert.KernelIdeal Cert.KernelIdeal.Gen Cert.KernelIdeal.KHost Cert.Spec Cert.Layout

abbrev ℓ : Fin 3 := layer2

variable (W : Valuation τ sig (Elt Ideal))

abbrev written3 : List (Ref sig .tc) := [main_v62, main_v63, main_v64, main_v65, main_v66, main_v67, main_v68, main_v69,
  main_v70, main_v71, main_v72, main_v73, main_v74, main_v75, main_v76, main_v77, main_v78, main_v79]

theorem writes3 : (hostOps6 (F := Ideal) : List (HloOp τ sig (Elt Ideal))).Forall
    fun op => op.writes ⊆ (written3.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep3 (b : Ref sig .tc) (hb : b ∉ written3) :
    StableHlo.after (hostOps6 (F := Ideal)) W (Proc.devRef .tc b) = W (Proc.devRef .tc b) :=
  StableHlo.after_of_writes_sub _ W writes3 hb

theorem ewt3 : StableHlo.after (hostOps6 (F := Ideal)) W (Proc.devRef .tc main_v78)
    = fun j => W (Proc.devRef .tc main_arg12) (ix3 ℓ (j 1) (j 0)) := by
  open StableHlo in after_results
  funext j
  refine (transpose2_apply _ _ j).trans ?_
  exact stackMat_apply _ _ _ _ ℓ rfl _

theorem eb3 : StableHlo.after (hostOps6 (F := Ideal)) W (Proc.devRef .tc main_v79)
    = fun j => W (Proc.devRef .tc main_arg13) (ix2 ℓ (j 1)) := by
  open StableHlo in after_results
  funext j
  refine (reshape_n_1n_apply _ _ j).trans ?_
  exact stackRow_apply _ _ _ _ ℓ rfl _

theorem w1_3 : StableHlo.after (hostOps6 (F := Ideal)) W (Proc.devRef .tc main_v67)
    = fun i => W (Proc.devRef .tc main_arg14) (ix3 ℓ (i 0) (i 1)) := by
  open StableHlo in after_results
  funext i
  exact stackMat_apply _ _ _ _ ℓ rfl _

theorem b1_3 : StableHlo.after (hostOps6 (F := Ideal)) W (Proc.devRef .tc main_v69)
    = fun i => W (Proc.devRef .tc main_arg15) (ix2 ℓ (i 0)) := by
  open StableHlo in after_results
  funext i
  exact stackRow_apply _ _ _ _ ℓ rfl _

theorem g3 : StableHlo.after (hostOps6 (F := Ideal)) W (Proc.devRef .tc main_v71)
    = fun i => W (Proc.devRef .tc main_arg16) (ix2 ℓ (i 0)) := by
  open StableHlo in after_results
  funext i
  exact stackRow_apply _ _ _ _ ℓ rfl _

theorem be3 : StableHlo.after (hostOps6 (F := Ideal)) W (Proc.devRef .tc main_v73)
    = fun i => W (Proc.devRef .tc main_arg17) (ix2 ℓ (i 0)) := by
  open StableHlo in after_results
  funext i
  exact stackRow_apply _ _ _ _ ℓ rfl _

theorem w2_3 : StableHlo.after (hostOps6 (F := Ideal)) W (Proc.devRef .tc main_v75)
    = fun i => W (Proc.devRef .tc main_arg18) (ix3 ℓ (i 0) (i 1)) := by
  open StableHlo in after_results
  funext i
  exact stackMat_apply _ _ _ _ ℓ rfl _

theorem b2_3 : StableHlo.after (hostOps6 (F := Ideal)) W (Proc.devRef .tc main_v77)
    = fun i => W (Proc.devRef .tc main_arg19) (ix2 ℓ (i 0)) := by
  open StableHlo in after_results
  funext i
  exact stackRow_apply _ _ _ _ ℓ rfl _

abbrev written3g : List (Ref sig .tc) := [main_call2_c, main_call2_v0, main_call2_v1, main_call2_c_0, main_call2_v2,
  main_call2_v3, main_call2_v4, main_call2_v5, main_call2_c_1, main_call2_c_2, main_call2_v6, main_call2_v7, main_call2_v8,
  main_call2_v9, main_call2_v10, main_call2_v11, main_call2_c_3, main_call2_v12, main_call2_v13, main_call2_v14,
  main_call2_cst, main_call2_v15, main_v80]

theorem writes3g : (hostOps6_1 (F := Ideal) : List (HloOp τ sig (Elt Ideal))).Forall
    fun op => op.writes ⊆ (written3g.map (Proc.devRef (τ := τ) .tc)).toFinset := by
  simp only [hostOps6_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep3g (b : Ref sig .tc) (hb : b ∉ written3g) :
    StableHlo.after (hostOps6_1 (F := Ideal)) W (Proc.devRef .tc b) = W (Proc.devRef .tc b) :=
  StableHlo.after_of_writes_sub _ W writes3g hb

theorem xg3 : StableHlo.after (hostOps6_1 (F := Ideal)) W (Proc.devRef .tc main_v80)
    = gatherRows (W (Proc.devRef .tc main_v61)) (W (Proc.devRef .tc main_v1)) := by
  open StableHlo in after_results_simp
  simp only [StableHlo.TRef.ofBuf, StableHlo.TRef.toBuf, cast_eq]
  rfl

abbrev written4 : List (Ref sig .tc) := [main_cst_5, main_v82, main_v83, main_v84, main_v85, main_v86]

theorem writes4 : (hostOps7 (F := Ideal) : List (HloOp τ sig (Elt Ideal))).Forall
    fun op => op.writes ⊆ (written4.map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep4 (b : Ref sig .tc) (hb : b ∉ written4) :
    StableHlo.after (hostOps7 (F := Ideal)) W (Proc.devRef .tc b) = W (Proc.devRef .tc b) :=
  StableHlo.after_of_writes_sub _ W writes4 hb

theorem aggr4 : StableHlo.after (hostOps7 (F := Ideal)) W (Proc.devRef .tc main_v84)
    = scatterRows (W (Proc.devRef .tc main_v3)) (W (Proc.devRef .tc main_v81)) := by
  open StableHlo in after_results
  rfl

theorem w1t4 : StableHlo.after (hostOps7 (F := Ideal)) W (Proc.devRef .tc main_v85)
    = fun j => W (Proc.devRef .tc main_v67) (ix2 (j 1) (j 0)) := by
  open StableHlo in after_results
  exact transpose2_eq _ _

theorem b1r4 : StableHlo.after (hostOps7 (F := Ideal)) W (Proc.devRef .tc main_v86)
    = fun j => W (Proc.devRef .tc main_v69) (ix1 (j 1)) := by
  open StableHlo in after_results
  funext j
  exact reshape_n_1n_apply _ _ j

abbrev written5 : List (Ref sig .tc) := [main_cst_6, main_v88, main_v89, main_cst_7, main_v90, main_v91, main_v92, main_v93,
  main_v94, main_v95, main_v96, main_v97]

theorem writes5 : (hostOps8 (F := Ideal) : List (HloOp τ sig (Elt Ideal))).Forall
    fun op => op.writes ⊆ (written5.map (Proc.devRef (τ := τ) .tc)).toFinset := by
  simp only [hostOps8, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep5 (b : Ref sig .tc) (hb : b ∉ written5) :
    StableHlo.after (hostOps8 (F := Ideal)) W (Proc.devRef .tc b) = W (Proc.devRef .tc b) :=
  StableHlo.after_of_writes_sub _ W writes5 hb

theorem mean5 : StableHlo.after (hostOps8 (F := Ideal)) W (Proc.devRef .tc main_v89)
    = meanOf (Ideal.ofBits .f32 0x47C35000#32) (W (Proc.devRef .tc main_v87_1)) := by
  open StableHlo in after_results
  exact divf_count _ _ _

theorem var5 : StableHlo.after (hostOps8 (F := Ideal)) W (Proc.devRef .tc main_v93)
    = varMoments (Ideal.ofBits .f32 0x47C35000#32) (W (Proc.devRef .tc main_v87_1)) (W (Proc.devRef .tc main_v87_2)) := by
  open StableHlo in after_results
  exact moments_count _ _ _ _

theorem g5 : StableHlo.after (hostOps8 (F := Ideal)) W (Proc.devRef .tc main_v94)
    = fun j => W (Proc.devRef .tc main_v71) (ix1 (j 1)) := by
  open StableHlo in after_results
  funext j
  exact reshape_n_1n_apply _ _ j

theorem be5 : StableHlo.after (hostOps8 (F := Ideal)) W (Proc.devRef .tc main_v95)
    = fun j => W (Proc.devRef .tc main_v73) (ix1 (j 1)) := by
  open StableHlo in after_results
  funext j
  exact reshape_n_1n_apply _ _ j

theorem w2t5 : StableHlo.after (hostOps8 (F := Ideal)) W (Proc.devRef .tc main_v96)
    = fun j => W (Proc.devRef .tc main_v75) (ix2 (j 1) (j 0)) := by
  open StableHlo in after_results
  exact transpose2_eq _ _

theorem b2r5 : StableHlo.after (hostOps8 (F := Ideal)) W (Proc.devRef .tc main_v97)
    = fun j => W (Proc.devRef .tc main_v77) (ix1 (j 1)) := by
  open StableHlo in after_results
  funext j
  exact reshape_n_1n_apply _ _ j

end Cert.KernelIdeal.KHost2

end
-- ==== Proof.Region6.lean ====
import proofs.«425852_j85495618995090_1_alg».proof.Proof.Region3

set_option maxRecDepth 16384

namespace Cert.KernelIdeal.Region6

open Idealize.ShloMosaic Idealize.ShloMosaic.TcCoe
open Cert.KernelIdeal Cert.KernelIdeal.Gen Cert.KernelIdeal.RegionLib

theorem index_facts : ∀ t : Fin cfg6.N, (∀ a, win6_0.index t a = ![t.val, 0] a) ∧ (∀ a, win6_1.index t a = ![0, 0] a)
    ∧ (∀ a, win6_2.index t a = ![0, 0] a) ∧ (∀ a, win6_3.index t a = ![t.val, 0] a)
    ∧ ∀ a, win6_4.index t a = ![t.val, 0] a :=
  (by decide +kernel : ∀ t : Fin grid6.N, _)

variable (V : (c : Dev nD) → (b : Ref sig .tc) → Buf (Elt Ideal) ((c : Thread nD τ).loc b)) (c : Dev nD)

noncomputable abbrev msgArr : Cert.Spec.Mat 600000 128 :=
  Cert.Spec.edgeMsg (D := 128) (V c (Pipeline.arrRef spec6 0)) (V c (Pipeline.arrRef spec6 1)) (V c (Pipeline.arrRef spec6 2)) (V c (Pipeline.arrRef spec6 3))

theorem flushed_eq (t : Fin cfg6.N) :
    (dat6 (F := Ideal) V c).flushed 4 t = ((cfg6.win 4).blk t).view.read (Elt Ideal) (msgArr V c) := by
  obtain ⟨i0, i1, i2, i3, i4⟩ := index_facts t
  show (cfg6.win 4).cut (grid6.coords t) ((dat6 (F := Ideal) V c).after 4 t) = _
  rw [after6_4]
  exact Region3.block_eq t.val (V c (Pipeline.arrRef spec6 0)) (V c (Pipeline.arrRef spec6 1)) (V c (Pipeline.arrRef spec6 2))
    (V c (Pipeline.arrRef spec6 3)) _ _ _ _ _ (rect_emb_at win6_0 t i0) (rect_emb_at win6_1 t i1)
    (rect_emb_at win6_2 t i2) (rect_emb_at win6_3 t i3) (rect_emb_at win6_4 t i4)

theorem covered (i : S600000x128.Idx) :
    ∃ t : Fin cfg6.N, (cfg6.win 4).flush t = true ∧ i ∈ ((cfg6.win 4).blk t).view.set := by
  have ht : (i 0).val / 5000 < cfg6.N := (Nat.div_lt_of_lt_mul (n := 5000) (k := 120) (i 0).isLt).trans_eq N_6.symm
  obtain ⟨y, hy⟩ := rowBlock_cover (by decide) i (rect_emb_at win6_4 ⟨_, ht⟩ (index_facts _).2.2.2.2)
  exact ⟨⟨_, ht⟩, flush6_4 _, Finset.mem_map.2 ⟨y, Finset.mem_univ y, hy⟩⟩

theorem value : (dat6 (F := Ideal) V c).arrAt 4 cfg6.N
      = Cert.Spec.edgeMsg (D := 128) (V c (Pipeline.arrRef spec6 0)) (V c (Pipeline.arrRef spec6 1)) (V c (Pipeline.arrRef spec6 2)) (V c (Pipeline.arrRef spec6 3)) :=
  (dat6 (F := Ideal) V c).arrAt_eq_of_cover 4 (msgArr V c) (fun t _ => flushed_eq V c t) covered

end Cert.KernelIdeal.Region6
-- ==== Proof.Region7.lean ====
import proofs.«425852_j85495618995090_1_alg».proof.Proof.Gen.KernelIdeal.Frame
import proofs.«425852_j85495618995090_1_alg».proof.Proof.RegionSumLib
import Idealize.ShloMosaic.Lib.Tactic

set_option maxRecDepth 16384

noncomputable section

open scoped BigOperators

namespace Cert.KernelIdeal.Region7

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.RegionLib Cert.KernelIdeal.RegionSum Cert.Spec

section Pieces

variable (c : Dev nD) (i : grid7.Coords)
  (a1 : Memref sig .tc .vmem S5000x128 .f32) (w1 : a1.IsWhole) (a2 : Memref sig .tc .vmem S5000x128 .f32) (w2 : a2.IsWhole)
  (a3 : Memref sig .tc .vmem S128x128 .f32) (w3 : a3.IsWhole) (a4 : Memref sig .tc .vmem S1x128 .f32) (w4 : a4.IsWhole)
  (a5 : Memref sig .tc .vmem S5000x128 .f32) (w5 : a5.IsWhole) (a6 : Memref sig .tc .vmem S1x128 .f32) (w6 : a6.IsWhole)
  (a7 : Memref sig .tc .vmem S1x128 .f32) (w7 : a7.IsWhole)
  (x0 x1 : Vec Ideal S5000x128 .f32) (x2 : Vec Ideal S128x128 .f32) (x3 xo5 xo6 : Vec Ideal S1x128 .f32)

theorem out_A (hc : cond7_0 i) :
    (out7_A_4 (F := Ideal) c i a1 w1 a2 w2 a3 w3 a4 w4 a5 w5 a6 w6 a7 w7 hc x0 x1 x2 x3, out7_A_5 (F := Ideal) c i a1 w1 a2 w2 a3 w3 a4 w4 a5 w5 a6 w6 a7 w7 hc x0 x1 x2 x3, out7_A_6 (F := Ideal) c i a1 w1 a2 w2 a3 w3 a4 w4 a5 w5 a6 w6 a7 w7 hc x0 x1 x2 x3)
      = step (k7_pay3 (F := Ideal) x0 x1 x2 x3) (fun _ => 0, fun _ => 0) := by
  unfold out7_A_4 out7_A_5 out7_A_6
  rw [View.read_writes_eq_canon _ _ _ (cover7_A_4 _ _ _ _ _ _ _ _ _ _ _ _ _ _ _ _ _ _ _ _ _), View.read_writes_eq_canon _ _ _ (cover7_A_5 _ _ _ _ _ _ _ _ _ _ _ _ _ _ _ _ _ _ _ _ _),
    View.read_writes_eq_canon _ _ _ (cover7_A_6 _ _ _ _ _ _ _ _ _ _ _ _ _ _ _ _ _ _ _ _ _)]
  unfold kernelRun7_A
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x128) hz, View.ld_unit_zero (S := S128x128) hz, View.ld_unit_zero (S := S1x128) hz]
  exact step4_zero x0 x1 x2 x3

theorem out_B (hc : ¬cond7_0 i) :
    (out7_B_4 (F := Ideal) c i a1 w1 a2 w2 a3 w3 a4 w4 a5 w5 a6 w6 a7 w7 hc x0 x1 x2 x3 xo5 xo6, out7_B_5 (F := Ideal) c i a1 w1 a2 w2 a3 w3 a4 w4 a5 w5 a6 w6 a7 w7 hc x0 x1 x2 x3 xo5 xo6, out7_B_6 (F := Ideal) c i a1 w1 a2 w2 a3 w3 a4 w4 a5 w5 a6 w6 a7 w7 hc x0 x1 x2 x3 xo5 xo6)
      = step (k7_pay3 (F := Ideal) x0 x1 x2 x3) (xo5, xo6) := by
  unfold out7_B_4 out7_B_5 out7_B_6
  rw [View.read_writes_eq_canon _ _ _ (cover7_B_4 _ _ _ _ _ _ _ _ _ _ _ _ _ _ _ _ _ _ _ _ _ _ _), View.read_writes_eq_canon _ _ _ (cover7_B_5 _ _ _ _ _ _ _ _ _ _ _ _ _ _ _ _ _ _ _ _ _ _ _),
    View.read_writes_eq_canon _ _ _ (cover7_B_6 _ _ _ _ _ _ _ _ _ _ _ _ _ _ _ _ _ _ _ _ _ _ _)]
  unfold kernelRun7_B
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x128) hz, View.ld_unit_zero (S := S128x128) hz, View.ld_unit_zero (S := S1x128) hz]
  exact step4 x0 x1 x2 x3 xo5 xo6

end Pieces

theorem idx : ∀ t : Fin cfg7.N,
    (∀ a, win7_0.index t a = ![t.val, 0] a) ∧ (∀ a, win7_1.index t a = ![t.val, 0] a) ∧ (∀ a, win7_2.index t a = ![0, 0] a)
    ∧ (∀ a, win7_3.index t a = ![0, 0] a) ∧ (∀ a, win7_4.index t a = ![t.val, 0] a) ∧ (∀ a, win7_5.index t a = ![0, 0] a)
    ∧ (∀ a, win7_6.index t a = ![0, 0] a) :=
  (by decide +kernel : ∀ t : Fin grid7.N, _)

theorem lt_N (t : Fin cfg7.N) : t.val < 20 := lt_of_lt_of_eq t.isLt (show cfg7.N = 20 from N_7)

theorem lt_rows (t : Fin cfg7.N) (r : Fin 5000) : t.val * 5000 + r.val < 100000 := by
  have := lt_N t; have := r.isLt; omega

theorem emb5 (t : Fin cfg7.N) (u : Fin 1) (q : Fin 128) : ((cfg7.win 5).blk t).view.emb (ix2 u q) = ix2 u q :=
  rowBlock_emb (rect_emb_at win7_5 t (idx t).2.2.2.2.2.1) u q _ (by omega)

theorem emb6 (t : Fin cfg7.N) (u : Fin 1) (q : Fin 128) : ((cfg7.win 6).blk t).view.emb (ix2 u q) = ix2 u q :=
  rowBlock_emb (rect_emb_at win7_6 t (idx t).2.2.2.2.2.2) u q _ (by omega)

variable (V : (c : Dev nD) → (b : Ref sig .tc) → Buf (Elt Ideal) ((c : Thread nD τ).loc b)) (c : Dev nD)

abbrev h1 : Mat 100000 128 :=
  lin1 (D := 128) (V c (Pipeline.arrRef spec7 0)) (V c (Pipeline.arrRef spec7 1))
    (V c (Pipeline.arrRef spec7 2)) (V c (Pipeline.arrRef spec7 3))

abbrev hblk (t : Fin cfg7.N) : Vec Ideal S5000x128 .f32 :=
  k7_pay3 (F := Ideal) (iblk7 V c 0 t) (iblk7 V c 1 t) (iblk7 V c 2 t) (iblk7 V c 3 t)

theorem hblk_apply (t : Fin cfg7.N) (r : Fin 5000) (q : Fin 128) :
    hblk V c t (ix2 r q) = h1 V c (ix2 ⟨t.val * 5000 + r.val, lt_rows t r⟩ q) :=
  pay3_lin1 (iblk7 V c 0 t) (iblk7 V c 1 t) (iblk7 V c 2 t) (iblk7 V c 3 t) _ _ _ _ r q _
    (fun k => congrArg (V c (Pipeline.arrRef spec7 0)) (rowBlock_emb (rect_emb_at win7_0 t (idx t).1) r k _ rfl))
    (fun k => congrArg (V c (Pipeline.arrRef spec7 1)) (rowBlock_emb (rect_emb_at win7_1 t (idx t).2.1) r k _ rfl))
    (fun k => congrArg (V c (Pipeline.arrRef spec7 2)) (rowBlock_emb (rect_emb_at win7_2 t (idx t).2.2.1) k q _ (by omega)))
    (congrArg (V c (Pipeline.arrRef spec7 3)) (rowBlock_emb (rect_emb_at win7_3 t (idx t).2.2.2.1) 0 q _ (by omega)))

theorem outs_A (t : Fin cfg7.N) (h0 : t.val % 20 = 0) :
    outsAt7 V c t.val t.isLt = step (hblk V c t) (fun _ => 0, fun _ => 0) :=
  (outsAt7_A V c t h0).trans (out_A ..)

theorem outs_B (t : Fin cfg7.N) (h0 : ¬t.val % 20 = 0) :
    outsAt7 V c t.val t.isLt
      = step (hblk V c t) (outsAt7 V c (t.val - 1) (Nat.lt_of_le_of_lt (Nat.sub_le _ _) t.isLt)).2 :=
  (outsAt7_B V c t h0).trans (out_B ..)

/-- Every point leaves its block of h1; the last leaves the column sums and the column sums of squares of h1. -/
theorem outs (t : Fin cfg7.N) : (outsAt7 V c t.val t.isLt).1 = hblk V c t
    ∧ (t.val = 19 → (outsAt7 V c t.val t.isLt).2.1 = colSum (h1 V c) ∧ (outsAt7 V c t.val t.isLt).2.2 = colSumSq (h1 V c)) :=
  run N_7 (h1 V c) (outsAt7 V c) (hblk V c) (hblk_apply V c) (outs_A V c) (outs_B V c) t

theorem lt19 : 19 < cfg7.N := lt_of_lt_of_eq (by decide : 19 < 20) (show 20 = cfg7.N from N_7.symm)

theorem flushed5 (t : Fin cfg7.N) (hf : (cfg7.win 5).flush t = true) :
    (dat7 V c).flushed 5 t = ((cfg7.win 5).blk t).view.read (Elt Ideal) (colSum (h1 V c)) := by
  have h19 : t.val = 19 := by have := (flush7_5 t).mp hf; have := lt_N t; omega
  show (cfg7.win 5).cut (grid7.coords t) ((dat7 V c).after 5 t) = _
  rw [after7_5, ((outs V c t).2 h19).1]
  generalize colSum (h1 V c) = G
  funext (j : S1x128.Idx)
  obtain ⟨u, q, rfl⟩ : ∃ (u : Fin 1) (q : Fin 128), j = ix2 u q := ⟨j 0, j 1, eq_ix2 j⟩
  show G (ix2 u q) = G (((cfg7.win 5).blk t).view.emb (ix2 u q))
  rw [emb5 t u q]

theorem flushed6 (t : Fin cfg7.N) (hf : (cfg7.win 6).flush t = true) :
    (dat7 V c).flushed 6 t = ((cfg7.win 6).blk t).view.read (Elt Ideal) (colSumSq (h1 V c)) := by
  have h19 : t.val = 19 := by have := (flush7_6 t).mp hf; have := lt_N t; omega
  show (cfg7.win 6).cut (grid7.coords t) ((dat7 V c).after 6 t) = _
  rw [after7_6, ((outs V c t).2 h19).2]
  generalize colSumSq (h1 V c) = G
  funext (j : S1x128.Idx)
  obtain ⟨u, q, rfl⟩ : ∃ (u : Fin 1) (q : Fin 128), j = ix2 u q := ⟨j 0, j 1, eq_ix2 j⟩
  show G (ix2 u q) = G (((cfg7.win 6).blk t).view.emb (ix2 u q))
  rw [emb6 t u q]

theorem cover5 (i : S1x128.Idx) : ∃ t : Fin cfg7.N, (cfg7.win 5).flush t = true ∧ i ∈ ((cfg7.win 5).blk t).view.set := by
  obtain ⟨u, q, rfl⟩ : ∃ (u : Fin 1) (q : Fin 128), i = ix2 u q := ⟨i 0, i 1, eq_ix2 i⟩
  refine ⟨⟨19, lt19⟩, (flush7_5 _).mpr rfl, ?_⟩
  have := ((cfg7.win 5).blk ⟨19, lt19⟩).view.emb_mem_set (ix2 u q)
  rwa [emb5] at this

theorem cover6 (i : S1x128.Idx) : ∃ t : Fin cfg7.N, (cfg7.win 6).flush t = true ∧ i ∈ ((cfg7.win 6).blk t).view.set := by
  obtain ⟨u, q, rfl⟩ : ∃ (u : Fin 1) (q : Fin 128), i = ix2 u q := ⟨i 0, i 1, eq_ix2 i⟩
  refine ⟨⟨19, lt19⟩, (flush7_6 _).mpr rfl, ?_⟩
  have := ((cfg7.win 6).blk ⟨19, lt19⟩).view.emb_mem_set (ix2 u q)
  rwa [emb6] at this

theorem value_sum : (dat7 (F := Ideal) V c).arrAt 5 cfg7.N = colSum (h1 V c) :=
  (dat7 V c).arrAt_eq_of_cover 5 (colSum (h1 V c)) (flushed5 V c) cover5

theorem value_sumsq : (dat7 (F := Ideal) V c).arrAt 6 cfg7.N = colSumSq (h1 V c) :=
  (dat7 V c).arrAt_eq_of_cover 6 (colSumSq (h1 V c)) (flushed6 V c) cover6

end Cert.KernelIdeal.Region7

end
-- ==== Proof.Region7H.lean ====
import proofs.«425852_j85495618995090_1_alg».proof.Proof.Region7

set_option maxRecDepth 16384

noncomputable section

namespace Cert.KernelIdeal.Region7H

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.RegionLib Cert.KernelIdeal.RegionSum Cert.KernelIdeal.Region7 Cert.Spec

variable (V : (c : Dev nD) → (b : Ref sig .tc) → Buf (Elt Ideal) ((c : Thread nD τ).loc b)) (c : Dev nD)

theorem flushed4 (t : Fin cfg7.N) :
    (dat7 (F := Ideal) V c).flushed 4 t = ((cfg7.win 4).blk t).view.read (Elt Ideal) (h1 V c) := by
  show (cfg7.win 4).cut (grid7.coords t) ((dat7 (F := Ideal) V c).after 4 t) = _
  rw [after7_4, (outs V c t).1]
  funext (j : S5000x128.Idx)
  obtain ⟨r, q, rfl⟩ : ∃ (r : Fin 5000) (q : Fin 128), j = ix2 r q := ⟨j 0, j 1, eq_ix2 j⟩
  show hblk V c t (ix2 r q) = h1 V c (((cfg7.win 4).blk t).view.emb (ix2 r q))
  rw [show ((cfg7.win 4).blk t).view.emb (ix2 r q) = ix2 ⟨t.val * 5000 + r.val, lt_rows t r⟩ q from
    rowBlock_emb (rect_emb_at win7_4 t (idx t).2.2.2.2.1) r q _ rfl]
  exact hblk_apply V c t r q

theorem cover4 (i : S100000x128.Idx) : ∃ t : Fin cfg7.N, (cfg7.win 4).flush t = true ∧ i ∈ ((cfg7.win 4).blk t).view.set := by
  have hi : (i 0).val < 100000 := (i 0).isLt
  have ht : (i 0).val / 5000 < cfg7.N := lt_of_lt_of_eq (by omega : (i 0).val / 5000 < 20) (show 20 = cfg7.N from N_7.symm)
  obtain ⟨y, hy⟩ := rowBlock_cover (by decide : 0 < 5000) i (rect_emb_at win7_4 ⟨_, ht⟩ (idx _).2.2.2.2.1)
  refine ⟨⟨_, ht⟩, flush7_4 _, ?_⟩
  have := ((cfg7.win 4).blk ⟨_, ht⟩).view.emb_mem_set y
  rwa [show ((cfg7.win 4).blk ⟨_, ht⟩).view.emb y = i from hy] at this

theorem value_h1 : (dat7 (F := Ideal) V c).arrAt 4 cfg7.N
    = lin1 (D := 128) (V c (Pipeline.arrRef spec7 0)) (V c (Pipeline.arrRef spec7 1)) (V c (Pipeline.arrRef spec7 2)) (V c (Pipeline.arrRef spec7 3)) :=
  (dat7 (F := Ideal) V c).arrAt_eq_of_cover 4 _ (fun t _ => flushed4 V c t) cover4

end Cert.KernelIdeal.Region7H

end
-- ==== Proof.Region8.lean ====
import proofs.«425852_j85495618995090_1_alg».proof.Proof.Region2

set_option maxRecDepth 16384

namespace Cert.KernelIdeal.Region8

open Idealize.ShloMosaic Idealize.ShloMosaic.TcCoe
open Cert.KernelIdeal Cert.KernelIdeal.Gen Cert.KernelIdeal.RegionLib

theorem index_facts : ∀ t : Fin cfg8.N, (∀ a, win8_0.index t a = ![t.val, 0] a) ∧ (∀ a, win8_1.index t a = ![0, 0] a)
    ∧ (∀ a, win8_2.index t a = ![0, 0] a) ∧ (∀ a, win8_3.index t a = ![0, 0] a)
    ∧ (∀ a, win8_4.index t a = ![0, 0] a) ∧ (∀ a, win8_5.index t a = ![0, 0] a)
    ∧ (∀ a, win8_6.index t a = ![0, 0] a) ∧ ∀ a, win8_7.index t a = ![t.val, 0] a :=
  (by decide +kernel : ∀ t : Fin grid8.N, _)

variable (V : (c : Dev nD) → (b : Ref sig .tc) → Buf (Elt Ideal) ((c : Thread nD τ).loc b)) (c : Dev nD)

noncomputable abbrev outArr : Cert.Spec.Mat 100000 128 :=
  Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))

theorem flushed_eq (t : Fin cfg8.N) :
    (dat8 (F := Ideal) V c).flushed 7 t = ((cfg8.win 7).blk t).view.read (Elt Ideal) (outArr V c) := by
  obtain ⟨i0, i1, i2, i3, i4, i5, i6, i7⟩ := index_facts t
  show (cfg8.win 7).cut (grid8.coords t) ((dat8 (F := Ideal) V c).after 7 t) = _
  rw [after8_7]
  exact Region2.block_eq t.val (V c (Pipeline.arrRef spec8 0)) (V c (Pipeline.arrRef spec8 1)) (V c (Pipeline.arrRef spec8 2)) (V c (Pipeline.arrRef spec8 3))
    (V c (Pipeline.arrRef spec8 4)) (V c (Pipeline.arrRef spec8 5)) (V c (Pipeline.arrRef spec8 6)) _ _ _ _ _ _ _ _
    (rect_emb_at win8_0 t i0) (rect_emb_at win8_1 t i1) (rect_emb_at win8_2 t i2) (rect_emb_at win8_3 t i3)
    (rect_emb_at win8_4 t i4) (rect_emb_at win8_5 t i5) (rect_emb_at win8_6 t i6) (rect_emb_at win8_7 t i7)

theorem covered (i : S100000x128.Idx) :
    ∃ t : Fin cfg8.N, (cfg8.win 7).flush t = true ∧ i ∈ ((cfg8.win 7).blk t).view.set := by
  have ht : (i 0).val / 5000 < cfg8.N := (Nat.div_lt_of_lt_mul (n := 5000) (k := 20) (i 0).isLt).trans_eq N_8.symm
  obtain ⟨y, hy⟩ := rowBlock_cover (by decide) i (rect_emb_at win8_7 ⟨_, ht⟩ (index_facts _).2.2.2.2.2.2.2)
  exact ⟨⟨_, ht⟩, flush8_7 _, Finset.mem_map.2 ⟨y, Finset.mem_univ y, hy⟩⟩

theorem value : (dat8 (F := Ideal) V c).arrAt 7 cfg8.N
    = Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) :=
  (dat8 (F := Ideal) V c).arrAt_eq_of_cover 7 (outArr V c) (fun t _ => flushed_eq V c t) covered

end Cert.KernelIdeal.Region8
-- ==== Proof.KLayer2.lean ====
import proofs.«425852_j85495618995090_1_alg».proof.Proof.Gen.KernelIdeal.Frame
import proofs.«425852_j85495618995090_1_alg».proof.Proof.KHost2
import proofs.«425852_j85495618995090_1_alg».proof.Proof.KLayerLib
import proofs.«425852_j85495618995090_1_alg».proof.Proof.Region6
import proofs.«425852_j85495618995090_1_alg».proof.Proof.Region7
import proofs.«425852_j85495618995090_1_alg».proof.Proof.Region7H
import proofs.«425852_j85495618995090_1_alg».proof.Proof.Region8

set_option maxRecDepth 16384

noncomputable section

namespace Cert.KernelIdeal.KLayer2

open Idealize.ShloMosaic Idealize.ShloMosaic.TcCoe
open Idealize.ShloMosaic.ValueIdx
open Cert.KernelIdeal Cert.KernelIdeal.Gen Cert.KernelIdeal.KHost Cert.KernelIdeal.KHost2 Cert.Spec

variable (m : (l : Loc nD τ sig) → Buf (Elt Ideal) l) (ρ : Dev nD → PrngReg) (c : Dev nD)

theorem to10 (b : Ref sig .tc) (h : b ∉ written3g ∧ ∀ w, Pipeline.arrRef spec6 w ≠ b) :
    W17 m ρ c (Proc.devRef .tc b) = W15 m ρ c (Proc.devRef .tc b) :=
  (W17_of_ne m ρ c b h.2).trans (keep3g (W15 m ρ c) b h.1)

theorem up12 (b : Ref sig .tc) (h : b ∉ written4 ∧ ∀ w, Pipeline.arrRef spec7 w ≠ b) :
    W19 m ρ c (Proc.devRef .tc b) = W17 m ρ c (Proc.devRef .tc b) :=
  (W19_of_ne m ρ c b h.2).trans (keep4 (W17 m ρ c) b h.1)

theorem up14 (b : Ref sig .tc) (h : b ∉ written5 ∧ ∀ w, Pipeline.arrRef spec8 w ≠ b) :
    W21 m ρ c (Proc.devRef .tc b) = W19 m ρ c (Proc.devRef .tc b) :=
  (W21_of_ne m ρ c b h.2).trans (keep5 (W19 m ρ c) b h.1)

theorem to12 (b : Ref sig .tc) (h : (b ∉ written3g ∧ ∀ w, Pipeline.arrRef spec6 w ≠ b)
    ∧ b ∉ written4 ∧ ∀ w, Pipeline.arrRef spec7 w ≠ b) :
    W19 m ρ c (Proc.devRef .tc b) = W15 m ρ c (Proc.devRef .tc b) :=
  (up12 m ρ c b h.2).trans (to10 m ρ c b h.1)

theorem keep (b : Ref sig .tc) (h : b ∉ written3 ∧ ((b ∉ written3g ∧ ∀ w, Pipeline.arrRef spec6 w ≠ b)
    ∧ b ∉ written4 ∧ ∀ w, Pipeline.arrRef spec7 w ≠ b) ∧ b ∉ written5 ∧ ∀ w, Pipeline.arrRef spec8 w ≠ b) :
    W21 m ρ c (Proc.devRef .tc b) = W14 m ρ c (Proc.devRef .tc b) :=
  (up14 m ρ c b h.2.2).trans ((to12 m ρ c b h.2.1).trans (keep3 (W14 m ρ c) b h.1))

theorem ea9 : W16 m ρ c (Proc.devRef .tc main_arg3) = W14 m ρ c (Proc.devRef .tc main_arg3) :=
  (keep3g (W15 m ρ c) main_arg3 (by decide)).trans (keep3 (W14 m ρ c) main_arg3 (by decide))

theorem keep_arg3 : W21 m ρ c (Proc.devRef .tc main_arg3) = W14 m ρ c (Proc.devRef .tc main_arg3) :=
  (up14 m ρ c main_arg3 (by decide)).trans ((up12 m ρ c main_arg3 (by decide)).trans ((W17_arr m ρ c 0).trans
    (((dat6 (V16 m ρ) c).arrAt_in 0 rfl _).trans ((A_eq6 (V16 m ρ) c 0).trans (ea9 m ρ c)))))

theorem value : W21 m ρ c (Proc.devRef .tc main_v98)
    = layerVal ℓ (W14 m ρ c (Proc.devRef .tc main_v61)) (W14 m ρ c (Proc.devRef .tc main_v1))
        (W14 m ρ c (Proc.devRef .tc main_v3)) (W14 m ρ c (Proc.devRef .tc main_arg3))
        (W14 m ρ c (Proc.devRef .tc main_arg12)) (W14 m ρ c (Proc.devRef .tc main_arg13))
        (W14 m ρ c (Proc.devRef .tc main_arg14)) (W14 m ρ c (Proc.devRef .tc main_arg15))
        (W14 m ρ c (Proc.devRef .tc main_arg16)) (W14 m ρ c (Proc.devRef .tc main_arg17))
        (W14 m ρ c (Proc.devRef .tc main_arg18)) (W14 m ρ c (Proc.devRef .tc main_arg19)) :=
  layerVal_of ((W19_arr m ρ c 4).trans (Region7H.value_h1 (V18 m ρ) c))
    ((W19_arr m ρ c 5).trans (Region7.value_sum (V18 m ρ) c)) ((W19_arr m ρ c 6).trans (Region7.value_sumsq (V18 m ρ) c))
    (h1Val_of ((W17_arr m ρ c 4).trans (Region6.value (V16 m ρ) c)) (ea9 m ρ c)
      ((keep3g (W15 m ρ c) main_v78 (by decide)).trans (ewt3 (W14 m ρ c)))
      ((keep3g (W15 m ρ c) main_v79 (by decide)).trans (eb3 (W14 m ρ c)))
      (xg3 (W15 m ρ c)) (keep3 (W14 m ρ c) main_v61 (by decide)) (keep3 (W14 m ρ c) main_v1 (by decide))
      ((keep4 (W17 m ρ c) main_v61 (by decide)).trans ((to10 m ρ c main_v61 (by decide)).trans (keep3 (W14 m ρ c) main_v61 (by decide))))
      (aggr4 (W17 m ρ c)) ((to10 m ρ c main_v3 (by decide)).trans (keep3 (W14 m ρ c) main_v3 (by decide)))
      (w1t4 (W17 m ρ c)) ((to10 m ρ c main_v67 (by decide)).trans (w1_3 (W14 m ρ c)))
      (b1r4 (W17 m ρ c)) ((to10 m ρ c main_v69 (by decide)).trans (b1_3 (W14 m ρ c))))
    ((W21_arr m ρ c 7).trans (Region8.value (V20 m ρ) c)) (keep5 (W19 m ρ c) main_v87_0 (by decide))
    (mean5 (W19 m ρ c)) (var5 (W19 m ρ c))
    (g5 (W19 m ρ c)) ((to12 m ρ c main_v71 (by decide)).trans (g3 (W14 m ρ c)))
    (be5 (W19 m ρ c)) ((to12 m ρ c main_v73 (by decide)).trans (be3 (W14 m ρ c)))
    (w2t5 (W19 m ρ c)) ((to12 m ρ c main_v75 (by decide)).trans (w2_3 (W14 m ρ c)))
    (b2r5 (W19 m ρ c)) ((to12 m ρ c main_v77 (by decide)).trans (b2_3 (W14 m ρ c)))

end Cert.KernelIdeal.KLayer2

end
-- ==== Proof.KHost3.lean ====
import proofs.«425852_j85495618995090_1_alg».proof.Proof.Gen.KernelIdeal.Launch
import proofs.«425852_j85495618995090_1_alg».proof.Proof.Spec
import proofs.«425852_j85495618995090_1_alg».proof.Proof.LayoutCanon
import proofs.«425852_j85495618995090_1_alg».proof.Proof.KHostDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KHost3

open Idealize.ShloMosaic Idealize.ShloMosaic.TcCoe
open Idealize.ShloMosaic.ValueIdx
open Cert.KernelIdeal Cert.KernelIdeal.Gen Cert.KernelIdeal.KHost Cert.Spec Cert.Layout

abbrev ℓ : Fin 3 := layer3

variable (W : Valuation τ sig (Elt Ideal))

abbrev written3 : List (Ref sig .tc) := [main_v99, main_v100, main_v101, main_v102, main_v103, main_v104, main_v105, main_v106,
  main_v107, main_v108, main_v109, main_v110, main_v111, main_v112, main_v113, main_v114, main_v115, main_v116]

theorem writes3 : (hostOps9 (F := Ideal) : List (HloOp τ sig (Elt Ideal))).Forall
    fun op => op.writes ⊆ (written3.map (Proc.devRef (τ := τ) .tc)).toFinset := by
  simp only [hostOps9, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep3 (b : Ref sig .tc) (hb : b ∉ written3) :
    StableHlo.after (hostOps9 (F := Ideal)) W (Proc.devRef .tc b) = W (Proc.devRef .tc b) :=
  StableHlo.after_of_writes_sub _ W writes3 hb

theorem ewt3 : StableHlo.after (hostOps9 (F := Ideal)) W (Proc.devRef .tc main_v115)
    = fun j => W (Proc.devRef .tc main_arg12) (ix3 ℓ (j 1) (j 0)) := by
  open StableHlo in after_results
  funext j
  refine (transpose2_apply _ _ j).trans ?_
  exact stackMat_apply _ _ _ _ ℓ rfl _

theorem eb3 : StableHlo.after (hostOps9 (F := Ideal)) W (Proc.devRef .tc main_v116)
    = fun j => W (Proc.devRef .tc main_arg13) (ix2 ℓ (j 1)) := by
  open StableHlo in after_results
  funext j
  refine (reshape_n_1n_apply _ _ j).trans ?_
  exact stackRow_apply _ _ _ _ ℓ rfl _

theorem w1_3 : StableHlo.after (hostOps9 (F := Ideal)) W (Proc.devRef .tc main_v104)
    = fun i => W (Proc.devRef .tc main_arg14) (ix3 ℓ (i 0) (i 1)) := by
  open StableHlo in after_results
  funext i
  exact stackMat_apply _ _ _ _ ℓ rfl _

theorem b1_3 : StableHlo.after (hostOps9 (F := Ideal)) W (Proc.devRef .tc main_v106)
    = fun i => W (Proc.devRef .tc main_arg15) (ix2 ℓ (i 0)) := by
  open StableHlo in after_results
  funext i
  exact stackRow_apply _ _ _ _ ℓ rfl _

theorem g3 : StableHlo.after (hostOps9 (F := Ideal)) W (Proc.devRef .tc main_v108)
    = fun i => W (Proc.devRef .tc main_arg16) (ix2 ℓ (i 0)) := by
  open StableHlo in after_results
  funext i
  exact stackRow_apply _ _ _ _ ℓ rfl _

theorem be3 : StableHlo.after (hostOps9 (F := Ideal)) W (Proc.devRef .tc main_v110)
    = fun i => W (Proc.devRef .tc main_arg17) (ix2 ℓ (i 0)) := by
  open StableHlo in after_results
  funext i
  exact stackRow_apply _ _ _ _ ℓ rfl _

theorem w2_3 : StableHlo.after (hostOps9 (F := Ideal)) W (Proc.devRef .tc main_v112)
    = fun i => W (Proc.devRef .tc main_arg18) (ix3 ℓ (i 0) (i 1)) := by
  open StableHlo in after_results
  funext i
  exact stackMat_apply _ _ _ _ ℓ rfl _

theorem b2_3 : StableHlo.after (hostOps9 (F := Ideal)) W (Proc.devRef .tc main_v114)
    = fun i => W (Proc.devRef .tc main_arg19) (ix2 ℓ (i 0)) := by
  open StableHlo in after_results
  funext i
  exact stackRow_apply _ _ _ _ ℓ rfl _

abbrev written3g : List (Ref sig .tc) := [main_call3_c, main_call3_v0, main_call3_v1, main_call3_c_0, main_call3_v2,
  main_call3_v3, main_call3_v4, main_call3_v5, main_call3_c_1, main_call3_c_2, main_call3_v6, main_call3_v7, main_call3_v8,
  main_call3_v9, main_call3_v10, main_call3_v11, main_call3_c_3, main_call3_v12, main_call3_v13, main_call3_v14,
  main_call3_cst, main_call3_v15, main_v117]

theorem writes3g : (hostOps9_1 (F := Ideal) : List (HloOp τ sig (Elt Ideal))).Forall
    fun op => op.writes ⊆ (written3g.map (Proc.devRef (τ := τ) .tc)).toFinset := by
  simp only [hostOps9_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep3g (b : Ref sig .tc) (hb : b ∉ written3g) :
    StableHlo.after (hostOps9_1 (F := Ideal)) W (Proc.devRef .tc b) = W (Proc.devRef .tc b) :=
  StableHlo.after_of_writes_sub _ W writes3g hb

theorem xg3 : StableHlo.after (hostOps9_1 (F := Ideal)) W (Proc.devRef .tc main_v117)
    = gatherRows (W (Proc.devRef .tc main_v98)) (W (Proc.devRef .tc main_v1)) := by
  open StableHlo in after_results_simp
  simp only [StableHlo.TRef.ofBuf, StableHlo.TRef.toBuf, cast_eq]
  rfl

abbrev written4 : List (Ref sig .tc) := [main_cst_8, main_v119, main_v120, main_v121, main_v122, main_v123]

theorem writes4 : (hostOps10 (F := Ideal) : List (HloOp τ sig (Elt Ideal))).Forall
    fun op => op.writes ⊆ (written4.map (Proc.devRef (τ := τ) .tc)).toFinset := by
  simp only [hostOps10, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep4 (b : Ref sig .tc) (hb : b ∉ written4) :
    StableHlo.after (hostOps10 (F := Ideal)) W (Proc.devRef .tc b) = W (Proc.devRef .tc b) :=
  StableHlo.after_of_writes_sub _ W writes4 hb

theorem aggr4 : StableHlo.after (hostOps10 (F := Ideal)) W (Proc.devRef .tc main_v121)
    = scatterRows (W (Proc.devRef .tc main_v3)) (W (Proc.devRef .tc main_v118)) := by
  open StableHlo in after_results
  rfl

theorem w1t4 : StableHlo.after (hostOps10 (F := Ideal)) W (Proc.devRef .tc main_v122)
    = fun j => W (Proc.devRef .tc main_v104) (ix2 (j 1) (j 0)) := by
  open StableHlo in after_results
  exact transpose2_eq _ _

theorem b1r4 : StableHlo.after (hostOps10 (F := Ideal)) W (Proc.devRef .tc main_v123)
    = fun j => W (Proc.devRef .tc main_v106) (ix1 (j 1)) := by
  open StableHlo in after_results
  funext j
  exact reshape_n_1n_apply _ _ j

abbrev written5 : List (Ref sig .tc) := [main_cst_9, main_v125, main_v126, main_cst_10, main_v127, main_v128, main_v129, main_v130,
  main_v131, main_v132, main_v133, main_v134]

theorem writes5 : (hostOps11 (F := Ideal) : List (HloOp τ sig (Elt Ideal))).Forall
    fun op => op.writes ⊆ (written5.map (Proc.devRef (τ := τ) .tc)).toFinset := by
  simp only [hostOps11, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep5 (b : Ref sig .tc) (hb : b ∉ written5) :
    StableHlo.after (hostOps11 (F := Ideal)) W (Proc.devRef .tc b) = W (Proc.devRef .tc b) :=
  StableHlo.after_of_writes_sub _ W writes5 hb

theorem mean5 : StableHlo.after (hostOps11 (F := Ideal)) W (Proc.devRef .tc main_v126)
    = meanOf (Ideal.ofBits .f32 0x47C35000#32) (W (Proc.devRef .tc main_v124_1)) := by
  open StableHlo in after_results
  exact divf_count _ _ _

theorem var5 : StableHlo.after (hostOps11 (F := Ideal)) W (Proc.devRef .tc main_v130)
    = varMoments (Ideal.ofBits .f32 0x47C35000#32) (W (Proc.devRef .tc main_v124_1)) (W (Proc.devRef .tc main_v124_2)) := by
  open StableHlo in after_results
  exact moments_count _ _ _ _

theorem g5 : StableHlo.after (hostOps11 (F := Ideal)) W (Proc.devRef .tc main_v131)
    = fun j => W (Proc.devRef .tc main_v108) (ix1 (j 1)) := by
  open StableHlo in after_results
  funext j
  exact reshape_n_1n_apply _ _ j

theorem be5 : StableHlo.after (hostOps11 (F := Ideal)) W (Proc.devRef .tc main_v132)
    = fun j => W (Proc.devRef .tc main_v110) (ix1 (j 1)) := by
  open StableHlo in after_results
  funext j
  exact reshape_n_1n_apply _ _ j

theorem w2t5 : StableHlo.after (hostOps11 (F := Ideal)) W (Proc.devRef .tc main_v133)
    = fun j => W (Proc.devRef .tc main_v112) (ix2 (j 1) (j 0)) := by
  open StableHlo in after_results
  exact transpose2_eq _ _

theorem b2r5 : StableHlo.after (hostOps11 (F := Ideal)) W (Proc.devRef .tc main_v134)
    = fun j => W (Proc.devRef .tc main_v114) (ix1 (j 1)) := by
  open StableHlo in after_results
  funext j
  exact reshape_n_1n_apply _ _ j

end Cert.KernelIdeal.KHost3

end
-- ==== Proof.Region9.lean ====
import proofs.«425852_j85495618995090_1_alg».proof.Proof.Region3

set_option maxRecDepth 16384

namespace Cert.KernelIdeal.Region9

open Idealize.ShloMosaic Idealize.ShloMosaic.TcCoe
open Cert.KernelIdeal Cert.KernelIdeal.Gen Cert.KernelIdeal.RegionLib

theorem index_facts : ∀ t : Fin cfg9.N, (∀ a, win9_0.index t a = ![t.val, 0] a) ∧ (∀ a, win9_1.index t a = ![0, 0] a)
    ∧ (∀ a, win9_2.index t a = ![0, 0] a) ∧ (∀ a, win9_3.index t a = ![t.val, 0] a)
    ∧ ∀ a, win9_4.index t a = ![t.val, 0] a :=
  (by decide +kernel : ∀ t : Fin grid9.N, _)

variable (V : (c : Dev nD) → (b : Ref sig .tc) → Buf (Elt Ideal) ((c : Thread nD τ).loc b)) (c : Dev nD)

noncomputable abbrev msgArr : Cert.Spec.Mat 600000 128 :=
  Cert.Spec.edgeMsg (D := 128) (V c (Pipeline.arrRef spec9 0)) (V c (Pipeline.arrRef spec9 1)) (V c (Pipeline.arrRef spec9 2)) (V c (Pipeline.arrRef spec9 3))

theorem flushed_eq (t : Fin cfg9.N) :
    (dat9 (F := Ideal) V c).flushed 4 t = ((cfg9.win 4).blk t).view.read (Elt Ideal) (msgArr V c) := by
  obtain ⟨i0, i1, i2, i3, i4⟩ := index_facts t
  show (cfg9.win 4).cut (grid9.coords t) ((dat9 (F := Ideal) V c).after 4 t) = _
  rw [after9_4]
  exact Region3.block_eq t.val (V c (Pipeline.arrRef spec9 0)) (V c (Pipeline.arrRef spec9 1)) (V c (Pipeline.arrRef spec9 2))
    (V c (Pipeline.arrRef spec9 3)) _ _ _ _ _ (rect_emb_at win9_0 t i0) (rect_emb_at win9_1 t i1)
    (rect_emb_at win9_2 t i2) (rect_emb_at win9_3 t i3) (rect_emb_at win9_4 t i4)

theorem covered (i : S600000x128.Idx) :
    ∃ t : Fin cfg9.N, (cfg9.win 4).flush t = true ∧ i ∈ ((cfg9.win 4).blk t).view.set := by
  have ht : (i 0).val / 5000 < cfg9.N := (Nat.div_lt_of_lt_mul (n := 5000) (k := 120) (i 0).isLt).trans_eq N_9.symm
  obtain ⟨y, hy⟩ := rowBlock_cover (by decide) i (rect_emb_at win9_4 ⟨_, ht⟩ (index_facts _).2.2.2.2)
  exact ⟨⟨_, ht⟩, flush9_4 _, Finset.mem_map.2 ⟨y, Finset.mem_univ y, hy⟩⟩

theorem value : (dat9 (F := Ideal) V c).arrAt 4 cfg9.N
      = Cert.Spec.edgeMsg (D := 128) (V c (Pipeline.arrRef spec9 0)) (V c (Pipeline.arrRef spec9 1)) (V c (Pipeline.arrRef spec9 2)) (V c (Pipeline.arrRef spec9 3)) :=
  (dat9 (F := Ideal) V c).arrAt_eq_of_cover 4 (msgArr V c) (fun t _ => flushed_eq V c t) covered

end Cert.KernelIdeal.Region9
-- ==== Proof.Region10.lean ====
import proofs.«425852_j85495618995090_1_alg».proof.Proof.Gen.KernelIdeal.Frame
import proofs.«425852_j85495618995090_1_alg».proof.Proof.RegionSumLib
import Idealize.ShloMosaic.Lib.Tactic

set_option maxRecDepth 16384

noncomputable section

open scoped BigOperators

namespace Cert.KernelIdeal.Region10

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.RegionLib Cert.KernelIdeal.RegionSum Cert.Spec

section Pieces

variable (c : Dev nD) (i : grid10.Coords)
  (a1 : Memref sig .tc .vmem S5000x128 .f32) (w1 : a1.IsWhole) (a2 : Memref sig .tc .vmem S5000x128 .f32) (w2 : a2.IsWhole)
  (a3 : Memref sig .tc .vmem S128x128 .f32) (w3 : a3.IsWhole) (a4 : Memref sig .tc .vmem S1x128 .f32) (w4 : a4.IsWhole)
  (a5 : Memref sig .tc .vmem S5000x128 .f32) (w5 : a5.IsWhole) (a6 : Memref sig .tc .vmem S1x128 .f32) (w6 : a6.IsWhole)
  (a7 : Memref sig .tc .vmem S1x128 .f32) (w7 : a7.IsWhole)
  (x0 x1 : Vec Ideal S5000x128 .f32) (x2 : Vec Ideal S128x128 .f32) (x3 xo5 xo6 : Vec Ideal S1x128 .f32)

theorem out_A (hc : cond10_0 i) :
    (out10_A_4 (F := Ideal) c i a1 w1 a2 w2 a3 w3 a4 w4 a5 w5 a6 w6 a7 w7 hc x0 x1 x2 x3, out10_A_5 (F := Ideal) c i a1 w1 a2 w2 a3 w3 a4 w4 a5 w5 a6 w6 a7 w7 hc x0 x1 x2 x3, out10_A_6 (F := Ideal) c i a1 w1 a2 w2 a3 w3 a4 w4 a5 w5 a6 w6 a7 w7 hc x0 x1 x2 x3)
      = step (k10_pay3 (F := Ideal) x0 x1 x2 x3) (fun _ => 0, fun _ => 0) := by
  unfold out10_A_4 out10_A_5 out10_A_6
  rw [View.read_writes_eq_canon _ _ _ (cover10_A_4 _ _ _ _ _ _ _ _ _ _ _ _ _ _ _ _ _ _ _ _ _), View.read_writes_eq_canon _ _ _ (cover10_A_5 _ _ _ _ _ _ _ _ _ _ _ _ _ _ _ _ _ _ _ _ _),
    View.read_writes_eq_canon _ _ _ (cover10_A_6 _ _ _ _ _ _ _ _ _ _ _ _ _ _ _ _ _ _ _ _ _)]
  unfold kernelRun10_A
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x128) hz, View.ld_unit_zero (S := S128x128) hz, View.ld_unit_zero (S := S1x128) hz]
  exact step4_zero x0 x1 x2 x3

theorem out_B (hc : ¬cond10_0 i) :
    (out10_B_4 (F := Ideal) c i a1 w1 a2 w2 a3 w3 a4 w4 a5 w5 a6 w6 a7 w7 hc x0 x1 x2 x3 xo5 xo6, out10_B_5 (F := Ideal) c i a1 w1 a2 w2 a3 w3 a4 w4 a5 w5 a6 w6 a7 w7 hc x0 x1 x2 x3 xo5 xo6, out10_B_6 (F := Ideal) c i a1 w1 a2 w2 a3 w3 a4 w4 a5 w5 a6 w6 a7 w7 hc x0 x1 x2 x3 xo5 xo6)
      = step (k10_pay3 (F := Ideal) x0 x1 x2 x3) (xo5, xo6) := by
  unfold out10_B_4 out10_B_5 out10_B_6
  rw [View.read_writes_eq_canon _ _ _ (cover10_B_4 _ _ _ _ _ _ _ _ _ _ _ _ _ _ _ _ _ _ _ _ _ _ _), View.read_writes_eq_canon _ _ _ (cover10_B_5 _ _ _ _ _ _ _ _ _ _ _ _ _ _ _ _ _ _ _ _ _ _ _),
    View.read_writes_eq_canon _ _ _ (cover10_B_6 _ _ _ _ _ _ _ _ _ _ _ _ _ _ _ _ _ _ _ _ _ _ _)]
  unfold kernelRun10_B
  dsimp only
  sl_unfold_words
  simp only [View.canon_unit_zero (S := S5000x128) hz, View.canon_unit_zero (S := S1x128) hz, View.canon_cons_unit_zero (S := S1x128) hz,
    View.readCov_unit_zero (S := S1x128) _ hz,
    View.readAt_eq_ld, w1.read_unread, w2.read_unread, w3.read_unread, w4.read_unread, w6.read_unread, w7.read_unread,
    View.ld_unit_zero (S := S5000x128) hz, View.ld_unit_zero (S := S128x128) hz, View.ld_unit_zero (S := S1x128) hz]
  exact step4 x0 x1 x2 x3 xo5 xo6

end Pieces

theorem idx : ∀ t : Fin cfg10.N,
    (∀ a, win10_0.index t a = ![t.val, 0] a) ∧ (∀ a, win10_1.index t a = ![t.val, 0] a) ∧ (∀ a, win10_2.index t a = ![0, 0] a)
    ∧ (∀ a, win10_3.index t a = ![0, 0] a) ∧ (∀ a, win10_4.index t a = ![t.val, 0] a) ∧ (∀ a, win10_5.index t a = ![0, 0] a)
    ∧ (∀ a, win10_6.index t a = ![0, 0] a) :=
  (by decide +kernel : ∀ t : Fin grid10.N, _)

theorem lt_N (t : Fin cfg10.N) : t.val < 20 := lt_of_lt_of_eq t.isLt (show cfg10.N = 20 from N_10)

theorem lt_rows (t : Fin cfg10.N) (r : Fin 5000) : t.val * 5000 + r.val < 100000 := by
  have := lt_N t; have := r.isLt; omega

theorem emb5 (t : Fin cfg10.N) (u : Fin 1) (q : Fin 128) : ((cfg10.win 5).blk t).view.emb (ix2 u q) = ix2 u q :=
  rowBlock_emb (rect_emb_at win10_5 t (idx t).2.2.2.2.2.1) u q _ (by omega)

theorem emb6 (t : Fin cfg10.N) (u : Fin 1) (q : Fin 128) : ((cfg10.win 6).blk t).view.emb (ix2 u q) = ix2 u q :=
  rowBlock_emb (rect_emb_at win10_6 t (idx t).2.2.2.2.2.2) u q _ (by omega)

variable (V : (c : Dev nD) → (b : Ref sig .tc) → Buf (Elt Ideal) ((c : Thread nD τ).loc b)) (c : Dev nD)

abbrev h1 : Mat 100000 128 :=
  lin1 (D := 128) (V c (Pipeline.arrRef spec10 0)) (V c (Pipeline.arrRef spec10 1))
    (V c (Pipeline.arrRef spec10 2)) (V c (Pipeline.arrRef spec10 3))

abbrev hblk (t : Fin cfg10.N) : Vec Ideal S5000x128 .f32 :=
  k10_pay3 (F := Ideal) (iblk10 V c 0 t) (iblk10 V c 1 t) (iblk10 V c 2 t) (iblk10 V c 3 t)

theorem hblk_apply (t : Fin cfg10.N) (r : Fin 5000) (q : Fin 128) :
    hblk V c t (ix2 r q) = h1 V c (ix2 ⟨t.val * 5000 + r.val, lt_rows t r⟩ q) :=
  pay3_lin1 (iblk10 V c 0 t) (iblk10 V c 1 t) (iblk10 V c 2 t) (iblk10 V c 3 t) _ _ _ _ r q _
    (fun k => congrArg (V c (Pipeline.arrRef spec10 0)) (rowBlock_emb (rect_emb_at win10_0 t (idx t).1) r k _ rfl))
    (fun k => congrArg (V c (Pipeline.arrRef spec10 1)) (rowBlock_emb (rect_emb_at win10_1 t (idx t).2.1) r k _ rfl))
    (fun k => congrArg (V c (Pipeline.arrRef spec10 2)) (rowBlock_emb (rect_emb_at win10_2 t (idx t).2.2.1) k q _ (by omega)))
    (congrArg (V c (Pipeline.arrRef spec10 3)) (rowBlock_emb (rect_emb_at win10_3 t (idx t).2.2.2.1) 0 q _ (by omega)))

theorem outs_A (t : Fin cfg10.N) (h0 : t.val % 20 = 0) :
    outsAt10 V c t.val t.isLt = step (hblk V c t) (fun _ => 0, fun _ => 0) :=
  (outsAt10_A V c t h0).trans (out_A ..)

theorem outs_B (t : Fin cfg10.N) (h0 : ¬t.val % 20 = 0) :
    outsAt10 V c t.val t.isLt
      = step (hblk V c t) (outsAt10 V c (t.val - 1) (Nat.lt_of_le_of_lt (Nat.sub_le _ _) t.isLt)).2 :=
  (outsAt10_B V c t h0).trans (out_B ..)

/-- Every point leaves its block of h1; the last leaves the column sums and the column sums of squares of h1. -/
theorem outs (t : Fin cfg10.N) : (outsAt10 V c t.val t.isLt).1 = hblk V c t
    ∧ (t.val = 19 → (outsAt10 V c t.val t.isLt).2.1 = colSum (h1 V c) ∧ (outsAt10 V c t.val t.isLt).2.2 = colSumSq (h1 V c)) :=
  run N_10 (h1 V c) (outsAt10 V c) (hblk V c) (hblk_apply V c) (outs_A V c) (outs_B V c) t

theorem lt19 : 19 < cfg10.N := lt_of_lt_of_eq (by decide : 19 < 20) (show 20 = cfg10.N from N_10.symm)

theorem flushed5 (t : Fin cfg10.N) (hf : (cfg10.win 5).flush t = true) :
    (dat10 V c).flushed 5 t = ((cfg10.win 5).blk t).view.read (Elt Ideal) (colSum (h1 V c)) := by
  have h19 : t.val = 19 := by have := (flush10_5 t).mp hf; have := lt_N t; omega
  show (cfg10.win 5).cut (grid10.coords t) ((dat10 V c).after 5 t) = _
  rw [after10_5, ((outs V c t).2 h19).1]
  generalize colSum (h1 V c) = G
  funext (j : S1x128.Idx)
  obtain ⟨u, q, rfl⟩ : ∃ (u : Fin 1) (q : Fin 128), j = ix2 u q := ⟨j 0, j 1, eq_ix2 j⟩
  show G (ix2 u q) = G (((cfg10.win 5).blk t).view.emb (ix2 u q))
  rw [emb5 t u q]

theorem flushed6 (t : Fin cfg10.N) (hf : (cfg10.win 6).flush t = true) :
    (dat10 V c).flushed 6 t = ((cfg10.win 6).blk t).view.read (Elt Ideal) (colSumSq (h1 V c)) := by
  have h19 : t.val = 19 := by have := (flush10_6 t).mp hf; have := lt_N t; omega
  show (cfg10.win 6).cut (grid10.coords t) ((dat10 V c).after 6 t) = _
  rw [after10_6, ((outs V c t).2 h19).2]
  generalize colSumSq (h1 V c) = G
  funext (j : S1x128.Idx)
  obtain ⟨u, q, rfl⟩ : ∃ (u : Fin 1) (q : Fin 128), j = ix2 u q := ⟨j 0, j 1, eq_ix2 j⟩
  show G (ix2 u q) = G (((cfg10.win 6).blk t).view.emb (ix2 u q))
  rw [emb6 t u q]

theorem cover5 (i : S1x128.Idx) : ∃ t : Fin cfg10.N, (cfg10.win 5).flush t = true ∧ i ∈ ((cfg10.win 5).blk t).view.set := by
  obtain ⟨u, q, rfl⟩ : ∃ (u : Fin 1) (q : Fin 128), i = ix2 u q := ⟨i 0, i 1, eq_ix2 i⟩
  refine ⟨⟨19, lt19⟩, (flush10_5 _).mpr rfl, ?_⟩
  have := ((cfg10.win 5).blk ⟨19, lt19⟩).view.emb_mem_set (ix2 u q)
  rwa [emb5] at this

theorem cover6 (i : S1x128.Idx) : ∃ t : Fin cfg10.N, (cfg10.win 6).flush t = true ∧ i ∈ ((cfg10.win 6).blk t).view.set := by
  obtain ⟨u, q, rfl⟩ : ∃ (u : Fin 1) (q : Fin 128), i = ix2 u q := ⟨i 0, i 1, eq_ix2 i⟩
  refine ⟨⟨19, lt19⟩, (flush10_6 _).mpr rfl, ?_⟩
  have := ((cfg10.win 6).blk ⟨19, lt19⟩).view.emb_mem_set (ix2 u q)
  rwa [emb6] at this

theorem value_sum : (dat10 (F := Ideal) V c).arrAt 5 cfg10.N = colSum (h1 V c) :=
  (dat10 V c).arrAt_eq_of_cover 5 (colSum (h1 V c)) (flushed5 V c) cover5

theorem value_sumsq : (dat10 (F := Ideal) V c).arrAt 6 cfg10.N = colSumSq (h1 V c) :=
  (dat10 V c).arrAt_eq_of_cover 6 (colSumSq (h1 V c)) (flushed6 V c) cover6

end Cert.KernelIdeal.Region10

end
-- ==== Proof.Region10H.lean ====
import proofs.«425852_j85495618995090_1_alg».proof.Proof.Region10

set_option maxRecDepth 16384

noncomputable section

namespace Cert.KernelIdeal.Region10H

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.RegionLib Cert.KernelIdeal.RegionSum Cert.KernelIdeal.Region10 Cert.Spec

variable (V : (c : Dev nD) → (b : Ref sig .tc) → Buf (Elt Ideal) ((c : Thread nD τ).loc b)) (c : Dev nD)

theorem flushed4 (t : Fin cfg10.N) :
    (dat10 (F := Ideal) V c).flushed 4 t = ((cfg10.win 4).blk t).view.read (Elt Ideal) (h1 V c) := by
  show (cfg10.win 4).cut (grid10.coords t) ((dat10 (F := Ideal) V c).after 4 t) = _
  rw [after10_4, (outs V c t).1]
  funext (j : S5000x128.Idx)
  obtain ⟨r, q, rfl⟩ : ∃ (r : Fin 5000) (q : Fin 128), j = ix2 r q := ⟨j 0, j 1, eq_ix2 j⟩
  show hblk V c t (ix2 r q) = h1 V c (((cfg10.win 4).blk t).view.emb (ix2 r q))
  rw [show ((cfg10.win 4).blk t).view.emb (ix2 r q) = ix2 ⟨t.val * 5000 + r.val, lt_rows t r⟩ q from
    rowBlock_emb (rect_emb_at win10_4 t (idx t).2.2.2.2.1) r q _ rfl]
  exact hblk_apply V c t r q

theorem cover4 (i : S100000x128.Idx) : ∃ t : Fin cfg10.N, (cfg10.win 4).flush t = true ∧ i ∈ ((cfg10.win 4).blk t).view.set := by
  have hi : (i 0).val < 100000 := (i 0).isLt
  have ht : (i 0).val / 5000 < cfg10.N := lt_of_lt_of_eq (by omega : (i 0).val / 5000 < 20) (show 20 = cfg10.N from N_10.symm)
  obtain ⟨y, hy⟩ := rowBlock_cover (by decide : 0 < 5000) i (rect_emb_at win10_4 ⟨_, ht⟩ (idx _).2.2.2.2.1)
  refine ⟨⟨_, ht⟩, flush10_4 _, ?_⟩
  have := ((cfg10.win 4).blk ⟨_, ht⟩).view.emb_mem_set y
  rwa [show ((cfg10.win 4).blk ⟨_, ht⟩).view.emb y = i from hy] at this

theorem value_h1 : (dat10 (F := Ideal) V c).arrAt 4 cfg10.N
    = lin1 (D := 128) (V c (Pipeline.arrRef spec10 0)) (V c (Pipeline.arrRef spec10 1)) (V c (Pipeline.arrRef spec10 2)) (V c (Pipeline.arrRef spec10 3)) :=
  (dat10 (F := Ideal) V c).arrAt_eq_of_cover 4 _ (fun t _ => flushed4 V c t) cover4

end Cert.KernelIdeal.Region10H

end
-- ==== Proof.Region11.lean ====
import proofs.«425852_j85495618995090_1_alg».proof.Proof.Region2

set_option maxRecDepth 16384

namespace Cert.KernelIdeal.Region11

open Idealize.ShloMosaic Idealize.ShloMosaic.TcCoe
open Cert.KernelIdeal Cert.KernelIdeal.Gen Cert.KernelIdeal.RegionLib

theorem index_facts : ∀ t : Fin cfg11.N, (∀ a, win11_0.index t a = ![t.val, 0] a) ∧ (∀ a, win11_1.index t a = ![0, 0] a)
    ∧ (∀ a, win11_2.index t a = ![0, 0] a) ∧ (∀ a, win11_3.index t a = ![0, 0] a)
    ∧ (∀ a, win11_4.index t a = ![0, 0] a) ∧ (∀ a, win11_5.index t a = ![0, 0] a)
    ∧ (∀ a, win11_6.index t a = ![0, 0] a) ∧ ∀ a, win11_7.index t a = ![t.val, 0] a :=
  (by decide +kernel : ∀ t : Fin grid11.N, _)

variable (V : (c : Dev nD) → (b : Ref sig .tc) → Buf (Elt Ideal) ((c : Thread nD τ).loc b)) (c : Dev nD)

noncomputable abbrev outArr : Cert.Spec.Mat 100000 128 :=
  Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6))

theorem flushed_eq (t : Fin cfg11.N) :
    (dat11 (F := Ideal) V c).flushed 7 t = ((cfg11.win 7).blk t).view.read (Elt Ideal) (outArr V c) := by
  obtain ⟨i0, i1, i2, i3, i4, i5, i6, i7⟩ := index_facts t
  show (cfg11.win 7).cut (grid11.coords t) ((dat11 (F := Ideal) V c).after 7 t) = _
  rw [after11_7]
  exact Region2.block_eq t.val (V c (Pipeline.arrRef spec11 0)) (V c (Pipeline.arrRef spec11 1)) (V c (Pipeline.arrRef spec11 2)) (V c (Pipeline.arrRef spec11 3))
    (V c (Pipeline.arrRef spec11 4)) (V c (Pipeline.arrRef spec11 5)) (V c (Pipeline.arrRef spec11 6)) _ _ _ _ _ _ _ _
    (rect_emb_at win11_0 t i0) (rect_emb_at win11_1 t i1) (rect_emb_at win11_2 t i2) (rect_emb_at win11_3 t i3)
    (rect_emb_at win11_4 t i4) (rect_emb_at win11_5 t i5) (rect_emb_at win11_6 t i6) (rect_emb_at win11_7 t i7)

theorem covered (i : S100000x128.Idx) :
    ∃ t : Fin cfg11.N, (cfg11.win 7).flush t = true ∧ i ∈ ((cfg11.win 7).blk t).view.set := by
  have ht : (i 0).val / 5000 < cfg11.N := (Nat.div_lt_of_lt_mul (n := 5000) (k := 20) (i 0).isLt).trans_eq N_11.symm
  obtain ⟨y, hy⟩ := rowBlock_cover (by decide) i (rect_emb_at win11_7 ⟨_, ht⟩ (index_facts _).2.2.2.2.2.2.2)
  exact ⟨⟨_, ht⟩, flush11_7 _, Finset.mem_map.2 ⟨y, Finset.mem_univ y, hy⟩⟩

theorem value : (dat11 (F := Ideal) V c).arrAt 7 cfg11.N
    = Cert.Spec.bnActFused (Ideal.ofBits .f32 0x3C23D70A#32) (Named.named (F := Ideal) Cert.KernelIdeal.κ "leaky_slope_sq" (φ := .f32) 0x38D1B717#32) (Ideal.ofBits .f32 0x3727C5AC#32)
        (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) :=
  (dat11 (F := Ideal) V c).arrAt_eq_of_cover 7 (outArr V c) (fun t _ => flushed_eq V c t) covered

end Cert.KernelIdeal.Region11
-- ==== Proof.KLayer3.lean ====
import proofs.«425852_j85495618995090_1_alg».proof.Proof.Gen.KernelIdeal.Frame
import proofs.«425852_j85495618995090_1_alg».proof.Proof.KHost3
import proofs.«425852_j85495618995090_1_alg».proof.Proof.KLayerLib
import proofs.«425852_j85495618995090_1_alg».proof.Proof.Region9
import proofs.«425852_j85495618995090_1_alg».proof.Proof.Region10
import proofs.«425852_j85495618995090_1_alg».proof.Proof.Region10H
import proofs.«425852_j85495618995090_1_alg».proof.Proof.Region11

set_option maxRecDepth 16384

noncomputable section

namespace Cert.KernelIdeal.KLayer3

open Idealize.ShloMosaic Idealize.ShloMosaic.TcCoe
open Idealize.ShloMosaic.ValueIdx
open Cert.KernelIdeal Cert.KernelIdeal.Gen Cert.KernelIdeal.KHost Cert.KernelIdeal.KHost3 Cert.Spec

variable (m : (l : Loc nD τ sig) → Buf (Elt Ideal) l) (ρ : Dev nD → PrngReg) (c : Dev nD)

theorem to10 (b : Ref sig .tc) (h : b ∉ written3g ∧ ∀ w, Pipeline.arrRef spec9 w ≠ b) :
    W24 m ρ c (Proc.devRef .tc b) = W22 m ρ c (Proc.devRef .tc b) :=
  (W24_of_ne m ρ c b h.2).trans (keep3g (W22 m ρ c) b h.1)

theorem up12 (b : Ref sig .tc) (h : b ∉ written4 ∧ ∀ w, Pipeline.arrRef spec10 w ≠ b) :
    W26 m ρ c (Proc.devRef .tc b) = W24 m ρ c (Proc.devRef .tc b) :=
  (W26_of_ne m ρ c b h.2).trans (keep4 (W24 m ρ c) b h.1)

theorem up14 (b : Ref sig .tc) (h : b ∉ written5 ∧ ∀ w, Pipeline.arrRef spec11 w ≠ b) :
    W28 m ρ c (Proc.devRef .tc b) = W26 m ρ c (Proc.devRef .tc b) :=
  (W28_of_ne m ρ c b h.2).trans (keep5 (W26 m ρ c) b h.1)

theorem to12 (b : Ref sig .tc) (h : (b ∉ written3g ∧ ∀ w, Pipeline.arrRef spec9 w ≠ b)
    ∧ b ∉ written4 ∧ ∀ w, Pipeline.arrRef spec10 w ≠ b) :
    W26 m ρ c (Proc.devRef .tc b) = W22 m ρ c (Proc.devRef .tc b) :=
  (up12 m ρ c b h.2).trans (to10 m ρ c b h.1)

theorem keep (b : Ref sig .tc) (h : b ∉ written3 ∧ ((b ∉ written3g ∧ ∀ w, Pipeline.arrRef spec9 w ≠ b)
    ∧ b ∉ written4 ∧ ∀ w, Pipeline.arrRef spec10 w ≠ b) ∧ b ∉ written5 ∧ ∀ w, Pipeline.arrRef spec11 w ≠ b) :
    W28 m ρ c (Proc.devRef .tc b) = W21 m ρ c (Proc.devRef .tc b) :=
  (up14 m ρ c b h.2.2).trans ((to12 m ρ c b h.2.1).trans (keep3 (W21 m ρ c) b h.1))

theorem ea9 : W23 m ρ c (Proc.devRef .tc main_arg3) = W21 m ρ c (Proc.devRef .tc main_arg3) :=
  (keep3g (W22 m ρ c) main_arg3 (by decide)).trans (keep3 (W21 m ρ c) main_arg3 (by decide))

theorem keep_arg3 : W28 m ρ c (Proc.devRef .tc main_arg3) = W21 m ρ c (Proc.devRef .tc main_arg3) :=
  (up14 m ρ c main_arg3 (by decide)).trans ((up12 m ρ c main_arg3 (by decide)).trans ((W24_arr m ρ c 0).trans
    (((dat9 (V23 m ρ) c).arrAt_in 0 rfl _).trans ((A_eq9 (V23 m ρ) c 0).trans (ea9 m ρ c)))))

theorem value : W28 m ρ c (Proc.devRef .tc main_v135)
    = layerVal ℓ (W21 m ρ c (Proc.devRef .tc main_v98)) (W21 m ρ c (Proc.devRef .tc main_v1))
        (W21 m ρ c (Proc.devRef .tc main_v3)) (W21 m ρ c (Proc.devRef .tc main_arg3))
        (W21 m ρ c (Proc.devRef .tc main_arg12)) (W21 m ρ c (Proc.devRef .tc main_arg13))
        (W21 m ρ c (Proc.devRef .tc main_arg14)) (W21 m ρ c (Proc.devRef .tc main_arg15))
        (W21 m ρ c (Proc.devRef .tc main_arg16)) (W21 m ρ c (Proc.devRef .tc main_arg17))
        (W21 m ρ c (Proc.devRef .tc main_arg18)) (W21 m ρ c (Proc.devRef .tc main_arg19)) :=
  layerVal_of ((W26_arr m ρ c 4).trans (Region10H.value_h1 (V25 m ρ) c))
    ((W26_arr m ρ c 5).trans (Region10.value_sum (V25 m ρ) c)) ((W26_arr m ρ c 6).trans (Region10.value_sumsq (V25 m ρ) c))
    (h1Val_of ((W24_arr m ρ c 4).trans (Region9.value (V23 m ρ) c)) (ea9 m ρ c)
      ((keep3g (W22 m ρ c) main_v115 (by decide)).trans (ewt3 (W21 m ρ c)))
      ((keep3g (W22 m ρ c) main_v116 (by decide)).trans (eb3 (W21 m ρ c)))
      (xg3 (W22 m ρ c)) (keep3 (W21 m ρ c) main_v98 (by decide)) (keep3 (W21 m ρ c) main_v1 (by decide))
      ((keep4 (W24 m ρ c) main_v98 (by decide)).trans ((to10 m ρ c main_v98 (by decide)).trans (keep3 (W21 m ρ c) main_v98 (by decide))))
      (aggr4 (W24 m ρ c)) ((to10 m ρ c main_v3 (by decide)).trans (keep3 (W21 m ρ c) main_v3 (by decide)))
      (w1t4 (W24 m ρ c)) ((to10 m ρ c main_v104 (by decide)).trans (w1_3 (W21 m ρ c)))
      (b1r4 (W24 m ρ c)) ((to10 m ρ c main_v106 (by decide)).trans (b1_3 (W21 m ρ c))))
    ((W28_arr m ρ c 7).trans (Region11.value (V27 m ρ) c)) (keep5 (W26 m ρ c) main_v124_0 (by decide))
    (mean5 (W26 m ρ c)) (var5 (W26 m ρ c))
    (g5 (W26 m ρ c)) ((to12 m ρ c main_v108 (by decide)).trans (g3 (W21 m ρ c)))
    (be5 (W26 m ρ c)) ((to12 m ρ c main_v110 (by decide)).trans (be3 (W21 m ρ c)))
    (w2t5 (W26 m ρ c)) ((to12 m ρ c main_v112 (by decide)).trans (w2_3 (W21 m ρ c)))
    (b2r5 (W26 m ρ c)) ((to12 m ρ c main_v114 (by decide)).trans (b2_3 (W21 m ρ c)))

end Cert.KernelIdeal.KLayer3

end
-- ==== Proof.Final.lean ====
import proofs.«425852_j85495618995090_1_alg».proof.Proof.FinalCore
import proofs.«425852_j85495618995090_1_alg».proof.Proof.FinalRef
import proofs.«425852_j85495618995090_1_alg».proof.Proof.PreFacts
import proofs.«425852_j85495618995090_1_alg».proof.Proof.KTail
import proofs.«425852_j85495618995090_1_alg».proof.Proof.KHostDefs
import proofs.«425852_j85495618995090_1_alg».proof.Proof.KLayer0
import proofs.«425852_j85495618995090_1_alg».proof.Proof.KLayer1
import proofs.«425852_j85495618995090_1_alg».proof.Proof.KLayer2
import proofs.«425852_j85495618995090_1_alg».proof.Proof.KLayer3
import proofs.«425852_j85495618995090_1_alg».proof.Proof.Gen.KernelIdeal.Frame
import proofs.«425852_j85495618995090_1_alg».proof.Proof.Gen.ReferenceIdeal
import proofs.«425852_j85495618995090_1_alg».proof.Proof.Gen.Pre_finite_inputs

set_option maxRecDepth 16384

noncomputable section

open Idealize.ShloMosaic Idealize.ShloMosaic.TcCoe Idealize.SL.Sem

namespace Cert.Final

section Kernel

open Idealize.ShloMosaic.ValueIdx
open Cert.Spec Cert.GatherScatter Cert.ScatterFacts
open Cert.KernelIdeal Cert.KernelIdeal.Gen

theorem kernel_side (m : (ℓ : Loc nD τ sig) → Buf (Elt Ideal) ℓ) (ρ : Dev nD → PrngReg) (c : Dev nD) :
    ∃ y0 y1 y2 y3 : Mat 100000 128,
      y0 = layerFused slope slope2 eps cnt (fun x => takeK2 x (srcP (m ((c : Thread nD τ).loc main_arg1) : IVec S2x600000 32))) (scatK2 (dstP (m ((c : Thread nD τ).loc main_arg1) : IVec S2x600000 32)))
          (m ((c : Thread nD τ).loc main_arg0) : FVec Ideal S100000x2 .f32) (m ((c : Thread nD τ).loc main_arg3) : FVec Ideal S600000x7 .f32)
          (tr 2 7 (m ((c : Thread nD τ).loc main_arg4) : FVec Ideal S2x7 .f32)) (row 2 (m ((c : Thread nD τ).loc main_arg5) : FVec Ideal S2 .f32)) (tr 128 2 (m ((c : Thread nD τ).loc main_arg6) : FVec Ideal S128x2 .f32)) (row 128 (m ((c : Thread nD τ).loc main_arg7) : FVec Ideal S128 .f32))
          (row 128 (m ((c : Thread nD τ).loc main_arg8) : FVec Ideal S128 .f32)) (row 128 (m ((c : Thread nD τ).loc main_arg9) : FVec Ideal S128 .f32)) (tr 128 128 (m ((c : Thread nD τ).loc main_arg10) : FVec Ideal S128x128 .f32)) (row 128 (m ((c : Thread nD τ).loc main_arg11) : FVec Ideal S128 .f32))
      ∧ y1 = layerFused slope slope2 eps cnt (fun x => takeK128 x (srcP (m ((c : Thread nD τ).loc main_arg1) : IVec S2x600000 32))) (scatK128 (dstP (m ((c : Thread nD τ).loc main_arg1) : IVec S2x600000 32)))
          y0 (m ((c : Thread nD τ).loc main_arg3) : FVec Ideal S600000x7 .f32)
          (trS 128 7 0 (m ((c : Thread nD τ).loc main_arg12) : FVec Ideal S3x128x7 .f32)) (rowS 128 0 (m ((c : Thread nD τ).loc main_arg13) : FVec Ideal S3x128 .f32)) (trS 128 128 0 (m ((c : Thread nD τ).loc main_arg14) : FVec Ideal S3x128x128 .f32)) (rowS 128 0 (m ((c : Thread nD τ).loc main_arg15) : FVec Ideal S3x128 .f32))
          (rowS 128 0 (m ((c : Thread nD τ).loc main_arg16) : FVec Ideal S3x128 .f32)) (rowS 128 0 (m ((c : Thread nD τ).loc main_arg17) : FVec Ideal S3x128 .f32)) (trS 128 128 0 (m ((c : Thread nD τ).loc main_arg18) : FVec Ideal S3x128x128 .f32)) (rowS 128 0 (m ((c : Thread nD τ).loc main_arg19) : FVec Ideal S3x128 .f32))
      ∧ y2 = layerFused slope slope2 eps cnt (fun x => takeK128 x (srcP (m ((c : Thread nD τ).loc main_arg1) : IVec S2x600000 32))) (scatK128 (dstP (m ((c : Thread nD τ).loc main_arg1) : IVec S2x600000 32)))
          y1 (m ((c : Thread nD τ).loc main_arg3) : FVec Ideal S600000x7 .f32)
          (trS 128 7 1 (m ((c : Thread nD τ).loc main_arg12) : FVec Ideal S3x128x7 .f32)) (rowS 128 1 (m ((c : Thread nD τ).loc main_arg13) : FVec Ideal S3x128 .f32)) (trS 128 128 1 (m ((c : Thread nD τ).loc main_arg14) : FVec Ideal S3x128x128 .f32)) (rowS 128 1 (m ((c : Thread nD τ).loc main_arg15) : FVec Ideal S3x128 .f32))
          (rowS 128 1 (m ((c : Thread nD τ).loc main_arg16) : FVec Ideal S3x128 .f32)) (rowS 128 1 (m ((c : Thread nD τ).loc main_arg17) : FVec Ideal S3x128 .f32)) (trS 128 128 1 (m ((c : Thread nD τ).loc main_arg18) : FVec Ideal S3x128x128 .f32)) (rowS 128 1 (m ((c : Thread nD τ).loc main_arg19) : FVec Ideal S3x128 .f32))
      ∧ y3 = layerFused slope slope2 eps cnt (fun x => takeK128 x (srcP (m ((c : Thread nD τ).loc main_arg1) : IVec S2x600000 32))) (scatK128 (dstP (m ((c : Thread nD τ).loc main_arg1) : IVec S2x600000 32)))
          y2 (m ((c : Thread nD τ).loc main_arg3) : FVec Ideal S600000x7 .f32)
          (trS 128 7 2 (m ((c : Thread nD τ).loc main_arg12) : FVec Ideal S3x128x7 .f32)) (rowS 128 2 (m ((c : Thread nD τ).loc main_arg13) : FVec Ideal S3x128 .f32)) (trS 128 128 2 (m ((c : Thread nD τ).loc main_arg14) : FVec Ideal S3x128x128 .f32)) (rowS 128 2 (m ((c : Thread nD τ).loc main_arg15) : FVec Ideal S3x128 .f32))
          (rowS 128 2 (m ((c : Thread nD τ).loc main_arg16) : FVec Ideal S3x128 .f32)) (rowS 128 2 (m ((c : Thread nD τ).loc main_arg17) : FVec Ideal S3x128 .f32)) (trS 128 128 2 (m ((c : Thread nD τ).loc main_arg18) : FVec Ideal S3x128x128 .f32)) (rowS 128 2 (m ((c : Thread nD τ).loc main_arg19) : FVec Ideal S3x128 .f32))
      ∧ (W30 m ρ c (Proc.devRef .tc main_v152) : Mat 64 1)
          = regHead slope (Cert.KernelIdeal.KTail.pooled y3 (m ((c : Thread nD τ).loc main_arg2) : IVec S100000 32))
              (tr 500 128 (m ((c : Thread nD τ).loc main_arg20) : FVec Ideal S500x128 .f32)) (row 500 (m ((c : Thread nD τ).loc main_arg21) : FVec Ideal S500 .f32)) (tr 1 500 (m ((c : Thread nD τ).loc main_arg22) : FVec Ideal S1x500 .f32)) (row 1 (m ((c : Thread nD τ).loc main_arg23) : FVec Ideal S1 .f32)) := by
  refine ⟨W7 m ρ c (Proc.devRef .tc main_v24), W14 m ρ c (Proc.devRef .tc main_v61), W21 m ρ c (Proc.devRef .tc main_v98),
    W28 m ρ c (Proc.devRef .tc main_v135), ?_, ?_, ?_, ?_, ?_⟩
  · exact Layer0.value m ρ c
  · have h := KLayer1.value m ρ c
    rw [Layer0.v1_val, Layer0.v3_val, Layer0.W7_main_arg3, Layer0.W7_arg m ρ c main_arg12 (by decide), Layer0.W7_arg m ρ c main_arg13 (by decide), Layer0.W7_arg m ρ c main_arg14 (by decide), Layer0.W7_arg m ρ c main_arg15 (by decide), Layer0.W7_arg m ρ c main_arg16 (by decide), Layer0.W7_arg m ρ c main_arg17 (by decide), Layer0.W7_arg m ρ c main_arg18 (by decide), Layer0.W7_arg m ρ c main_arg19 (by decide)] at h
    exact h
  · have h := KLayer2.value m ρ c
    rw [KLayer1.keep m ρ c main_v1 (by decide), KLayer1.keep m ρ c main_v3 (by decide), KLayer1.keep_arg3, KLayer1.keep m ρ c main_arg12 (by decide), KLayer1.keep m ρ c main_arg13 (by decide), KLayer1.keep m ρ c main_arg14 (by decide), KLayer1.keep m ρ c main_arg15 (by decide), KLayer1.keep m ρ c main_arg16 (by decide), KLayer1.keep m ρ c main_arg17 (by decide), KLayer1.keep m ρ c main_arg18 (by decide), KLayer1.keep m ρ c main_arg19 (by decide),
      Layer0.v1_val, Layer0.v3_val, Layer0.W7_main_arg3, Layer0.W7_arg m ρ c main_arg12 (by decide), Layer0.W7_arg m ρ c main_arg13 (by decide), Layer0.W7_arg m ρ c main_arg14 (by decide), Layer0.W7_arg m ρ c main_arg15 (by decide), Layer0.W7_arg m ρ c main_arg16 (by decide), Layer0.W7_arg m ρ c main_arg17 (by decide), Layer0.W7_arg m ρ c main_arg18 (by decide), Layer0.W7_arg m ρ c main_arg19 (by decide)] at h
    exact h
  · have h := KLayer3.value m ρ c
    rw [KLayer2.keep m ρ c main_v1 (by decide), KLayer2.keep m ρ c main_v3 (by decide), KLayer2.keep_arg3, KLayer2.keep m ρ c main_arg12 (by decide), KLayer2.keep m ρ c main_arg13 (by decide), KLayer2.keep m ρ c main_arg14 (by decide), KLayer2.keep m ρ c main_arg15 (by decide), KLayer2.keep m ρ c main_arg16 (by decide), KLayer2.keep m ρ c main_arg17 (by decide), KLayer2.keep m ρ c main_arg18 (by decide), KLayer2.keep m ρ c main_arg19 (by decide),
      KLayer1.keep m ρ c main_v1 (by decide), KLayer1.keep m ρ c main_v3 (by decide), KLayer1.keep_arg3, KLayer1.keep m ρ c main_arg12 (by decide), KLayer1.keep m ρ c main_arg13 (by decide), KLayer1.keep m ρ c main_arg14 (by decide), KLayer1.keep m ρ c main_arg15 (by decide), KLayer1.keep m ρ c main_arg16 (by decide), KLayer1.keep m ρ c main_arg17 (by decide), KLayer1.keep m ρ c main_arg18 (by decide), KLayer1.keep m ρ c main_arg19 (by decide),
      Layer0.v1_val, Layer0.v3_val, Layer0.W7_main_arg3, Layer0.W7_arg m ρ c main_arg12 (by decide), Layer0.W7_arg m ρ c main_arg13 (by decide), Layer0.W7_arg m ρ c main_arg14 (by decide), Layer0.W7_arg m ρ c main_arg15 (by decide), Layer0.W7_arg m ρ c main_arg16 (by decide), Layer0.W7_arg m ρ c main_arg17 (by decide), Layer0.W7_arg m ρ c main_arg18 (by decide), Layer0.W7_arg m ρ c main_arg19 (by decide)] at h
    exact h
  · have h := KTail.value m ρ c
    rw [KLayer3.keep m ρ c main_arg2 (by decide), KLayer2.keep m ρ c main_arg2 (by decide), KLayer1.keep m ρ c main_arg2 (by decide), Layer0.W7_arg m ρ c main_arg2 (by decide),
      KLayer3.keep m ρ c main_arg20 (by decide), KLayer2.keep m ρ c main_arg20 (by decide), KLayer1.keep m ρ c main_arg20 (by decide), Layer0.W7_arg m ρ c main_arg20 (by decide),
      KLayer3.keep m ρ c main_arg21 (by decide), KLayer2.keep m ρ c main_arg21 (by decide), KLayer1.keep m ρ c main_arg21 (by decide), Layer0.W7_arg m ρ c main_arg21 (by decide),
      KLayer3.keep m ρ c main_arg22 (by decide), KLayer2.keep m ρ c main_arg22 (by decide), KLayer1.keep m ρ c main_arg22 (by decide), Layer0.W7_arg m ρ c main_arg22 (by decide),
      KLayer3.keep m ρ c main_arg23 (by decide), KLayer2.keep m ρ c main_arg23 (by decide), KLayer1.keep m ρ c main_arg23 (by decide), Layer0.W7_arg m ρ c main_arg23 (by decide)] at h
    exact h

end Kernel

set_option backward.isDefEq.respectTransparency.types false in

theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (c : Dev Cert.ReferenceIdeal.nD) :
    StableHlo.after (Cert.ReferenceIdeal.RefOps.ops (F := Ideal)) (StableHlo.launchContents m' c) (Proc.devRef .tc Cert.ReferenceIdeal.main_v326)
      = Cert.KernelIdeal.Gen.W30 m ρ c (Proc.devRef .tc Cert.KernelIdeal.main_v152) := by
  obtain ⟨yK0, yK1, yK2, yK3, K0, K1, K2, K3, KT⟩ := kernel_side m ρ c
  obtain ⟨yR0, yR1, yR2, yR3, R0, R1, R2, R3, RT⟩ := ref_side (StableHlo.launchContents m' c)
  have hL : ∀ b : Ref Cert.ReferenceIdeal.sig .tc, StableHlo.launchContents m' c (Proc.devRef .tc b)
      = m' ((c.tc : Thread Cert.ReferenceIdeal.nD Cert.ReferenceIdeal.τ).loc b) := fun _ => rfl
  simp only [hL, hagree c] at R0 R1 R2 R3 RT

  obtain ⟨h0, h3, h4, h5, h6, h7, h8, h9, h10, h11, h12, h13, h14, h15, h16, h17, h18, h19, h20, h21, h22, h23, hrange⟩ :=
    Cert.PreFacts.decode _ _ _ _ _ _ _ _ _ _ _ _ _ _ _ _ _ _ _ _ _ _ _ _ (hpre c)
  exact (core _ (srcP (m ((c.tc : Thread Cert.KernelIdeal.nD Cert.KernelIdeal.τ).loc Cert.KernelIdeal.main_arg1)))
    (dstP (m ((c.tc : Thread Cert.KernelIdeal.nD Cert.KernelIdeal.τ).loc Cert.KernelIdeal.main_arg1)))
    _ _ _ _ _ _ _ _ _ _ _ _ _ _ _ _ _ _ _ _ _ (fun e => hrange e)
    h0 h3 h4 h5 h6 h7 h8 h9 h10 h11 h12 h13 h14 h15 h16 h17 h18 h19
    (fun y => Cert.KernelIdeal.KTail.pooled y (m ((c.tc : Thread Cert.KernelIdeal.nD Cert.KernelIdeal.τ).loc Cert.KernelIdeal.main_arg2)))
    yK0 yK1 yK2 yK3 yR0 yR1 yR2 yR3 _ _ K0 K1 K2 K3 KT R0 R1 R2 R3 RT).symm

end Cert.Final

end
-- ==== Proof.Claims.lean ====
import proofs.«425852_j85495618995090_1_alg».proof.Defs
import proofs.«425852_j85495618995090_1_alg».proof.Proof.Gen.Kernel.Frame
import proofs.«425852_j85495618995090_1_alg».proof.Proof.Gen.KernelIdeal.Frame
import proofs.«425852_j85495618995090_1_alg».proof.Proof.Gen.ReferenceIdeal
import proofs.«425852_j85495618995090_1_alg».proof.Proof.Gen.Pre_finite_inputs
import proofs.«425852_j85495618995090_1_alg».proof.Proof.KRun
import proofs.«425852_j85495618995090_1_alg».proof.Proof.RefRun
import proofs.«425852_j85495618995090_1_alg».proof.Proof.Consts
import proofs.«425852_j85495618995090_1_alg».proof.Proof.Final

noncomputable section

open Idealize.ShloMosaic Idealize.ShloMosaic.TcCoe Idealize.SL.Sem

namespace Cert.Proof.Claims

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run_result (F := Ideal) m ρ)

theorem preserves : Cert.preserves_Kernel_KernelIdeal := Cert.Consts.preserves

theorem algebraic : Cert.algebraic_KernelIdeal_ReferenceIdeal := by
  intro m ρ m' ρ' hpre hagree
  refine ⟨fun c => Cert.KernelIdeal.Gen.W30 m ρ c (Proc.devRef .tc Cert.KernelIdeal.main_v152),
    Cert.KernelIdeal.Gen.run_result (F := Ideal) m ρ, ?_⟩
  exact (θ_run Cert.ReferenceIdeal.defs _ _).mono
    (fun _ h c => ⟨(h c).1.trans (Cert.Final.result_eq m ρ m' hpre hagree c), (h c).2⟩)
    (Cert.ReferenceIdeal.RefRun.run_result (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof.Claims

end
-- ==== Proof.lean ====
import proofs.«425852_j85495618995090_1_alg».proof.Proof.Claims

noncomputable section

namespace Cert.Proof

theorem claim : Cert.Claim := Cert.Proof.Claims.claim

end Cert.Proof

end
